-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S100000x3 : Shape := ⟨2, ![100000, 3]⟩
abbrev S64x64 : Shape := ⟨2, ![64, 64]⟩
abbrev S16x64 : Shape := ⟨2, ![16, 64]⟩
abbrev S1 : Shape := ⟨1, ![1]⟩
abbrev S3x3 : Shape := ⟨2, ![3, 3]⟩
abbrev S3 : Shape := ⟨1, ![3]⟩
abbrev S3x64 : Shape := ⟨2, ![3, 64]⟩
abbrev S64 : Shape := ⟨1, ![64]⟩
abbrev S192x64 : Shape := ⟨2, ![192, 64]⟩
abbrev S64x1 : Shape := ⟨2, ![64, 1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S16x64 : S_.BroadcastsInDim S16x64 (![] : Fin 0 → Fin S16x64.rank)
  reducesTo_S16x64_S_d0_1 : S16x64.ReducesTo [0, 1] S_
  bcast_S_S1 : S_.BroadcastsInDim S1 (![] : Fin 0 → Fin S1.rank)
  reducesTo_S1_S_d0 : S1.ReducesTo [0] S_
  bcast_S_S3x3 : S_.BroadcastsInDim S3x3 (![] : Fin 0 → Fin S3x3.rank)
  reducesTo_S3x3_S_d0_1 : S3x3.ReducesTo [0, 1] S_
  bcast_S_S3 : S_.BroadcastsInDim S3 (![] : Fin 0 → Fin S3.rank)
  reducesTo_S3_S_d0 : S3.ReducesTo [0] S_
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S64x1 : S_.BroadcastsInDim S64x1 (![] : Fin 0 → Fin S64x1.rank)
  reducesTo_S64x1_S_d0_1 : S64x1.ReducesTo [0, 1] S_
  bcast_S_S100000 : S_.BroadcastsInDim S100000 (![] : Fin 0 → Fin S100000.rank)
  reducesTo_S100000_S_d0 : S100000.ReducesTo [0] S_

variable [Facts]

def fn_part7 {F : FTy → Type} [FloatOps F] (main_arg0 : IVec S100000 32) (main_arg1 : IVec S100000 32) (main_v117 : IVec S_ 1) (main_v118 : IVec S100000 32) : IVec S_ 1 :=
  let main_v119 : IVec S100000 1 := cmpi .slt main_arg0 main_v118
  let main_c_47 : IVec S_ 1 := constantI S_ 1 1#1
  let main_v120 : IVec S_ 1 := (fun x v => Host.reduce IntOp.andi x v reducesTo_S100000_S_d0 h_S_) main_v119 main_c_47
  let main_v121 : IVec S_ 1 := andi main_v117 main_v120
  let main_c_48 : IVec S_ 32 := constantI S_ 32 0#32
  let main_v122 : IVec S100000 32 := broadcastInDim S100000 ![] bcast_S_S100000 main_c_48
  let main_v123 : IVec S100000 1 := cmpi .sge main_arg1 main_v122
  let main_c_49 : IVec S_ 1 := constantI S_ 1 1#1
  let main_v124 : IVec S_ 1 := (fun x v => Host.reduce IntOp.andi x v reducesTo_S100000_S_d0 h_S_) main_v123 main_c_49
  let main_v125 : IVec S_ 1 := andi main_v121 main_v124
  let main_c_50 : IVec S_ 32 := constantI S_ 32 16#32
  let main_v126 : IVec S100000 32 := broadcastInDim S100000 ![] bcast_S_S100000 main_c_50
  let main_v127 : IVec S100000 1 := cmpi .slt main_arg1 main_v126
  let main_c_51 : IVec S_ 1 := constantI S_ 1 1#1
  let main_v128 : IVec S_ 1 := (fun x v => Host.reduce IntOp.andi x v reducesTo_S100000_S_d0 h_S_) main_v127 main_c_51
  let main_v129 : IVec S_ 1 := andi main_v125 main_v128
  main_v129

def fn_part6 {F : FTy → Type} [FloatOps F] (main_arg0 : IVec S100000 32) (main_arg1 : IVec S100000 32) (main_arg24 : FVec F S64x1 .f32) (main_arg25 : FVec F S1 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64x1 .f32 := Host.absf main_arg24
  let main_cst_40 : FVec F S_ .f32 := constant S_ .f32 0x7F800000#32
  let main_v105 : FVec F S64x1 .f32 := broadcastInDim S64x1 ![] bcast_S_S64x1 main_cst_40
  let main_v106 : IVec S64x1 1 := cmpf .olt main_v104 main_v105
  let main_c_41 : IVec S_ 1 := constantI S_ 1 1#1
  let main_v107 : IVec S_ 1 := (fun x v => Host.reduce IntOp.andi x v reducesTo_S64x1_S_d0_1 h_S_) main_v106 main_c_41
  let main_v108 : IVec S_ 1 := andi main_v103 main_v107
  let main_v109 : FVec F S1 .f32 := Host.absf main_arg25
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  let main_c_44 : IVec S_ 32 := constantI S_ 32 0#32
  let main_v114 : IVec S100000 32 := broadcastInDim S100000 ![] bcast_S_S100000 main_c_44
  let main_v115 : IVec S100000 1 := cmpi .sge main_arg0 main_v114
  let main_c_45 : IVec S_ 1 := constantI S_ 1 1#1
  let main_v116 : IVec S_ 1 := (fun x v => Host.reduce IntOp.andi x v reducesTo_S100000_S_d0 h_S_) main_v115 main_c_45
  let main_v117 : IVec S_ 1 := andi main_v113 main_v116
  let main_c_46 : IVec S_ 32 := constantI S_ 32 64#32
  let main_v118 : IVec S100000 32 := broadcastInDim S100000 ![] bcast_S_S100000 main_c_46
  fn_part7 (F := F) main_arg0 main_arg1 main_v117 main_v118

def fn_part5 {F : FTy → Type} [FloatOps F] (main_arg0 : IVec S100000 32) (main_arg1 : IVec S100000 32) (main_arg21 : FVec F S64 .f32) (main_arg22 : FVec F S64 .f32) (main_arg23 : FVec F S64 .f32) (main_arg24 : FVec F S64x1 .f32) (main_arg25 : FVec F S1 .f32) (main_v83 : IVec S_ 1) (main_v84 : FVec F S192x64 .f32) (main_cst_32 : FVec F S_ .f32) : IVec S_ 1 :=
  let main_v85 : FVec F S192x64 .f32 := broadcastInDim S192x64 ![] bcast_S_S192x64 main_cst_32
  let main_v86 : IVec S192x64 1 := cmpf .olt main_v84 main_v85
  let main_c_33 : IVec S_ 1 := constantI S_ 1 1#1
  let main_v87 : IVec S_ 1 := (fun x v => Host.reduce IntOp.andi x v reducesTo_S192x64_S_d0_1 h_S_) main_v86 main_c_33
  let main_v88 : IVec S_ 1 := andi main_v83 main_v87
  let main_v89 : FVec F S64 .f32 := Host.absf main_arg21
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg22
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg23
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg0 main_arg1 main_arg24 main_arg25 main_v98 main_v101 main_c_39

def fn_part4 {F : FTy → Type} [FloatOps F] (main_arg0 : IVec S100000 32) (main_arg1 : IVec S100000 32) (main_arg17 : FVec F S64 .f32) (main_arg18 : FVec F S64 .f32) (main_arg19 : FVec F S64 .f32) (main_arg20 : FVec F S192x64 .f32) (main_arg21 : FVec F S64 .f32) (main_arg22 : FVec F S64 .f32) (main_arg23 : FVec F S64 .f32) (main_arg24 : FVec F S64x1 .f32) (main_arg25 : FVec F S1 .f32) (main_v63 : IVec S_ 1) (main_v67 : IVec S_ 1) : IVec S_ 1 :=
  let main_v68 : IVec S_ 1 := andi main_v63 main_v67
  let main_v69 : FVec F S64 .f32 := Host.absf main_arg17
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg18
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg19
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S192x64 .f32 := Host.absf main_arg20
  let main_cst_32 : FVec F S_ .f32 := constant S_ .f32 0x7F800000#32
  fn_part5 (F := F) main_arg0 main_arg1 main_arg21 main_arg22 main_arg23 main_arg24 main_arg25 main_v83 main_v84 main_cst_32

def fn_part3 {F : FTy → Type} [FloatOps F] (main_arg0 : IVec S100000 32) (main_arg1 : IVec S100000 32) (main_arg14 : FVec F S64x64 .f32) (main_arg15 : FVec F S64 .f32) (main_arg16 : FVec F S64x64 .f32) (main_arg17 : FVec F S64 .f32) (main_arg18 : FVec F S64 .f32) (main_arg19 : FVec F S64 .f32) (main_arg20 : FVec F S192x64 .f32) (main_arg21 : FVec F S64 .f32) (main_arg22 : FVec F S64 .f32) (main_arg23 : FVec F S64 .f32) (main_arg24 : FVec F S64x1 .f32) (main_arg25 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S64x64 .f32 := Host.absf main_arg14
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg15
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg16
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg0 main_arg1 main_arg17 main_arg18 main_arg19 main_arg20 main_arg21 main_arg22 main_arg23 main_arg24 main_arg25 main_v63 main_v67

def fn_part2 {F : FTy → Type} [FloatOps F] (main_arg0 : IVec S100000 32) (main_arg1 : IVec S100000 32) (main_arg10 : FVec F S64 .f32) (main_arg11 : FVec F S64 .f32) (main_arg12 : FVec F S64 .f32) (main_arg13 : FVec F S1 .f32) (main_arg14 : FVec F S64x64 .f32) (main_arg15 : FVec F S64 .f32) (main_arg16 : FVec F S64x64 .f32) (main_arg17 : FVec F S64 .f32) (main_arg18 : FVec F S64 .f32) (main_arg19 : FVec F S64 .f32) (main_arg20 : FVec F S192x64 .f32) (main_arg21 : FVec F S64 .f32) (main_arg22 : FVec F S64 .f32) (main_arg23 : FVec F S64 .f32) (main_arg24 : FVec F S64x1 .f32) (main_arg25 : FVec F S1 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg12
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S1 .f32 := Host.absf main_arg13
  let main_cst_18 : FVec F S_ .f32 := constant S_ .f32 0x7F800000#32
  let main_v50 : FVec F S1 .f32 := broadcastInDim S1 ![] bcast_S_S1 main_cst_18
  fn_part3 (F := F) main_arg0 main_arg1 main_arg14 main_arg15 main_arg16 main_arg17 main_arg18 main_arg19 main_arg20 main_arg21 main_arg22 main_arg23 main_arg24 main_arg25 main_v48 main_v49 main_v50

def fn_part1 {F : FTy → Type} [FloatOps F] (main_arg0 : IVec S100000 32) (main_arg1 : IVec S100000 32) (main_arg7 : FVec F S3x3 .f32) (main_arg8 : FVec F S3 .f32) (main_arg9 : FVec F S3x64 .f32) (main_arg10 : FVec F S64 .f32) (main_arg11 : FVec F S64 .f32) (main_arg12 : FVec F S64 .f32) (main_arg13 : FVec F S1 .f32) (main_arg14 : FVec F S64x64 .f32) (main_arg15 : FVec F S64 .f32) (main_arg16 : FVec F S64x64 .f32) (main_arg17 : FVec F S64 .f32) (main_arg18 : FVec F S64 .f32) (main_arg19 : FVec F S64 .f32) (main_arg20 : FVec F S192x64 .f32) (main_arg21 : FVec F S64 .f32) (main_arg22 : FVec F S64 .f32) (main_arg23 : FVec F S64 .f32) (main_arg24 : FVec F S64x1 .f32) (main_arg25 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S3x3 .f32 := Host.absf main_arg7
  let main_cst_6 : FVec F S_ .f32 := constant S_ .f32 0x7F800000#32
  let main_v20 : FVec F S3x3 .f32 := broadcastInDim S3x3 ![] bcast_S_S3x3 main_cst_6
  let main_v21 : IVec S3x3 1 := cmpf .olt main_v19 main_v20
  let main_c_7 : IVec S_ 1 := constantI S_ 1 1#1
  let main_v22 : IVec S_ 1 := (fun x v => Host.reduce IntOp.andi x v reducesTo_S3x3_S_d0_1 h_S_) main_v21 main_c_7
  let main_v23 : IVec S_ 1 := andi main_v18 main_v22
  let main_v24 : FVec F S3 .f32 := Host.absf main_arg8
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  let main_v29 : FVec F S3x64 .f32 := Host.absf main_arg9
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg0 main_arg1 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : IVec S100000 32) (main_arg1 : IVec S100000 32) (main_arg2 : IVec S2x1600000 32) (main_arg3 : FVec F S100000x3 .f32) (main_arg4 : FVec F S64x64 .f32) (main_arg5 : FVec F S16x64 .f32) (main_arg6 : FVec F S1 .f32) (main_arg7 : FVec F S3x3 .f32) (main_arg8 : FVec F S3 .f32) (main_arg9 : FVec F S3x64 .f32) (main_arg10 : FVec F S64 .f32) (main_arg11 : FVec F S64 .f32) (main_arg12 : FVec F S64 .f32) (main_arg13 : FVec F S1 .f32) (main_arg14 : FVec F S64x64 .f32) (main_arg15 : FVec F S64 .f32) (main_arg16 : FVec F S64x64 .f32) (main_arg17 : FVec F S64 .f32) (main_arg18 : FVec F S64 .f32) (main_arg19 : FVec F S64 .f32) (main_arg20 : FVec F S192x64 .f32) (main_arg21 : FVec F S64 .f32) (main_arg22 : FVec F S64 .f32) (main_arg23 : FVec F S64 .f32) (main_arg24 : FVec F S64x1 .f32) (main_arg25 : FVec F S1 .f32) : IVec S_ 1 :=
  let main_v0 : FVec F S100000x3 .f32 := Host.absf main_arg3
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S16x64 .f32 := Host.absf main_arg5
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S1 .f32 := Host.absf main_arg6
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg0 main_arg1 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S100000 : Shape := ⟨1, ![100000]⟩
abbrev S2x1600000 : Shape := ⟨2, ![2, 1600000]⟩
abbrev S100000x3 : Shape := ⟨2, ![100000, 3]⟩
abbrev S64x64 : Shape := ⟨2, ![64, 64]⟩
abbrev S16x64 : Shape := ⟨2, ![16, 64]⟩
abbrev S1 : Shape := ⟨1, ![1]⟩
abbrev S3x3 : Shape := ⟨2, ![3, 3]⟩
abbrev S3 : Shape := ⟨1, ![3]⟩
abbrev S3x64 : Shape := ⟨2, ![3, 64]⟩
abbrev S64 : Shape := ⟨1, ![64]⟩
abbrev S192x64 : Shape := ⟨2, ![192, 64]⟩
abbrev S64x1 : Shape := ⟨2, ![64, 1]⟩
abbrev S1x1600000 : Shape := ⟨2, ![1, 1600000]⟩
abbrev S1600000 : Shape := ⟨1, ![1600000]⟩
abbrev S100000x1 : Shape := ⟨2, ![100000, 1]⟩
abbrev S100000x128 : Shape := ⟨2, ![100000, 128]⟩
abbrev S2000x1 : Shape := ⟨2, ![2000, 1]⟩
abbrev S2000x128 : Shape := ⟨2, ![2000, 128]⟩
abbrev S2000x64 : Shape := ⟨2, ![2000, 64]⟩
abbrev S2000x16 : Shape := ⟨2, ![2000, 16]⟩
abbrev S_ : Shape := ⟨0, ![]⟩
abbrev S1600000x1 : Shape := ⟨2, ![1600000, 1]⟩
abbrev S1600000x3 : Shape := ⟨2, ![1600000, 3]⟩
abbrev S1x3 : Shape := ⟨2, ![1, 3]⟩
abbrev S1x64 : Shape := ⟨2, ![1, 64]⟩
abbrev S100000x64 : Shape := ⟨2, ![100000, 64]⟩
abbrev S2x64 : Shape := ⟨2, ![2, 64]⟩
abbrev S5000x3 : Shape := ⟨2, ![5000, 3]⟩
abbrev S5000x64 : Shape := ⟨2, ![5000, 64]⟩
abbrev S1600000x64 : Shape := ⟨2, ![1600000, 64]⟩
abbrev S128x64 : Shape := ⟨2, ![128, 64]⟩
abbrev S5000x128 : Shape := ⟨2, ![5000, 128]⟩
abbrev S1x1 : Shape := ⟨2, ![1, 1]⟩
abbrev S5000x1 : Shape := ⟨2, ![5000, 1]⟩

abbrev nBuf : Space → Nat
  | .hbm => 137
  | .vmem => 68
  | .smem => 0
  | _ => 0

abbrev hbmTy0_0 (i : Nat) : BufTy := match i % 128 with
  | 0 => ⟨S100000, .i32⟩
  | 1 => ⟨S100000, .i32⟩
  | 2 => ⟨S2x1600000, .i32⟩
  | 3 => ⟨S100000x3, .f32⟩
  | 4 => ⟨S64x64, .f32⟩
  | 5 => ⟨S16x64, .f32⟩
  | 6 => ⟨S1, .f32⟩
  | 7 => ⟨S3x3, .f32⟩
  | 8 => ⟨S3, .f32⟩
  | 9 => ⟨S3x64, .f32⟩
  | 10 => ⟨S64, .f32⟩
  | 11 => ⟨S64, .f32⟩
  | 12 => ⟨S64, .f32⟩
  | 13 => ⟨S1, .f32⟩
  | 14 => ⟨S64x64, .f32⟩
  | 15 => ⟨S64, .f32⟩
  | 16 => ⟨S64x64, .f32⟩
  | 17 => ⟨S64, .f32⟩
  | 18 => ⟨S64, .f32⟩
  | 19 => ⟨S64, .f32⟩
  | 20 => ⟨S192x64, .f32⟩
  | 21 => ⟨S64, .f32⟩
  | 22 => ⟨S64, .f32⟩
  | 23 => ⟨S64, .f32⟩
  | 24 => ⟨S64x1, .f32⟩
  | 25 => ⟨S1, .f32⟩
  | 26 => ⟨S1x1600000, .i32⟩
  | 27 => ⟨S1600000, .i32⟩
  | 28 => ⟨S1x1600000, .i32⟩
  | 29 => ⟨S1600000, .i32⟩
  | 30 => ⟨S100000x1, .i32⟩
  | 31 => ⟨S100000x1, .i32⟩
  | 32 => ⟨S100000x128, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x3, .f32⟩
  | 42 => ⟨S_, .f32⟩
  | 43 => ⟨S100000x3, .f32⟩
  | 44 => ⟨S1600000x1, .i32⟩
  | 45 => ⟨S100000x3, .f32⟩
  | 46 => ⟨S_, .f32⟩
  | 47 => ⟨S_, .f32⟩
  | 48 => ⟨S_, .f32⟩
  | 49 => ⟨S100000x3, .f32⟩
  | 50 => ⟨S100000x3, .f32⟩
  | 51 => ⟨S100000x3, .f32⟩
  | 52 => ⟨S1x3, .f32⟩
  | 53 => ⟨S1x64, .f32⟩
  | 54 => ⟨S100000x64, .f32⟩
  | 55 => ⟨S2x64, .f32⟩
  | 56 => ⟨S1x64, .f32⟩
  | 57 => ⟨S64, .f32⟩
  | 58 => ⟨S_, .f32⟩
  | 59 => ⟨S64, .f32⟩
  | 60 => ⟨S64, .f32⟩
  | 61 => ⟨S1x64, .f32⟩
  | 62 => ⟨S64, .f32⟩
  | 63 => ⟨S_, .f32⟩
  | 64 => ⟨S64, .f32⟩
  | 65 => ⟨S64, .f32⟩
  | 66 => ⟨S64, .f32⟩
  | 67 => ⟨S64, .f32⟩
  | 68 => ⟨S1x64, .f32⟩
  | 69 => ⟨S1x64, .f32⟩
  | 70 => ⟨S1x64, .f32⟩
  | 71 => ⟨S1x64, .f32⟩
  | 72 => ⟨S100000x64, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x64, .f32⟩
  | 82 => ⟨S_, .f32⟩
  | 83 => ⟨S100000x64, .f32⟩
  | 84 => ⟨S1600000x1, .i32⟩
  | 85 => ⟨S100000x64, .f32⟩
  | 86 => ⟨S_, .f32⟩
  | 87 => ⟨S_, .f32⟩
  | 88 => ⟨S_, .f32⟩
  | 89 => ⟨S100000x64, .f32⟩
  | 90 => ⟨S100000x64, .f32⟩
  | 91 => ⟨S100000x64, .f32⟩
  | 92 => ⟨S1x64, .f32⟩
  | 93 => ⟨S1x64, .f32⟩
  | 94 => ⟨S100000x64, .f32⟩
  | 95 => ⟨S2x64, .f32⟩
  | 96 => ⟨S1x64, .f32⟩
  | 97 => ⟨S64, .f32⟩
  | 98 => ⟨S_, .f32⟩
  | 99 => ⟨S64, .f32⟩
  | 100 => ⟨S64, .f32⟩
  | 101 => ⟨S1x64, .f32⟩
  | 102 => ⟨S64, .f32⟩
  | 103 => ⟨S_, .f32⟩
  | 104 => ⟨S64, .f32⟩
  | 105 => ⟨S64, .f32⟩
  | 106 => ⟨S64, .f32⟩
  | 107 => ⟨S64, .f32⟩
  | 108 => ⟨S1x64, .f32⟩
  | 109 => ⟨S1x64, .f32⟩
  | 110 => ⟨S1x64, .f32⟩
  | 111 => ⟨S1x64, .f32⟩
  | 112 => ⟨S100000x64, .f32⟩
  | 113 => ⟨S128x64, .f32⟩
  | 114 => ⟨S64x64, .f32⟩
  | 115 => ⟨S1x64, .f32⟩
  | 116 => ⟨S100000x64, .f32⟩
  | 117 => ⟨S2x64, .f32⟩
  | 118 => ⟨S1x64, .f32⟩
  | 119 => ⟨S64, .f32⟩
  | 120 => ⟨S_, .f32⟩
  | 121 => ⟨S64, .f32⟩
  | 122 => ⟨S64, .f32⟩
  | 123 => ⟨S1x64, .f32⟩
  | 124 => ⟨S64, .f32⟩
  | 125 => ⟨S_, .f32⟩
  | 126 => ⟨S64, .f32⟩
  | 127 => ⟨S64, .f32⟩
  | _ => ⟨S100000, .i32⟩

abbrev hbmTy0_1 (i : Nat) : BufTy := match i % 128 with
  | 0 => ⟨S64, .f32⟩
  | 1 => ⟨S64, .f32⟩
  | 2 => ⟨S1x64, .f32⟩
  | 3 => ⟨S1x64, .f32⟩
  | 4 => ⟨S1x64, .f32⟩
  | 5 => ⟨S1x64, .f32⟩
  | 6 => ⟨S1x1, .f32⟩
  | 7 => ⟨S100000x1, .f32⟩
  | 8 => ⟨S100000, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S2000x1, .i32⟩
  | .local _ .vmem, ⟨1, _⟩ => ⟨S2000x1, .i32⟩
  | .local _ .vmem, ⟨2, _⟩ => ⟨S2000x1, .i32⟩
  | .local _ .vmem, ⟨3, _⟩ => ⟨S2000x1, .i32⟩
  | .local _ .vmem, ⟨4, _⟩ => ⟨S64x64, .f32⟩
  | .local _ .vmem, ⟨5, _⟩ => ⟨S16x64, .f32⟩
  | .local _ .vmem, ⟨6, _⟩ => ⟨S2000x128, .f32⟩
  | .local _ .vmem, ⟨7, _⟩ => ⟨S2000x128, .f32⟩
  | .local _ .vmem, ⟨8, _⟩ => ⟨S5000x3, .f32⟩
  | .local _ .vmem, ⟨9, _⟩ => ⟨S5000x3, .f32⟩
  | .local _ .vmem, ⟨10, _⟩ => ⟨S3x3, .f32⟩
  | .local _ .vmem, ⟨11, _⟩ => ⟨S1x3, .f32⟩
  | .local _ .vmem, ⟨12, _⟩ => ⟨S3x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S2x64, .f32⟩
  | .local _ .vmem, ⟨17, _⟩ => ⟨S1x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S64x64, .f32⟩
  | .local _ .vmem, ⟨30, _⟩ => ⟨S1x64, .f32⟩
  | .local _ .vmem, ⟨31, _⟩ => ⟨S64x64, .f32⟩
  | .local _ .vmem, ⟨32, _⟩ => ⟨S1x64, .f32⟩
  | .local _ .vmem, ⟨33, _⟩ => ⟨S5000x64, .f32⟩
  | .local _ .vmem, ⟨34, _⟩ => ⟨S5000x64, .f32⟩
  | .local _ .vmem, ⟨35, _⟩ => ⟨S2x64, .f32⟩
  | .local _ .vmem, ⟨36, _⟩ => ⟨S1x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S1x64, .f32⟩
  | .local _ .vmem, ⟨41, _⟩ => ⟨S1x64, .f32⟩
  | .local _ .vmem, ⟨42, _⟩ => ⟨S1x64, .f32⟩
  | .local _ .vmem, ⟨43, _⟩ => ⟨S1x64, .f32⟩
  | .local _ .vmem, ⟨44, _⟩ => ⟨S5000x64, .f32⟩
  | .local _ .vmem, ⟨45, _⟩ => ⟨S5000x64, .f32⟩
  | .local _ .vmem, ⟨46, _⟩ => ⟨S5000x128, .f32⟩
  | .local _ .vmem, ⟨47, _⟩ => ⟨S5000x128, .f32⟩
  | .local _ .vmem, ⟨48, _⟩ => ⟨S5000x64, .f32⟩
  | .local _ .vmem, ⟨49, _⟩ => ⟨S5000x64, .f32⟩
  | .local _ .vmem, ⟨50, _⟩ => ⟨S128x64, .f32⟩
  | .local _ .vmem, ⟨51, _⟩ => ⟨S64x64, .f32⟩
  | .local _ .vmem, ⟨52, _⟩ => ⟨S1x64, .f32⟩
  | .local _ .vmem, ⟨53, _⟩ => ⟨S5000x64, .f32⟩
  | .local _ .vmem, ⟨54, _⟩ => ⟨S5000x64, .f32⟩
  | .local _ .vmem, ⟨55, _⟩ => ⟨S2x64, .f32⟩
  | .local _ .vmem, ⟨56, _⟩ => ⟨S1x64, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | .local _ .vmem, ⟨60, _⟩ => ⟨S1x64, .f32⟩
  | .local _ .vmem, ⟨61, _⟩ => ⟨S1x64, .f32⟩
  | .local _ .vmem, ⟨62, _⟩ => ⟨S1x64, .f32⟩
  | .local _ .vmem, ⟨63, _⟩ => ⟨S1x64, .f32⟩
  | .local _ .vmem, ⟨64, _⟩ => ⟨S64x1, .f32⟩
  | .local _ .vmem, ⟨65, _⟩ => ⟨S1x1, .f32⟩
  | .local _ .vmem, ⟨66, _⟩ => ⟨S5000x1, .f32⟩
  | .local _ .vmem, ⟨67, _⟩ => ⟨S5000x1, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c : Ref sig .tc := ⟨.hbm, 33, rfl⟩
abbrev main_v7 : Ref sig .tc := ⟨.hbm, 34, rfl⟩
abbrev main_v8 : Ref sig .tc := ⟨.hbm, 35, rfl⟩
abbrev main_c_0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_1 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24_0 : Ref sig .tc := ⟨.hbm, 54, rfl⟩
abbrev main_v24_1 : Ref sig .tc := ⟨.hbm, 55, rfl⟩
abbrev main_v25 : Ref sig .tc := ⟨.hbm, 56, rfl⟩
abbrev main_v26 : Ref sig .tc := ⟨.hbm, 57, rfl⟩
abbrev main_cst_2 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_3 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_c_4 : Ref sig .tc := ⟨.hbm, 73, rfl⟩
abbrev main_v40 : Ref sig .tc := ⟨.hbm, 74, rfl⟩
abbrev main_v41 : Ref sig .tc := ⟨.hbm, 75, rfl⟩
abbrev main_c_5 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_6 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_7 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57_0 : Ref sig .tc := ⟨.hbm, 94, rfl⟩
abbrev main_v57_1 : Ref sig .tc := ⟨.hbm, 95, rfl⟩
abbrev main_v58 : Ref sig .tc := ⟨.hbm, 96, rfl⟩
abbrev main_v59 : Ref sig .tc := ⟨.hbm, 97, rfl⟩
abbrev main_cst_8 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_9 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76_0 : Ref sig .tc := ⟨.hbm, 116, rfl⟩
abbrev main_v76_1 : Ref sig .tc := ⟨.hbm, 117, rfl⟩
abbrev main_v77 : Ref sig .tc := ⟨.hbm, 118, rfl⟩
abbrev main_v78 : Ref sig .tc := ⟨.hbm, 119, rfl⟩
abbrev main_cst_10 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_11 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_scratch0 : Ref sig .tc := ⟨.vmem, 17, rfl⟩
abbrev cc1_scratch1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc3_stg6_0 : Ref sig .tc := ⟨.vmem, 35, rfl⟩
abbrev cc3_scratch0 : Ref sig .tc := ⟨.vmem, 36, rfl⟩
abbrev cc3_scratch1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg5_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg5_1 : Ref sig .tc := ⟨.vmem, 54, rfl⟩
abbrev cc5_stg6_0 : Ref sig .tc := ⟨.vmem, 55, rfl⟩
abbrev cc5_scratch0 : Ref sig .tc := ⟨.vmem, 56, rfl⟩
abbrev cc5_scratch1 : Ref sig .tc := ⟨.vmem, 57, rfl⟩
abbrev cc6_stg0_0 : Ref sig .tc := ⟨.vmem, 58, rfl⟩
abbrev cc6_stg0_1 : Ref sig .tc := ⟨.vmem, 59, rfl⟩
abbrev cc6_stg1_0 : Ref sig .tc := ⟨.vmem, 60, rfl⟩
abbrev cc6_stg2_0 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg5_0 : Ref sig .tc := ⟨.vmem, 64, rfl⟩
abbrev cc6_stg6_0 : Ref sig .tc := ⟨.vmem, 65, rfl⟩
abbrev cc6_stg7_0 : Ref sig .tc := ⟨.vmem, 66, rfl⟩
abbrev cc6_stg7_1 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc3_sem6_0 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem5_1 : DmaSem sig := 50
abbrev cc5_sem6_0 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem4_0 : DmaSem sig := 57
abbrev cc6_sem5_0 : DmaSem sig := 58
abbrev cc6_sem6_0 : DmaSem sig := 59
abbrev cc6_sem7_0 : DmaSem sig := 60
abbrev cc6_sem7_1 : DmaSem sig := 61

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v42 : BitVec 1 := Scalar.cmpi .eq arg0 c19_i32
  let v43 : BitVec 32 := Scalar.extui v42
  let c0_i32_25 : BitVec 32 := 0#32
  let v44 : BitVec 1 := Scalar.cmpi .ne v43 c0_i32_25
  v44

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S2x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v42 : BitVec 1 := Scalar.cmpi .eq arg0 c19_i32
  let v43 : BitVec 32 := Scalar.extui v42
  let c0_i32_25 : BitVec 32 := 0#32
  let v44 : BitVec 1 := Scalar.cmpi .ne v43 c0_i32_25
  v44

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S2x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def k5_cond2 (i : grid5.Coords) : BitVec 1 :=
  let arg0 : BitVec 32 := BitVec.ofNat 32 (i 0).val
  let c19_i32 : BitVec 32 := 19#32
  let v38 : BitVec 1 := Scalar.cmpi .eq arg0 c19_i32
  let v39 : BitVec 32 := Scalar.extui v38
  let c0_i32_23 : BitVec 32 := 0#32
  let v40 : BitVec 1 := Scalar.cmpi .ne v39 c0_i32_23
  v40

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S2x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x1 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  iota_S2000x64_d1_w32 : S2000x64.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  natLt_1_32 : 1 < 32
  bitsLt_bf16_f32 : FTy.bits .bf16 < FTy.bits .f32
  iota_S2000x16_d1_w32 : S2000x16.Iotas .tc 32 [1]
  broadcasts_S2000x1_S2000x16 : S2000x1.Broadcasts S2000x16
  inb_S64x64_S64x64_0_0 : ∀ a, (![0, 0] : Fin 2 → Nat) a + S64x64.size a ≤ S64x64.size a
  h_S64x64 : 0 < S64x64.numel
  inb_S16x64_S16x64_0_0 : ∀ a, (![0, 0] : Fin 2 → Nat) a + S16x64.size a ≤ S16x64.size a
  h_S16x64 : 0 < S16x64.numel
  concatenates_S2000x64_S2000x64_S2000x128_d1 : Shape.Concatenates [S2000x64, S2000x64] S2000x128 1
  inb_S2000x128_S2000x128_0_0 : ∀ a, (![0, 0] : Fin 2 → Nat) a + S2000x128.size a ≤ S2000x128.size a
  h_S2000x128 : 0 < S2000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x3 : S_.BroadcastsInDim S100000x3 (![] : Fin 0 → Fin S100000x3.rank)
  shapeCasts_S1_S_ : S1.ShapeCasts S_
  shapeCasts_S3_S1x3 : S3.ShapeCasts S1x3
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  inb_S3x3_S3x3_0_0 : ∀ a, (![0, 0] : Fin 2 → Nat) a + S3x3.size a ≤ S3x3.size a
  h_S3x3 : 0 < S3x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S3x64_S3x64_0_0 : ∀ a, (![0, 0] : Fin 2 → Nat) a + S3x64.size a ≤ S3x64.size a
  h_S3x64 : 0 < S3x64.numel
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reduces_S5000x64_S64 : S5000x64.Reduces [0] S64
  shapeCasts_S1x64_S64 : S1x64.ShapeCasts S64
  inb_S2x64_S1x64_0_0 : ∀ a, (![0, 0] : Fin 2 → Nat) a + S1x64.size a ≤ S2x64.size a
  inb_S2x64_S1x64_1_0 : ∀ a, (![1, 0] : Fin 2 → Nat) a + S1x64.size a ≤ S2x64.size a
  slices_S2x64_S1x64_0_0 : S2x64.Slices ![0, 0] S1x64
  bcast_S_S64 : S_.BroadcastsInDim S64 (![] : Fin 0 → Fin S64.rank)
  slices_S2x64_S1x64_1_0 : S2x64.Slices ![1, 0] S1x64
  shapeCasts_S5000x64_S5000x64 : S5000x64.ShapeCasts S5000x64
  bcast_S_S100000x64 : S_.BroadcastsInDim S100000x64 (![] : Fin 0 → Fin S100000x64.rank)
  slices_S192x64_S128x64_0_0 : S192x64.Slices ![0, 0] S128x64
  slices_S192x64_S64x64_128_0 : S192x64.Slices ![128, 0] S64x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S64x64_S64x64 : S64x64.ShapeCasts S64x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  dot_S2000x64_S64x64_S2000x64_1_0_0_1_n_n_wf : DotDims.WF S2000x64 S64x64 S2000x64 [1] [0] [0] [1] [] []
  dot_S2000x16_S16x64_S2000x64_1_0_0_1_n_n_wf : DotDims.WF S2000x16 S16x64 S2000x64 [1] [0] [0] [1] [] []
  gather_S100000x3_S1600000x1_S1600000x3_1_0_n_n_0_1_13_wf : GatherDims.WF S100000x3 S1600000x1 S1600000x3 [1] [0] [] [0] [] 1 ![1, 3]
  scatter_S100000x3_S1600000x1_S1600000x3_1_0_0_1_wf : ScatterDims.WF S100000x3 S1600000x1 S1600000x3 [1] [0] [0] 1
  dot_S5000x3_S3x3_S5000x3_1_0_0_1_n_n_wf : DotDims.WF S5000x3 S3x3 S5000x3 [1] [0] [0] [1] [] []
  dot_S5000x3_S3x64_S5000x64_1_0_0_1_n_n_wf : DotDims.WF S5000x3 S3x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S100000x1.size a
  hwx0_0 : ∀ i : grid0.Coords, EltTy.bits .i32 = 32 ∨ (Rect.block (s := S100000x1) S2000x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .i32 = 32 ∨ (Rect.block (s := S100000x1) S2000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x3.size a ≤ S100000x3.size a
  hwx1_0 : ∀ i : grid1.Coords, EltTy.bits .f32 = 32 ∨ (Rect.block (s := S100000x3) S5000x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x3.size a ≤ S3x3.size a
  hwx1_1 : ∀ i : grid1.Coords, EltTy.bits .f32 = 32 ∨ (Rect.block (s := S3x3) S3x3.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x3.size a ≤ S1x3.size a
  hwx1_2 : ∀ i : grid1.Coords, EltTy.bits .f32 = 32 ∨ (Rect.block (s := S1x3) S1x3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x64.size a ≤ S3x64.size a
  hwx1_3 : ∀ i : grid1.Coords, EltTy.bits .f32 = 32 ∨ (Rect.block (s := S3x64) S3x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2x64.size a ≤ S2x64.size a
  hwx1_6 : ∀ i : grid1.Coords, EltTy.bits .f32 = 32 ∨ (Rect.block (s := S2x64) S2x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S2x64.size a ≤ S2x64.size a
  hwx3_6 : ∀ i : grid3.Coords, EltTy.bits .f32 = 32 ∨ (Rect.block (s := S2x64) S2x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x64.size a ≤ S128x64.size a
  hwx5_2 : ∀ i : grid5.Coords, EltTy.bits .f32 = 32 ∨ (Rect.block (s := S128x64) S128x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .f32 = 32 ∨ (Rect.block (s := S100000x64) S5000x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S2x64.size a ≤ S2x64.size a
  hwx5_6 : ∀ i : grid5.Coords, EltTy.bits .f32 = 32 ∨ (Rect.block (s := S2x64) S2x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x1.size a ≤ S64x1.size a
  hwx6_5 : ∀ i : grid6.Coords, EltTy.bits .f32 = 32 ∨ (Rect.block (s := S64x1) S64x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x1.size a ≤ S100000x1.size a
  hwx6_7 : ∀ i : grid6.Coords, EltTy.bits .f32 = 32 ∨ (Rect.block (s := S100000x1) S5000x1.size (cc6_transform_7 i) (hinb6_7 i)).WholeWords (EltTy.packing .f32)

variable [Facts₀]

def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x16_S16x64_S2000x64_1_0_0_1_n_n : DotDims S2000x16 S16x64 S2000x64 where
  lhsContracting := [1]
  rhsContracting := [0]
  lhsNonContracting := [0]
  rhsNonContracting := [1]
  lhsBatch := []
  rhsBatch := []
  wf := dot_S2000x16_S16x64_S2000x64_1_0_0_1_n_n_wf
def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf
def dot_S5000x3_S3x3_S5000x3_1_0_0_1_n_n : DotDims S5000x3 S3x3 S5000x3 where
  lhsContracting := [1]
  rhsContracting := [0]
  lhsNonContracting := [0]
  rhsNonContracting := [1]
  lhsBatch := []
  rhsBatch := []
  wf := dot_S5000x3_S3x3_S5000x3_1_0_0_1_n_n_wf
def dot_S5000x3_S3x64_S5000x64_1_0_0_1_n_n : DotDims S5000x3 S3x64 S5000x64 where
  lhsContracting := [1]
  rhsContracting := [0]
  lhsNonContracting := [0]
  rhsNonContracting := [1]
  lhsBatch := []
  rhsBatch := []
  wf := dot_S5000x3_S3x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v4) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v21) S5000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S3x3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x3.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S3x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24_0) S5000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v24_1) S2x64.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v24_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v54) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg14) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg16) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57_0) S5000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v57_1) S2x64.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

abbrev win4_0 : Pipeline.Window sig grid4 :=
  Pipeline.Window.ofSpec (Memref.whole main_v57_0) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v70) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v71) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v72) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v6) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v73) S128x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v74) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v75) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v76_0) S5000x64.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v76_1) S2x64.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev idle5 : Fin 7 → grid5.Coords → Bool := fun | 0 => fun _ => false | 1 => fun _ => false | 2 => fun _ => false | 3 => fun _ => false | 4 => fun _ => false | 5 => fun _ => false | 6 => fun i => !(k5_cond2 i == 1#1) | ⟨_ + 7, h⟩ => absurd h (Nat.not_lt.2 (Nat.le_add_left _ _))

abbrev win6_0 : Pipeline.Window sig grid6 :=
  Pipeline.Window.ofSpec (Memref.whole main_v76_0) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v87) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v88) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v89) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v90) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg24) S64x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v91) S1x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v92) S5000x1.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S100000 : Shape := ⟨1, ![100000]⟩
abbrev S2x1600000 : Shape := ⟨2, ![2, 1600000]⟩
abbrev S100000x3 : Shape := ⟨2, ![100000, 3]⟩
abbrev S64x64 : Shape := ⟨2, ![64, 64]⟩
abbrev S16x64 : Shape := ⟨2, ![16, 64]⟩
abbrev S1 : Shape := ⟨1, ![1]⟩
abbrev S3x3 : Shape := ⟨2, ![3, 3]⟩
abbrev S3 : Shape := ⟨1, ![3]⟩
abbrev S3x64 : Shape := ⟨2, ![3, 64]⟩
abbrev S64 : Shape := ⟨1, ![64]⟩
abbrev S192x64 : Shape := ⟨2, ![192, 64]⟩
abbrev S64x1 : Shape := ⟨2, ![64, 1]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x64 : Shape := ⟨2, ![100000, 64]⟩
abbrev S100000x128 : Shape := ⟨2, ![100000, 128]⟩
abbrev S1600000x1 : Shape := ⟨2, ![1600000, 1]⟩
abbrev S1600000x3 : Shape := ⟨2, ![1600000, 3]⟩
abbrev S1x1 : Shape := ⟨2, ![1, 1]⟩
abbrev S1x3 : Shape := ⟨2, ![1, 3]⟩
abbrev S1x64 : Shape := ⟨2, ![1, 64]⟩
abbrev S1600000x64 : Shape := ⟨2, ![1600000, 64]⟩
abbrev S100000x192 : Shape := ⟨2, ![100000, 192]⟩

abbrev nBuf : Space → Nat
  | .hbm => 295
  | .vmem => 0
  | .smem => 0
  | _ => 0

abbrev hbmTy0_0 (i : Nat) : BufTy := match i % 128 with
  | 0 => ⟨S100000, .i32⟩
  | 1 => ⟨S100000, .i32⟩
  | 2 => ⟨S2x1600000, .i32⟩
  | 3 => ⟨S100000x3, .f32⟩
  | 4 => ⟨S64x64, .f32⟩
  | 5 => ⟨S16x64, .f32⟩
  | 6 => ⟨S1, .f32⟩
  | 7 => ⟨S3x3, .f32⟩
  | 8 => ⟨S3, .f32⟩
  | 9 => ⟨S3x64, .f32⟩
  | 10 => ⟨S64, .f32⟩
  | 11 => ⟨S64, .f32⟩
  | 12 => ⟨S64, .f32⟩
  | 13 => ⟨S1, .f32⟩
  | 14 => ⟨S64x64, .f32⟩
  | 15 => ⟨S64, .f32⟩
  | 16 => ⟨S64x64, .f32⟩
  | 17 => ⟨S64, .f32⟩
  | 18 => ⟨S64, .f32⟩
  | 19 => ⟨S64, .f32⟩
  | 20 => ⟨S192x64, .f32⟩
  | 21 => ⟨S64, .f32⟩
  | 22 => ⟨S64, .f32⟩
  | 23 => ⟨S64, .f32⟩
  | 24 => ⟨S64x1, .f32⟩
  | 25 => ⟨S1, .f32⟩
  | 26 => ⟨S1x1600000, .i32⟩
  | 27 => ⟨S1600000, .i32⟩
  | 28 => ⟨S1x1600000, .i32⟩
  | 29 => ⟨S1600000, .i32⟩
  | 30 => ⟨S_, .i32⟩
  | 31 => ⟨S100000, .i32⟩
  | 32 => ⟨S100000, .i1⟩
  | 33 => ⟨S_, .i32⟩
  | 34 => ⟨S100000, .i32⟩
  | 35 => ⟨S100000, .i32⟩
  | 36 => ⟨S100000, .i32⟩
  | 37 => ⟨S100000x1, .i32⟩
  | 38 => ⟨S100000x64, .f32⟩
  | 39 => ⟨S_, .i32⟩
  | 40 => ⟨S100000, .i32⟩
  | 41 => ⟨S100000, .i1⟩
  | 42 => ⟨S_, .i32⟩
  | 43 => ⟨S100000, .i32⟩
  | 44 => ⟨S100000, .i32⟩
  | 45 => ⟨S100000, .i32⟩
  | 46 => ⟨S100000x1, .i32⟩
  | 47 => ⟨S100000x64, .f32⟩
  | 48 => ⟨S100000x128, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x3, .f32⟩
  | 58 => ⟨S_, .f32⟩
  | 59 => ⟨S100000x3, .f32⟩
  | 60 => ⟨S1600000x1, .i32⟩
  | 61 => ⟨S100000x3, .f32⟩
  | 62 => ⟨S_, .f32⟩
  | 63 => ⟨S1, .f32⟩
  | 64 => ⟨S1, .f32⟩
  | 65 => ⟨S1x1, .f32⟩
  | 66 => ⟨S100000x3, .f32⟩
  | 67 => ⟨S100000x3, .f32⟩
  | 68 => ⟨S100000x3, .f32⟩
  | 69 => ⟨S100000x3, .f32⟩
  | 70 => ⟨S1x3, .f32⟩
  | 71 => ⟨S100000x3, .f32⟩
  | 72 => ⟨S100000x3, .f32⟩
  | 73 => ⟨S_, .f32⟩
  | 74 => ⟨S_, .f32⟩
  | 75 => ⟨S100000x3, .f32⟩
  | 76 => ⟨S100000x3, .i1⟩
  | 77 => ⟨S_, .f32⟩
  | 78 => ⟨S100000x3, .f32⟩
  | 79 => ⟨S100000x3, .f32⟩
  | 80 => ⟨S100000x3, .f32⟩
  | 81 => ⟨S100000x64, .f32⟩
  | 82 => ⟨S1x64, .f32⟩
  | 83 => ⟨S100000x64, .f32⟩
  | 84 => ⟨S100000x64, .f32⟩
  | 85 => ⟨S_, .f32⟩
  | 86 => ⟨S64, .f32⟩
  | 87 => ⟨S_, .f32⟩
  | 88 => ⟨S64, .f32⟩
  | 89 => ⟨S64, .f32⟩
  | 90 => ⟨S_, .i32⟩
  | 91 => ⟨S_, .f32⟩
  | 92 => ⟨S64, .f32⟩
  | 93 => ⟨S1x64, .f32⟩
  | 94 => ⟨S_, .f32⟩
  | 95 => ⟨S1x64, .f32⟩
  | 96 => ⟨S1x64, .f32⟩
  | 97 => ⟨S100000x64, .f32⟩
  | 98 => ⟨S100000x64, .f32⟩
  | 99 => ⟨S100000x64, .f32⟩
  | 100 => ⟨S_, .f32⟩
  | 101 => ⟨S_, .f32⟩
  | 102 => ⟨S_, .f32⟩
  | 103 => ⟨S_, .f32⟩
  | 104 => ⟨S64, .f32⟩
  | 105 => ⟨S64, .f32⟩
  | 106 => ⟨S64, .f32⟩
  | 107 => ⟨S_, .f32⟩
  | 108 => ⟨S_, .i1⟩
  | 109 => ⟨S_, .f32⟩
  | 110 => ⟨S_, .f32⟩
  | 111 => ⟨S64, .f32⟩
  | 112 => ⟨S64, .f32⟩
  | 113 => ⟨S1x64, .f32⟩
  | 114 => ⟨S100000x64, .f32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S64, .f32⟩
  | 121 => ⟨S64, .f32⟩
  | 122 => ⟨S64, .f32⟩
  | 123 => ⟨S1x64, .f32⟩
  | 124 => ⟨S100000x64, .f32⟩
  | 125 => ⟨S100000x64, .f32⟩
  | 126 => ⟨S1x64, .f32⟩
  | 127 => ⟨S100000x64, .f32⟩
  | _ => ⟨S100000, .i32⟩

abbrev hbmTy0_1 (i : Nat) : BufTy := match i % 128 with
  | 0 => ⟨S100000x64, .f32⟩
  | 1 => ⟨S_, .f32⟩
  | 2 => ⟨S_, .f32⟩
  | 3 => ⟨S100000x64, .f32⟩
  | 4 => ⟨S100000x64, .i1⟩
  | 5 => ⟨S_, .f32⟩
  | 6 => ⟨S100000x64, .f32⟩
  | 7 => ⟨S100000x64, .f32⟩
  | 8 => ⟨S100000x64, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x64, .f32⟩
  | 18 => ⟨S_, .f32⟩
  | 19 => ⟨S100000x64, .f32⟩
  | 20 => ⟨S1600000x1, .i32⟩
  | 21 => ⟨S100000x64, .f32⟩
  | 22 => ⟨S_, .f32⟩
  | 23 => ⟨S1, .f32⟩
  | 24 => ⟨S1, .f32⟩
  | 25 => ⟨S1x1, .f32⟩
  | 26 => ⟨S100000x64, .f32⟩
  | 27 => ⟨S100000x64, .f32⟩
  | 28 => ⟨S100000x64, .f32⟩
  | 29 => ⟨S100000x64, .f32⟩
  | 30 => ⟨S1x64, .f32⟩
  | 31 => ⟨S100000x64, .f32⟩
  | 32 => ⟨S100000x64, .f32⟩
  | 33 => ⟨S_, .f32⟩
  | 34 => ⟨S_, .f32⟩
  | 35 => ⟨S100000x64, .f32⟩
  | 36 => ⟨S100000x64, .i1⟩
  | 37 => ⟨S_, .f32⟩
  | 38 => ⟨S100000x64, .f32⟩
  | 39 => ⟨S100000x64, .f32⟩
  | 40 => ⟨S100000x64, .f32⟩
  | 41 => ⟨S100000x64, .f32⟩
  | 42 => ⟨S1x64, .f32⟩
  | 43 => ⟨S100000x64, .f32⟩
  | 44 => ⟨S100000x64, .f32⟩
  | 45 => ⟨S_, .f32⟩
  | 46 => ⟨S64, .f32⟩
  | 47 => ⟨S_, .f32⟩
  | 48 => ⟨S64, .f32⟩
  | 49 => ⟨S64, .f32⟩
  | 50 => ⟨S_, .i32⟩
  | 51 => ⟨S_, .f32⟩
  | 52 => ⟨S64, .f32⟩
  | 53 => ⟨S1x64, .f32⟩
  | 54 => ⟨S_, .f32⟩
  | 55 => ⟨S1x64, .f32⟩
  | 56 => ⟨S1x64, .f32⟩
  | 57 => ⟨S100000x64, .f32⟩
  | 58 => ⟨S100000x64, .f32⟩
  | 59 => ⟨S100000x64, .f32⟩
  | 60 => ⟨S_, .f32⟩
  | 61 => ⟨S_, .f32⟩
  | 62 => ⟨S_, .f32⟩
  | 63 => ⟨S_, .f32⟩
  | 64 => ⟨S64, .f32⟩
  | 65 => ⟨S64, .f32⟩
  | 66 => ⟨S64, .f32⟩
  | 67 => ⟨S_, .f32⟩
  | 68 => ⟨S_, .i1⟩
  | 69 => ⟨S_, .f32⟩
  | 70 => ⟨S_, .f32⟩
  | 71 => ⟨S64, .f32⟩
  | 72 => ⟨S64, .f32⟩
  | 73 => ⟨S1x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S64, .f32⟩
  | 81 => ⟨S64, .f32⟩
  | 82 => ⟨S64, .f32⟩
  | 83 => ⟨S1x64, .f32⟩
  | 84 => ⟨S100000x64, .f32⟩
  | 85 => ⟨S100000x64, .f32⟩
  | 86 => ⟨S1x64, .f32⟩
  | 87 => ⟨S100000x64, .f32⟩
  | 88 => ⟨S100000x64, .f32⟩
  | 89 => ⟨S_, .f32⟩
  | 90 => ⟨S_, .f32⟩
  | 91 => ⟨S100000x64, .f32⟩
  | 92 => ⟨S100000x64, .i1⟩
  | 93 => ⟨S_, .f32⟩
  | 94 => ⟨S100000x64, .f32⟩
  | 95 => ⟨S100000x64, .f32⟩
  | 96 => ⟨S100000x64, .f32⟩
  | 97 => ⟨S100000x192, .f32⟩
  | 98 => ⟨S100000x64, .f32⟩
  | 99 => ⟨S1x64, .f32⟩
  | 100 => ⟨S100000x64, .f32⟩
  | 101 => ⟨S100000x64, .f32⟩
  | 102 => ⟨S_, .f32⟩
  | 103 => ⟨S64, .f32⟩
  | 104 => ⟨S_, .f32⟩
  | 105 => ⟨S64, .f32⟩
  | 106 => ⟨S64, .f32⟩
  | 107 => ⟨S_, .i32⟩
  | 108 => ⟨S_, .f32⟩
  | 109 => ⟨S64, .f32⟩
  | 110 => ⟨S1x64, .f32⟩
  | 111 => ⟨S_, .f32⟩
  | 112 => ⟨S1x64, .f32⟩
  | 113 => ⟨S1x64, .f32⟩
  | 114 => ⟨S100000x64, .f32⟩
  | 115 => ⟨S100000x64, .f32⟩
  | 116 => ⟨S100000x64, .f32⟩
  | 117 => ⟨S_, .f32⟩
  | 118 => ⟨S_, .f32⟩
  | 119 => ⟨S_, .f32⟩
  | 120 => ⟨S_, .f32⟩
  | 121 => ⟨S64, .f32⟩
  | 122 => ⟨S64, .f32⟩
  | 123 => ⟨S64, .f32⟩
  | 124 => ⟨S_, .f32⟩
  | 125 => ⟨S_, .i1⟩
  | 126 => ⟨S_, .f32⟩
  | 127 => ⟨S_, .f32⟩
  | _ => ⟨S100000, .i32⟩

abbrev hbmTy0_2 (i : Nat) : BufTy := match i % 128 with
  | 0 => ⟨S64, .f32⟩
  | 1 => ⟨S64, .f32⟩
  | 2 => ⟨S1x64, .f32⟩
  | 3 => ⟨S100000x64, .f32⟩
  | 4 => ⟨S100000x64, .f32⟩
  | 5 => ⟨S1x64, .f32⟩
  | 6 => ⟨S100000x64, .f32⟩
  | 7 => ⟨S100000x64, .f32⟩
  | 8 => ⟨S_, .f32⟩
  | 9 => ⟨S64, .f32⟩
  | 10 => ⟨S64, .f32⟩
  | 11 => ⟨S64, .f32⟩
  | 12 => ⟨S1x64, .f32⟩
  | 13 => ⟨S100000x64, .f32⟩
  | 14 => ⟨S100000x64, .f32⟩
  | 15 => ⟨S1x64, .f32⟩
  | 16 => ⟨S100000x64, .f32⟩
  | 17 => ⟨S100000x64, .f32⟩
  | 18 => ⟨S_, .f32⟩
  | 19 => ⟨S_, .f32⟩
  | 20 => ⟨S100000x64, .f32⟩
  | 21 => ⟨S100000x64, .i1⟩
  | 22 => ⟨S_, .f32⟩
  | 23 => ⟨S100000x64, .f32⟩
  | 24 => ⟨S100000x64, .f32⟩
  | 25 => ⟨S100000x64, .f32⟩
  | 26 => ⟨S100000x1, .f32⟩
  | 27 => ⟨S1x1, .f32⟩
  | 28 => ⟨S100000x1, .f32⟩
  | 29 => ⟨S100000x1, .f32⟩
  | 30 => ⟨S100000x1, .f32⟩
  | 31 => ⟨S100000x1, .f32⟩
  | 32 => ⟨S_, .f32⟩
  | 33 => ⟨S100000x1, .f32⟩
  | 34 => ⟨S100000x1, .f32⟩
  | 35 => ⟨S_, .f32⟩
  | 36 => ⟨S100000x1, .f32⟩
  | 37 => ⟨S100000x1, .f32⟩
  | 38 => ⟨S100000, .f32⟩
  | _ => ⟨S100000, .i32⟩

abbrev hbmTy (i : Nat) : BufTy := match i / 128 with
  | 0 => hbmTy0_0 i
  | 1 => hbmTy0_1 i
  | 2 => hbmTy0_2 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c_1 : Ref sig .tc := ⟨.hbm, 39, rfl⟩
abbrev main_v11 : Ref sig .tc := ⟨.hbm, 40, rfl⟩
abbrev main_v12 : Ref sig .tc := ⟨.hbm, 41, rfl⟩
abbrev main_c_2 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_c_3 : Ref sig .tc := ⟨.hbm, 49, rfl⟩
abbrev main_v19 : Ref sig .tc := ⟨.hbm, 50, rfl⟩
abbrev main_v20 : Ref sig .tc := ⟨.hbm, 51, rfl⟩
abbrev main_c_4 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_cst : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_5 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_6 : Ref sig .tc := ⟨.hbm, 73, rfl⟩
abbrev main_call0_cst : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_7 : Ref sig .tc := ⟨.hbm, 85, rfl⟩
abbrev main_v44 : Ref sig .tc := ⟨.hbm, 86, rfl⟩
abbrev main_cst_8 : Ref sig .tc := ⟨.hbm, 87, rfl⟩
abbrev main_v45 : Ref sig .tc := ⟨.hbm, 88, rfl⟩
abbrev main_v46 : Ref sig .tc := ⟨.hbm, 89, rfl⟩
abbrev main_c_9 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_cst_0 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_v6 : Ref sig .tc := ⟨.hbm, 99, rfl⟩
abbrev main_call1_v7 : Ref sig .tc := ⟨.hbm, 100, rfl⟩
abbrev main_call1_cst_1 : Ref sig .tc := ⟨.hbm, 101, rfl⟩
abbrev main_call1_v8 : Ref sig .tc := ⟨.hbm, 102, rfl⟩
abbrev main_call1_cst_2 : Ref sig .tc := ⟨.hbm, 103, rfl⟩
abbrev main_call1_v9 : Ref sig .tc := ⟨.hbm, 104, rfl⟩
abbrev main_call1_v10 : Ref sig .tc := ⟨.hbm, 105, rfl⟩
abbrev main_call1_v11 : Ref sig .tc := ⟨.hbm, 106, rfl⟩
abbrev main_call1_cst_3 : Ref sig .tc := ⟨.hbm, 107, rfl⟩
abbrev main_call1_v12 : Ref sig .tc := ⟨.hbm, 108, rfl⟩
abbrev main_call1_cst_4 : Ref sig .tc := ⟨.hbm, 109, rfl⟩
abbrev main_call1_call0_v0 : Ref sig .tc := ⟨.hbm, 110, rfl⟩
abbrev main_call1_call0_v1 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_cst_10 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_cst_11 : Ref sig .tc := ⟨.hbm, 129, rfl⟩
abbrev main_call2_cst : Ref sig .tc := ⟨.hbm, 130, rfl⟩
abbrev main_call2_v0 : Ref sig .tc := ⟨.hbm, 131, rfl⟩
abbrev main_call2_v1 : Ref sig .tc := ⟨.hbm, 132, rfl⟩
abbrev main_call2_v2 : Ref sig .tc := ⟨.hbm, 133, rfl⟩
abbrev main_call2_v3 : Ref sig .tc := ⟨.hbm, 134, rfl⟩
abbrev main_call2_v4 : Ref sig .tc := ⟨.hbm, 135, rfl⟩
abbrev main_v63 : Ref sig .tc := ⟨.hbm, 136, rfl⟩
abbrev main_c_12 : Ref sig .tc := ⟨.hbm, 137, rfl⟩
abbrev main_v64 : Ref sig .tc := ⟨.hbm, 138, rfl⟩
abbrev main_v65 : Ref sig .tc := ⟨.hbm, 139, rfl⟩
abbrev main_c_13 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_cst_14 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_cst_15 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_cst_16 : Ref sig .tc := ⟨.hbm, 161, rfl⟩
abbrev main_call3_cst : Ref sig .tc := ⟨.hbm, 162, rfl⟩
abbrev main_call3_v0 : Ref sig .tc := ⟨.hbm, 163, rfl⟩
abbrev main_call3_v1 : Ref sig .tc := ⟨.hbm, 164, rfl⟩
abbrev main_call3_v2 : Ref sig .tc := ⟨.hbm, 165, rfl⟩
abbrev main_call3_v3 : Ref sig .tc := ⟨.hbm, 166, rfl⟩
abbrev main_call3_v4 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_cst_17 : Ref sig .tc := ⟨.hbm, 173, rfl⟩
abbrev main_v89 : Ref sig .tc := ⟨.hbm, 174, rfl⟩
abbrev main_cst_18 : Ref sig .tc := ⟨.hbm, 175, rfl⟩
abbrev main_v90 : Ref sig .tc := ⟨.hbm, 176, rfl⟩
abbrev main_v91 : Ref sig .tc := ⟨.hbm, 177, rfl⟩
abbrev main_c_19 : Ref sig .tc := ⟨.hbm, 178, rfl⟩
abbrev main_call4_cst : Ref sig .tc := ⟨.hbm, 179, rfl⟩
abbrev main_call4_v0 : Ref sig .tc := ⟨.hbm, 180, rfl⟩
abbrev main_call4_v1 : Ref sig .tc := ⟨.hbm, 181, rfl⟩
abbrev main_call4_cst_0 : Ref sig .tc := ⟨.hbm, 182, rfl⟩
abbrev main_call4_v2 : Ref sig .tc := ⟨.hbm, 183, rfl⟩
abbrev main_call4_v3 : Ref sig .tc := ⟨.hbm, 184, rfl⟩
abbrev main_call4_v4 : Ref sig .tc := ⟨.hbm, 185, rfl⟩
abbrev main_call4_v5 : Ref sig .tc := ⟨.hbm, 186, rfl⟩
abbrev main_call4_v6 : Ref sig .tc := ⟨.hbm, 187, rfl⟩
abbrev main_call4_v7 : Ref sig .tc := ⟨.hbm, 188, rfl⟩
abbrev main_call4_cst_1 : Ref sig .tc := ⟨.hbm, 189, rfl⟩
abbrev main_call4_v8 : Ref sig .tc := ⟨.hbm, 190, rfl⟩
abbrev main_call4_cst_2 : Ref sig .tc := ⟨.hbm, 191, rfl⟩
abbrev main_call4_v9 : Ref sig .tc := ⟨.hbm, 192, rfl⟩
abbrev main_call4_v10 : Ref sig .tc := ⟨.hbm, 193, rfl⟩
abbrev main_call4_v11 : Ref sig .tc := ⟨.hbm, 194, rfl⟩
abbrev main_call4_cst_3 : Ref sig .tc := ⟨.hbm, 195, rfl⟩
abbrev main_call4_v12 : Ref sig .tc := ⟨.hbm, 196, rfl⟩
abbrev main_call4_cst_4 : Ref sig .tc := ⟨.hbm, 197, rfl⟩
abbrev main_call4_call0_v0 : Ref sig .tc := ⟨.hbm, 198, rfl⟩
abbrev main_call4_call0_v1 : Ref sig .tc := ⟨.hbm, 199, rfl⟩
abbrev main_v92 : Ref sig .tc := ⟨.hbm, 200, rfl⟩
abbrev main_v93 : Ref sig .tc := ⟨.hbm, 201, rfl⟩
abbrev main_v94 : Ref sig .tc := ⟨.hbm, 202, rfl⟩
abbrev main_v95 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_cst_20 : Ref sig .tc := ⟨.hbm, 207, rfl⟩
abbrev main_v99 : Ref sig .tc := ⟨.hbm, 208, rfl⟩
abbrev main_v100 : Ref sig .tc := ⟨.hbm, 209, rfl⟩
abbrev main_v101 : Ref sig .tc := ⟨.hbm, 210, rfl⟩
abbrev main_v102 : Ref sig .tc := ⟨.hbm, 211, rfl⟩
abbrev main_v103 : Ref sig .tc := ⟨.hbm, 212, rfl⟩
abbrev main_v104 : Ref sig .tc := ⟨.hbm, 213, rfl⟩
abbrev main_v105 : Ref sig .tc := ⟨.hbm, 214, rfl⟩
abbrev main_v106 : Ref sig .tc := ⟨.hbm, 215, rfl⟩
abbrev main_v107 : Ref sig .tc := ⟨.hbm, 216, rfl⟩
abbrev main_cst_21 : Ref sig .tc := ⟨.hbm, 217, rfl⟩
abbrev main_call5_cst : Ref sig .tc := ⟨.hbm, 218, rfl⟩
abbrev main_call5_v0 : Ref sig .tc := ⟨.hbm, 219, rfl⟩
abbrev main_call5_v1 : Ref sig .tc := ⟨.hbm, 220, rfl⟩
abbrev main_call5_v2 : Ref sig .tc := ⟨.hbm, 221, rfl⟩
abbrev main_call5_v3 : Ref sig .tc := ⟨.hbm, 222, rfl⟩
abbrev main_call5_v4 : Ref sig .tc := ⟨.hbm, 223, rfl⟩
abbrev main_v108 : Ref sig .tc := ⟨.hbm, 224, rfl⟩
abbrev main_v109 : Ref sig .tc := ⟨.hbm, 225, rfl⟩
abbrev main_v110 : Ref sig .tc := ⟨.hbm, 226, rfl⟩
abbrev main_v111 : Ref sig .tc := ⟨.hbm, 227, rfl⟩
abbrev main_v112 : Ref sig .tc := ⟨.hbm, 228, rfl⟩
abbrev main_v113 : Ref sig .tc := ⟨.hbm, 229, rfl⟩
abbrev main_cst_22 : Ref sig .tc := ⟨.hbm, 230, rfl⟩
abbrev main_v114 : Ref sig .tc := ⟨.hbm, 231, rfl⟩
abbrev main_cst_23 : Ref sig .tc := ⟨.hbm, 232, rfl⟩
abbrev main_v115 : Ref sig .tc := ⟨.hbm, 233, rfl⟩
abbrev main_v116 : Ref sig .tc := ⟨.hbm, 234, rfl⟩
abbrev main_c_24 : Ref sig .tc := ⟨.hbm, 235, rfl⟩
abbrev main_call6_cst : Ref sig .tc := ⟨.hbm, 236, rfl⟩
abbrev main_call6_v0 : Ref sig .tc := ⟨.hbm, 237, rfl⟩
abbrev main_call6_v1 : Ref sig .tc := ⟨.hbm, 238, rfl⟩
abbrev main_call6_cst_0 : Ref sig .tc := ⟨.hbm, 239, rfl⟩
abbrev main_call6_v2 : Ref sig .tc := ⟨.hbm, 240, rfl⟩
abbrev main_call6_v3 : Ref sig .tc := ⟨.hbm, 241, rfl⟩
abbrev main_call6_v4 : Ref sig .tc := ⟨.hbm, 242, rfl⟩
abbrev main_call6_v5 : Ref sig .tc := ⟨.hbm, 243, rfl⟩
abbrev main_call6_v6 : Ref sig .tc := ⟨.hbm, 244, rfl⟩
abbrev main_call6_v7 : Ref sig .tc := ⟨.hbm, 245, rfl⟩
abbrev main_call6_cst_1 : Ref sig .tc := ⟨.hbm, 246, rfl⟩
abbrev main_call6_v8 : Ref sig .tc := ⟨.hbm, 247, rfl⟩
abbrev main_call6_cst_2 : Ref sig .tc := ⟨.hbm, 248, rfl⟩
abbrev main_call6_v9 : Ref sig .tc := ⟨.hbm, 249, rfl⟩
abbrev main_call6_v10 : Ref sig .tc := ⟨.hbm, 250, rfl⟩
abbrev main_call6_v11 : Ref sig .tc := ⟨.hbm, 251, rfl⟩
abbrev main_call6_cst_3 : Ref sig .tc := ⟨.hbm, 252, rfl⟩
abbrev main_call6_v12 : Ref sig .tc := ⟨.hbm, 253, rfl⟩
abbrev main_call6_cst_4 : Ref sig .tc := ⟨.hbm, 254, rfl⟩
abbrev main_call6_call0_v0 : Ref sig .tc := ⟨.hbm, 255, rfl⟩
abbrev main_call6_call0_v1 : Ref sig .tc := ⟨.hbm, 256, rfl⟩
abbrev main_v117 : Ref sig .tc := ⟨.hbm, 257, rfl⟩
abbrev main_v118 : Ref sig .tc := ⟨.hbm, 258, rfl⟩
abbrev main_v119 : Ref sig .tc := ⟨.hbm, 259, rfl⟩
abbrev main_v120 : Ref sig .tc := ⟨.hbm, 260, rfl⟩
abbrev main_v121 : Ref sig .tc := ⟨.hbm, 261, rfl⟩
abbrev main_v122 : Ref sig .tc := ⟨.hbm, 262, rfl⟩
abbrev main_v123 : Ref sig .tc := ⟨.hbm, 263, rfl⟩
abbrev main_cst_25 : Ref sig .tc := ⟨.hbm, 264, rfl⟩
abbrev main_v124 : Ref sig .tc := ⟨.hbm, 265, rfl⟩
abbrev main_v125 : Ref sig .tc := ⟨.hbm, 266, rfl⟩
abbrev main_v126 : Ref sig .tc := ⟨.hbm, 267, rfl⟩
abbrev main_v127 : Ref sig .tc := ⟨.hbm, 268, rfl⟩
abbrev main_v128 : Ref sig .tc := ⟨.hbm, 269, rfl⟩
abbrev main_v129 : Ref sig .tc := ⟨.hbm, 270, rfl⟩
abbrev main_v130 : Ref sig .tc := ⟨.hbm, 271, rfl⟩
abbrev main_v131 : Ref sig .tc := ⟨.hbm, 272, rfl⟩
abbrev main_v132 : Ref sig .tc := ⟨.hbm, 273, rfl⟩
abbrev main_cst_26 : Ref sig .tc := ⟨.hbm, 274, rfl⟩
abbrev main_call7_cst : Ref sig .tc := ⟨.hbm, 275, rfl⟩
abbrev main_call7_v0 : Ref sig .tc := ⟨.hbm, 276, rfl⟩
abbrev main_call7_v1 : Ref sig .tc := ⟨.hbm, 277, rfl⟩
abbrev main_call7_v2 : Ref sig .tc := ⟨.hbm, 278, rfl⟩
abbrev main_call7_v3 : Ref sig .tc := ⟨.hbm, 279, rfl⟩
abbrev main_call7_v4 : Ref sig .tc := ⟨.hbm, 280, rfl⟩
abbrev main_v133 : Ref sig .tc := ⟨.hbm, 281, rfl⟩
abbrev main_v134 : Ref sig .tc := ⟨.hbm, 282, rfl⟩
abbrev main_v135 : Ref sig .tc := ⟨.hbm, 283, rfl⟩
abbrev main_v136 : Ref sig .tc := ⟨.hbm, 284, rfl⟩
abbrev main_v137 : Ref sig .tc := ⟨.hbm, 285, rfl⟩
abbrev main_v138 : Ref sig .tc := ⟨.hbm, 286, rfl⟩
abbrev main_v139 : Ref sig .tc := ⟨.hbm, 287, rfl⟩
abbrev main_cst_27 : Ref sig .tc := ⟨.hbm, 288, rfl⟩
abbrev main_v140 : Ref sig .tc := ⟨.hbm, 289, rfl⟩
abbrev main_v141 : Ref sig .tc := ⟨.hbm, 290, rfl⟩
abbrev main_cst_28 : Ref sig .tc := ⟨.hbm, 291, rfl⟩
abbrev main_v142 : Ref sig .tc := ⟨.hbm, 292, rfl⟩
abbrev main_v143 : Ref sig .tc := ⟨.hbm, 293, rfl⟩
abbrev main_v144 : Ref sig .tc := ⟨.hbm, 294, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  concatenates_S100000x64_S100000x64_S100000x128_d1 : Shape.Concatenates [S100000x64, S100000x64] S100000x128 1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x3 : S_.BroadcastsInDim S100000x3 (![] : Fin 0 → Fin S100000x3.rank)
  bcast_S_S1 : S_.BroadcastsInDim S1 (![] : Fin 0 → Fin S1.rank)
  bcast_S1_S1x1_1 : S1.BroadcastsInDim S1x1 (![1] : Fin 1 → Fin S1x1.rank)
  bcast_S1x1_S100000x3_0_1 : S1x1.BroadcastsInDim S100000x3 (![0, 1] : Fin 2 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S100000x64 : S_.BroadcastsInDim S100000x64 (![] : Fin 0 → Fin S100000x64.rank)
  bcast_S1x1_S100000x64_0_1 : S1x1.BroadcastsInDim S100000x64 (![0, 1] : Fin 2 → Fin S100000x64.rank)
  concatenates_S100000x128_S100000x64_S100000x192_d1 : Shape.Concatenates [S100000x128, S100000x64] S100000x192 1
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  gather_S64x64_S100000x1_S100000x64_1_0_n_n_0_1_164_wf : GatherDims.WF S64x64 S100000x1 S100000x64 [1] [0] [] [0] [] 1 ![1, 64]
  gather_S16x64_S100000x1_S100000x64_1_0_n_n_0_1_164_wf : GatherDims.WF S16x64 S100000x1 S100000x64 [1] [0] [] [0] [] 1 ![1, 64]
  gather_S100000x3_S1600000x1_S1600000x3_1_0_n_n_0_1_13_wf : GatherDims.WF S100000x3 S1600000x1 S1600000x3 [1] [0] [] [0] [] 1 ![1, 3]
  scatter_S100000x3_S1600000x1_S1600000x3_1_0_0_1_wf : ScatterDims.WF S100000x3 S1600000x1 S1600000x3 [1] [0] [0] 1
  dot_S100000x3_S3x3_S100000x3_1_0_0_1_n_n_wf : DotDims.WF S100000x3 S3x3 S100000x3 [1] [0] [0] [1] [] []
  dot_S100000x3_S3x64_S100000x64_1_0_0_1_n_n_wf : DotDims.WF S100000x3 S3x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x192_S192x64_S100000x64_1_0_0_1_n_n_wf : DotDims.WF S100000x192 S192x64 S100000x64 [1] [0] [0] [1] [] []
  dot_S100000x64_S64x1_S100000x1_1_0_0_1_n_n_wf : DotDims.WF S100000x64 S64x1 S100000x1 [1] [0] [0] [1] [] []

variable [Facts₀]

def gather_S64x64_S100000x1_S100000x64_1_0_n_n_0_1_164 : GatherDims S64x64 S100000x1 S100000x64 where
  offsetDims := [1]
  collapsedSliceDims := [0]
  operandBatchingDims := []
  startIndicesBatchingDims := []
  startIndexMap := [0]
  indexVectorDim := 1
  sliceSizes := ![1, 64]
  wf := gather_S64x64_S100000x1_S100000x64_1_0_n_n_0_1_164_wf
def gather_S16x64_S100000x1_S100000x64_1_0_n_n_0_1_164 : GatherDims S16x64 S100000x1 S100000x64 where
  offsetDims := [1]
  collapsedSliceDims := [0]
  operandBatchingDims := []
  startIndicesBatchingDims := []
  startIndexMap := [0]
  indexVectorDim := 1
  sliceSizes := ![1, 64]
  wf := gather_S16x64_S100000x1_S100000x64_1_0_n_n_0_1_164_wf
def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf
def dot_S100000x3_S3x3_S100000x3_1_0_0_1_n_n : DotDims S100000x3 S3x3 S100000x3 where
  lhsContracting := [1]
  rhsContracting := [0]
  lhsNonContracting := [0]
  rhsNonContracting := [1]
  lhsBatch := []
  rhsBatch := []
  wf := dot_S100000x3_S3x3_S100000x3_1_0_0_1_n_n_wf
def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.FrameK.Reg0.lean ====
import proofs.«402365_j6828998001463_1_alg».proof.Proof.Gen.Kernel.Launch
import proofs.«402365_j6828998001463_1_alg».proof.Proof.Gen.Kernel.Skeleton
import proofs.«402365_j6828998001463_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x1 := Rect.unit (s := S2000x1) ![0, 0] S2000x1.size inb_S2000x1_S2000x1_0_0
abbrev r0_1 : Rect S64x64 := Rect.unit (s := S64x64) ![0, 0] S64x64.size inb_S64x64_S64x64_0_0
abbrev r0_2 : Rect S16x64 := Rect.unit (s := S16x64) ![0, 0] S16x64.size inb_S16x64_S16x64_0_0
abbrev r0_3 : Rect S2000x128 := Rect.unit (s := S2000x128) ![0, 0] S2000x128.size inb_S2000x128_S2000x128_0_0

def out0_4 (x0 x1 : Vec F S2000x1 .i32) (x2 : Vec F S64x64 .f32) (x3 : Vec F S16x64 .f32) : Vec F S2000x128 .f32 :=
  View.canon [⟨r0_3, k0_pay1 (View.ld x0 r0_0) (View.ld x1 r0_0) (View.ld x2 r0_1) (View.ld x3 r0_2)⟩]

-- the one stored rectangle is the whole shape
theorem cover0_4 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

-- the body is whole-block loads and one whole-block store; the stored piece covers the shape, so what it leaves is that piece's canonical contents
set_option maxHeartbeats 1000000 in
theorem sound_kernel0 (E : Set ℕ) (i : grid0.Coords)
    (arg1 : Memref sig .tc .vmem S2000x1 .i32) (harg1 : arg1.IsWhole) (arg2 : Memref sig .tc .vmem S2000x1 .i32) (harg2 : arg2.IsWhole)
    (arg3 : Memref sig .tc .vmem S64x64 .f32) (harg3 : arg3.IsWhole) (arg4 : Memref sig .tc .vmem S16x64 .f32) (harg4 : arg4.IsWhole)
    (arg5 : Memref sig .tc .vmem S2000x128 .f32) (harg5 : arg5.IsWhole)
    (x0 x1 : Vec F S2000x1 .i32) (x2 : Vec F S64x64 .f32) (x3 : Vec F S16x64 .f32) (K : PUnit → sProp 𝕄) :
    iprop(owns c arg1 fullShare x0 ∗ owns c arg2 fullShare x1
        ∗ owns c arg3 fullShare x2 ∗ owns c arg4 fullShare x3
        ∗ (∃ d, owns c arg5 fullShare d)
        ∗ (iprop(owns c arg1 fullShare x0 ∗ owns c arg2 fullShare x1
            ∗ owns c arg3 fullShare x2 ∗ owns c arg4 fullShare x3
            ∗ owns c arg5 fullShare (out0_4 x0 x1 x2 x3)) -∗ K ⟨⟩))
      ⊢ wp frame (wpE (defs₀ (F := F)) Variants.none c none) E (cc0__emb_kernel i arg1 harg1 arg2 harg2 arg3 harg3 arg4 harg4 arg5 harg5) K := by
  simp only [cc0__emb_kernel_eq_skeleton]; unfold cc0__emb_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (w : Fin cfg0.W) : (dat0 V c).A w = V c (Pipeline.arrRef spec0 w) := rfl

theorem after0_4 (t : Fin cfg0.N) : (dat0 V c).after 4 t = out0_4 (iblk0 V c 0 t) (iblk0 V c 1 t) (iblk0 V c 2 t) (iblk0 V c 3 t) := by dsimp only [dat0]

theorem before0_0 (t : Fin cfg0.N) (d) : (dat0 V c).before 0 t d = iblk0 V c 0 t :=
  ((dat0 V c).before_in_eq_fetched 0 rfl (fun _ => rfl) (fun _ _ _ => rfl) (fun _ => rfl) t d).trans rfl
theorem before0_1 (t : Fin cfg0.N) (d) : (dat0 V c).before 1 t d = iblk0 V c 1 t :=
  ((dat0 V c).before_in_eq_fetched 1 rfl (fun _ => rfl) (fun _ _ _ => rfl) (fun _ => rfl) t d).trans rfl
theorem before0_2 (t : Fin cfg0.N) (d) : (dat0 V c).before 2 t d = iblk0 V c 2 t :=
  ((dat0 V c).before_in_eq_fetched 2 rfl (fun _ => rfl) (fun _ _ _ => rfl) (fun _ => rfl) t d).trans rfl
theorem before0_3 (t : Fin cfg0.N) (d) : (dat0 V c).before 3 t d = iblk0 V c 3 t :=
  ((dat0 V c).before_in_eq_fetched 3 rfl (fun _ => rfl) (fun _ _ _ => rfl) (fun _ => rfl) t d).trans rfl

-- every input holds its block, so the body's triple applies; everything else passes through unread
theorem body_obligation0 : BodyObligation (dat0 (F := F) V c) (defs₀ (F := F)) Variants.none () Set.univ := fun t => by
  rw [bigSep_W0, bigSep_W0]
  show iprop(_ ∗ _ ∗ (∃ d, _) ∗ (∃ d, _) ∗ (∃ d, _) ∗ (∃ d, _) ∗ (∃ d, _))
    ⊢ wp _ _ _ (bodyAt0 t) fun _ => iprop(_ ∗ _ ∗ owns _ _ _ _ ∗ owns _ _ _ _ ∗ owns _ _ _ _ ∗ owns _ _ _ _ ∗ owns _ _ _ _)
  simp only [before0_0, before0_1, before0_2, before0_3]
  rw [show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  iframe H0 H1 H2 H3
  isplitl [H4]; · iexists _; iexact H4
  iintro ⟨H0, H1, H2, H3, H4⟩
  iframe

theorem hin0 : Pipeline.ΦA spec0 c ⊢ (dat0 (F := F) V c).Φ 0 := .rfl
theorem hout0 : (dat0 (F := F) V c).Φ (Fin.last cfg0.N) ⊢ Pipeline.ΦA spec0 c := .rfl

end Cert.Kernel.Hand

end
-- ==== Proof.FrameK.Reg1Runs.lean ====
import proofs.«402365_j6828998001463_1_alg».proof.Proof.Gen.Kernel.Launch
import proofs.«402365_j6828998001463_1_alg».proof.Proof.Gen.Kernel.Skeleton
import proofs.«402365_j6828998001463_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop := k1_cond2 i = 1#1
theorem hcond1_1 : ∀ t : Fin cfg1.N, cond1_1 (grid1.coords t) ↔ t.val = 19 :=
  (by decide +kernel : ∀ t : Fin grid1.N, cond1_1 (grid1.coords t) ↔ t.val = 19)

theorem liveAt1 : ∀ w : Fin cfg1.W, w.val < 6 → ∀ t : Fin cfg1.N, cfg1.idle w (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6_C : ∀ t : Fin cfg1.N, ¬cond1_0 (grid1.coords t) → cond1_1 (grid1.coords t) → cfg1.idle 6 (grid1.coords t) = false := by decide +kernel

abbrev VO1_5 : View sig .tc .vmem S5000x64 .f32 := (Memref.whole cc1_stg5_0 : Memref sig .tc .vmem S5000x64 .f32).view
abbrev VO1_6 : View sig .tc .vmem S2x64 .f32 := (Memref.whole cc1_stg6_0 : Memref sig .tc .vmem S2x64 .f32).view
abbrev ms1_0 (t : Fin cfg1.N) : Memref sig .tc .vmem S5000x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x3 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S3x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S5000x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2x64 .f32 := win1_6.stage (cfg1.slots t 6)
abbrev hs1_6 (t : Fin cfg1.N) : (ms1_6 t).IsWhole := hstage1_6 ((cfg1.slots t 6).cast nbuf1_6)
abbrev scM1_0 : Memref sig .tc .vmem S1x64 .f32 := Memref.whole cc1_scratch0
abbrev scM1_1 : Memref sig .tc .vmem S1x64 .f32 := Memref.whole cc1_scratch1
abbrev VS1_0 : View sig .tc .vmem S1x64 .f32 := scM1_0.view
abbrev VS1_1 : View sig .tc .vmem S1x64 .f32 := scM1_1.view

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.Kernel.Hand

end
-- ==== Proof.FrameK.Reg1RunA.lean ====
import proofs.«402365_j6828998001463_1_alg».proof.Proof.FrameK.Reg1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg1 : Memref sig .tc .vmem S5000x3 .f32) (harg1 : arg1.IsWhole) (arg2 : Memref sig .tc .vmem S3x3 .f32) (harg2 : arg2.IsWhole) (arg3 : Memref sig .tc .vmem S1x3 .f32) (harg3 : arg3.IsWhole) (arg4 : Memref sig .tc .vmem S3x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S2x64 .f32) (harg7 : arg7.IsWhole) (arg8 : Memref sig .tc .vmem S1x64 .f32) (harg8 : arg8.IsWhole) (arg9 : Memref sig .tc .vmem S1x64 .f32) (harg9 : arg9.IsWhole) (hc0 : cond1_0 i) (hc1 : ¬cond1_1 i)
    (x1 : Vec F S5000x3 .f32) (x2 : Vec F S3x3 .f32) (x3 : Vec F S1x3 .f32) (x4 : Vec F S3x64 .f32) (x5 : Vec F S1x64 .f32) :
    Σ' (L5 : List (View.Piece (Elt F) S5000x64 .f32)) (L6 : List (View.Piece (Elt F) S2x64 .f32)) (LS0 : List (View.Piece (Elt F) S1x64 .f32)), { LS1 : List (View.Piece (Elt F) S1x64 .f32) //
      ∀ (xi6 : Vec F S2x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__lin_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc1__lin_kernel_eq_skeleton]; unfold cc1__lin_kernel_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, ⟨%ds1, %fs1, -, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [HS0]; · iexists _; iexact HS0
    iexists _; iexact HS1

end Cert.Kernel.Hand

end
-- ==== Proof.FrameK.Reg1RunB.lean ====
import proofs.«402365_j6828998001463_1_alg».proof.Proof.FrameK.Reg1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg1 : Memref sig .tc .vmem S5000x3 .f32) (harg1 : arg1.IsWhole) (arg2 : Memref sig .tc .vmem S3x3 .f32) (harg2 : arg2.IsWhole) (arg3 : Memref sig .tc .vmem S1x3 .f32) (harg3 : arg3.IsWhole) (arg4 : Memref sig .tc .vmem S3x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S2x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : ¬cond1_1 i)
    (x1 : Vec F S5000x3 .f32) (x2 : Vec F S3x3 .f32) (x3 : Vec F S1x3 .f32) (x4 : Vec F S3x64 .f32) (x5 : Vec F S1x64 .f32) (xs0 : Vec F S1x64 .f32) (xs1 : Vec F S1x64 .f32) :
    Σ' (L5 : List (View.Piece (Elt F) S5000x64 .f32)) (L6 : List (View.Piece (Elt F) S2x64 .f32)) (LS0 : List (View.Piece (Elt F) S1x64 .f32)), { LS1 : List (View.Piece (Elt F) S1x64 .f32) //
      ∀ (xi6 : Vec F S2x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xi6 ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__lin_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc1__lin_kernel_eq_skeleton]; unfold cc1__lin_kernel_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%fs1, %hfs1, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hfs0; obtain rfl := harg9.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [HS0]; · iexists _; iexact HS0
    iexists _; iexact HS1

end Cert.Kernel.Hand

end
-- ==== Proof.FrameK.Reg1RunC.lean ====
import proofs.«402365_j6828998001463_1_alg».proof.Proof.FrameK.Reg1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg1 : Memref sig .tc .vmem S5000x3 .f32) (harg1 : arg1.IsWhole) (arg2 : Memref sig .tc .vmem S3x3 .f32) (harg2 : arg2.IsWhole) (arg3 : Memref sig .tc .vmem S1x3 .f32) (harg3 : arg3.IsWhole) (arg4 : Memref sig .tc .vmem S3x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S2x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : cond1_1 i)
    (x1 : Vec F S5000x3 .f32) (x2 : Vec F S3x3 .f32) (x3 : Vec F S1x3 .f32) (x4 : Vec F S3x64 .f32) (x5 : Vec F S1x64 .f32) (xs0 : Vec F S1x64 .f32) (xs1 : Vec F S1x64 .f32) :
    Σ' (L5 : List (View.Piece (Elt F) S5000x64 .f32)) (L6 : List (View.Piece (Elt F) S2x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__lin_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc1__lin_kernel_eq_skeleton]; unfold cc1__lin_kernel_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg8.eq_unread hfs0; obtain rfl := harg9.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [HS0]; · iexists _; iexact HS0
    iexists _; iexact HS1

end Cert.Kernel.Hand

end
-- ==== Proof.FrameK.Reg1.lean ====
import proofs.«402365_j6828998001463_1_alg».proof.Proof.FrameK.Reg1RunA
import proofs.«402365_j6828998001463_1_alg».proof.Proof.FrameK.Reg1RunB
import proofs.«402365_j6828998001463_1_alg».proof.Proof.FrameK.Reg1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable {P : List (View.Piece (Elt F) S5000x64 .f32) → List (View.Piece (Elt F) S2x64 .f32) → List (View.Piece (Elt F) S1x64 .f32) → List (View.Piece (Elt F) S1x64 .f32) → Prop}
  (r : Σ' (L5 : List (View.Piece (Elt F) S5000x64 .f32)) (L6 : List (View.Piece (Elt F) S2x64 .f32)) (LS0 : List (View.Piece (Elt F) S1x64 .f32)), { LS1 : List (View.Piece (Elt F) S1x64 .f32) // P L5 L6 LS0 LS1 })

/-- The four store lists of a run of the body read back through fixed views: output block, statistics block, the two accumulators. -/
def reads1 : Vec F S5000x64 .f32 × Vec F S2x64 .f32 × Vec F S1x64 .f32 × Vec F S1x64 .f32 :=
  (VO1_5.read (Elt F) (VO1_5.writes (Elt F) VO1_5.junk r.1), VO1_6.read (Elt F) (VO1_6.writes (Elt F) VO1_6.junk r.2.1), VS1_0.read (Elt F) (VS1_0.writes (Elt F) VS1_0.junk r.2.2.1), VS1_1.read (Elt F) (VS1_1.writes (Elt F) VS1_1.junk r.2.2.2.1))

/-- The stores of the output block and of each accumulator cover them, so what is read back does not depend on the contents before. -/
def Covers1 : Prop :=
  (∀ y : S5000x64.Idx, ∃ pc ∈ r.1, y ∈ pc.1.set) ∧ (∀ y : S1x64.Idx, ∃ pc ∈ r.2.2.1, y ∈ pc.1.set) ∧ (∀ y : S1x64.Idx, ∃ pc ∈ r.2.2.2.1, y ∈ pc.1.set)

end

section
variable (c : Dev nD) (i : grid1.Coords) (arg1 : Memref sig .tc .vmem S5000x3 .f32) (harg1 : arg1.IsWhole) (arg2 : Memref sig .tc .vmem S3x3 .f32) (harg2 : arg2.IsWhole) (arg3 : Memref sig .tc .vmem S1x3 .f32) (harg3 : arg3.IsWhole) (arg4 : Memref sig .tc .vmem S3x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S2x64 .f32) (harg7 : arg7.IsWhole) (arg8 : Memref sig .tc .vmem S1x64 .f32) (harg8 : arg8.IsWhole) (arg9 : Memref sig .tc .vmem S1x64 .f32) (harg9 : arg9.IsWhole)

section
variable (hc0 : cond1_0 i) (hc1 : ¬cond1_1 i) (x1 : Vec F S5000x3 .f32) (x2 : Vec F S3x3 .f32) (x3 : Vec F S1x3 .f32) (x4 : Vec F S3x64 .f32) (x5 : Vec F S1x64 .f32)

def outs1_A : Vec F S5000x64 .f32 × Vec F S2x64 .f32 × Vec F S1x64 .f32 × Vec F S1x64 .f32 :=
  reads1 (kernelRun1_A c i arg1 harg1 arg2 harg2 arg3 harg3 arg4 harg4 arg5 harg5 arg6 harg6 arg7 harg7 arg8 harg8 arg9 harg9 hc0 hc1 x1 x2 x3 x4 x5)

theorem covers1_A : Covers1 (kernelRun1_A c i arg1 harg1 arg2 harg2 arg3 harg3 arg4 harg4 arg5 harg5 arg6 harg6 arg7 harg7 arg8 harg8 arg9 harg9 hc0 hc1 x1 x2 x3 x4 x5) :=
  ⟨View.cover_of_tiledL _ S5000x64.size (by sl_kernel_rfl), View.cover_of_tiledL _ S1x64.size (by sl_kernel_rfl), View.cover_of_tiledL _ S1x64.size (by sl_kernel_rfl)⟩

end

section
variable (hc0 : ¬cond1_0 i) (hc1 : ¬cond1_1 i) (x1 : Vec F S5000x3 .f32) (x2 : Vec F S3x3 .f32) (x3 : Vec F S1x3 .f32) (x4 : Vec F S3x64 .f32) (x5 : Vec F S1x64 .f32) (xs0 : Vec F S1x64 .f32) (xs1 : Vec F S1x64 .f32)

def outs1_B : Vec F S5000x64 .f32 × Vec F S2x64 .f32 × Vec F S1x64 .f32 × Vec F S1x64 .f32 :=
  reads1 (kernelRun1_B c i arg1 harg1 arg2 harg2 arg3 harg3 arg4 harg4 arg5 harg5 arg6 harg6 arg7 harg7 arg8 harg8 arg9 harg9 hc0 hc1 x1 x2 x3 x4 x5 xs0 xs1)

theorem covers1_B : Covers1 (kernelRun1_B c i arg1 harg1 arg2 harg2 arg3 harg3 arg4 harg4 arg5 harg5 arg6 harg6 arg7 harg7 arg8 harg8 arg9 harg9 hc0 hc1 x1 x2 x3 x4 x5 xs0 xs1) :=
  ⟨View.cover_of_tiledL _ S5000x64.size (by sl_kernel_rfl), View.cover_of_tiledL _ S1x64.size (by sl_kernel_rfl), View.cover_of_tiledL _ S1x64.size (by sl_kernel_rfl)⟩

end

section
variable (hc0 : ¬cond1_0 i) (hc1 : cond1_1 i) (x1 : Vec F S5000x3 .f32) (x2 : Vec F S3x3 .f32) (x3 : Vec F S1x3 .f32) (x4 : Vec F S3x64 .f32) (x5 : Vec F S1x64 .f32) (xs0 : Vec F S1x64 .f32) (xs1 : Vec F S1x64 .f32)

def outs1_C : Vec F S5000x64 .f32 × Vec F S2x64 .f32 × Vec F S1x64 .f32 × Vec F S1x64 .f32 :=
  reads1 (kernelRun1_C c i arg1 harg1 arg2 harg2 arg3 harg3 arg4 harg4 arg5 harg5 arg6 harg6 arg7 harg7 arg8 harg8 arg9 harg9 hc0 hc1 x1 x2 x3 x4 x5 xs0 xs1)

theorem covers1_C : Covers1 (kernelRun1_C c i arg1 harg1 arg2 harg2 arg3 harg3 arg4 harg4 arg5 harg5 arg6 harg6 arg7 harg7 arg8 harg8 arg9 harg9 hc0 hc1 x1 x2 x3 x4 x5 xs0 xs1) :=
  ⟨View.cover_of_tiledL _ S5000x64.size (by sl_kernel_rfl), View.cover_of_tiledL _ S1x64.size (by sl_kernel_rfl), View.cover_of_tiledL _ S1x64.size (by sl_kernel_rfl)⟩

theorem cover1_C_6 (y : S2x64.Idx) : ∃ pc ∈ (kernelRun1_C c i arg1 harg1 arg2 harg2 arg3 harg3 arg4 harg4 arg5 harg5 arg6 harg6 arg7 harg7 arg8 harg8 arg9 harg9 hc0 hc1 x1 x2 x3 x4 x5 xs0 xs1).2.1, y ∈ pc.1.set :=
  View.cover_of_tiledL (kernelRun1_C c i arg1 harg1 arg2 harg2 arg3 harg3 arg4 harg4 arg5 harg5 arg6 harg6 arg7 harg7 arg8 harg8 arg9 harg9 hc0 hc1 x1 x2 x3 x4 x5 xs0 xs1).2.1 S1x64.size (by sl_kernel_rfl) y

end

end

/-- What the body leaves at point `t` (output block, statistics block, the two accumulators) over the accumulators `s0`, `s1` left by the point before; the first point does not read them. -/
def step1 (c : Dev nD) (t : Fin cfg1.N) (s0 s1 : Vec F S1x64 .f32) : Vec F S5000x64 .f32 × Vec F S2x64 .f32 × Vec F S1x64 .f32 × Vec F S1x64 .f32 :=
  if h0 : t.val = 0 then
    outs1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => by have := (hcond1_1 t).mp h; omega) (iblk1 V c 0 t) (iblk1 V c 1 t) (iblk1 V c 2 t) (iblk1 V c 3 t) (iblk1 V c 4 t)
  else if h1 : t.val = 19 then
    outs1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) s0 s1
  else
    outs1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) s0 s1

def outsAt1 (c : Dev nD) : (n : ℕ) → n < cfg1.N → Vec F S5000x64 .f32 × Vec F S2x64 .f32 × Vec F S1x64 .f32 × Vec F S1x64 .f32
  | 0, hn => step1 V c ⟨0, hn⟩ (VS1_0.read (Elt F) VS1_0.junk) (VS1_0.read (Elt F) VS1_0.junk)
  | n + 1, hn => step1 V c ⟨n + 1, hn⟩ (outsAt1 c n (Nat.lt_of_succ_lt hn)).2.2.1 (outsAt1 c n (Nat.lt_of_succ_lt hn)).2.2.2

theorem outsAt1_eq (c : Dev nD) (t : Fin cfg1.N) :
    outsAt1 V c t.val t.isLt = step1 V c t (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => show step1 V c _ _ _ = _; unfold step1; rw [dif_pos rfl, dif_pos rfl]
  | succ n => rfl

/-- The region invariant with the two accumulators at `s0`, `s1`. -/
def PhiP1 (c : Dev nD) (s0 s1 : Vec F S1x64 .f32) : sProp 𝕄 :=
  iprop(iprop(iprop(owns (c : Thread nD τ) scM1_0 fullShare s0 ∗ owns (c : Thread nD τ) scM1_1 fullShare s1) ∗ Pipeline.scopedRestBut (Ix := Unit) (Name := ℕ) (U := UR sig nD τ) (Lvl := ℕ) (Val := Elt F) spec1 c [cc1_scratch0, cc1_scratch1]) ∗ (∃ r, prngReg c r))

def PhiS1 (c : Dev nD) : (n : ℕ) → n ≤ cfg1.N → sProp 𝕄
  | 0, _ => Pipeline.ΦA spec1 c
  | n + 1, hn => PhiP1 c (outsAt1 V c n hn).2.2.1 (outsAt1 V c n hn).2.2.2

theorem PhiS1_zero (c : Dev nD) (n : ℕ) (h : n ≤ cfg1.N) (hz : n = 0) : PhiS1 V c n h = Pipeline.ΦA spec1 c := by
  subst hz; rfl

theorem PhiS1_pos (c : Dev nD) (n : ℕ) (h : n ≤ cfg1.N) (hz : n ≠ 0) :
    PhiS1 V c n h = PhiP1 c (outsAt1 V c (n - 1) (by omega)).2.2.1 (outsAt1 V c (n - 1) (by omega)).2.2.2 := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiP1 c (outsAt1 V c t.val t.isLt).2.2.1 (outsAt1 V c t.val t.isLt).2.2.2 from rfl, PhiS1_castSucc V c t]
  unfold PhiP1
  rw [show (dat1 V c).leavesExact 0 t = owns (c : Thread nD τ) (ms1_0 t) fullShare ((dat1 V c).after 0 t) from by
    unfold Dat.leavesExact; rw [liveAt1 0 (by decide) t], after1_0]
  rw [show (dat1 V c).leavesExact 1 t = owns (c : Thread nD τ) (ms1_1 t) fullShare ((dat1 V c).after 1 t) from by
    unfold Dat.leavesExact; rw [liveAt1 1 (by decide) t], after1_1]
  rw [show (dat1 V c).leavesExact 2 t = owns (c : Thread nD τ) (ms1_2 t) fullShare ((dat1 V c).after 2 t) from by
    unfold Dat.leavesExact; rw [liveAt1 2 (by decide) t], after1_2]
  rw [show (dat1 V c).leavesExact 3 t = owns (c : Thread nD τ) (ms1_3 t) fullShare ((dat1 V c).after 3 t) from by
    unfold Dat.leavesExact; rw [liveAt1 3 (by decide) t], after1_3]
  rw [show (dat1 V c).leavesExact 4 t = owns (c : Thread nD τ) (ms1_4 t) fullShare ((dat1 V c).after 4 t) from by
    unfold Dat.leavesExact; rw [liveAt1 4 (by decide) t], after1_4]
  rw [show (dat1 V c).leavesExact 5 t = owns (c : Thread nD τ) (ms1_5 t) fullShare ((dat1 V c).after 5 t) from by
    unfold Dat.leavesExact; rw [liveAt1 5 (by decide) t], after1_5]
  by_cases h0 : t.val = 0
  · have c0 := (hcond1_0 t).mpr h0
    have c1 : ¬cond1_1 (grid1.coords t) := fun h => by have := (hcond1_1 t).mp h; omega
    rw [Dat.leavesExact_idle (dat1 V c) 6 t (idleAt1_6 t c1) (noFlush1_6 t c1)]
    rw [outsAt1_eq V c t]; unfold step1; rw [dif_pos h0]
    dsimp only [outs1_A, reads1]
    rw [PhiS1_zero V c _ _ h0, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ _ _ _ _ c0 c1 (iblk1 V c 0 t) (iblk1 V c 1 t) (iblk1 V c 2 t) (iblk1 V c 3 t) (iblk1 V c 4 t)).2.2.2.2 _ Set.univ _)
    iframe H0 H1 H2 H3 H4 H6 HS0 HS1
    isplitl [H5]; · iexists _; iexact H5
    iintro ⟨H0, H1, H2, H3, H4, ⟨%e5, H5⟩, H6, ⟨%es0, HS0⟩, ⟨%es1, HS1⟩⟩
    iframe Hrest Hg Ho H0 H1 H2 H3 H4
    isplitl [HS0 HS1]
    · isplitl [HS0]
      · unfold owns; iexists _; isplitr
        swap; · iexact HS0
        ipureintro; exact View.read_writes_of_cover _ _ _ _ _ (covers1_A ..).2.1
      unfold owns; iexists _; isplitr
      swap; · iexact HS1
      ipureintro; exact View.read_writes_of_cover _ _ _ _ _ (covers1_A ..).2.2
    isplitl [H5]
    · unfold owns; iexists _; isplitr
      swap; · iexact H5
      ipureintro; exact View.read_writes_of_cover _ _ _ _ _ (covers1_A ..).1
    iexists _; iexact H6
  · rw [PhiS1_pos V c _ _ h0]; unfold PhiP1
    have c0 : ¬cond1_0 (grid1.coords t) := fun h => h0 ((hcond1_0 t).mp h)
    by_cases h1 : t.val = 19
    · have c1 := (hcond1_1 t).mpr h1
      rw [show (dat1 V c).leavesExact 6 t = owns (c : Thread nD τ) (ms1_6 t) fullShare ((dat1 V c).after 6 t) from by
        unfold Dat.leavesExact; rw [liveAt1_6_C t c0 c1], after1_6]
      rw [outsAt1_eq V c t]; unfold step1; rw [dif_neg h0, dif_pos h1]
      dsimp only [outs1_C, reads1]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ c0 c1 (iblk1 V c 0 t) (iblk1 V c 1 t) (iblk1 V c 2 t) (iblk1 V c 3 t) (iblk1 V c 4 t) _ _).2.2.2.2 Set.univ _)
      iframe H0 H1 H2 H3 H4 HS0 HS1
      isplitl [H5]; · iexists _; iexact H5
      isplitl [H6]; · iexists _; iexact H6
      iintro ⟨H0, H1, H2, H3, H4, ⟨%e5, H5⟩, ⟨%e6, H6⟩, ⟨%es0, HS0⟩, ⟨%es1, HS1⟩⟩
      iframe Hrest Hg Ho H0 H1 H2 H3 H4
      isplitl [HS0 HS1]
      · isplitl [HS0]
        · unfold owns; iexists _; isplitr
          swap; · iexact HS0
          ipureintro; exact View.read_writes_of_cover _ _ _ _ _ (covers1_C ..).2.1
        unfold owns; iexists _; isplitr
        swap; · iexact HS1
        ipureintro; exact View.read_writes_of_cover _ _ _ _ _ (covers1_C ..).2.2
      isplitl [H5]
      · unfold owns; iexists _; isplitr
        swap; · iexact H5
        ipureintro; exact View.read_writes_of_cover _ _ _ _ _ (covers1_C ..).1
      unfold owns; iexists _; isplitr
      swap; · iexact H6
      ipureintro; exact View.read_writes_of_cover _ _ _ _ _ (fun _ => cover1_C_6 ..)
    · have c1 : ¬cond1_1 (grid1.coords t) := fun h => h1 ((hcond1_1 t).mp h)
      rw [Dat.leavesExact_idle (dat1 V c) 6 t (idleAt1_6 t c1) (noFlush1_6 t c1)]
      rw [outsAt1_eq V c t]; unfold step1; rw [dif_neg h0, dif_neg h1]
      dsimp only [outs1_B, reads1]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ c0 c1 (iblk1 V c 0 t) (iblk1 V c 1 t) (iblk1 V c 2 t) (iblk1 V c 3 t) (iblk1 V c 4 t) _ _).2.2.2.2 _ Set.univ _)
      iframe H0 H1 H2 H3 H4 H6 HS0 HS1
      isplitl [H5]; · iexists _; iexact H5
      iintro ⟨H0, H1, H2, H3, H4, ⟨%e5, H5⟩, H6, ⟨%es0, HS0⟩, ⟨%es1, HS1⟩⟩
      iframe Hrest Hg Ho H0 H1 H2 H3 H4
      isplitl [HS0 HS1]
      · isplitl [HS0]
        · unfold owns; iexists _; isplitr
          swap; · iexact HS0
          ipureintro; exact View.read_writes_of_cover _ _ _ _ _ (covers1_B ..).2.1
        unfold owns; iexists _; isplitr
        swap; · iexact HS1
        ipureintro; exact View.read_writes_of_cover _ _ _ _ _ (covers1_B ..).2.2
      isplitl [H5]
      · unfold owns; iexists _; isplitr
        swap; · iexact H5
        ipureintro; exact View.read_writes_of_cover _ _ _ _ _ (covers1_B ..).1
      iexists _; iexact H6

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]; unfold PhiP1
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout1 (c : Dev nD) : (dat1 V c).Φ (Fin.last cfg1.N) ⊢ Pipeline.ΦA spec1 c :=
  Phi_out1 V c _ (by rw [Fin.val_last]; have : cfg1.N = 20 := N_1; omega)

end Cert.Kernel.Hand

end
-- ==== Proof.FrameK.Reg2.lean ====
import proofs.«402365_j6828998001463_1_alg».proof.Proof.Gen.Kernel.Launch
import proofs.«402365_j6828998001463_1_alg».proof.Proof.Gen.Kernel.Skeleton
import proofs.«402365_j6828998001463_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x64 := Rect.unit (s := S5000x64) ![0, 0] S5000x64.size inb_S5000x64_S5000x64_0_0
abbrev r2_1 : Rect S1x64 := Rect.unit (s := S1x64) ![0, 0] S1x64.size inb_S1x64_S1x64_0_0

def out2_5 (x0 : Vec F S5000x64 .f32) (x1 x2 x3 x4 : Vec F S1x64 .f32) : Vec F S5000x64 .f32 :=
  View.canon [⟨r2_0, k2_pay1 (View.ld x2 r2_1) (View.ld x3 r2_1) (View.ld x0 r2_0) (View.ld x1 r2_1) (View.ld x4 r2_1)⟩]

-- the one stored rectangle is the whole shape
theorem cover2_5 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

-- the body is whole-block loads and one whole-block store; the stored piece covers the shape, so what it leaves is that piece's canonical contents
set_option maxHeartbeats 1000000 in
theorem sound_kernel2 (E : Set ℕ) (i : grid2.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out2_5 x0 x1 x2 x3 x4)) -∗ K ⟨⟩))
      ⊢ wp frame (wpE (defs₀ (F := F)) Variants.none c none) E (cc2__bn_kernel i arg1 harg1 arg2 harg2 arg3 harg3 arg4 harg4 arg5 harg5 arg6 harg6) K := by
  simp only [cc2__bn_kernel_eq_skeleton]; unfold cc2__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (w : Fin cfg2.W) : (dat2 V c).A w = V c (Pipeline.arrRef spec2 w) := rfl

theorem after2_5 (t : Fin cfg2.N) : (dat2 V c).after 5 t = out2_5 (iblk2 V c 0 t) (iblk2 V c 1 t) (iblk2 V c 2 t) (iblk2 V c 3 t) (iblk2 V c 4 t) := by dsimp only [dat2]

theorem before2_0 (t : Fin cfg2.N) (d) : (dat2 V c).before 0 t d = iblk2 V c 0 t :=
  ((dat2 V c).before_in_eq_fetched 0 rfl (fun _ => rfl) (fun _ _ _ => rfl) (fun _ => rfl) t d).trans rfl
theorem before2_1 (t : Fin cfg2.N) (d) : (dat2 V c).before 1 t d = iblk2 V c 1 t :=
  ((dat2 V c).before_in_eq_fetched 1 rfl (fun _ => rfl) (fun _ _ _ => rfl) (fun _ => rfl) t d).trans rfl
theorem before2_2 (t : Fin cfg2.N) (d) : (dat2 V c).before 2 t d = iblk2 V c 2 t :=
  ((dat2 V c).before_in_eq_fetched 2 rfl (fun _ => rfl) (fun _ _ _ => rfl) (fun _ => rfl) t d).trans rfl
theorem before2_3 (t : Fin cfg2.N) (d) : (dat2 V c).before 3 t d = iblk2 V c 3 t :=
  ((dat2 V c).before_in_eq_fetched 3 rfl (fun _ => rfl) (fun _ _ _ => rfl) (fun _ => rfl) t d).trans rfl
theorem before2_4 (t : Fin cfg2.N) (d) : (dat2 V c).before 4 t d = iblk2 V c 4 t :=
  ((dat2 V c).before_in_eq_fetched 4 rfl (fun _ => rfl) (fun _ _ _ => rfl) (fun _ => rfl) t d).trans rfl

-- every input holds its block, so the body's triple applies; everything else passes through unread
theorem body_obligation2 : BodyObligation (dat2 (F := F) V c) (defs₀ (F := F)) Variants.none () Set.univ := fun t => by
  rw [bigSep_W2, bigSep_W2]
  show iprop(_ ∗ _ ∗ (∃ d, _) ∗ (∃ d, _) ∗ (∃ d, _) ∗ (∃ d, _) ∗ (∃ d, _) ∗ (∃ d, _))
    ⊢ wp _ _ _ (bodyAt2 t) fun _ => iprop(_ ∗ _ ∗ owns _ _ _ _ ∗ owns _ _ _ _ ∗ owns _ _ _ _ ∗ owns _ _ _ _ ∗ owns _ _ _ _ ∗ owns _ _ _ _)
  simp only [before2_0, before2_1, before2_2, before2_3, before2_4]
  rw [show (dat2 V c).owesAt () t.succ = (dat2 V c).owesAt () t.castSucc from rfl]
  dsimp only [dat2]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  iframe H0 H1 H2 H3 H4
  isplitl [H5]; · iexists _; iexact H5
  iintro ⟨H0, H1, H2, H3, H4, H5⟩
  iframe

theorem hin2 : Pipeline.ΦA spec2 c ⊢ (dat2 V c).Φ 0 := BI.Entails.refl _

theorem hout2 : (dat2 V c).Φ (Fin.last cfg2.N) ⊢ Pipeline.ΦA spec2 c := BI.Entails.refl _

end Cert.Kernel.Hand

end
-- ==== Proof.FrameK.Reg3Runs.lean ====
import proofs.«402365_j6828998001463_1_alg».proof.Proof.Gen.Kernel.Launch
import proofs.«402365_j6828998001463_1_alg».proof.Proof.Gen.Kernel.Skeleton
import proofs.«402365_j6828998001463_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)

abbrev cond3_1 (i : grid3.Coords) : Prop := k3_cond2 i = 1#1
theorem hcond3_1 : ∀ t : Fin cfg3.N, cond3_1 (grid3.coords t) ↔ t.val = 19 :=
  (by decide +kernel : ∀ t : Fin grid3.N, cond3_1 (grid3.coords t) ↔ t.val = 19)

theorem liveAt3 : ∀ w : Fin cfg3.W, w.val < 6 → ∀ t : Fin cfg3.N, cfg3.idle w (grid3.coords t) = false := by decide +kernel
theorem idleAt3_6 : ∀ t : Fin cfg3.N, ¬cond3_1 (grid3.coords t) → cfg3.idle 6 (grid3.coords t) = true := by decide +kernel
theorem noFlush3_6 : ∀ t : Fin cfg3.N, ¬cond3_1 (grid3.coords t) → (cfg3.win 6).flush t = false := by decide +kernel
theorem liveAt3_6_C : ∀ t : Fin cfg3.N, ¬cond3_0 (grid3.coords t) → cond3_1 (grid3.coords t) → cfg3.idle 6 (grid3.coords t) = false := by decide +kernel

abbrev VO3_5 : View sig .tc .vmem S5000x64 .f32 := (Memref.whole cc3_stg5_0 : Memref sig .tc .vmem S5000x64 .f32).view
abbrev VO3_6 : View sig .tc .vmem S2x64 .f32 := (Memref.whole cc3_stg6_0 : Memref sig .tc .vmem S2x64 .f32).view
abbrev ms3_0 (t : Fin cfg3.N) : Memref sig .tc .vmem S5000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S64x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S64x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x64 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S5000x64 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S2x64 .f32 := win3_6.stage (cfg3.slots t 6)
abbrev hs3_6 (t : Fin cfg3.N) : (ms3_6 t).IsWhole := hstage3_6 ((cfg3.slots t 6).cast nbuf3_6)
abbrev scM3_0 : Memref sig .tc .vmem S1x64 .f32 := Memref.whole cc3_scratch0
abbrev scM3_1 : Memref sig .tc .vmem S1x64 .f32 := Memref.whole cc3_scratch1
abbrev VS3_0 : View sig .tc .vmem S1x64 .f32 := scM3_0.view
abbrev VS3_1 : View sig .tc .vmem S1x64 .f32 := scM3_1.view

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

end Cert.Kernel.Hand

end
-- ==== Proof.FrameK.Reg3RunA.lean ====
import proofs.«402365_j6828998001463_1_alg».proof.Proof.FrameK.Reg3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun3_A (c : Dev nD) (i : grid3.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S2x64 .f32) (harg7 : arg7.IsWhole) (arg8 : Memref sig .tc .vmem S1x64 .f32) (harg8 : arg8.IsWhole) (arg9 : Memref sig .tc .vmem S1x64 .f32) (harg9 : arg9.IsWhole) (hc0 : cond3_0 i) (hc1 : ¬cond3_1 i)
    (x1 : Vec F S5000x64 .f32) (x2 : Vec F S64x64 .f32) (x3 : Vec F S1x64 .f32) (x4 : Vec F S64x64 .f32) (x5 : Vec F S1x64 .f32) :
    Σ' (L5 : List (View.Piece (Elt F) S5000x64 .f32)) (L6 : List (View.Piece (Elt F) S2x64 .f32)) (LS0 : List (View.Piece (Elt F) S1x64 .f32)), { LS1 : List (View.Piece (Elt F) S1x64 .f32) //
      ∀ (xi6 : Vec F S2x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__lin_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc3__lin_kernel_eq_skeleton]; unfold cc3__lin_kernel_skel
    simp only [k3_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, ⟨%ds1, %fs1, -, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [HS0]; · iexists _; iexact HS0
    iexists _; iexact HS1

end Cert.Kernel.Hand

end
-- ==== Proof.FrameK.Reg3RunB.lean ====
import proofs.«402365_j6828998001463_1_alg».proof.Proof.FrameK.Reg3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun3_B (c : Dev nD) (i : grid3.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S2x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : ¬cond3_1 i)
    (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L5 : List (View.Piece (Elt F) S5000x64 .f32)) (L6 : List (View.Piece (Elt F) S2x64 .f32)) (LS0 : List (View.Piece (Elt F) S1x64 .f32)), { LS1 : List (View.Piece (Elt F) S1x64 .f32) //
      ∀ (xi6 : Vec F S2x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xi6 ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__lin_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc3__lin_kernel_eq_skeleton]; unfold cc3__lin_kernel_skel
    simp only [k3_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%fs1, %hfs1, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hfs0; obtain rfl := harg9.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [HS0]; · iexists _; iexact HS0
    iexists _; iexact HS1

end Cert.Kernel.Hand

end
-- ==== Proof.FrameK.Reg3RunC.lean ====
import proofs.«402365_j6828998001463_1_alg».proof.Proof.FrameK.Reg3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun3_C (c : Dev nD) (i : grid3.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S2x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : cond3_1 i)
    (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L5 : List (View.Piece (Elt F) S5000x64 .f32)) (L6 : List (View.Piece (Elt F) S2x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__lin_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc3__lin_kernel_eq_skeleton]; unfold cc3__lin_kernel_skel
    simp only [k3_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg8.eq_unread hfs0; obtain rfl := harg9.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [HS0]; · iexists _; iexact HS0
    iexists _; iexact HS1

end Cert.Kernel.Hand

end
-- ==== Proof.FrameK.Reg3.lean ====
import proofs.«402365_j6828998001463_1_alg».proof.Proof.FrameK.Reg3RunA
import proofs.«402365_j6828998001463_1_alg».proof.Proof.FrameK.Reg3RunB
import proofs.«402365_j6828998001463_1_alg».proof.Proof.FrameK.Reg3RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable {P : List (View.Piece (Elt F) S5000x64 .f32) → List (View.Piece (Elt F) S2x64 .f32) → List (View.Piece (Elt F) S1x64 .f32) → List (View.Piece (Elt F) S1x64 .f32) → Prop}
  (r : Σ' (L5 : List (View.Piece (Elt F) S5000x64 .f32)) (L6 : List (View.Piece (Elt F) S2x64 .f32)) (LS0 : List (View.Piece (Elt F) S1x64 .f32)), { LS1 : List (View.Piece (Elt F) S1x64 .f32) // P L5 L6 LS0 LS1 })

/-- The four store lists of a run of the body read back through fixed views: output block, statistics block, the two accumulators. -/
def reads3 : Vec F S5000x64 .f32 × Vec F S2x64 .f32 × Vec F S1x64 .f32 × Vec F S1x64 .f32 :=
  (VO3_5.read (Elt F) (VO3_5.writes (Elt F) VO3_5.junk r.1), VO3_6.read (Elt F) (VO3_6.writes (Elt F) VO3_6.junk r.2.1), VS3_0.read (Elt F) (VS3_0.writes (Elt F) VS3_0.junk r.2.2.1), VS3_1.read (Elt F) (VS3_1.writes (Elt F) VS3_1.junk r.2.2.2.1))

/-- The stores of the output block and of each accumulator cover them, so what is read back does not depend on the contents before. -/
def Covers3 : Prop :=
  (∀ y : S5000x64.Idx, ∃ pc ∈ r.1, y ∈ pc.1.set) ∧ (∀ y : S1x64.Idx, ∃ pc ∈ r.2.2.1, y ∈ pc.1.set) ∧ (∀ y : S1x64.Idx, ∃ pc ∈ r.2.2.2.1, y ∈ pc.1.set)

end

section
variable (c : Dev nD) (i : grid3.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S2x64 .f32) (harg7 : arg7.IsWhole) (arg8 : Memref sig .tc .vmem S1x64 .f32) (harg8 : arg8.IsWhole) (arg9 : Memref sig .tc .vmem S1x64 .f32) (harg9 : arg9.IsWhole)

section
variable (hc0 : cond3_0 i) (hc1 : ¬cond3_1 i) (x1 : Vec F S5000x64 .f32) (x2 : Vec F S64x64 .f32) (x3 : Vec F S1x64 .f32) (x4 : Vec F S64x64 .f32) (x5 : Vec F S1x64 .f32)

def outs3_A : Vec F S5000x64 .f32 × Vec F S2x64 .f32 × Vec F S1x64 .f32 × Vec F S1x64 .f32 :=
  reads3 (kernelRun3_A c i arg1 harg1 arg2 harg2 arg3 harg3 arg4 harg4 arg5 harg5 arg6 harg6 arg7 harg7 arg8 harg8 arg9 harg9 hc0 hc1 x1 x2 x3 x4 x5)

theorem covers3_A : Covers3 (kernelRun3_A c i arg1 harg1 arg2 harg2 arg3 harg3 arg4 harg4 arg5 harg5 arg6 harg6 arg7 harg7 arg8 harg8 arg9 harg9 hc0 hc1 x1 x2 x3 x4 x5) :=
  ⟨View.cover_of_tiledL _ S5000x64.size (by sl_kernel_rfl), View.cover_of_tiledL _ S1x64.size (by sl_kernel_rfl), View.cover_of_tiledL _ S1x64.size (by sl_kernel_rfl)⟩

end

section
variable (hc0 : ¬cond3_0 i) (hc1 : ¬cond3_1 i) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32)

def outs3_B : Vec F S5000x64 .f32 × Vec F S2x64 .f32 × Vec F S1x64 .f32 × Vec F S1x64 .f32 :=
  reads3 (kernelRun3_B c i arg1 harg1 arg2 harg2 arg3 harg3 arg4 harg4 arg5 harg5 arg6 harg6 arg7 harg7 arg8 harg8 arg9 harg9 hc0 hc1 x1 x2 x3 x4 x5 xs0 xs1)

theorem covers3_B : Covers3 (kernelRun3_B c i arg1 harg1 arg2 harg2 arg3 harg3 arg4 harg4 arg5 harg5 arg6 harg6 arg7 harg7 arg8 harg8 arg9 harg9 hc0 hc1 x1 x2 x3 x4 x5 xs0 xs1) :=
  ⟨View.cover_of_tiledL _ S5000x64.size (by sl_kernel_rfl), View.cover_of_tiledL _ S1x64.size (by sl_kernel_rfl), View.cover_of_tiledL _ S1x64.size (by sl_kernel_rfl)⟩

end

section
variable (hc0 : ¬cond3_0 i) (hc1 : cond3_1 i) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32)

def outs3_C : Vec F S5000x64 .f32 × Vec F S2x64 .f32 × Vec F S1x64 .f32 × Vec F S1x64 .f32 :=
  reads3 (kernelRun3_C c i arg1 harg1 arg2 harg2 arg3 harg3 arg4 harg4 arg5 harg5 arg6 harg6 arg7 harg7 arg8 harg8 arg9 harg9 hc0 hc1 x1 x2 x3 x4 x5 xs0 xs1)

theorem covers3_C : Covers3 (kernelRun3_C c i arg1 harg1 arg2 harg2 arg3 harg3 arg4 harg4 arg5 harg5 arg6 harg6 arg7 harg7 arg8 harg8 arg9 harg9 hc0 hc1 x1 x2 x3 x4 x5 xs0 xs1) :=
  ⟨View.cover_of_tiledL _ S5000x64.size (by sl_kernel_rfl), View.cover_of_tiledL _ S1x64.size (by sl_kernel_rfl), View.cover_of_tiledL _ S1x64.size (by sl_kernel_rfl)⟩

theorem cover3_C_6 (y : S2x64.Idx) : ∃ pc ∈ (kernelRun3_C c i arg1 harg1 arg2 harg2 arg3 harg3 arg4 harg4 arg5 harg5 arg6 harg6 arg7 harg7 arg8 harg8 arg9 harg9 hc0 hc1 x1 x2 x3 x4 x5 xs0 xs1).2.1, y ∈ pc.1.set :=
  View.cover_of_tiledL (kernelRun3_C c i arg1 harg1 arg2 harg2 arg3 harg3 arg4 harg4 arg5 harg5 arg6 harg6 arg7 harg7 arg8 harg8 arg9 harg9 hc0 hc1 x1 x2 x3 x4 x5 xs0 xs1).2.1 S1x64.size (by sl_kernel_rfl) y

end

end

/-- What the body leaves at point `t` (output block, statistics block, the two accumulators) over the accumulators `s0`, `s1` left by the point before; the first point does not read them. -/
def step3 (c : Dev nD) (t : Fin cfg3.N) (s0 s1 : Vec F S1x64 .f32) : Vec F S5000x64 .f32 × Vec F S2x64 .f32 × Vec F S1x64 .f32 × Vec F S1x64 .f32 :=
  if h0 : t.val = 0 then
    outs3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) ((hcond3_0 t).mpr h0) (fun h => by have := (hcond3_1 t).mp h; omega) (iblk3 V c 0 t) (iblk3 V c 1 t) (iblk3 V c 2 t) (iblk3 V c 3 t) (iblk3 V c 4 t)
  else if h1 : t.val = 19 then
    outs3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) s0 s1
  else
    outs3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) s0 s1

def outsAt3 (c : Dev nD) : (n : ℕ) → n < cfg3.N → Vec F S5000x64 .f32 × Vec F S2x64 .f32 × Vec F S1x64 .f32 × Vec F S1x64 .f32
  | 0, hn => step3 V c ⟨0, hn⟩ (VS3_0.read (Elt F) VS3_0.junk) (VS3_0.read (Elt F) VS3_0.junk)
  | n + 1, hn => step3 V c ⟨n + 1, hn⟩ (outsAt3 c n (Nat.lt_of_succ_lt hn)).2.2.1 (outsAt3 c n (Nat.lt_of_succ_lt hn)).2.2.2

theorem outsAt3_eq (c : Dev nD) (t : Fin cfg3.N) :
    outsAt3 V c t.val t.isLt = step3 V c t (outsAt3 V c (t.val - 1) (Nat.lt_of_le_of_lt (Nat.sub_le _ _) t.isLt)).2.2.1 (outsAt3 V c (t.val - 1) (Nat.lt_of_le_of_lt (Nat.sub_le _ _) t.isLt)).2.2.2 := by
  obtain ⟨n, hn⟩ := t
  cases n with
  | zero => show step3 V c _ _ _ = _; unfold step3; rw [dif_pos rfl, dif_pos rfl]
  | succ n => rfl

/-- The region invariant with the two accumulators at `s0`, `s1`. -/
def PhiP3 (c : Dev nD) (s0 s1 : Vec F S1x64 .f32) : sProp 𝕄 :=
  iprop(iprop(iprop(owns (c : Thread nD τ) scM3_0 fullShare s0 ∗ owns (c : Thread nD τ) scM3_1 fullShare s1) ∗ Pipeline.scopedRestBut (Ix := Unit) (Name := ℕ) (U := UR sig nD τ) (Lvl := ℕ) (Val := Elt F) spec3 c [cc3_scratch0, cc3_scratch1]) ∗ (∃ r, prngReg c r))

def PhiS3 (c : Dev nD) : (n : ℕ) → n ≤ cfg3.N → sProp 𝕄
  | 0, _ => Pipeline.ΦA spec3 c
  | n + 1, hn => PhiP3 c (outsAt3 V c n hn).2.2.1 (outsAt3 V c n hn).2.2.2

theorem PhiS3_zero (c : Dev nD) (n : ℕ) (h : n ≤ cfg3.N) (hz : n = 0) : PhiS3 V c n h = Pipeline.ΦA spec3 c := by
  subst hz; rfl

theorem PhiS3_pos (c : Dev nD) (n : ℕ) (h : n ≤ cfg3.N) (hz : n ≠ 0) :
    PhiS3 V c n h = PhiP3 c (outsAt3 V c (n - 1) (by omega)).2.2.1 (outsAt3 V c (n - 1) (by omega)).2.2.2 := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
    | ⟨6, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]
theorem after3_6 (c : Dev nD) (t : Fin cfg3.N) : (dat3 V c).after 6 t = (outsAt3 V c t.val t.isLt).2.1 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiP3 c (outsAt3 V c t.val t.isLt).2.2.1 (outsAt3 V c t.val t.isLt).2.2.2 from rfl, PhiS3_castSucc V c t]
  unfold PhiP3
  rw [show (dat3 V c).leavesExact 0 t = owns (c : Thread nD τ) (ms3_0 t) fullShare ((dat3 V c).after 0 t) from by
    unfold Dat.leavesExact; rw [liveAt3 0 (by decide) t], after3_0]
  rw [show (dat3 V c).leavesExact 1 t = owns (c : Thread nD τ) (ms3_1 t) fullShare ((dat3 V c).after 1 t) from by
    unfold Dat.leavesExact; rw [liveAt3 1 (by decide) t], after3_1]
  rw [show (dat3 V c).leavesExact 2 t = owns (c : Thread nD τ) (ms3_2 t) fullShare ((dat3 V c).after 2 t) from by
    unfold Dat.leavesExact; rw [liveAt3 2 (by decide) t], after3_2]
  rw [show (dat3 V c).leavesExact 3 t = owns (c : Thread nD τ) (ms3_3 t) fullShare ((dat3 V c).after 3 t) from by
    unfold Dat.leavesExact; rw [liveAt3 3 (by decide) t], after3_3]
  rw [show (dat3 V c).leavesExact 4 t = owns (c : Thread nD τ) (ms3_4 t) fullShare ((dat3 V c).after 4 t) from by
    unfold Dat.leavesExact; rw [liveAt3 4 (by decide) t], after3_4]
  rw [show (dat3 V c).leavesExact 5 t = owns (c : Thread nD τ) (ms3_5 t) fullShare ((dat3 V c).after 5 t) from by
    unfold Dat.leavesExact; rw [liveAt3 5 (by decide) t], after3_5]
  by_cases h0 : t.val = 0
  · have c0 := (hcond3_0 t).mpr h0
    have c1 : ¬cond3_1 (grid3.coords t) := fun h => by have := (hcond3_1 t).mp h; omega
    rw [Dat.leavesExact_idle (dat3 V c) 6 t (idleAt3_6 t c1) (noFlush3_6 t c1)]
    rw [outsAt3_eq V c t]; unfold step3; rw [dif_pos h0]
    dsimp only [outs3_A, reads3]
    rw [PhiS3_zero V c _ _ h0, PhiA3_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun3_A c (grid3.coords t) _ _ _ _ _ _ _ _ _ _ _ _ _ _ _ _ _ _ c0 c1 (iblk3 V c 0 t) (iblk3 V c 1 t) (iblk3 V c 2 t) (iblk3 V c 3 t) (iblk3 V c 4 t)).2.2.2.2 _ Set.univ _)
    iframe H0 H1 H2 H3 H4 H6 HS0 HS1
    isplitl [H5]; · iexists _; iexact H5
    iintro ⟨H0, H1, H2, H3, H4, ⟨%e5, H5⟩, H6, ⟨%es0, HS0⟩, ⟨%es1, HS1⟩⟩
    iframe Hrest Hg Ho H0 H1 H2 H3 H4
    isplitl [HS0 HS1]
    · isplitl [HS0]
      · unfold owns; iexists _; isplitr
        swap; · iexact HS0
        ipureintro; exact View.read_writes_of_cover _ _ _ _ _ (covers3_A ..).2.1
      unfold owns; iexists _; isplitr
      swap; · iexact HS1
      ipureintro; exact View.read_writes_of_cover _ _ _ _ _ (covers3_A ..).2.2
    isplitl [H5]
    · unfold owns; iexists _; isplitr
      swap; · iexact H5
      ipureintro; exact View.read_writes_of_cover _ _ _ _ _ (covers3_A ..).1
    iexists _; iexact H6
  · rw [PhiS3_pos V c _ _ h0]; unfold PhiP3
    have c0 : ¬cond3_0 (grid3.coords t) := fun h => h0 ((hcond3_0 t).mp h)
    by_cases h1 : t.val = 19
    · have c1 := (hcond3_1 t).mpr h1
      rw [show (dat3 V c).leavesExact 6 t = owns (c : Thread nD τ) (ms3_6 t) fullShare ((dat3 V c).after 6 t) from by
        unfold Dat.leavesExact; rw [liveAt3_6_C t c0 c1], after3_6]
      rw [outsAt3_eq V c t]; unfold step3; rw [dif_neg h0, dif_pos h1]
      dsimp only [outs3_C, reads3]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_C c (grid3.coords t) _ _ _ _ _ _ _ _ _ _ _ _ _ _ _ _ _ _ c0 c1 (iblk3 V c 0 t) (iblk3 V c 1 t) (iblk3 V c 2 t) (iblk3 V c 3 t) (iblk3 V c 4 t) _ _).2.2.2.2 Set.univ _)
      iframe H0 H1 H2 H3 H4 HS0 HS1
      isplitl [H5]; · iexists _; iexact H5
      isplitl [H6]; · iexists _; iexact H6
      iintro ⟨H0, H1, H2, H3, H4, ⟨%e5, H5⟩, ⟨%e6, H6⟩, ⟨%es0, HS0⟩, ⟨%es1, HS1⟩⟩
      iframe Hrest Hg Ho H0 H1 H2 H3 H4
      isplitl [HS0 HS1]
      · isplitl [HS0]
        · unfold owns; iexists _; isplitr
          swap; · iexact HS0
          ipureintro; exact View.read_writes_of_cover _ _ _ _ _ (covers3_C ..).2.1
        unfold owns; iexists _; isplitr
        swap; · iexact HS1
        ipureintro; exact View.read_writes_of_cover _ _ _ _ _ (covers3_C ..).2.2
      isplitl [H5]
      · unfold owns; iexists _; isplitr
        swap; · iexact H5
        ipureintro; exact View.read_writes_of_cover _ _ _ _ _ (covers3_C ..).1
      unfold owns; iexists _; isplitr
      swap; · iexact H6
      ipureintro; exact View.read_writes_of_cover _ _ _ _ _ (fun _ => cover3_C_6 ..)
    · have c1 : ¬cond3_1 (grid3.coords t) := fun h => h1 ((hcond3_1 t).mp h)
      rw [Dat.leavesExact_idle (dat3 V c) 6 t (idleAt3_6 t c1) (noFlush3_6 t c1)]
      rw [outsAt3_eq V c t]; unfold step3; rw [dif_neg h0, dif_neg h1]
      dsimp only [outs3_B, reads3]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_B c (grid3.coords t) _ _ _ _ _ _ _ _ _ _ _ _ _ _ _ _ _ _ c0 c1 (iblk3 V c 0 t) (iblk3 V c 1 t) (iblk3 V c 2 t) (iblk3 V c 3 t) (iblk3 V c 4 t) _ _).2.2.2.2 _ Set.univ _)
      iframe H0 H1 H2 H3 H4 H6 HS0 HS1
      isplitl [H5]; · iexists _; iexact H5
      iintro ⟨H0, H1, H2, H3, H4, ⟨%e5, H5⟩, H6, ⟨%es0, HS0⟩, ⟨%es1, HS1⟩⟩
      iframe Hrest Hg Ho H0 H1 H2 H3 H4
      isplitl [HS0 HS1]
      · isplitl [HS0]
        · unfold owns; iexists _; isplitr
          swap; · iexact HS0
          ipureintro; exact View.read_writes_of_cover _ _ _ _ _ (covers3_B ..).2.1
        unfold owns; iexists _; isplitr
        swap; · iexact HS1
        ipureintro; exact View.read_writes_of_cover _ _ _ _ _ (covers3_B ..).2.2
      isplitl [H5]
      · unfold owns; iexists _; isplitr
        swap; · iexact H5
        ipureintro; exact View.read_writes_of_cover _ _ _ _ _ (covers3_B ..).1
      iexists _; iexact H6

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]; unfold PhiP3
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout3 (c : Dev nD) : (dat3 V c).Φ (Fin.last cfg3.N) ⊢ Pipeline.ΦA spec3 c :=
  Phi_out3 V c _ (by rw [Fin.val_last]; have : cfg3.N = 20 := N_3; omega)

end Cert.Kernel.Hand

end
-- ==== Proof.FrameK.Reg4.lean ====
import proofs.«402365_j6828998001463_1_alg».proof.Proof.Gen.Kernel.Launch
import proofs.«402365_j6828998001463_1_alg».proof.Proof.Gen.Kernel.Skeleton
import proofs.«402365_j6828998001463_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x64 := Rect.unit (s := S5000x64) ![0, 0] S5000x64.size inb_S5000x64_S5000x64_0_0
abbrev r4_1 : Rect S1x64 := Rect.unit (s := S1x64) ![0, 0] S1x64.size inb_S1x64_S1x64_0_0

def out4_5 (x0 : Vec F S5000x64 .f32) (x1 x2 x3 x4 : Vec F S1x64 .f32) : Vec F S5000x64 .f32 :=
  View.canon [⟨r4_0, k4_pay1 (View.ld x2 r4_1) (View.ld x3 r4_1) (View.ld x0 r4_0) (View.ld x1 r4_1) (View.ld x4 r4_1)⟩]

-- the one stored rectangle is the whole shape
theorem cover4_5 (p0 : Vec F S5000x64 .f32) (y : S5000x64.Idx) :
    ∃ pc ∈ ([⟨r4_0, p0⟩] : List (View.Piece (Elt F) S5000x64 .f32)), y ∈ pc.1.set :=
  View.cover_of_tiled [⟨r4_0, p0⟩] S5000x64.size (by rfl) y

-- the body is whole-block loads and one whole-block store; the stored piece covers the shape, so what it leaves is that piece's canonical contents
set_option maxHeartbeats 1000000 in
theorem sound_kernel4 (E : Set ℕ) (i : grid4.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out4_5 x0 x1 x2 x3 x4)) -∗ K ⟨⟩))
      ⊢ wp frame (wpE (defs₀ (F := F)) Variants.none c none) E (cc4__bn_kernel i arg1 harg1 arg2 harg2 arg3 harg3 arg4 harg4 arg5 harg5 arg6 harg6) K := by
  simp only [cc4__bn_kernel_eq_skeleton]; unfold cc4__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (w : Fin cfg4.W) : (dat4 V c).A w = V c (Pipeline.arrRef spec4 w) := rfl

theorem after4_5 (t : Fin cfg4.N) : (dat4 V c).after 5 t = out4_5 (iblk4 V c 0 t) (iblk4 V c 1 t) (iblk4 V c 2 t) (iblk4 V c 3 t) (iblk4 V c 4 t) := by dsimp only [dat4]

theorem before4_0 (t : Fin cfg4.N) (d) : (dat4 V c).before 0 t d = iblk4 V c 0 t :=
  ((dat4 V c).before_in_eq_fetched 0 rfl (fun _ => rfl) (fun _ _ _ => rfl) (fun _ => rfl) t d).trans rfl
theorem before4_1 (t : Fin cfg4.N) (d) : (dat4 V c).before 1 t d = iblk4 V c 1 t :=
  ((dat4 V c).before_in_eq_fetched 1 rfl (fun _ => rfl) (fun _ _ _ => rfl) (fun _ => rfl) t d).trans rfl
theorem before4_2 (t : Fin cfg4.N) (d) : (dat4 V c).before 2 t d = iblk4 V c 2 t :=
  ((dat4 V c).before_in_eq_fetched 2 rfl (fun _ => rfl) (fun _ _ _ => rfl) (fun _ => rfl) t d).trans rfl
theorem before4_3 (t : Fin cfg4.N) (d) : (dat4 V c).before 3 t d = iblk4 V c 3 t :=
  ((dat4 V c).before_in_eq_fetched 3 rfl (fun _ => rfl) (fun _ _ _ => rfl) (fun _ => rfl) t d).trans rfl
theorem before4_4 (t : Fin cfg4.N) (d) : (dat4 V c).before 4 t d = iblk4 V c 4 t :=
  ((dat4 V c).before_in_eq_fetched 4 rfl (fun _ => rfl) (fun _ _ _ => rfl) (fun _ => rfl) t d).trans rfl

-- every input holds its block, so the body's triple applies; everything else passes through unread
theorem body_obligation4 : BodyObligation (dat4 (F := F) V c) (defs₀ (F := F)) Variants.none () Set.univ := fun t => by
  rw [bigSep_W4, bigSep_W4]
  show iprop(_ ∗ _ ∗ (∃ d, _) ∗ (∃ d, _) ∗ (∃ d, _) ∗ (∃ d, _) ∗ (∃ d, _) ∗ (∃ d, _))
    ⊢ wp _ _ _ (bodyAt4 t) fun _ => iprop(_ ∗ _ ∗ owns _ _ _ _ ∗ owns _ _ _ _ ∗ owns _ _ _ _ ∗ owns _ _ _ _ ∗ owns _ _ _ _ ∗ owns _ _ _ _)
  simp only [before4_0, before4_1, before4_2, before4_3, before4_4]
  rw [show (dat4 V c).owesAt () t.succ = (dat4 V c).owesAt () t.castSucc from rfl]
  dsimp only [dat4]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  iframe H0 H1 H2 H3 H4
  isplitl [H5]; · iexists _; iexact H5
  iintro ⟨H0, H1, H2, H3, H4, H5⟩
  iframe

theorem hin4 : Pipeline.ΦA spec4 c ⊢ (dat4 V c).Φ 0 := BI.Entails.refl _

theorem hout4 : (dat4 V c).Φ (Fin.last cfg4.N) ⊢ Pipeline.ΦA spec4 c := BI.Entails.refl _

end Cert.Kernel.Hand

end
-- ==== Proof.FrameK.Reg5Runs.lean ====
import proofs.«402365_j6828998001463_1_alg».proof.Proof.Gen.Kernel.Launch
import proofs.«402365_j6828998001463_1_alg».proof.Proof.Gen.Kernel.Skeleton
import proofs.«402365_j6828998001463_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev cond5_0 (i : grid5.Coords) : Prop := (Scalar.cmpi .ne (Scalar.extui (Scalar.cmpi .eq (BitVec.ofNat 32 (i 0).val) 0#32)) 0#32) = 1#1
theorem hcond5_0 : ∀ t : Fin cfg5.N, cond5_0 (grid5.coords t) ↔ t.val = 0 :=
  (by decide +kernel : ∀ t : Fin grid5.N, cond5_0 (grid5.coords t) ↔ t.val = 0)

abbrev cond5_1 (i : grid5.Coords) : Prop := k5_cond2 i = 1#1
theorem hcond5_1 : ∀ t : Fin cfg5.N, cond5_1 (grid5.coords t) ↔ t.val = 19 :=
  (by decide +kernel : ∀ t : Fin grid5.N, cond5_1 (grid5.coords t) ↔ t.val = 19)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
theorem liveAt5_4 : ∀ t : Fin cfg5.N, cfg5.idle 4 (grid5.coords t) = false := by decide +kernel
theorem liveAt5_5 : ∀ t : Fin cfg5.N, cfg5.idle 5 (grid5.coords t) = false := by decide +kernel

abbrev VO5_5 : View sig .tc .vmem S5000x64 .f32 := (Memref.whole cc5_stg5_0 : Memref sig .tc .vmem S5000x64 .f32).view
abbrev VO5_6 : View sig .tc .vmem S2x64 .f32 := (Memref.whole cc5_stg6_0 : Memref sig .tc .vmem S2x64 .f32).view
abbrev ms5_0 (t : Fin cfg5.N) : Memref sig .tc .vmem S5000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S5000x64 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S128x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S64x64 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x64 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S5000x64 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S2x64 .f32 := win5_6.stage (cfg5.slots t 6)
abbrev hs5_6 (t : Fin cfg5.N) : (ms5_6 t).IsWhole := hstage5_6 ((cfg5.slots t 6).cast nbuf5_6)

abbrev scM5_0 : Memref sig .tc .vmem S1x64 .f32 := Memref.whole cc5_scratch0
abbrev scM5_1 : Memref sig .tc .vmem S1x64 .f32 := Memref.whole cc5_scratch1
abbrev VS5_0 : View sig .tc .vmem S1x64 .f32 := scM5_0.view
abbrev VS5_1 : View sig .tc .vmem S1x64 .f32 := scM5_1.view

theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1]) ∗ (∃ r, prngReg c r)) := by
  unfold Pipeline.ΦA; rw [scopedRest5_split]; simp only [scM5_0, scM5_1, owns_whole]; try rfl

end Cert.Kernel.Hand

end
-- ==== Proof.FrameK.Reg5RunA.lean ====
import proofs.«402365_j6828998001463_1_alg».proof.Proof.FrameK.Reg5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun5_A (c : Dev nD) (i : grid5.Coords) (arg1 : Memref sig .tc .vmem S5000x128 .f32) (harg1 : arg1.IsWhole) (arg2 : Memref sig .tc .vmem S5000x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S2x64 .f32) (harg7 : arg7.IsWhole) (arg8 : Memref sig .tc .vmem S1x64 .f32) (harg8 : arg8.IsWhole) (arg9 : Memref sig .tc .vmem S1x64 .f32) (harg9 : arg9.IsWhole) (hc0 : cond5_0 i) (hc1 : ¬cond5_1 i)
    (x0 : Vec F S5000x128 .f32) (x1 : Vec F S5000x64 .f32) (x2 : Vec F S128x64 .f32) (x3 : Vec F S64x64 .f32) (x4 : Vec F S1x64 .f32) :
    Σ' (L5 : List (View.Piece (Elt F) S5000x64 .f32)) (L6 : List (View.Piece (Elt F) S2x64 .f32)) (LS0 : List (View.Piece (Elt F) S1x64 .f32)), { LS1 : List (View.Piece (Elt F) S1x64 .f32) //
      ∀ (xi6 : Vec F S2x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc5__finlin_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc5__finlin_kernel_eq_skeleton]; unfold cc5__finlin_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [HS0]; · iexists _; iexact HS0
    iexists _; iexact HS1

end Cert.Kernel.Hand

end
-- ==== Proof.FrameK.Reg5RunB.lean ====
import proofs.«402365_j6828998001463_1_alg».proof.Proof.FrameK.Reg5RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun5_B (c : Dev nD) (i : grid5.Coords) (arg1 : Memref sig .tc .vmem S5000x128 .f32) (harg1 : arg1.IsWhole) (arg2 : Memref sig .tc .vmem S5000x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S2x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : ¬cond5_1 i)
    (x0 : Vec F S5000x128 .f32) (x1 : Vec F S5000x64 .f32) (x2 : Vec F S128x64 .f32) (x3 : Vec F S64x64 .f32) (x4 : Vec F S1x64 .f32) (xs0 : Vec F S1x64 .f32) (xs1 : Vec F S1x64 .f32) :
    Σ' (L5 : List (View.Piece (Elt F) S5000x64 .f32)) (L6 : List (View.Piece (Elt F) S2x64 .f32)) (LS0 : List (View.Piece (Elt F) S1x64 .f32)), { LS1 : List (View.Piece (Elt F) S1x64 .f32) //
      ∀ (xi6 : Vec F S2x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc5__finlin_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc5__finlin_kernel_eq_skeleton]; unfold cc5__finlin_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [HS0]; · iexists _; iexact HS0
    iexists _; iexact HS1

end Cert.Kernel.Hand

end
-- ==== Proof.FrameK.Reg5RunC.lean ====
import proofs.«402365_j6828998001463_1_alg».proof.Proof.FrameK.Reg5RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun5_C (c : Dev nD) (i : grid5.Coords) (arg1 : Memref sig .tc .vmem S5000x128 .f32) (harg1 : arg1.IsWhole) (arg2 : Memref sig .tc .vmem S5000x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S2x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : cond5_1 i)
    (x0 : Vec F S5000x128 .f32) (x1 : Vec F S5000x64 .f32) (x2 : Vec F S128x64 .f32) (x3 : Vec F S64x64 .f32) (x4 : Vec F S1x64 .f32) (xs0 : Vec F S1x64 .f32) (xs1 : Vec F S1x64 .f32) :
    Σ' (L5 : List (View.Piece (Elt F) S5000x64 .f32)) (L6 : List (View.Piece (Elt F) S2x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc5__finlin_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc5__finlin_kernel_eq_skeleton]; unfold cc5__finlin_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]; · iexists _; iexact HS0
    iexists _; iexact HS1

end Cert.Kernel.Hand

end
-- ==== Proof.FrameK.Reg5.lean ====
import proofs.«402365_j6828998001463_1_alg».proof.Proof.FrameK.Reg5RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (t : Fin cfg5.N)

section
variable (h0 : t.val = 0) (h1 : ¬t.val = 19)

def run5_A :=
  kernelRun5_A c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t)

theorem cover5_A_5 : ∀ y : S5000x64.Idx, ∃ pc ∈ (run5_A V c t h0 h1).1, y ∈ pc.1.set :=
  View.cover_of_tiledL _ S5000x64.size (by sl_kernel_rfl)
theorem scover5_A_0 : ∀ y : S1x64.Idx, ∃ pc ∈ (run5_A V c t h0 h1).2.2.1, y ∈ pc.1.set :=
  View.cover_of_tiledL _ S1x64.size (by sl_kernel_rfl)
theorem scover5_A_1 : ∀ y : S1x64.Idx, ∃ pc ∈ (run5_A V c t h0 h1).2.2.2.1, y ∈ pc.1.set :=
  View.cover_of_tiledL _ S1x64.size (by sl_kernel_rfl)

def outs5_A_at : Vec F S5000x64 .f32 × Vec F S2x64 .f32 × Vec F S1x64 .f32 × Vec F S1x64 .f32 :=
  (VO5_5.read (Elt F) (VO5_5.writes (Elt F) VO5_5.junk (run5_A V c t h0 h1).1),
    VO5_6.read (Elt F) (VO5_6.writes (Elt F) VO5_6.junk (run5_A V c t h0 h1).2.1),
    VS5_0.read (Elt F) (VS5_0.writes (Elt F) VS5_0.junk (run5_A V c t h0 h1).2.2.1),
    VS5_1.read (Elt F) (VS5_1.writes (Elt F) VS5_1.junk (run5_A V c t h0 h1).2.2.2.1))

end

section
variable (h0 : ¬t.val = 0) (h1 : ¬t.val = 19) (xs0 : Vec F S1x64 .f32) (xs1 : Vec F S1x64 .f32)

def run5_B :=
  kernelRun5_B c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) xs0 xs1

theorem cover5_B_5 : ∀ y : S5000x64.Idx, ∃ pc ∈ (run5_B V c t h0 h1 xs0 xs1).1, y ∈ pc.1.set :=
  View.cover_of_tiledL _ S5000x64.size (by sl_kernel_rfl)
theorem scover5_B_0 : ∀ y : S1x64.Idx, ∃ pc ∈ (run5_B V c t h0 h1 xs0 xs1).2.2.1, y ∈ pc.1.set :=
  View.cover_of_tiledL _ S1x64.size (by sl_kernel_rfl)
theorem scover5_B_1 : ∀ y : S1x64.Idx, ∃ pc ∈ (run5_B V c t h0 h1 xs0 xs1).2.2.2.1, y ∈ pc.1.set :=
  View.cover_of_tiledL _ S1x64.size (by sl_kernel_rfl)

def outs5_B_at : Vec F S5000x64 .f32 × Vec F S2x64 .f32 × Vec F S1x64 .f32 × Vec F S1x64 .f32 :=
  (VO5_5.read (Elt F) (VO5_5.writes (Elt F) VO5_5.junk (run5_B V c t h0 h1 xs0 xs1).1),
    VO5_6.read (Elt F) (VO5_6.writes (Elt F) VO5_6.junk (run5_B V c t h0 h1 xs0 xs1).2.1),
    VS5_0.read (Elt F) (VS5_0.writes (Elt F) VS5_0.junk (run5_B V c t h0 h1 xs0 xs1).2.2.1),
    VS5_1.read (Elt F) (VS5_1.writes (Elt F) VS5_1.junk (run5_B V c t h0 h1 xs0 xs1).2.2.2.1))

end

section
variable (h0 : ¬t.val = 0) (h1 : t.val = 19) (xs0 : Vec F S1x64 .f32) (xs1 : Vec F S1x64 .f32)

def run5_C :=
  kernelRun5_C c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) xs0 xs1

theorem cover5_C_5 : ∀ y : S5000x64.Idx, ∃ pc ∈ (run5_C V c t h0 h1 xs0 xs1).1, y ∈ pc.1.set :=
  View.cover_of_tiledL _ S5000x64.size (by sl_kernel_rfl)
theorem cover5_C_6 : ∀ y : S2x64.Idx, ∃ pc ∈ (run5_C V c t h0 h1 xs0 xs1).2.1, y ∈ pc.1.set :=
  View.cover_of_tiledL _ S1x64.size (by sl_kernel_rfl)
theorem scover5_C_0 : ∀ y : S1x64.Idx, ∃ pc ∈ (run5_C V c t h0 h1 xs0 xs1).2.2.1, y ∈ pc.1.set :=
  View.cover_of_tiledL _ S1x64.size (by sl_kernel_rfl)
theorem scover5_C_1 : ∀ y : S1x64.Idx, ∃ pc ∈ (run5_C V c t h0 h1 xs0 xs1).2.2.2.1, y ∈ pc.1.set :=
  View.cover_of_tiledL _ S1x64.size (by sl_kernel_rfl)

def outs5_C_at : Vec F S5000x64 .f32 × Vec F S2x64 .f32 × Vec F S1x64 .f32 × Vec F S1x64 .f32 :=
  (VO5_5.read (Elt F) (VO5_5.writes (Elt F) VO5_5.junk (run5_C V c t h0 h1 xs0 xs1).1),
    VO5_6.read (Elt F) (VO5_6.writes (Elt F) VO5_6.junk (run5_C V c t h0 h1 xs0 xs1).2.1),
    VS5_0.read (Elt F) (VS5_0.writes (Elt F) VS5_0.junk (run5_C V c t h0 h1 xs0 xs1).2.2.1),
    VS5_1.read (Elt F) (VS5_1.writes (Elt F) VS5_1.junk (run5_C V c t h0 h1 xs0 xs1).2.2.2.1))

end

end

-- the first point runs case A; a later point runs case C if it is the last and case B otherwise, over the accumulators the point before left
def outsAt5 (c : Dev nD) : (n : ℕ) → n < cfg5.N → Vec F S5000x64 .f32 × Vec F S2x64 .f32 × Vec F S1x64 .f32 × Vec F S1x64 .f32
  | 0, hn => outs5_A_at V c ⟨0, hn⟩ rfl (Nat.zero_ne_add_one 18)
  | n + 1, hn =>
    if h1 : n + 1 = 19 then
      outs5_C_at V c ⟨n + 1, hn⟩ (Nat.succ_ne_zero n) h1 (outsAt5 c n (Nat.lt_of_succ_lt hn)).2.2.1 (outsAt5 c n (Nat.lt_of_succ_lt hn)).2.2.2
    else
      outs5_B_at V c ⟨n + 1, hn⟩ (Nat.succ_ne_zero n) h1 (outsAt5 c n (Nat.lt_of_succ_lt hn)).2.2.1 (outsAt5 c n (Nat.lt_of_succ_lt hn)).2.2.2

theorem outsAt5_A (c : Dev nD) (t : Fin cfg5.N) (h0 : t.val = 0) (h1 : ¬t.val = 19) :
    outsAt5 V c t.val t.isLt = outs5_A_at V c t h0 h1 := by
  obtain ⟨n, hn⟩ := t
  cases n with
  | zero => exact rfl
  | succ n => exact absurd h0 (Nat.succ_ne_zero n)

theorem outsAt5_B (c : Dev nD) (t : Fin cfg5.N) (h0 : ¬t.val = 0) (h1 : ¬t.val = 19) :
    outsAt5 V c t.val t.isLt = outs5_B_at V c t h0 h1 (outsAt5 V c (t.val - 1) (Nat.lt_of_le_of_lt (Nat.sub_le _ _) t.isLt)).2.2.1 (outsAt5 V c (t.val - 1) (Nat.lt_of_le_of_lt (Nat.sub_le _ _) t.isLt)).2.2.2 := by
  obtain ⟨n, hn⟩ := t
  cases n with
  | zero => exact absurd rfl h0
  | succ n => exact (dif_neg h1).trans rfl

theorem outsAt5_C (c : Dev nD) (t : Fin cfg5.N) (h0 : ¬t.val = 0) (h1 : t.val = 19) :
    outsAt5 V c t.val t.isLt = outs5_C_at V c t h0 h1 (outsAt5 V c (t.val - 1) (Nat.lt_of_le_of_lt (Nat.sub_le _ _) t.isLt)).2.2.1 (outsAt5 V c (t.val - 1) (Nat.lt_of_le_of_lt (Nat.sub_le _ _) t.isLt)).2.2.2 := by
  obtain ⟨n, hn⟩ := t
  cases n with
  | zero => exact absurd rfl h0
  | succ n => exact (dif_pos h1).trans rfl

def PhiAt5 (c : Dev nD) (a0 a1 : Vec F S1x64 .f32) : sProp 𝕄 :=
  iprop(iprop(iprop(owns (c : Thread nD τ) scM5_0 fullShare a0 ∗ owns (c : Thread nD τ) scM5_1 fullShare a1)
      ∗ Pipeline.scopedRestBut (Ix := Unit) (Name := ℕ) (U := UR sig nD τ) (Lvl := ℕ) (Val := Elt F) spec5 c [cc5_scratch0, cc5_scratch1]) ∗ (∃ r, prngReg c r))

def PhiS5 (c : Dev nD) : (n : ℕ) → n ≤ cfg5.N → sProp 𝕄
  | 0, _ => Pipeline.ΦA spec5 c
  | n + 1, hn => PhiAt5 c (outsAt5 V c n hn).2.2.1 (outsAt5 V c n hn).2.2.2

theorem PhiS5_zero (c : Dev nD) (n : ℕ) (h : n ≤ cfg5.N) (hz : n = 0) : PhiS5 V c n h = Pipeline.ΦA spec5 c := by
  subst hz; rfl

theorem PhiS5_pos (c : Dev nD) (n : ℕ) (h : n ≤ cfg5.N) (hz : n ≠ 0) :
    PhiS5 V c n h = PhiAt5 c (outsAt5 V c (n - 1) (by omega)).2.2.1 (outsAt5 V c (n - 1) (by omega)).2.2.2 := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt).1
    | ⟨6, _⟩ => (outsAt5 V c t.val t.isLt).2.1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = (outsAt5 V c t.val t.isLt).1 := by dsimp only [dat5]
theorem after5_6 (c : Dev nD) (t : Fin cfg5.N) : (dat5 V c).after 6 t = (outsAt5 V c t.val t.isLt).2.1 := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d
theorem before5_4 (c : Dev nD) (t : Fin cfg5.N) (d) : (dat5 V c).before 4 t d = iblk5 V c 4 t :=
  (dat5 V c).before_in_eq_fetched 4 rfl (fun _ => rfl) (fun _ _ _ => rfl) (fun _ => rfl) t d

theorem idleAt5_6 : ∀ t : Fin cfg5.N, ¬t.val = 19 → cfg5.idle 6 (grid5.coords t) = true := by decide +kernel
theorem noFlush5_6 : ∀ t : Fin cfg5.N, ¬t.val = 19 → (cfg5.win 6).flush t = false := by decide +kernel
theorem liveAt5_6 : ∀ t : Fin cfg5.N, t.val = 19 → cfg5.idle 6 (grid5.coords t) = false := by decide +kernel

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t)

set_option maxHeartbeats 4800000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl]
  rw [show (dat5 V c).Φ t.succ = PhiAt5 c (outsAt5 V c t.val t.isLt).2.2.1 (outsAt5 V c t.val t.isLt).2.2.2 from rfl]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [liveAt5_4 t], after5_4]
  rw [show (dat5 V c).leavesExact 5 t = owns (c : Thread nD τ) (ms5_5 t) fullShare ((dat5 V c).after 5 t) from by
    unfold Dat.leavesExact; rw [liveAt5_5 t], after5_5]
  have hN : t.val < 20 := lt_of_lt_of_eq t.isLt (show cfg5.N = 20 from N_5)
  by_cases h0 : t.val = 0
  · have h1 : ¬t.val = 19 := by omega
    rw [Dat.leavesExact_idle (dat5 V c) 6 t (idleAt5_6 t h1) (noFlush5_6 t h1)]
    rw [outsAt5_A V c t h0 h1]
    unfold outs5_A_at; (try dsimp only)
    rw [PhiS5_castSucc V c t, PhiS5_zero V c _ _ h0, PhiA5_eq]; unfold PhiAt5
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((run5_A V c t h0 h1).2.2.2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    iintro ⟨H0, H1, H2, H3, H4, ⟨%e5, H5⟩, H6, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (fun _ => scover5_A_0 ..)
          · unfold owns; iexists _; isplitr
            swap; · iexact HS1
            ipureintro; exact View.read_writes_of_cover _ _ _ _ _ (fun _ => scover5_A_1 ..)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (fun _ => cover5_A_5 ..)
    iexists _; iexact H6
  · by_cases h1 : t.val = 19
    · rw [show (dat5 V c).leavesExact 6 t = owns (c : Thread nD τ) (ms5_6 t) fullShare ((dat5 V c).after 6 t) from by
        unfold Dat.leavesExact; rw [liveAt5_6 t h1], after5_6]
      rw [outsAt5_C V c t h0 h1]
      unfold outs5_C_at; (try dsimp only)
      rw [PhiS5_castSucc V c t, PhiS5_pos V c _ _ h0]; unfold PhiAt5
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((run5_C V c t h0 h1 _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (fun _ => scover5_C_0 ..)
            · unfold owns; iexists _; isplitr
              swap; · iexact HS1
              ipureintro; exact View.read_writes_of_cover _ _ _ _ _ (fun _ => scover5_C_1 ..)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (fun _ => cover5_C_5 ..)
      unfold owns; iexists _; isplitr
      swap; · iexact H6
      ipureintro; exact View.read_writes_of_cover _ _ _ _ _ (fun _ => cover5_C_6 ..)
    · rw [Dat.leavesExact_idle (dat5 V c) 6 t (idleAt5_6 t h1) (noFlush5_6 t h1)]
      rw [outsAt5_B V c t h0 h1]
      unfold outs5_B_at; (try dsimp only)
      rw [PhiS5_castSucc V c t, PhiS5_pos V c _ _ h0]; unfold PhiAt5
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((run5_B V c t h0 h1 _ _).2.2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      iintro ⟨H0, H1, H2, H3, H4, ⟨%e5, H5⟩, H6, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (fun _ => scover5_B_0 ..)
            · unfold owns; iexists _; isplitr
              swap; · iexact HS1
              ipureintro; exact View.read_writes_of_cover _ _ _ _ _ (fun _ => scover5_B_1 ..)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (fun _ => cover5_B_5 ..)
      iexists _; iexact H6

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]

theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]; unfold PhiAt5
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

theorem hout5 (c : Dev nD) : (dat5 V c).Φ (Fin.last cfg5.N) ⊢ Pipeline.ΦA spec5 c :=
  Phi_out5 V c _ (by rw [Fin.val_last]; have : cfg5.N = 20 := N_5; omega)

end Cert.Kernel.Hand

end
-- ==== Proof.FrameK.Reg6.lean ====
import proofs.«402365_j6828998001463_1_alg».proof.Proof.Gen.Kernel.Launch
import proofs.«402365_j6828998001463_1_alg».proof.Proof.Gen.Kernel.Skeleton
import proofs.«402365_j6828998001463_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S5000x64 := Rect.unit (s := S5000x64) ![0, 0] S5000x64.size inb_S5000x64_S5000x64_0_0
abbrev r6_1 : Rect S1x64 := Rect.unit (s := S1x64) ![0, 0] S1x64.size inb_S1x64_S1x64_0_0
abbrev r6_2 : Rect S64x1 := Rect.unit (s := S64x1) ![0, 0] S64x1.size inb_S64x1_S64x1_0_0
abbrev r6_3 : Rect S1x1 := Rect.unit (s := S1x1) ![0, 0] S1x1.size inb_S1x1_S1x1_0_0
abbrev r6_4 : Rect S5000x1 := Rect.unit (s := S5000x1) ![0, 0] S5000x1.size inb_S5000x1_S5000x1_0_0

def out6_7 (x0 : Vec F S5000x64 .f32) (x1 x2 x3 x4 : Vec F S1x64 .f32)
    (x5 : Vec F S64x1 .f32) (x6 : Vec F S1x1 .f32) : Vec F S5000x1 .f32 :=
  View.canon [⟨r6_4, k6_pay1 (View.ld x2 r6_1) (View.ld x3 r6_1) (View.ld x0 r6_0) (View.ld x1 r6_1) (View.ld x4 r6_1) (View.ld x5 r6_2) (View.ld x6 r6_3)⟩]

-- the one stored rectangle is the whole shape
theorem cover6_7 (p0 : Vec F S5000x1 .f32) (y : S5000x1.Idx) :
    ∃ pc ∈ ([⟨r6_4, p0⟩] : List (View.Piece (Elt F) S5000x1 .f32)), y ∈ pc.1.set :=
  View.cover_of_tiled [⟨r6_4, p0⟩] S5000x1.size (by sl_kernel_rfl) y

-- the body is whole-block loads and one whole-block store; the stored piece covers the shape, so what it leaves is that piece's canonical contents
set_option maxHeartbeats 1000000 in
theorem sound_kernel6 (E : Set ℕ) (i : grid6.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S64x1 .f32) (harg6 : arg6.IsWhole)
    (arg7 : Memref sig .tc .vmem S1x1 .f32) (harg7 : arg7.IsWhole) (arg8 : Memref sig .tc .vmem S5000x1 .f32) (harg8 : arg8.IsWhole)
    (x0 : Vec F S5000x64 .f32) (x1 x2 x3 x4 : Vec F S1x64 .f32)
    (x5 : Vec F S64x1 .f32) (x6 : Vec F S1x1 .f32) (K : PUnit → sProp 𝕄) :
    iprop(owns c arg1 fullShare x0 ∗ owns c arg2 fullShare x1 ∗ owns c arg3 fullShare x2
        ∗ owns c arg4 fullShare x3 ∗ owns c arg5 fullShare x4 ∗ owns c arg6 fullShare x5
        ∗ owns c arg7 fullShare x6 ∗ (∃ d, owns c arg8 fullShare d)
        ∗ (iprop(owns c arg1 fullShare x0 ∗ owns c arg2 fullShare x1 ∗ owns c arg3 fullShare x2
            ∗ owns c arg4 fullShare x3 ∗ owns c arg5 fullShare x4 ∗ owns c arg6 fullShare x5
            ∗ owns c arg7 fullShare x6 ∗ owns c arg8 fullShare (out6_7 x0 x1 x2 x3 x4 x5 x6)) -∗ K ⟨⟩))
      ⊢ wp frame (wpE (defs₀ (F := F)) Variants.none c none) E (cc6__finact_kernel i arg1 harg1 arg2 harg2 arg3 harg3 arg4 harg4 arg5 harg5 arg6 harg6 arg7 harg7 arg8 harg8) K := by
  simp only [cc6__finact_kernel_eq_skeleton]; unfold cc6__finact_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

def dat6 : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (w : Fin cfg6.W) : (dat6 V c).A w = V c (Pipeline.arrRef spec6 w) := rfl

theorem after6_7 (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

theorem before6_0 (t : Fin cfg6.N) (d) : (dat6 V c).before 0 t d = iblk6 V c 0 t :=
  ((dat6 V c).before_in_eq_fetched 0 rfl (fun _ => rfl) (fun _ _ _ => rfl) (fun _ => rfl) t d).trans rfl
theorem before6_1 (t : Fin cfg6.N) (d) : (dat6 V c).before 1 t d = iblk6 V c 1 t :=
  ((dat6 V c).before_in_eq_fetched 1 rfl (fun _ => rfl) (fun _ _ _ => rfl) (fun _ => rfl) t d).trans rfl
theorem before6_2 (t : Fin cfg6.N) (d) : (dat6 V c).before 2 t d = iblk6 V c 2 t :=
  ((dat6 V c).before_in_eq_fetched 2 rfl (fun _ => rfl) (fun _ _ _ => rfl) (fun _ => rfl) t d).trans rfl
theorem before6_3 (t : Fin cfg6.N) (d) : (dat6 V c).before 3 t d = iblk6 V c 3 t :=
  ((dat6 V c).before_in_eq_fetched 3 rfl (fun _ => rfl) (fun _ _ _ => rfl) (fun _ => rfl) t d).trans rfl
theorem before6_4 (t : Fin cfg6.N) (d) : (dat6 V c).before 4 t d = iblk6 V c 4 t :=
  ((dat6 V c).before_in_eq_fetched 4 rfl (fun _ => rfl) (fun _ _ _ => rfl) (fun _ => rfl) t d).trans rfl
theorem before6_5 (t : Fin cfg6.N) (d) : (dat6 V c).before 5 t d = iblk6 V c 5 t :=
  ((dat6 V c).before_in_eq_fetched 5 rfl (fun _ => rfl) (fun _ _ _ => rfl) (fun _ => rfl) t d).trans rfl
theorem before6_6 (t : Fin cfg6.N) (d) : (dat6 V c).before 6 t d = iblk6 V c 6 t :=
  ((dat6 V c).before_in_eq_fetched 6 rfl (fun _ => rfl) (fun _ _ _ => rfl) (fun _ => rfl) t d).trans rfl

-- every input holds its block, so the body's triple applies; everything else passes through unread
theorem body_obligation6 : BodyObligation (dat6 (F := F) V c) (defs₀ (F := F)) Variants.none () Set.univ := fun t => by
  rw [bigSep_W6, bigSep_W6]
  show iprop(_ ∗ _ ∗ (∃ d, _) ∗ (∃ d, _) ∗ (∃ d, _) ∗ (∃ d, _) ∗ (∃ d, _) ∗ (∃ d, _) ∗ (∃ d, _) ∗ (∃ d, _))
    ⊢ wp _ _ _ (bodyAt6 t) fun _ => iprop(_ ∗ _ ∗ owns _ _ _ _ ∗ owns _ _ _ _ ∗ owns _ _ _ _ ∗ owns _ _ _ _ ∗ owns _ _ _ _ ∗ owns _ _ _ _ ∗ owns _ _ _ _ ∗ owns _ _ _ _)
  simp only [before6_0, before6_1, before6_2, before6_3, before6_4, before6_5, before6_6]
  rw [show (dat6 V c).owesAt () t.succ = (dat6 V c).owesAt () t.castSucc from rfl]
  dsimp only [dat6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ (grid6.coords t) _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  iframe H0 H1 H2 H3 H4 H5 H6
  isplitl [H7]; · iexists _; iexact H7
  iintro ⟨H0, H1, H2, H3, H4, H5, H6, H7⟩
  iframe

theorem hin6 : Pipeline.ΦA spec6 c ⊢ (dat6 V c).Φ 0 := .rfl

theorem hout6 : (dat6 V c).Φ (Fin.last cfg6.N) ⊢ Pipeline.ΦA spec6 c := .rfl

end Cert.Kernel.Hand

end
-- ==== Proof.FrameK.Run.lean ====
import proofs.«402365_j6828998001463_1_alg».proof.Proof.FrameK.RunCond
import proofs.«402365_j6828998001463_1_alg».proof.Proof.FrameK.Reg0
import proofs.«402365_j6828998001463_1_alg».proof.Proof.FrameK.Reg1
import proofs.«402365_j6828998001463_1_alg».proof.Proof.FrameK.Reg2
import proofs.«402365_j6828998001463_1_alg».proof.Proof.FrameK.Reg3
import proofs.«402365_j6828998001463_1_alg».proof.Proof.FrameK.Reg4
import proofs.«402365_j6828998001463_1_alg».proof.Proof.FrameK.Reg5
import proofs.«402365_j6828998001463_1_alg».proof.Proof.FrameK.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

abbrev rd (W : Dev nD → Valuation τ sig (Elt F)) : (c : Dev nD) → (b : Ref sig .tc) → Buf (Elt F) ((c : Thread nD τ).loc b) :=
  fun c b => W c b

@[irreducible] def W1 : Valuation τ sig (Elt F) := StableHlo.after hostOps0 (fun b => m (c, b))
def o2_main_v6 : Buf (Elt F) ((c : Thread nD τ).loc main_v6) := (dat0 (rd (W1 m)) c).arrAt 4 cfg0.N
@[irreducible] def W2 : Valuation τ sig (Elt F) := Function.update (W1 m c) main_v6 (o2_main_v6 m c)
@[irreducible] def W3 : Valuation τ sig (Elt F) := StableHlo.after hostOps1 (W2 m c)
def o4_main_v24_0 : Buf (Elt F) ((c : Thread nD τ).loc main_v24_0) := (dat1 (rd (W3 m)) c).arrAt 5 cfg1.N
def o4_main_v24_1 : Buf (Elt F) ((c : Thread nD τ).loc main_v24_1) := (dat1 (rd (W3 m)) c).arrAt 6 cfg1.N
@[irreducible] def W4 : Valuation τ sig (Elt F) := Function.update (Function.update (W3 m c) main_v24_0 (o4_main_v24_0 m c)) main_v24_1 (o4_main_v24_1 m c)
@[irreducible] def W5 : Valuation τ sig (Elt F) := StableHlo.after hostOps2 (W4 m c)
def o6_main_v39 : Buf (Elt F) ((c : Thread nD τ).loc main_v39) := (dat2 (rd (W5 m)) c).arrAt 5 cfg2.N
@[irreducible] def W6 : Valuation τ sig (Elt F) := Function.update (W5 m c) main_v39 (o6_main_v39 m c)
@[irreducible] def W7 : Valuation τ sig (Elt F) := StableHlo.after hostOps3 (W6 m c)
def o8_main_v57_0 : Buf (Elt F) ((c : Thread nD τ).loc main_v57_0) := (dat3 (rd (W7 m)) c).arrAt 5 cfg3.N
def o8_main_v57_1 : Buf (Elt F) ((c : Thread nD τ).loc main_v57_1) := (dat3 (rd (W7 m)) c).arrAt 6 cfg3.N
@[irreducible] def W8 : Valuation τ sig (Elt F) := Function.update (Function.update (W7 m c) main_v57_0 (o8_main_v57_0 m c)) main_v57_1 (o8_main_v57_1 m c)
@[irreducible] def W9 : Valuation τ sig (Elt F) := StableHlo.after hostOps4 (W8 m c)
def o10_main_v72 : Buf (Elt F) ((c : Thread nD τ).loc main_v72) := (dat4 (rd (W9 m)) c).arrAt 5 cfg4.N
@[irreducible] def W10 : Valuation τ sig (Elt F) := Function.update (W9 m c) main_v72 (o10_main_v72 m c)
@[irreducible] def W11 : Valuation τ sig (Elt F) := StableHlo.after hostOps5 (W10 m c)
def o12_main_v76_0 : Buf (Elt F) ((c : Thread nD τ).loc main_v76_0) := (dat5 (rd (W11 m)) c).arrAt 5 cfg5.N
def o12_main_v76_1 : Buf (Elt F) ((c : Thread nD τ).loc main_v76_1) := (dat5 (rd (W11 m)) c).arrAt 6 cfg5.N
@[irreducible] def W12 : Valuation τ sig (Elt F) := Function.update (Function.update (W11 m c) main_v76_0 (o12_main_v76_0 m c)) main_v76_1 (o12_main_v76_1 m c)
@[irreducible] def W13 : Valuation τ sig (Elt F) := StableHlo.after hostOps6 (W12 m c)
def o14_main_v92 : Buf (Elt F) ((c : Thread nD τ).loc main_v92) := (dat6 (rd (W13 m)) c).arrAt 7 cfg6.N
@[irreducible] def W14 : Valuation τ sig (Elt F) := Function.update (W13 m c) main_v92 (o14_main_v92 m c)
@[irreducible] def W15 : Valuation τ sig (Elt F) := StableHlo.after hostOps7 (W14 m c)

def outsH : Outs (F := F) := fun _ r c =>
  if h : r = main_v6 then h ▸ o2_main_v6 m c else
  if h : r = main_v24_0 then h ▸ o4_main_v24_0 m c else
  if h : r = main_v24_1 then h ▸ o4_main_v24_1 m c else
  if h : r = main_v39 then h ▸ o6_main_v39 m c else
  if h : r = main_v57_0 then h ▸ o8_main_v57_0 m c else
  if h : r = main_v57_1 then h ▸ o8_main_v57_1 m c else
  if h : r = main_v72 then h ▸ o10_main_v72 m c else
  if h : r = main_v76_0 then h ▸ o12_main_v76_0 m c else
  if h : r = main_v76_1 then h ▸ o12_main_v76_1 m c else
  if h : r = main_v92 then h ▸ o14_main_v92 m c else
  V0 m c r

theorem outsH_main_v6 (n : ℕ) (c : Dev nD) : outsH m n main_v6 c = o2_main_v6 m c := rfl
theorem outsH_main_v24_0 (n : ℕ) (c : Dev nD) : outsH m n main_v24_0 c = o4_main_v24_0 m c := rfl
theorem outsH_main_v24_1 (n : ℕ) (c : Dev nD) : outsH m n main_v24_1 c = o4_main_v24_1 m c := rfl
theorem outsH_main_v39 (n : ℕ) (c : Dev nD) : outsH m n main_v39 c = o6_main_v39 m c := rfl
theorem outsH_main_v57_0 (n : ℕ) (c : Dev nD) : outsH m n main_v57_0 c = o8_main_v57_0 m c := rfl
theorem outsH_main_v57_1 (n : ℕ) (c : Dev nD) : outsH m n main_v57_1 c = o8_main_v57_1 m c := rfl
theorem outsH_main_v72 (n : ℕ) (c : Dev nD) : outsH m n main_v72 c = o10_main_v72 m c := rfl
theorem outsH_main_v76_0 (n : ℕ) (c : Dev nD) : outsH m n main_v76_0 c = o12_main_v76_0 m c := rfl
theorem outsH_main_v76_1 (n : ℕ) (c : Dev nD) : outsH m n main_v76_1 c = o12_main_v76_1 m c := rfl
theorem outsH_main_v92 (n : ℕ) (c : Dev nD) : outsH m n main_v92 c = o14_main_v92 m c := rfl

theorem V1_eq : V1 m c = W1 m c := by rw [W1]
theorem V2_eq : V2 m (outsH m) c = W2 m c := by
  unfold W2; dsimp only [V2]; rw [outsH_main_v6, V1_eq m c]
theorem V3_eq : V3 m (outsH m) c = W3 m c := by
  rw [W3]; dsimp only [V3]; rw [V2_eq]
theorem V4_eq : V4 m (outsH m) c = W4 m c := by
  unfold W4; dsimp only [V4]; rw [outsH_main_v24_0, outsH_main_v24_1, V3_eq m c]
theorem V5_eq : V5 m (outsH m) c = W5 m c := by
  rw [W5]; dsimp only [V5]; rw [V4_eq]
theorem V6_eq : V6 m (outsH m) c = W6 m c := by
  unfold W6; dsimp only [V6]; rw [outsH_main_v39, V5_eq m c]
theorem V7_eq : V7 m (outsH m) c = W7 m c := by
  rw [W7]; dsimp only [V7]; rw [V6_eq]
theorem V8_eq : V8 m (outsH m) c = W8 m c := by
  unfold W8; dsimp only [V8]; rw [outsH_main_v57_0, outsH_main_v57_1, V7_eq m c]
theorem V9_eq : V9 m (outsH m) c = W9 m c := by
  rw [W9]; dsimp only [V9]; rw [V8_eq]
theorem V10_eq : V10 m (outsH m) c = W10 m c := by
  unfold W10; dsimp only [V10]; rw [outsH_main_v72, V9_eq m c]
theorem V11_eq : V11 m (outsH m) c = W11 m c := by
  rw [W11]; dsimp only [V11]; rw [V10_eq]
theorem V12_eq : V12 m (outsH m) c = W12 m c := by
  unfold W12; dsimp only [V12]; rw [outsH_main_v76_0, outsH_main_v76_1, V11_eq m c]
theorem V13_eq : V13 m (outsH m) c = W13 m c := by
  rw [W13]; dsimp only [V13]; rw [V12_eq]
theorem V14_eq : V14 m (outsH m) c = W14 m c := by
  unfold W14; dsimp only [V14]; rw [outsH_main_v92, V13_eq m c]
theorem V15_eq : V15 m (outsH m) c = W15 m c := by
  rw [W15]; dsimp only [V15]; rw [V14_eq]

def pdats : (p : Fin 7) → (c : Dev nD) → Dat τ (Elt F) Unit ℕ (UR sig nD τ) ℕ (cfgs p) c
  | ⟨0, _⟩ => fun c => dat0 (rd (W1 m)) c
  | ⟨1, _⟩ => fun c => dat1 (rd (W3 m)) c
  | ⟨2, _⟩ => fun c => dat2 (rd (W5 m)) c
  | ⟨3, _⟩ => fun c => dat3 (rd (W7 m)) c
  | ⟨4, _⟩ => fun c => dat4 (rd (W9 m)) c
  | ⟨5, _⟩ => fun c => dat5 (rd (W11 m)) c
  | ⟨6, _⟩ => fun c => dat6 (rd (W13 m)) c
abbrev 𝒱₀ : Variants := Variants.none
abbrev L : GSem nD τ sig → Finset Unit := fun _ => ∅
abbrev lv : GSem nD τ sig → Unit → ℕ := fun _ _ => 0
abbrev R : sProp 𝕄 := iprop((∃ r, prngReg c r) ∗ ∃ W, owes (c : Thread nD τ) (0 : CellTallies nD τ sig Unit) W)
abbrev E : Fin 8 → Dev nD → sProp 𝕄 := fun _ c => R c

theorem upd_ne (V : Valuation τ sig (Elt F)) {r b : Ref sig .tc} (x : (Proc.devRef (τ := τ) .tc r).ty.Contents (Elt F)) (h : b ≠ r) :
    Function.update V (Proc.devRef .tc r) x (Proc.devRef .tc b) = V (Proc.devRef .tc b) :=
  Function.update_of_ne (StableHlo.devRef_ne_of_ne h) x V

theorem upd_self (V : Valuation τ sig (Elt F)) (r : Ref sig .tc) (x : (Proc.devRef (τ := τ) .tc r).ty.Contents (Elt F)) :
    Function.update V (Proc.devRef .tc r) x (Proc.devRef .tc r) = x :=
  Function.update_self ..

theorem ne_out {n : ℕ} {f : Fin n → Ref sig .tc} {b : Ref sig .tc} (hb : b ∉ Finset.univ.image f) (w : Fin n) : b ≠ f w :=
  fun e => hb (Finset.mem_image.mpr ⟨w, Finset.mem_univ _, e.symm⟩)

-- One region as a segment from the contents Wa to the contents Wb, given its body obligation and what its arrays hold at the two ends.
set_option backward.isDefEq.respectTransparency.types false in
def mkReg (p : Fin 7) (kit : Pipeline.LaunchFacts (nD := nD) (τ := τ) cfgs p) (Wa Wb : Dev nD → Valuation τ sig (Elt F))
    (hbody : ∀ c, BodyObligation (pdats m p c) (defs₀ (F := F)) 𝒱₀ () Set.univ)
    (howed : ∀ c t, (pdats m p c).owed t = 0) (hrec : ∀ c x, x ∈ (pdats m p c).recorded 0) (hq : ∀ c w, (pdats m p c).q w = fullShare)
    (hA : ∀ c w, (pdats m p c).A w = rd Wa c (Pipeline.arrRef (cfgs p).spec w))
    (hin : ∀ c, Pipeline.ΦA (cfgs p).spec c ⊢ (pdats m p c).Φ 0)
    (hout : ∀ c, (pdats m p c).Φ (Fin.last (cfgs p).N) ⊢ Pipeline.ΦA (cfgs p).spec c)
    (hF : ∀ c w, (pdats m p c).arrAt w (cfgs p).N = rd Wb c (Pipeline.arrRef (cfgs p).spec w))
    (hrest : ∀ c b, b ∉ Finset.univ.image (Pipeline.arrRef (cfgs p).spec) → rd Wb c b = rd Wa c b) :
    Pipeline.RegionSeg (pcfgs (F := F)) adm (pdats m) () defs₀ 𝒱₀ L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wa c) ∗ R c)
  post c := iprop(StableHlo.held (c : Thread nD τ) (Pipeline.ucRefs τ sig) (Wb c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Wa c)
  hentry c := by
    rw [Pipeline.ownSems0_none]; unfold Pipeline.Dat.owesAt Pipeline.owesWithin; rw [howed]
    have hsplit := Pipeline.arrays_of_unscopedBufs (p := p) (pcfgs (F := F)) adm (pdats m) kit.win kit.arr_whole c
      ((pdats m p c).share_full (hq c)) (rd Wa c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (hrec c _)
      iexact HO
    isplitl [Hp]; · iexact Hp
    iexact Hrest
  hin c := by
    refine (show _ ⊢ Pipeline.ΦA (cfgs p).spec c from ?_).trans (hin c)
    unfold Pipeline.ΦA
    iintro ⟨Hp, -, Hr⟩
    isplitl [Hr] <;> iassumption
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c (pdats m) ((pdats m p c).share_full (hq c))
      (rd Wa c) (rd Wb c) ((pdats m p c).arrAt · (cfgs p).N) (hF c) (hrest c)
    rw [Pipeline.unscopedBufs_held] at hjoin
    unfold Pipeline.Dat.owesAt Pipeline.owesWithin; rw [howed]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 : Pipeline.RegionSeg (pcfgs (F := F)) adm (pdats m) () defs₀ 𝒱₀ L lv 0 :=
  mkReg m 0 launch0 (W1 m) (W2 m) (body_obligation0 _) (fun _ _ => rfl) (fun _ _ => trivial) (fun _ _ => rfl) (fun _ _ => rfl) (hin0 _) (hout0 _)
    (fun c (w : Fin cfg0.W) => by
      unfold W2
      by_cases h : w = 4
      · subst h; exact (upd_self _ main_v6 _).symm
      · exact ((dat0 (rd (W1 m)) c).arrAt_in w (by revert w; decide) _).trans ((A_eq0 _ c w).trans (upd_ne _ _ (by revert w; decide)).symm))
    fun c b hb => by unfold W2; exact upd_ne _ _ (ne_out hb 4)

def reg1 : Pipeline.RegionSeg (pcfgs (F := F)) adm (pdats m) () defs₀ 𝒱₀ L lv 1 :=
  mkReg m 1 launch1 (W3 m) (W4 m) (body_obligation1 _) (fun _ _ => rfl) (fun _ _ => trivial) (fun _ _ => rfl) (fun _ _ => rfl) (hin1 _) (hout1 _)
    (fun c (w : Fin cfg1.W) => by
      unfold W4
      by_cases h5 : w = 5
      · subst h5; exact ((upd_ne _ _ (by decide +revert)).trans (upd_self _ main_v24_0 _)).symm
      by_cases h6 : w = 6
      · subst h6; exact (upd_self _ main_v24_1 _).symm
      exact ((dat1 (rd (W3 m)) c).arrAt_in w (by revert w; decide) _).trans ((A_eq1 _ c w).trans ((upd_ne _ _ (by revert w; decide)).trans (upd_ne _ _ (by revert w; decide))).symm))
    fun c b hb => by unfold W4; exact (upd_ne _ _ (ne_out hb 6)).trans (upd_ne _ _ (ne_out hb 5))

def reg2 : Pipeline.RegionSeg (pcfgs (F := F)) adm (pdats m) () defs₀ 𝒱₀ L lv 2 :=
  mkReg m 2 launch2 (W5 m) (W6 m) (body_obligation2 _) (fun _ _ => rfl) (fun _ _ => trivial) (fun _ _ => rfl) (fun _ _ => rfl) (hin2 _) (hout2 _)
    (fun c (w : Fin cfg2.W) => by
      unfold W6
      by_cases h : w = 5
      · subst h; exact (upd_self _ main_v39 _).symm
      · exact ((dat2 (rd (W5 m)) c).arrAt_in w (by revert w; decide) _).trans ((A_eq2 _ c w).trans (upd_ne _ _ (by revert w; decide)).symm))
    fun c b hb => by unfold W6; exact upd_ne _ _ (ne_out hb 5)

def reg3 : Pipeline.RegionSeg (pcfgs (F := F)) adm (pdats m) () defs₀ 𝒱₀ L lv 3 :=
  mkReg m 3 launch3 (W7 m) (W8 m) (body_obligation3 _) (fun _ _ => rfl) (fun _ _ => trivial) (fun _ _ => rfl) (fun _ _ => rfl) (hin3 _) (hout3 _)
    (fun c (w : Fin cfg3.W) => by
      unfold W8
      by_cases h5 : w = 5
      · subst h5; exact ((upd_ne _ _ (by decide +revert)).trans (upd_self _ main_v57_0 _)).symm
      by_cases h6 : w = 6
      · subst h6; exact (upd_self _ main_v57_1 _).symm
      exact ((dat3 (rd (W7 m)) c).arrAt_in w (by revert w; decide) _).trans ((A_eq3 _ c w).trans ((upd_ne _ _ (by revert w; decide)).trans (upd_ne _ _ (by revert w; decide))).symm))
    fun c b hb => by unfold W8; exact (upd_ne _ _ (ne_out hb 6)).trans (upd_ne _ _ (ne_out hb 5))

def reg4 : Pipeline.RegionSeg (pcfgs (F := F)) adm (pdats m) () defs₀ 𝒱₀ L lv 4 :=
  mkReg m 4 launch4 (W9 m) (W10 m) (body_obligation4 _) (fun _ _ => rfl) (fun _ _ => trivial) (fun _ _ => rfl) (fun _ _ => rfl) (hin4 _) (hout4 _)
    (fun c (w : Fin cfg4.W) => by
      unfold W10
      by_cases h : w = 5
      · subst h; exact (upd_self _ main_v72 _).symm
      · exact ((dat4 (rd (W9 m)) c).arrAt_in w (by revert w; decide) _).trans ((A_eq4 _ c w).trans (upd_ne _ _ (by revert w; decide)).symm))
    fun c b hb => by unfold W10; exact upd_ne _ _ (ne_out hb 5)

def reg5 : Pipeline.RegionSeg (pcfgs (F := F)) adm (pdats m) () defs₀ 𝒱₀ L lv 5 :=
  mkReg m 5 launch5 (W11 m) (W12 m) (body_obligation5 _) (fun _ _ => rfl) (fun _ _ => trivial) (fun _ _ => rfl) (fun _ _ => rfl) (hin5 _) (hout5 _)
    (fun c (w : Fin cfg5.W) => by
      unfold W12
      by_cases h5 : w = 5
      · subst h5; exact ((upd_ne _ _ (by decide +revert)).trans (upd_self _ main_v76_0 _)).symm
      by_cases h6 : w = 6
      · subst h6; exact (upd_self _ main_v76_1 _).symm
      exact ((dat5 (rd (W11 m)) c).arrAt_in w (by revert w; decide) _).trans ((A_eq5 _ c w).trans ((upd_ne _ _ (by revert w; decide)).trans (upd_ne _ _ (by revert w; decide))).symm))
    fun c b hb => by unfold W12; exact (upd_ne _ _ (ne_out hb 6)).trans (upd_ne _ _ (ne_out hb 5))

def reg6 : Pipeline.RegionSeg (pcfgs (F := F)) adm (pdats m) () defs₀ 𝒱₀ L lv 6 :=
  mkReg m 6 launch6 (W13 m) (W14 m) (body_obligation6 _) (fun _ _ => rfl) (fun _ _ => trivial) (fun _ _ => rfl) (fun _ _ => rfl) (hin6 _) (hout6 _)
    (fun c (w : Fin cfg6.W) => by
      unfold W14
      by_cases h : w = 7
      · subst h; exact (upd_self _ main_v92 _).symm
      · exact ((dat6 (rd (W13 m)) c).arrAt_in w (by revert w; decide) _).trans ((A_eq6 _ c w).trans (upd_ne _ _ (by revert w; decide)).symm))
    fun c b hb => by unfold W14; exact upd_ne _ _ (ne_out hb 7)

variable (ρ : Dev nD → PrngReg)

set_option backward.isDefEq.respectTransparency.types false in
theorem run_all : θ_run defs (onTc (τ := τ) (main (F := F))) ⟨m, fun _ => 0, ρ⟩ (fun r => ∀ c : Dev nD,
      r.2.mem ((c.tc : Thread nD τ).loc main_v93) = V15 m (outsH m) c main_v93
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  run_cond (F := F) m emb₁ () 𝒱₀ L lv (fun _ _ => rfl) ρ (outsH m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E)
    (hE0 := Pipeline.initEach L lv fun c => by
      iintro ⟨⟨-, HO, -, Hp, -⟩, -⟩
      imodintro
      isplitl [Hp]; · iexists _; iexact Hp
      iexists ∅; iexact HO)
    (hE7 := fun c => by
      iintro ⟨-, HO⟩
      iexact HO)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V9_eq]; exact .rfl) (fun c => by rw [V10_eq]; exact .rfl)
    (reg5 m) (fun c => by rw [V11_eq]; exact .rfl) (fun c => by rw [V12_eq]; exact .rfl)
    (reg6 m) (fun c => by rw [V13_eq]; exact .rfl) (fun c => by rw [V14_eq]; exact .rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => (h c).2) (run_all m ρ)

end Cert.Kernel.Hand

end
-- ==== Proof.FrameKI.Reg0.lean ====
import proofs.«402365_j6828998001463_1_alg».proof.Proof.Gen.KernelIdeal.Launch
import proofs.«402365_j6828998001463_1_alg».proof.Proof.Gen.KernelIdeal.Skeleton
import proofs.«402365_j6828998001463_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x1 := Rect.unit (s := S2000x1) ![0, 0] S2000x1.size inb_S2000x1_S2000x1_0_0
abbrev r0_1 : Rect S64x64 := Rect.unit (s := S64x64) ![0, 0] S64x64.size inb_S64x64_S64x64_0_0
abbrev r0_2 : Rect S16x64 := Rect.unit (s := S16x64) ![0, 0] S16x64.size inb_S16x64_S16x64_0_0
abbrev r0_3 : Rect S2000x128 := Rect.unit (s := S2000x128) ![0, 0] S2000x128.size inb_S2000x128_S2000x128_0_0

def out0_4 (x0 x1 : Vec F S2000x1 .i32) (x2 : Vec F S64x64 .f32) (x3 : Vec F S16x64 .f32) : Vec F S2000x128 .f32 :=
  View.canon [⟨r0_3, k0_pay1 (View.ld x0 r0_0) (View.ld x1 r0_0) (View.ld x2 r0_1) (View.ld x3 r0_2)⟩]

-- the one stored rectangle is the whole shape
theorem cover0_4 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

-- the body is whole-block loads and one whole-block store; the stored piece covers the shape, so what it leaves is that piece's canonical contents
set_option maxHeartbeats 1000000 in
theorem sound_kernel0 (E : Set ℕ) (i : grid0.Coords)
    (arg1 : Memref sig .tc .vmem S2000x1 .i32) (harg1 : arg1.IsWhole) (arg2 : Memref sig .tc .vmem S2000x1 .i32) (harg2 : arg2.IsWhole)
    (arg3 : Memref sig .tc .vmem S64x64 .f32) (harg3 : arg3.IsWhole) (arg4 : Memref sig .tc .vmem S16x64 .f32) (harg4 : arg4.IsWhole)
    (arg5 : Memref sig .tc .vmem S2000x128 .f32) (harg5 : arg5.IsWhole)
    (x0 x1 : Vec F S2000x1 .i32) (x2 : Vec F S64x64 .f32) (x3 : Vec F S16x64 .f32) (K : PUnit → sProp 𝕄) :
    iprop(owns c arg1 fullShare x0 ∗ owns c arg2 fullShare x1
        ∗ owns c arg3 fullShare x2 ∗ owns c arg4 fullShare x3
        ∗ (∃ d, owns c arg5 fullShare d)
        ∗ (iprop(owns c arg1 fullShare x0 ∗ owns c arg2 fullShare x1
            ∗ owns c arg3 fullShare x2 ∗ owns c arg4 fullShare x3
            ∗ owns c arg5 fullShare (out0_4 x0 x1 x2 x3)) -∗ K ⟨⟩))
      ⊢ wp frame (wpE (defs₀ (F := F)) Variants.none c none) E (cc0__emb_kernel i arg1 harg1 arg2 harg2 arg3 harg3 arg4 harg4 arg5 harg5) K := by
  simp only [cc0__emb_kernel_eq_skeleton]; unfold cc0__emb_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (w : Fin cfg0.W) : (dat0 V c).A w = V c (Pipeline.arrRef spec0 w) := rfl

theorem after0_4 (t : Fin cfg0.N) : (dat0 V c).after 4 t = out0_4 (iblk0 V c 0 t) (iblk0 V c 1 t) (iblk0 V c 2 t) (iblk0 V c 3 t) := by dsimp only [dat0]

theorem before0_0 (t : Fin cfg0.N) (d) : (dat0 V c).before 0 t d = iblk0 V c 0 t :=
  ((dat0 V c).before_in_eq_fetched 0 rfl (fun _ => rfl) (fun _ _ _ => rfl) (fun _ => rfl) t d).trans rfl
theorem before0_1 (t : Fin cfg0.N) (d) : (dat0 V c).before 1 t d = iblk0 V c 1 t :=
  ((dat0 V c).before_in_eq_fetched 1 rfl (fun _ => rfl) (fun _ _ _ => rfl) (fun _ => rfl) t d).trans rfl
theorem before0_2 (t : Fin cfg0.N) (d) : (dat0 V c).before 2 t d = iblk0 V c 2 t :=
  ((dat0 V c).before_in_eq_fetched 2 rfl (fun _ => rfl) (fun _ _ _ => rfl) (fun _ => rfl) t d).trans rfl
theorem before0_3 (t : Fin cfg0.N) (d) : (dat0 V c).before 3 t d = iblk0 V c 3 t :=
  ((dat0 V c).before_in_eq_fetched 3 rfl (fun _ => rfl) (fun _ _ _ => rfl) (fun _ => rfl) t d).trans rfl

-- every input holds its block, so the body's triple applies; everything else passes through unread
theorem body_obligation0 : BodyObligation (dat0 (F := F) V c) (defs₀ (F := F)) Variants.none () Set.univ := fun t => by
  rw [bigSep_W0, bigSep_W0]
  show iprop(_ ∗ _ ∗ (∃ d, _) ∗ (∃ d, _) ∗ (∃ d, _) ∗ (∃ d, _) ∗ (∃ d, _))
    ⊢ wp _ _ _ (bodyAt0 t) fun _ => iprop(_ ∗ _ ∗ owns _ _ _ _ ∗ owns _ _ _ _ ∗ owns _ _ _ _ ∗ owns _ _ _ _ ∗ owns _ _ _ _)
  simp only [before0_0, before0_1, before0_2, before0_3]
  rw [show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  iframe H0 H1 H2 H3
  isplitl [H4]; · iexists _; iexact H4
  iintro ⟨H0, H1, H2, H3, H4⟩
  iframe

theorem hin0 : Pipeline.ΦA spec0 c ⊢ (dat0 (F := F) V c).Φ 0 := .rfl
theorem hout0 : (dat0 (F := F) V c).Φ (Fin.last cfg0.N) ⊢ Pipeline.ΦA spec0 c := .rfl

end Cert.KernelIdeal.Hand

end
-- ==== Proof.FrameKI.Reg1Runs.lean ====
import proofs.«402365_j6828998001463_1_alg».proof.Proof.Gen.KernelIdeal.Launch
import proofs.«402365_j6828998001463_1_alg».proof.Proof.Gen.KernelIdeal.Skeleton
import proofs.«402365_j6828998001463_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop := k1_cond2 i = 1#1
theorem hcond1_1 : ∀ t : Fin cfg1.N, cond1_1 (grid1.coords t) ↔ t.val = 19 :=
  (by decide +kernel : ∀ t : Fin grid1.N, cond1_1 (grid1.coords t) ↔ t.val = 19)

theorem liveAt1 : ∀ w : Fin cfg1.W, w.val < 6 → ∀ t : Fin cfg1.N, cfg1.idle w (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6_C : ∀ t : Fin cfg1.N, ¬cond1_0 (grid1.coords t) → cond1_1 (grid1.coords t) → cfg1.idle 6 (grid1.coords t) = false := by decide +kernel

abbrev VO1_5 : View sig .tc .vmem S5000x64 .f32 := (Memref.whole cc1_stg5_0 : Memref sig .tc .vmem S5000x64 .f32).view
abbrev VO1_6 : View sig .tc .vmem S2x64 .f32 := (Memref.whole cc1_stg6_0 : Memref sig .tc .vmem S2x64 .f32).view
abbrev ms1_0 (t : Fin cfg1.N) : Memref sig .tc .vmem S5000x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x3 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S3x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S5000x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2x64 .f32 := win1_6.stage (cfg1.slots t 6)
abbrev hs1_6 (t : Fin cfg1.N) : (ms1_6 t).IsWhole := hstage1_6 ((cfg1.slots t 6).cast nbuf1_6)
abbrev scM1_0 : Memref sig .tc .vmem S1x64 .f32 := Memref.whole cc1_scratch0
abbrev scM1_1 : Memref sig .tc .vmem S1x64 .f32 := Memref.whole cc1_scratch1
abbrev VS1_0 : View sig .tc .vmem S1x64 .f32 := scM1_0.view
abbrev VS1_1 : View sig .tc .vmem S1x64 .f32 := scM1_1.view

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.KernelIdeal.Hand

end
-- ==== Proof.FrameKI.Reg1RunA.lean ====
import proofs.«402365_j6828998001463_1_alg».proof.Proof.FrameKI.Reg1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg1 : Memref sig .tc .vmem S5000x3 .f32) (harg1 : arg1.IsWhole) (arg2 : Memref sig .tc .vmem S3x3 .f32) (harg2 : arg2.IsWhole) (arg3 : Memref sig .tc .vmem S1x3 .f32) (harg3 : arg3.IsWhole) (arg4 : Memref sig .tc .vmem S3x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S2x64 .f32) (harg7 : arg7.IsWhole) (arg8 : Memref sig .tc .vmem S1x64 .f32) (harg8 : arg8.IsWhole) (arg9 : Memref sig .tc .vmem S1x64 .f32) (harg9 : arg9.IsWhole) (hc0 : cond1_0 i) (hc1 : ¬cond1_1 i)
    (x1 : Vec F S5000x3 .f32) (x2 : Vec F S3x3 .f32) (x3 : Vec F S1x3 .f32) (x4 : Vec F S3x64 .f32) (x5 : Vec F S1x64 .f32) :
    Σ' (L5 : List (View.Piece (Elt F) S5000x64 .f32)) (L6 : List (View.Piece (Elt F) S2x64 .f32)) (LS0 : List (View.Piece (Elt F) S1x64 .f32)), { LS1 : List (View.Piece (Elt F) S1x64 .f32) //
      ∀ (xi6 : Vec F S2x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__lin_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc1__lin_kernel_eq_skeleton]; unfold cc1__lin_kernel_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, ⟨%ds1, %fs1, -, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [HS0]; · iexists _; iexact HS0
    iexists _; iexact HS1

end Cert.KernelIdeal.Hand

end
-- ==== Proof.FrameKI.Reg1RunB.lean ====
import proofs.«402365_j6828998001463_1_alg».proof.Proof.FrameKI.Reg1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg1 : Memref sig .tc .vmem S5000x3 .f32) (harg1 : arg1.IsWhole) (arg2 : Memref sig .tc .vmem S3x3 .f32) (harg2 : arg2.IsWhole) (arg3 : Memref sig .tc .vmem S1x3 .f32) (harg3 : arg3.IsWhole) (arg4 : Memref sig .tc .vmem S3x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S2x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : ¬cond1_1 i)
    (x1 : Vec F S5000x3 .f32) (x2 : Vec F S3x3 .f32) (x3 : Vec F S1x3 .f32) (x4 : Vec F S3x64 .f32) (x5 : Vec F S1x64 .f32) (xs0 : Vec F S1x64 .f32) (xs1 : Vec F S1x64 .f32) :
    Σ' (L5 : List (View.Piece (Elt F) S5000x64 .f32)) (L6 : List (View.Piece (Elt F) S2x64 .f32)) (LS0 : List (View.Piece (Elt F) S1x64 .f32)), { LS1 : List (View.Piece (Elt F) S1x64 .f32) //
      ∀ (xi6 : Vec F S2x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xi6 ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__lin_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc1__lin_kernel_eq_skeleton]; unfold cc1__lin_kernel_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%fs1, %hfs1, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hfs0; obtain rfl := harg9.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [HS0]; · iexists _; iexact HS0
    iexists _; iexact HS1

end Cert.KernelIdeal.Hand

end
-- ==== Proof.FrameKI.Reg1RunC.lean ====
import proofs.«402365_j6828998001463_1_alg».proof.Proof.FrameKI.Reg1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg1 : Memref sig .tc .vmem S5000x3 .f32) (harg1 : arg1.IsWhole) (arg2 : Memref sig .tc .vmem S3x3 .f32) (harg2 : arg2.IsWhole) (arg3 : Memref sig .tc .vmem S1x3 .f32) (harg3 : arg3.IsWhole) (arg4 : Memref sig .tc .vmem S3x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S2x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : cond1_1 i)
    (x1 : Vec F S5000x3 .f32) (x2 : Vec F S3x3 .f32) (x3 : Vec F S1x3 .f32) (x4 : Vec F S3x64 .f32) (x5 : Vec F S1x64 .f32) (xs0 : Vec F S1x64 .f32) (xs1 : Vec F S1x64 .f32) :
    Σ' (L5 : List (View.Piece (Elt F) S5000x64 .f32)) (L6 : List (View.Piece (Elt F) S2x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__lin_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc1__lin_kernel_eq_skeleton]; unfold cc1__lin_kernel_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg8.eq_unread hfs0; obtain rfl := harg9.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [HS0]; · iexists _; iexact HS0
    iexists _; iexact HS1

end Cert.KernelIdeal.Hand

end
-- ==== Proof.FrameKI.Reg1.lean ====
import proofs.«402365_j6828998001463_1_alg».proof.Proof.FrameKI.Reg1RunA
import proofs.«402365_j6828998001463_1_alg».proof.Proof.FrameKI.Reg1RunB
import proofs.«402365_j6828998001463_1_alg».proof.Proof.FrameKI.Reg1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable {P : List (View.Piece (Elt F) S5000x64 .f32) → List (View.Piece (Elt F) S2x64 .f32) → List (View.Piece (Elt F) S1x64 .f32) → List (View.Piece (Elt F) S1x64 .f32) → Prop}
  (r : Σ' (L5 : List (View.Piece (Elt F) S5000x64 .f32)) (L6 : List (View.Piece (Elt F) S2x64 .f32)) (LS0 : List (View.Piece (Elt F) S1x64 .f32)), { LS1 : List (View.Piece (Elt F) S1x64 .f32) // P L5 L6 LS0 LS1 })

/-- The four store lists of a run of the body read back through fixed views: output block, statistics block, the two accumulators. -/
def reads1 : Vec F S5000x64 .f32 × Vec F S2x64 .f32 × Vec F S1x64 .f32 × Vec F S1x64 .f32 :=
  (VO1_5.read (Elt F) (VO1_5.writes (Elt F) VO1_5.junk r.1), VO1_6.read (Elt F) (VO1_6.writes (Elt F) VO1_6.junk r.2.1), VS1_0.read (Elt F) (VS1_0.writes (Elt F) VS1_0.junk r.2.2.1), VS1_1.read (Elt F) (VS1_1.writes (Elt F) VS1_1.junk r.2.2.2.1))

/-- The stores of the output block and of each accumulator cover them, so what is read back does not depend on the contents before. -/
def Covers1 : Prop :=
  (∀ y : S5000x64.Idx, ∃ pc ∈ r.1, y ∈ pc.1.set) ∧ (∀ y : S1x64.Idx, ∃ pc ∈ r.2.2.1, y ∈ pc.1.set) ∧ (∀ y : S1x64.Idx, ∃ pc ∈ r.2.2.2.1, y ∈ pc.1.set)

end

section
variable (c : Dev nD) (i : grid1.Coords) (arg1 : Memref sig .tc .vmem S5000x3 .f32) (harg1 : arg1.IsWhole) (arg2 : Memref sig .tc .vmem S3x3 .f32) (harg2 : arg2.IsWhole) (arg3 : Memref sig .tc .vmem S1x3 .f32) (harg3 : arg3.IsWhole) (arg4 : Memref sig .tc .vmem S3x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S2x64 .f32) (harg7 : arg7.IsWhole) (arg8 : Memref sig .tc .vmem S1x64 .f32) (harg8 : arg8.IsWhole) (arg9 : Memref sig .tc .vmem S1x64 .f32) (harg9 : arg9.IsWhole)

section
variable (hc0 : cond1_0 i) (hc1 : ¬cond1_1 i) (x1 : Vec F S5000x3 .f32) (x2 : Vec F S3x3 .f32) (x3 : Vec F S1x3 .f32) (x4 : Vec F S3x64 .f32) (x5 : Vec F S1x64 .f32)

def outs1_A : Vec F S5000x64 .f32 × Vec F S2x64 .f32 × Vec F S1x64 .f32 × Vec F S1x64 .f32 :=
  reads1 (kernelRun1_A c i arg1 harg1 arg2 harg2 arg3 harg3 arg4 harg4 arg5 harg5 arg6 harg6 arg7 harg7 arg8 harg8 arg9 harg9 hc0 hc1 x1 x2 x3 x4 x5)

theorem covers1_A : Covers1 (kernelRun1_A c i arg1 harg1 arg2 harg2 arg3 harg3 arg4 harg4 arg5 harg5 arg6 harg6 arg7 harg7 arg8 harg8 arg9 harg9 hc0 hc1 x1 x2 x3 x4 x5) :=
  ⟨View.cover_of_tiledL _ S5000x64.size (by sl_kernel_rfl), View.cover_of_tiledL _ S1x64.size (by sl_kernel_rfl), View.cover_of_tiledL _ S1x64.size (by sl_kernel_rfl)⟩

end

section
variable (hc0 : ¬cond1_0 i) (hc1 : ¬cond1_1 i) (x1 : Vec F S5000x3 .f32) (x2 : Vec F S3x3 .f32) (x3 : Vec F S1x3 .f32) (x4 : Vec F S3x64 .f32) (x5 : Vec F S1x64 .f32) (xs0 : Vec F S1x64 .f32) (xs1 : Vec F S1x64 .f32)

def outs1_B : Vec F S5000x64 .f32 × Vec F S2x64 .f32 × Vec F S1x64 .f32 × Vec F S1x64 .f32 :=
  reads1 (kernelRun1_B c i arg1 harg1 arg2 harg2 arg3 harg3 arg4 harg4 arg5 harg5 arg6 harg6 arg7 harg7 arg8 harg8 arg9 harg9 hc0 hc1 x1 x2 x3 x4 x5 xs0 xs1)

theorem covers1_B : Covers1 (kernelRun1_B c i arg1 harg1 arg2 harg2 arg3 harg3 arg4 harg4 arg5 harg5 arg6 harg6 arg7 harg7 arg8 harg8 arg9 harg9 hc0 hc1 x1 x2 x3 x4 x5 xs0 xs1) :=
  ⟨View.cover_of_tiledL _ S5000x64.size (by sl_kernel_rfl), View.cover_of_tiledL _ S1x64.size (by sl_kernel_rfl), View.cover_of_tiledL _ S1x64.size (by sl_kernel_rfl)⟩

end

section
variable (hc0 : ¬cond1_0 i) (hc1 : cond1_1 i) (x1 : Vec F S5000x3 .f32) (x2 : Vec F S3x3 .f32) (x3 : Vec F S1x3 .f32) (x4 : Vec F S3x64 .f32) (x5 : Vec F S1x64 .f32) (xs0 : Vec F S1x64 .f32) (xs1 : Vec F S1x64 .f32)

def outs1_C : Vec F S5000x64 .f32 × Vec F S2x64 .f32 × Vec F S1x64 .f32 × Vec F S1x64 .f32 :=
  reads1 (kernelRun1_C c i arg1 harg1 arg2 harg2 arg3 harg3 arg4 harg4 arg5 harg5 arg6 harg6 arg7 harg7 arg8 harg8 arg9 harg9 hc0 hc1 x1 x2 x3 x4 x5 xs0 xs1)

theorem covers1_C : Covers1 (kernelRun1_C c i arg1 harg1 arg2 harg2 arg3 harg3 arg4 harg4 arg5 harg5 arg6 harg6 arg7 harg7 arg8 harg8 arg9 harg9 hc0 hc1 x1 x2 x3 x4 x5 xs0 xs1) :=
  ⟨View.cover_of_tiledL _ S5000x64.size (by sl_kernel_rfl), View.cover_of_tiledL _ S1x64.size (by sl_kernel_rfl), View.cover_of_tiledL _ S1x64.size (by sl_kernel_rfl)⟩

theorem cover1_C_6 (y : S2x64.Idx) : ∃ pc ∈ (kernelRun1_C c i arg1 harg1 arg2 harg2 arg3 harg3 arg4 harg4 arg5 harg5 arg6 harg6 arg7 harg7 arg8 harg8 arg9 harg9 hc0 hc1 x1 x2 x3 x4 x5 xs0 xs1).2.1, y ∈ pc.1.set :=
  View.cover_of_tiledL (kernelRun1_C c i arg1 harg1 arg2 harg2 arg3 harg3 arg4 harg4 arg5 harg5 arg6 harg6 arg7 harg7 arg8 harg8 arg9 harg9 hc0 hc1 x1 x2 x3 x4 x5 xs0 xs1).2.1 S1x64.size (by sl_kernel_rfl) y

end

end

/-- What the body leaves at point `t` (output block, statistics block, the two accumulators) over the accumulators `s0`, `s1` left by the point before; the first point does not read them. -/
def step1 (c : Dev nD) (t : Fin cfg1.N) (s0 s1 : Vec F S1x64 .f32) : Vec F S5000x64 .f32 × Vec F S2x64 .f32 × Vec F S1x64 .f32 × Vec F S1x64 .f32 :=
  if h0 : t.val = 0 then
    outs1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => by have := (hcond1_1 t).mp h; omega) (iblk1 V c 0 t) (iblk1 V c 1 t) (iblk1 V c 2 t) (iblk1 V c 3 t) (iblk1 V c 4 t)
  else if h1 : t.val = 19 then
    outs1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) s0 s1
  else
    outs1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) s0 s1

def outsAt1 (c : Dev nD) : (n : ℕ) → n < cfg1.N → Vec F S5000x64 .f32 × Vec F S2x64 .f32 × Vec F S1x64 .f32 × Vec F S1x64 .f32
  | 0, hn => step1 V c ⟨0, hn⟩ (VS1_0.read (Elt F) VS1_0.junk) (VS1_0.read (Elt F) VS1_0.junk)
  | n + 1, hn => step1 V c ⟨n + 1, hn⟩ (outsAt1 c n (Nat.lt_of_succ_lt hn)).2.2.1 (outsAt1 c n (Nat.lt_of_succ_lt hn)).2.2.2

theorem outsAt1_eq (c : Dev nD) (t : Fin cfg1.N) :
    outsAt1 V c t.val t.isLt = step1 V c t (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => show step1 V c _ _ _ = _; unfold step1; rw [dif_pos rfl, dif_pos rfl]
  | succ n => rfl

/-- The region invariant with the two accumulators at `s0`, `s1`. -/
def PhiP1 (c : Dev nD) (s0 s1 : Vec F S1x64 .f32) : sProp 𝕄 :=
  iprop(iprop(iprop(owns (c : Thread nD τ) scM1_0 fullShare s0 ∗ owns (c : Thread nD τ) scM1_1 fullShare s1) ∗ Pipeline.scopedRestBut (Ix := Unit) (Name := ℕ) (U := UR sig nD τ) (Lvl := ℕ) (Val := Elt F) spec1 c [cc1_scratch0, cc1_scratch1]) ∗ (∃ r, prngReg c r))

def PhiS1 (c : Dev nD) : (n : ℕ) → n ≤ cfg1.N → sProp 𝕄
  | 0, _ => Pipeline.ΦA spec1 c
  | n + 1, hn => PhiP1 c (outsAt1 V c n hn).2.2.1 (outsAt1 V c n hn).2.2.2

theorem PhiS1_zero (c : Dev nD) (n : ℕ) (h : n ≤ cfg1.N) (hz : n = 0) : PhiS1 V c n h = Pipeline.ΦA spec1 c := by
  subst hz; rfl

theorem PhiS1_pos (c : Dev nD) (n : ℕ) (h : n ≤ cfg1.N) (hz : n ≠ 0) :
    PhiS1 V c n h = PhiP1 c (outsAt1 V c (n - 1) (by omega)).2.2.1 (outsAt1 V c (n - 1) (by omega)).2.2.2 := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiP1 c (outsAt1 V c t.val t.isLt).2.2.1 (outsAt1 V c t.val t.isLt).2.2.2 from rfl, PhiS1_castSucc V c t]
  unfold PhiP1
  rw [show (dat1 V c).leavesExact 0 t = owns (c : Thread nD τ) (ms1_0 t) fullShare ((dat1 V c).after 0 t) from by
    unfold Dat.leavesExact; rw [liveAt1 0 (by decide) t], after1_0]
  rw [show (dat1 V c).leavesExact 1 t = owns (c : Thread nD τ) (ms1_1 t) fullShare ((dat1 V c).after 1 t) from by
    unfold Dat.leavesExact; rw [liveAt1 1 (by decide) t], after1_1]
  rw [show (dat1 V c).leavesExact 2 t = owns (c : Thread nD τ) (ms1_2 t) fullShare ((dat1 V c).after 2 t) from by
    unfold Dat.leavesExact; rw [liveAt1 2 (by decide) t], after1_2]
  rw [show (dat1 V c).leavesExact 3 t = owns (c : Thread nD τ) (ms1_3 t) fullShare ((dat1 V c).after 3 t) from by
    unfold Dat.leavesExact; rw [liveAt1 3 (by decide) t], after1_3]
  rw [show (dat1 V c).leavesExact 4 t = owns (c : Thread nD τ) (ms1_4 t) fullShare ((dat1 V c).after 4 t) from by
    unfold Dat.leavesExact; rw [liveAt1 4 (by decide) t], after1_4]
  rw [show (dat1 V c).leavesExact 5 t = owns (c : Thread nD τ) (ms1_5 t) fullShare ((dat1 V c).after 5 t) from by
    unfold Dat.leavesExact; rw [liveAt1 5 (by decide) t], after1_5]
  by_cases h0 : t.val = 0
  · have c0 := (hcond1_0 t).mpr h0
    have c1 : ¬cond1_1 (grid1.coords t) := fun h => by have := (hcond1_1 t).mp h; omega
    rw [Dat.leavesExact_idle (dat1 V c) 6 t (idleAt1_6 t c1) (noFlush1_6 t c1)]
    rw [outsAt1_eq V c t]; unfold step1; rw [dif_pos h0]
    dsimp only [outs1_A, reads1]
    rw [PhiS1_zero V c _ _ h0, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ _ _ _ _ c0 c1 (iblk1 V c 0 t) (iblk1 V c 1 t) (iblk1 V c 2 t) (iblk1 V c 3 t) (iblk1 V c 4 t)).2.2.2.2 _ Set.univ _)
    iframe H0 H1 H2 H3 H4 H6 HS0 HS1
    isplitl [H5]; · iexists _; iexact H5
    iintro ⟨H0, H1, H2, H3, H4, ⟨%e5, H5⟩, H6, ⟨%es0, HS0⟩, ⟨%es1, HS1⟩⟩
    iframe Hrest Hg Ho H0 H1 H2 H3 H4
    isplitl [HS0 HS1]
    · isplitl [HS0]
      · unfold owns; iexists _; isplitr
        swap; · iexact HS0
        ipureintro; exact View.read_writes_of_cover _ _ _ _ _ (covers1_A ..).2.1
      unfold owns; iexists _; isplitr
      swap; · iexact HS1
      ipureintro; exact View.read_writes_of_cover _ _ _ _ _ (covers1_A ..).2.2
    isplitl [H5]
    · unfold owns; iexists _; isplitr
      swap; · iexact H5
      ipureintro; exact View.read_writes_of_cover _ _ _ _ _ (covers1_A ..).1
    iexists _; iexact H6
  · rw [PhiS1_pos V c _ _ h0]; unfold PhiP1
    have c0 : ¬cond1_0 (grid1.coords t) := fun h => h0 ((hcond1_0 t).mp h)
    by_cases h1 : t.val = 19
    · have c1 := (hcond1_1 t).mpr h1
      rw [show (dat1 V c).leavesExact 6 t = owns (c : Thread nD τ) (ms1_6 t) fullShare ((dat1 V c).after 6 t) from by
        unfold Dat.leavesExact; rw [liveAt1_6_C t c0 c1], after1_6]
      rw [outsAt1_eq V c t]; unfold step1; rw [dif_neg h0, dif_pos h1]
      dsimp only [outs1_C, reads1]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ c0 c1 (iblk1 V c 0 t) (iblk1 V c 1 t) (iblk1 V c 2 t) (iblk1 V c 3 t) (iblk1 V c 4 t) _ _).2.2.2.2 Set.univ _)
      iframe H0 H1 H2 H3 H4 HS0 HS1
      isplitl [H5]; · iexists _; iexact H5
      isplitl [H6]; · iexists _; iexact H6
      iintro ⟨H0, H1, H2, H3, H4, ⟨%e5, H5⟩, ⟨%e6, H6⟩, ⟨%es0, HS0⟩, ⟨%es1, HS1⟩⟩
      iframe Hrest Hg Ho H0 H1 H2 H3 H4
      isplitl [HS0 HS1]
      · isplitl [HS0]
        · unfold owns; iexists _; isplitr
          swap; · iexact HS0
          ipureintro; exact View.read_writes_of_cover _ _ _ _ _ (covers1_C ..).2.1
        unfold owns; iexists _; isplitr
        swap; · iexact HS1
        ipureintro; exact View.read_writes_of_cover _ _ _ _ _ (covers1_C ..).2.2
      isplitl [H5]
      · unfold owns; iexists _; isplitr
        swap; · iexact H5
        ipureintro; exact View.read_writes_of_cover _ _ _ _ _ (covers1_C ..).1
      unfold owns; iexists _; isplitr
      swap; · iexact H6
      ipureintro; exact View.read_writes_of_cover _ _ _ _ _ (fun _ => cover1_C_6 ..)
    · have c1 : ¬cond1_1 (grid1.coords t) := fun h => h1 ((hcond1_1 t).mp h)
      rw [Dat.leavesExact_idle (dat1 V c) 6 t (idleAt1_6 t c1) (noFlush1_6 t c1)]
      rw [outsAt1_eq V c t]; unfold step1; rw [dif_neg h0, dif_neg h1]
      dsimp only [outs1_B, reads1]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ c0 c1 (iblk1 V c 0 t) (iblk1 V c 1 t) (iblk1 V c 2 t) (iblk1 V c 3 t) (iblk1 V c 4 t) _ _).2.2.2.2 _ Set.univ _)
      iframe H0 H1 H2 H3 H4 H6 HS0 HS1
      isplitl [H5]; · iexists _; iexact H5
      iintro ⟨H0, H1, H2, H3, H4, ⟨%e5, H5⟩, H6, ⟨%es0, HS0⟩, ⟨%es1, HS1⟩⟩
      iframe Hrest Hg Ho H0 H1 H2 H3 H4
      isplitl [HS0 HS1]
      · isplitl [HS0]
        · unfold owns; iexists _; isplitr
          swap; · iexact HS0
          ipureintro; exact View.read_writes_of_cover _ _ _ _ _ (covers1_B ..).2.1
        unfold owns; iexists _; isplitr
        swap; · iexact HS1
        ipureintro; exact View.read_writes_of_cover _ _ _ _ _ (covers1_B ..).2.2
      isplitl [H5]
      · unfold owns; iexists _; isplitr
        swap; · iexact H5
        ipureintro; exact View.read_writes_of_cover _ _ _ _ _ (covers1_B ..).1
      iexists _; iexact H6

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]; unfold PhiP1
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout1 (c : Dev nD) : (dat1 V c).Φ (Fin.last cfg1.N) ⊢ Pipeline.ΦA spec1 c :=
  Phi_out1 V c _ (by rw [Fin.val_last]; have : cfg1.N = 20 := N_1; omega)

end Cert.KernelIdeal.Hand

end
-- ==== Proof.FrameKI.Reg2.lean ====
import proofs.«402365_j6828998001463_1_alg».proof.Proof.Gen.KernelIdeal.Launch
import proofs.«402365_j6828998001463_1_alg».proof.Proof.Gen.KernelIdeal.Skeleton
import proofs.«402365_j6828998001463_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x64 := Rect.unit (s := S5000x64) ![0, 0] S5000x64.size inb_S5000x64_S5000x64_0_0
abbrev r2_1 : Rect S1x64 := Rect.unit (s := S1x64) ![0, 0] S1x64.size inb_S1x64_S1x64_0_0

def out2_5 (x0 : Vec F S5000x64 .f32) (x1 x2 x3 x4 : Vec F S1x64 .f32) : Vec F S5000x64 .f32 :=
  View.canon [⟨r2_0, k2_pay1 (View.ld x2 r2_1) (View.ld x3 r2_1) (View.ld x0 r2_0) (View.ld x1 r2_1) (View.ld x4 r2_1)⟩]

-- the one stored rectangle is the whole shape
theorem cover2_5 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

-- the body is whole-block loads and one whole-block store; the stored piece covers the shape, so what it leaves is that piece's canonical contents
set_option maxHeartbeats 1000000 in
theorem sound_kernel2 (E : Set ℕ) (i : grid2.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out2_5 x0 x1 x2 x3 x4)) -∗ K ⟨⟩))
      ⊢ wp frame (wpE (defs₀ (F := F)) Variants.none c none) E (cc2__bn_kernel i arg1 harg1 arg2 harg2 arg3 harg3 arg4 harg4 arg5 harg5 arg6 harg6) K := by
  simp only [cc2__bn_kernel_eq_skeleton]; unfold cc2__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (w : Fin cfg2.W) : (dat2 V c).A w = V c (Pipeline.arrRef spec2 w) := rfl

theorem after2_5 (t : Fin cfg2.N) : (dat2 V c).after 5 t = out2_5 (iblk2 V c 0 t) (iblk2 V c 1 t) (iblk2 V c 2 t) (iblk2 V c 3 t) (iblk2 V c 4 t) := by dsimp only [dat2]

theorem before2_0 (t : Fin cfg2.N) (d) : (dat2 V c).before 0 t d = iblk2 V c 0 t :=
  ((dat2 V c).before_in_eq_fetched 0 rfl (fun _ => rfl) (fun _ _ _ => rfl) (fun _ => rfl) t d).trans rfl
theorem before2_1 (t : Fin cfg2.N) (d) : (dat2 V c).before 1 t d = iblk2 V c 1 t :=
  ((dat2 V c).before_in_eq_fetched 1 rfl (fun _ => rfl) (fun _ _ _ => rfl) (fun _ => rfl) t d).trans rfl
theorem before2_2 (t : Fin cfg2.N) (d) : (dat2 V c).before 2 t d = iblk2 V c 2 t :=
  ((dat2 V c).before_in_eq_fetched 2 rfl (fun _ => rfl) (fun _ _ _ => rfl) (fun _ => rfl) t d).trans rfl
theorem before2_3 (t : Fin cfg2.N) (d) : (dat2 V c).before 3 t d = iblk2 V c 3 t :=
  ((dat2 V c).before_in_eq_fetched 3 rfl (fun _ => rfl) (fun _ _ _ => rfl) (fun _ => rfl) t d).trans rfl
theorem before2_4 (t : Fin cfg2.N) (d) : (dat2 V c).before 4 t d = iblk2 V c 4 t :=
  ((dat2 V c).before_in_eq_fetched 4 rfl (fun _ => rfl) (fun _ _ _ => rfl) (fun _ => rfl) t d).trans rfl

-- every input holds its block, so the body's triple applies; everything else passes through unread
theorem body_obligation2 : BodyObligation (dat2 (F := F) V c) (defs₀ (F := F)) Variants.none () Set.univ := fun t => by
  rw [bigSep_W2, bigSep_W2]
  show iprop(_ ∗ _ ∗ (∃ d, _) ∗ (∃ d, _) ∗ (∃ d, _) ∗ (∃ d, _) ∗ (∃ d, _) ∗ (∃ d, _))
    ⊢ wp _ _ _ (bodyAt2 t) fun _ => iprop(_ ∗ _ ∗ owns _ _ _ _ ∗ owns _ _ _ _ ∗ owns _ _ _ _ ∗ owns _ _ _ _ ∗ owns _ _ _ _ ∗ owns _ _ _ _)
  simp only [before2_0, before2_1, before2_2, before2_3, before2_4]
  rw [show (dat2 V c).owesAt () t.succ = (dat2 V c).owesAt () t.castSucc from rfl]
  dsimp only [dat2]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  iframe H0 H1 H2 H3 H4
  isplitl [H5]; · iexists _; iexact H5
  iintro ⟨H0, H1, H2, H3, H4, H5⟩
  iframe

theorem hin2 : Pipeline.ΦA spec2 c ⊢ (dat2 V c).Φ 0 := BI.Entails.refl _

theorem hout2 : (dat2 V c).Φ (Fin.last cfg2.N) ⊢ Pipeline.ΦA spec2 c := BI.Entails.refl _

end Cert.KernelIdeal.Hand

end
-- ==== Proof.FrameKI.Reg3Runs.lean ====
import proofs.«402365_j6828998001463_1_alg».proof.Proof.Gen.KernelIdeal.Launch
import proofs.«402365_j6828998001463_1_alg».proof.Proof.Gen.KernelIdeal.Skeleton
import proofs.«402365_j6828998001463_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)

abbrev cond3_1 (i : grid3.Coords) : Prop := k3_cond2 i = 1#1
theorem hcond3_1 : ∀ t : Fin cfg3.N, cond3_1 (grid3.coords t) ↔ t.val = 19 :=
  (by decide +kernel : ∀ t : Fin grid3.N, cond3_1 (grid3.coords t) ↔ t.val = 19)

theorem liveAt3 : ∀ w : Fin cfg3.W, w.val < 6 → ∀ t : Fin cfg3.N, cfg3.idle w (grid3.coords t) = false := by decide +kernel
theorem idleAt3_6 : ∀ t : Fin cfg3.N, ¬cond3_1 (grid3.coords t) → cfg3.idle 6 (grid3.coords t) = true := by decide +kernel
theorem noFlush3_6 : ∀ t : Fin cfg3.N, ¬cond3_1 (grid3.coords t) → (cfg3.win 6).flush t = false := by decide +kernel
theorem liveAt3_6_C : ∀ t : Fin cfg3.N, ¬cond3_0 (grid3.coords t) → cond3_1 (grid3.coords t) → cfg3.idle 6 (grid3.coords t) = false := by decide +kernel

abbrev VO3_5 : View sig .tc .vmem S5000x64 .f32 := (Memref.whole cc3_stg5_0 : Memref sig .tc .vmem S5000x64 .f32).view
abbrev VO3_6 : View sig .tc .vmem S2x64 .f32 := (Memref.whole cc3_stg6_0 : Memref sig .tc .vmem S2x64 .f32).view
abbrev ms3_0 (t : Fin cfg3.N) : Memref sig .tc .vmem S5000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S64x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S64x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x64 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S5000x64 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S2x64 .f32 := win3_6.stage (cfg3.slots t 6)
abbrev hs3_6 (t : Fin cfg3.N) : (ms3_6 t).IsWhole := hstage3_6 ((cfg3.slots t 6).cast nbuf3_6)
abbrev scM3_0 : Memref sig .tc .vmem S1x64 .f32 := Memref.whole cc3_scratch0
abbrev scM3_1 : Memref sig .tc .vmem S1x64 .f32 := Memref.whole cc3_scratch1
abbrev VS3_0 : View sig .tc .vmem S1x64 .f32 := scM3_0.view
abbrev VS3_1 : View sig .tc .vmem S1x64 .f32 := scM3_1.view

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

end Cert.KernelIdeal.Hand

end
-- ==== Proof.FrameKI.Reg3RunA.lean ====
import proofs.«402365_j6828998001463_1_alg».proof.Proof.FrameKI.Reg3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun3_A (c : Dev nD) (i : grid3.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S2x64 .f32) (harg7 : arg7.IsWhole) (arg8 : Memref sig .tc .vmem S1x64 .f32) (harg8 : arg8.IsWhole) (arg9 : Memref sig .tc .vmem S1x64 .f32) (harg9 : arg9.IsWhole) (hc0 : cond3_0 i) (hc1 : ¬cond3_1 i)
    (x1 : Vec F S5000x64 .f32) (x2 : Vec F S64x64 .f32) (x3 : Vec F S1x64 .f32) (x4 : Vec F S64x64 .f32) (x5 : Vec F S1x64 .f32) :
    Σ' (L5 : List (View.Piece (Elt F) S5000x64 .f32)) (L6 : List (View.Piece (Elt F) S2x64 .f32)) (LS0 : List (View.Piece (Elt F) S1x64 .f32)), { LS1 : List (View.Piece (Elt F) S1x64 .f32) //
      ∀ (xi6 : Vec F S2x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__lin_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc3__lin_kernel_eq_skeleton]; unfold cc3__lin_kernel_skel
    simp only [k3_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, ⟨%ds1, %fs1, -, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [HS0]; · iexists _; iexact HS0
    iexists _; iexact HS1

end Cert.KernelIdeal.Hand

end
-- ==== Proof.FrameKI.Reg3RunB.lean ====
import proofs.«402365_j6828998001463_1_alg».proof.Proof.FrameKI.Reg3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun3_B (c : Dev nD) (i : grid3.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S2x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : ¬cond3_1 i)
    (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L5 : List (View.Piece (Elt F) S5000x64 .f32)) (L6 : List (View.Piece (Elt F) S2x64 .f32)) (LS0 : List (View.Piece (Elt F) S1x64 .f32)), { LS1 : List (View.Piece (Elt F) S1x64 .f32) //
      ∀ (xi6 : Vec F S2x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xi6 ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__lin_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc3__lin_kernel_eq_skeleton]; unfold cc3__lin_kernel_skel
    simp only [k3_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%fs1, %hfs1, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hfs0; obtain rfl := harg9.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [HS0]; · iexists _; iexact HS0
    iexists _; iexact HS1

end Cert.KernelIdeal.Hand

end
-- ==== Proof.FrameKI.Reg3RunC.lean ====
import proofs.«402365_j6828998001463_1_alg».proof.Proof.FrameKI.Reg3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun3_C (c : Dev nD) (i : grid3.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S2x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : cond3_1 i)
    (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L5 : List (View.Piece (Elt F) S5000x64 .f32)) (L6 : List (View.Piece (Elt F) S2x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__lin_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc3__lin_kernel_eq_skeleton]; unfold cc3__lin_kernel_skel
    simp only [k3_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg8.eq_unread hfs0; obtain rfl := harg9.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [HS0]; · iexists _; iexact HS0
    iexists _; iexact HS1

end Cert.KernelIdeal.Hand

end
-- ==== Proof.FrameKI.Reg3.lean ====
import proofs.«402365_j6828998001463_1_alg».proof.Proof.FrameKI.Reg3RunA
import proofs.«402365_j6828998001463_1_alg».proof.Proof.FrameKI.Reg3RunB
import proofs.«402365_j6828998001463_1_alg».proof.Proof.FrameKI.Reg3RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable {P : List (View.Piece (Elt F) S5000x64 .f32) → List (View.Piece (Elt F) S2x64 .f32) → List (View.Piece (Elt F) S1x64 .f32) → List (View.Piece (Elt F) S1x64 .f32) → Prop}
  (r : Σ' (L5 : List (View.Piece (Elt F) S5000x64 .f32)) (L6 : List (View.Piece (Elt F) S2x64 .f32)) (LS0 : List (View.Piece (Elt F) S1x64 .f32)), { LS1 : List (View.Piece (Elt F) S1x64 .f32) // P L5 L6 LS0 LS1 })

/-- The four store lists of a run of the body read back through fixed views: output block, statistics block, the two accumulators. -/
def reads3 : Vec F S5000x64 .f32 × Vec F S2x64 .f32 × Vec F S1x64 .f32 × Vec F S1x64 .f32 :=
  (VO3_5.read (Elt F) (VO3_5.writes (Elt F) VO3_5.junk r.1), VO3_6.read (Elt F) (VO3_6.writes (Elt F) VO3_6.junk r.2.1), VS3_0.read (Elt F) (VS3_0.writes (Elt F) VS3_0.junk r.2.2.1), VS3_1.read (Elt F) (VS3_1.writes (Elt F) VS3_1.junk r.2.2.2.1))

/-- The stores of the output block and of each accumulator cover them, so what is read back does not depend on the contents before. -/
def Covers3 : Prop :=
  (∀ y : S5000x64.Idx, ∃ pc ∈ r.1, y ∈ pc.1.set) ∧ (∀ y : S1x64.Idx, ∃ pc ∈ r.2.2.1, y ∈ pc.1.set) ∧ (∀ y : S1x64.Idx, ∃ pc ∈ r.2.2.2.1, y ∈ pc.1.set)

end

section
variable (c : Dev nD) (i : grid3.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S2x64 .f32) (harg7 : arg7.IsWhole) (arg8 : Memref sig .tc .vmem S1x64 .f32) (harg8 : arg8.IsWhole) (arg9 : Memref sig .tc .vmem S1x64 .f32) (harg9 : arg9.IsWhole)

section
variable (hc0 : cond3_0 i) (hc1 : ¬cond3_1 i) (x1 : Vec F S5000x64 .f32) (x2 : Vec F S64x64 .f32) (x3 : Vec F S1x64 .f32) (x4 : Vec F S64x64 .f32) (x5 : Vec F S1x64 .f32)

def outs3_A : Vec F S5000x64 .f32 × Vec F S2x64 .f32 × Vec F S1x64 .f32 × Vec F S1x64 .f32 :=
  reads3 (kernelRun3_A c i arg1 harg1 arg2 harg2 arg3 harg3 arg4 harg4 arg5 harg5 arg6 harg6 arg7 harg7 arg8 harg8 arg9 harg9 hc0 hc1 x1 x2 x3 x4 x5)

theorem covers3_A : Covers3 (kernelRun3_A c i arg1 harg1 arg2 harg2 arg3 harg3 arg4 harg4 arg5 harg5 arg6 harg6 arg7 harg7 arg8 harg8 arg9 harg9 hc0 hc1 x1 x2 x3 x4 x5) :=
  ⟨View.cover_of_tiledL _ S5000x64.size (by sl_kernel_rfl), View.cover_of_tiledL _ S1x64.size (by sl_kernel_rfl), View.cover_of_tiledL _ S1x64.size (by sl_kernel_rfl)⟩

end

section
variable (hc0 : ¬cond3_0 i) (hc1 : ¬cond3_1 i) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32)

def outs3_B : Vec F S5000x64 .f32 × Vec F S2x64 .f32 × Vec F S1x64 .f32 × Vec F S1x64 .f32 :=
  reads3 (kernelRun3_B c i arg1 harg1 arg2 harg2 arg3 harg3 arg4 harg4 arg5 harg5 arg6 harg6 arg7 harg7 arg8 harg8 arg9 harg9 hc0 hc1 x1 x2 x3 x4 x5 xs0 xs1)

theorem covers3_B : Covers3 (kernelRun3_B c i arg1 harg1 arg2 harg2 arg3 harg3 arg4 harg4 arg5 harg5 arg6 harg6 arg7 harg7 arg8 harg8 arg9 harg9 hc0 hc1 x1 x2 x3 x4 x5 xs0 xs1) :=
  ⟨View.cover_of_tiledL _ S5000x64.size (by sl_kernel_rfl), View.cover_of_tiledL _ S1x64.size (by sl_kernel_rfl), View.cover_of_tiledL _ S1x64.size (by sl_kernel_rfl)⟩

end

section
variable (hc0 : ¬cond3_0 i) (hc1 : cond3_1 i) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32)

def outs3_C : Vec F S5000x64 .f32 × Vec F S2x64 .f32 × Vec F S1x64 .f32 × Vec F S1x64 .f32 :=
  reads3 (kernelRun3_C c i arg1 harg1 arg2 harg2 arg3 harg3 arg4 harg4 arg5 harg5 arg6 harg6 arg7 harg7 arg8 harg8 arg9 harg9 hc0 hc1 x1 x2 x3 x4 x5 xs0 xs1)

theorem covers3_C : Covers3 (kernelRun3_C c i arg1 harg1 arg2 harg2 arg3 harg3 arg4 harg4 arg5 harg5 arg6 harg6 arg7 harg7 arg8 harg8 arg9 harg9 hc0 hc1 x1 x2 x3 x4 x5 xs0 xs1) :=
  ⟨View.cover_of_tiledL _ S5000x64.size (by sl_kernel_rfl), View.cover_of_tiledL _ S1x64.size (by sl_kernel_rfl), View.cover_of_tiledL _ S1x64.size (by sl_kernel_rfl)⟩

theorem cover3_C_6 (y : S2x64.Idx) : ∃ pc ∈ (kernelRun3_C c i arg1 harg1 arg2 harg2 arg3 harg3 arg4 harg4 arg5 harg5 arg6 harg6 arg7 harg7 arg8 harg8 arg9 harg9 hc0 hc1 x1 x2 x3 x4 x5 xs0 xs1).2.1, y ∈ pc.1.set :=
  View.cover_of_tiledL (kernelRun3_C c i arg1 harg1 arg2 harg2 arg3 harg3 arg4 harg4 arg5 harg5 arg6 harg6 arg7 harg7 arg8 harg8 arg9 harg9 hc0 hc1 x1 x2 x3 x4 x5 xs0 xs1).2.1 S1x64.size (by sl_kernel_rfl) y

end

end

/-- What the body leaves at point `t` (output block, statistics block, the two accumulators) over the accumulators `s0`, `s1` left by the point before; the first point does not read them. -/
def step3 (c : Dev nD) (t : Fin cfg3.N) (s0 s1 : Vec F S1x64 .f32) : Vec F S5000x64 .f32 × Vec F S2x64 .f32 × Vec F S1x64 .f32 × Vec F S1x64 .f32 :=
  if h0 : t.val = 0 then
    outs3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) ((hcond3_0 t).mpr h0) (fun h => by have := (hcond3_1 t).mp h; omega) (iblk3 V c 0 t) (iblk3 V c 1 t) (iblk3 V c 2 t) (iblk3 V c 3 t) (iblk3 V c 4 t)
  else if h1 : t.val = 19 then
    outs3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) s0 s1
  else
    outs3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) s0 s1

def outsAt3 (c : Dev nD) : (n : ℕ) → n < cfg3.N → Vec F S5000x64 .f32 × Vec F S2x64 .f32 × Vec F S1x64 .f32 × Vec F S1x64 .f32
  | 0, hn => step3 V c ⟨0, hn⟩ (VS3_0.read (Elt F) VS3_0.junk) (VS3_0.read (Elt F) VS3_0.junk)
  | n + 1, hn => step3 V c ⟨n + 1, hn⟩ (outsAt3 c n (Nat.lt_of_succ_lt hn)).2.2.1 (outsAt3 c n (Nat.lt_of_succ_lt hn)).2.2.2

theorem outsAt3_eq (c : Dev nD) (t : Fin cfg3.N) :
    outsAt3 V c t.val t.isLt = step3 V c t (outsAt3 V c (t.val - 1) (Nat.lt_of_le_of_lt (Nat.sub_le _ _) t.isLt)).2.2.1 (outsAt3 V c (t.val - 1) (Nat.lt_of_le_of_lt (Nat.sub_le _ _) t.isLt)).2.2.2 := by
  obtain ⟨n, hn⟩ := t
  cases n with
  | zero => show step3 V c _ _ _ = _; unfold step3; rw [dif_pos rfl, dif_pos rfl]
  | succ n => rfl

/-- The region invariant with the two accumulators at `s0`, `s1`. -/
def PhiP3 (c : Dev nD) (s0 s1 : Vec F S1x64 .f32) : sProp 𝕄 :=
  iprop(iprop(iprop(owns (c : Thread nD τ) scM3_0 fullShare s0 ∗ owns (c : Thread nD τ) scM3_1 fullShare s1) ∗ Pipeline.scopedRestBut (Ix := Unit) (Name := ℕ) (U := UR sig nD τ) (Lvl := ℕ) (Val := Elt F) spec3 c [cc3_scratch0, cc3_scratch1]) ∗ (∃ r, prngReg c r))

def PhiS3 (c : Dev nD) : (n : ℕ) → n ≤ cfg3.N → sProp 𝕄
  | 0, _ => Pipeline.ΦA spec3 c
  | n + 1, hn => PhiP3 c (outsAt3 V c n hn).2.2.1 (outsAt3 V c n hn).2.2.2

theorem PhiS3_zero (c : Dev nD) (n : ℕ) (h : n ≤ cfg3.N) (hz : n = 0) : PhiS3 V c n h = Pipeline.ΦA spec3 c := by
  subst hz; rfl

theorem PhiS3_pos (c : Dev nD) (n : ℕ) (h : n ≤ cfg3.N) (hz : n ≠ 0) :
    PhiS3 V c n h = PhiP3 c (outsAt3 V c (n - 1) (by omega)).2.2.1 (outsAt3 V c (n - 1) (by omega)).2.2.2 := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
    | ⟨6, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]
theorem after3_6 (c : Dev nD) (t : Fin cfg3.N) : (dat3 V c).after 6 t = (outsAt3 V c t.val t.isLt).2.1 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiP3 c (outsAt3 V c t.val t.isLt).2.2.1 (outsAt3 V c t.val t.isLt).2.2.2 from rfl, PhiS3_castSucc V c t]
  unfold PhiP3
  rw [show (dat3 V c).leavesExact 0 t = owns (c : Thread nD τ) (ms3_0 t) fullShare ((dat3 V c).after 0 t) from by
    unfold Dat.leavesExact; rw [liveAt3 0 (by decide) t], after3_0]
  rw [show (dat3 V c).leavesExact 1 t = owns (c : Thread nD τ) (ms3_1 t) fullShare ((dat3 V c).after 1 t) from by
    unfold Dat.leavesExact; rw [liveAt3 1 (by decide) t], after3_1]
  rw [show (dat3 V c).leavesExact 2 t = owns (c : Thread nD τ) (ms3_2 t) fullShare ((dat3 V c).after 2 t) from by
    unfold Dat.leavesExact; rw [liveAt3 2 (by decide) t], after3_2]
  rw [show (dat3 V c).leavesExact 3 t = owns (c : Thread nD τ) (ms3_3 t) fullShare ((dat3 V c).after 3 t) from by
    unfold Dat.leavesExact; rw [liveAt3 3 (by decide) t], after3_3]
  rw [show (dat3 V c).leavesExact 4 t = owns (c : Thread nD τ) (ms3_4 t) fullShare ((dat3 V c).after 4 t) from by
    unfold Dat.leavesExact; rw [liveAt3 4 (by decide) t], after3_4]
  rw [show (dat3 V c).leavesExact 5 t = owns (c : Thread nD τ) (ms3_5 t) fullShare ((dat3 V c).after 5 t) from by
    unfold Dat.leavesExact; rw [liveAt3 5 (by decide) t], after3_5]
  by_cases h0 : t.val = 0
  · have c0 := (hcond3_0 t).mpr h0
    have c1 : ¬cond3_1 (grid3.coords t) := fun h => by have := (hcond3_1 t).mp h; omega
    rw [Dat.leavesExact_idle (dat3 V c) 6 t (idleAt3_6 t c1) (noFlush3_6 t c1)]
    rw [outsAt3_eq V c t]; unfold step3; rw [dif_pos h0]
    dsimp only [outs3_A, reads3]
    rw [PhiS3_zero V c _ _ h0, PhiA3_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun3_A c (grid3.coords t) _ _ _ _ _ _ _ _ _ _ _ _ _ _ _ _ _ _ c0 c1 (iblk3 V c 0 t) (iblk3 V c 1 t) (iblk3 V c 2 t) (iblk3 V c 3 t) (iblk3 V c 4 t)).2.2.2.2 _ Set.univ _)
    iframe H0 H1 H2 H3 H4 H6 HS0 HS1
    isplitl [H5]; · iexists _; iexact H5
    iintro ⟨H0, H1, H2, H3, H4, ⟨%e5, H5⟩, H6, ⟨%es0, HS0⟩, ⟨%es1, HS1⟩⟩
    iframe Hrest Hg Ho H0 H1 H2 H3 H4
    isplitl [HS0 HS1]
    · isplitl [HS0]
      · unfold owns; iexists _; isplitr
        swap; · iexact HS0
        ipureintro; exact View.read_writes_of_cover _ _ _ _ _ (covers3_A ..).2.1
      unfold owns; iexists _; isplitr
      swap; · iexact HS1
      ipureintro; exact View.read_writes_of_cover _ _ _ _ _ (covers3_A ..).2.2
    isplitl [H5]
    · unfold owns; iexists _; isplitr
      swap; · iexact H5
      ipureintro; exact View.read_writes_of_cover _ _ _ _ _ (covers3_A ..).1
    iexists _; iexact H6
  · rw [PhiS3_pos V c _ _ h0]; unfold PhiP3
    have c0 : ¬cond3_0 (grid3.coords t) := fun h => h0 ((hcond3_0 t).mp h)
    by_cases h1 : t.val = 19
    · have c1 := (hcond3_1 t).mpr h1
      rw [show (dat3 V c).leavesExact 6 t = owns (c : Thread nD τ) (ms3_6 t) fullShare ((dat3 V c).after 6 t) from by
        unfold Dat.leavesExact; rw [liveAt3_6_C t c0 c1], after3_6]
      rw [outsAt3_eq V c t]; unfold step3; rw [dif_neg h0, dif_pos h1]
      dsimp only [outs3_C, reads3]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_C c (grid3.coords t) _ _ _ _ _ _ _ _ _ _ _ _ _ _ _ _ _ _ c0 c1 (iblk3 V c 0 t) (iblk3 V c 1 t) (iblk3 V c 2 t) (iblk3 V c 3 t) (iblk3 V c 4 t) _ _).2.2.2.2 Set.univ _)
      iframe H0 H1 H2 H3 H4 HS0 HS1
      isplitl [H5]; · iexists _; iexact H5
      isplitl [H6]; · iexists _; iexact H6
      iintro ⟨H0, H1, H2, H3, H4, ⟨%e5, H5⟩, ⟨%e6, H6⟩, ⟨%es0, HS0⟩, ⟨%es1, HS1⟩⟩
      iframe Hrest Hg Ho H0 H1 H2 H3 H4
      isplitl [HS0 HS1]
      · isplitl [HS0]
        · unfold owns; iexists _; isplitr
          swap; · iexact HS0
          ipureintro; exact View.read_writes_of_cover _ _ _ _ _ (covers3_C ..).2.1
        unfold owns; iexists _; isplitr
        swap; · iexact HS1
        ipureintro; exact View.read_writes_of_cover _ _ _ _ _ (covers3_C ..).2.2
      isplitl [H5]
      · unfold owns; iexists _; isplitr
        swap; · iexact H5
        ipureintro; exact View.read_writes_of_cover _ _ _ _ _ (covers3_C ..).1
      unfold owns; iexists _; isplitr
      swap; · iexact H6
      ipureintro; exact View.read_writes_of_cover _ _ _ _ _ (fun _ => cover3_C_6 ..)
    · have c1 : ¬cond3_1 (grid3.coords t) := fun h => h1 ((hcond3_1 t).mp h)
      rw [Dat.leavesExact_idle (dat3 V c) 6 t (idleAt3_6 t c1) (noFlush3_6 t c1)]
      rw [outsAt3_eq V c t]; unfold step3; rw [dif_neg h0, dif_neg h1]
      dsimp only [outs3_B, reads3]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_B c (grid3.coords t) _ _ _ _ _ _ _ _ _ _ _ _ _ _ _ _ _ _ c0 c1 (iblk3 V c 0 t) (iblk3 V c 1 t) (iblk3 V c 2 t) (iblk3 V c 3 t) (iblk3 V c 4 t) _ _).2.2.2.2 _ Set.univ _)
      iframe H0 H1 H2 H3 H4 H6 HS0 HS1
      isplitl [H5]; · iexists _; iexact H5
      iintro ⟨H0, H1, H2, H3, H4, ⟨%e5, H5⟩, H6, ⟨%es0, HS0⟩, ⟨%es1, HS1⟩⟩
      iframe Hrest Hg Ho H0 H1 H2 H3 H4
      isplitl [HS0 HS1]
      · isplitl [HS0]
        · unfold owns; iexists _; isplitr
          swap; · iexact HS0
          ipureintro; exact View.read_writes_of_cover _ _ _ _ _ (covers3_B ..).2.1
        unfold owns; iexists _; isplitr
        swap; · iexact HS1
        ipureintro; exact View.read_writes_of_cover _ _ _ _ _ (covers3_B ..).2.2
      isplitl [H5]
      · unfold owns; iexists _; isplitr
        swap; · iexact H5
        ipureintro; exact View.read_writes_of_cover _ _ _ _ _ (covers3_B ..).1
      iexists _; iexact H6

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]; unfold PhiP3
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout3 (c : Dev nD) : (dat3 V c).Φ (Fin.last cfg3.N) ⊢ Pipeline.ΦA spec3 c :=
  Phi_out3 V c _ (by rw [Fin.val_last]; have : cfg3.N = 20 := N_3; omega)

end Cert.KernelIdeal.Hand

end
-- ==== Proof.FrameKI.Reg4.lean ====
import proofs.«402365_j6828998001463_1_alg».proof.Proof.Gen.KernelIdeal.Launch
import proofs.«402365_j6828998001463_1_alg».proof.Proof.Gen.KernelIdeal.Skeleton
import proofs.«402365_j6828998001463_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x64 := Rect.unit (s := S5000x64) ![0, 0] S5000x64.size inb_S5000x64_S5000x64_0_0
abbrev r4_1 : Rect S1x64 := Rect.unit (s := S1x64) ![0, 0] S1x64.size inb_S1x64_S1x64_0_0

def out4_5 (x0 : Vec F S5000x64 .f32) (x1 x2 x3 x4 : Vec F S1x64 .f32) : Vec F S5000x64 .f32 :=
  View.canon [⟨r4_0, k4_pay1 (View.ld x2 r4_1) (View.ld x3 r4_1) (View.ld x0 r4_0) (View.ld x1 r4_1) (View.ld x4 r4_1)⟩]

-- the one stored rectangle is the whole shape
theorem cover4_5 (p0 : Vec F S5000x64 .f32) (y : S5000x64.Idx) :
    ∃ pc ∈ ([⟨r4_0, p0⟩] : List (View.Piece (Elt F) S5000x64 .f32)), y ∈ pc.1.set :=
  View.cover_of_tiled [⟨r4_0, p0⟩] S5000x64.size (by rfl) y

-- the body is whole-block loads and one whole-block store; the stored piece covers the shape, so what it leaves is that piece's canonical contents
set_option maxHeartbeats 1000000 in
theorem sound_kernel4 (E : Set ℕ) (i : grid4.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out4_5 x0 x1 x2 x3 x4)) -∗ K ⟨⟩))
      ⊢ wp frame (wpE (defs₀ (F := F)) Variants.none c none) E (cc4__bn_kernel i arg1 harg1 arg2 harg2 arg3 harg3 arg4 harg4 arg5 harg5 arg6 harg6) K := by
  simp only [cc4__bn_kernel_eq_skeleton]; unfold cc4__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (w : Fin cfg4.W) : (dat4 V c).A w = V c (Pipeline.arrRef spec4 w) := rfl

theorem after4_5 (t : Fin cfg4.N) : (dat4 V c).after 5 t = out4_5 (iblk4 V c 0 t) (iblk4 V c 1 t) (iblk4 V c 2 t) (iblk4 V c 3 t) (iblk4 V c 4 t) := by dsimp only [dat4]

theorem before4_0 (t : Fin cfg4.N) (d) : (dat4 V c).before 0 t d = iblk4 V c 0 t :=
  ((dat4 V c).before_in_eq_fetched 0 rfl (fun _ => rfl) (fun _ _ _ => rfl) (fun _ => rfl) t d).trans rfl
theorem before4_1 (t : Fin cfg4.N) (d) : (dat4 V c).before 1 t d = iblk4 V c 1 t :=
  ((dat4 V c).before_in_eq_fetched 1 rfl (fun _ => rfl) (fun _ _ _ => rfl) (fun _ => rfl) t d).trans rfl
theorem before4_2 (t : Fin cfg4.N) (d) : (dat4 V c).before 2 t d = iblk4 V c 2 t :=
  ((dat4 V c).before_in_eq_fetched 2 rfl (fun _ => rfl) (fun _ _ _ => rfl) (fun _ => rfl) t d).trans rfl
theorem before4_3 (t : Fin cfg4.N) (d) : (dat4 V c).before 3 t d = iblk4 V c 3 t :=
  ((dat4 V c).before_in_eq_fetched 3 rfl (fun _ => rfl) (fun _ _ _ => rfl) (fun _ => rfl) t d).trans rfl
theorem before4_4 (t : Fin cfg4.N) (d) : (dat4 V c).before 4 t d = iblk4 V c 4 t :=
  ((dat4 V c).before_in_eq_fetched 4 rfl (fun _ => rfl) (fun _ _ _ => rfl) (fun _ => rfl) t d).trans rfl

-- every input holds its block, so the body's triple applies; everything else passes through unread
theorem body_obligation4 : BodyObligation (dat4 (F := F) V c) (defs₀ (F := F)) Variants.none () Set.univ := fun t => by
  rw [bigSep_W4, bigSep_W4]
  show iprop(_ ∗ _ ∗ (∃ d, _) ∗ (∃ d, _) ∗ (∃ d, _) ∗ (∃ d, _) ∗ (∃ d, _) ∗ (∃ d, _))
    ⊢ wp _ _ _ (bodyAt4 t) fun _ => iprop(_ ∗ _ ∗ owns _ _ _ _ ∗ owns _ _ _ _ ∗ owns _ _ _ _ ∗ owns _ _ _ _ ∗ owns _ _ _ _ ∗ owns _ _ _ _)
  simp only [before4_0, before4_1, before4_2, before4_3, before4_4]
  rw [show (dat4 V c).owesAt () t.succ = (dat4 V c).owesAt () t.castSucc from rfl]
  dsimp only [dat4]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  iframe H0 H1 H2 H3 H4
  isplitl [H5]; · iexists _; iexact H5
  iintro ⟨H0, H1, H2, H3, H4, H5⟩
  iframe

theorem hin4 : Pipeline.ΦA spec4 c ⊢ (dat4 V c).Φ 0 := BI.Entails.refl _

theorem hout4 : (dat4 V c).Φ (Fin.last cfg4.N) ⊢ Pipeline.ΦA spec4 c := BI.Entails.refl _

end Cert.KernelIdeal.Hand

end
-- ==== Proof.FrameKI.Reg5Runs.lean ====
import proofs.«402365_j6828998001463_1_alg».proof.Proof.Gen.KernelIdeal.Launch
import proofs.«402365_j6828998001463_1_alg».proof.Proof.Gen.KernelIdeal.Skeleton
import proofs.«402365_j6828998001463_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev cond5_0 (i : grid5.Coords) : Prop := (Scalar.cmpi .ne (Scalar.extui (Scalar.cmpi .eq (BitVec.ofNat 32 (i 0).val) 0#32)) 0#32) = 1#1
theorem hcond5_0 : ∀ t : Fin cfg5.N, cond5_0 (grid5.coords t) ↔ t.val = 0 :=
  (by decide +kernel : ∀ t : Fin grid5.N, cond5_0 (grid5.coords t) ↔ t.val = 0)

abbrev cond5_1 (i : grid5.Coords) : Prop := k5_cond2 i = 1#1
theorem hcond5_1 : ∀ t : Fin cfg5.N, cond5_1 (grid5.coords t) ↔ t.val = 19 :=
  (by decide +kernel : ∀ t : Fin grid5.N, cond5_1 (grid5.coords t) ↔ t.val = 19)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
theorem liveAt5_4 : ∀ t : Fin cfg5.N, cfg5.idle 4 (grid5.coords t) = false := by decide +kernel
theorem liveAt5_5 : ∀ t : Fin cfg5.N, cfg5.idle 5 (grid5.coords t) = false := by decide +kernel

abbrev VO5_5 : View sig .tc .vmem S5000x64 .f32 := (Memref.whole cc5_stg5_0 : Memref sig .tc .vmem S5000x64 .f32).view
abbrev VO5_6 : View sig .tc .vmem S2x64 .f32 := (Memref.whole cc5_stg6_0 : Memref sig .tc .vmem S2x64 .f32).view
abbrev ms5_0 (t : Fin cfg5.N) : Memref sig .tc .vmem S5000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S5000x64 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S128x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S64x64 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x64 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S5000x64 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S2x64 .f32 := win5_6.stage (cfg5.slots t 6)
abbrev hs5_6 (t : Fin cfg5.N) : (ms5_6 t).IsWhole := hstage5_6 ((cfg5.slots t 6).cast nbuf5_6)

abbrev scM5_0 : Memref sig .tc .vmem S1x64 .f32 := Memref.whole cc5_scratch0
abbrev scM5_1 : Memref sig .tc .vmem S1x64 .f32 := Memref.whole cc5_scratch1
abbrev VS5_0 : View sig .tc .vmem S1x64 .f32 := scM5_0.view
abbrev VS5_1 : View sig .tc .vmem S1x64 .f32 := scM5_1.view

theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1]) ∗ (∃ r, prngReg c r)) := by
  unfold Pipeline.ΦA; rw [scopedRest5_split]; simp only [scM5_0, scM5_1, owns_whole]; try rfl

end Cert.KernelIdeal.Hand

end
-- ==== Proof.FrameKI.Reg5RunA.lean ====
import proofs.«402365_j6828998001463_1_alg».proof.Proof.FrameKI.Reg5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun5_A (c : Dev nD) (i : grid5.Coords) (arg1 : Memref sig .tc .vmem S5000x128 .f32) (harg1 : arg1.IsWhole) (arg2 : Memref sig .tc .vmem S5000x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S2x64 .f32) (harg7 : arg7.IsWhole) (arg8 : Memref sig .tc .vmem S1x64 .f32) (harg8 : arg8.IsWhole) (arg9 : Memref sig .tc .vmem S1x64 .f32) (harg9 : arg9.IsWhole) (hc0 : cond5_0 i) (hc1 : ¬cond5_1 i)
    (x0 : Vec F S5000x128 .f32) (x1 : Vec F S5000x64 .f32) (x2 : Vec F S128x64 .f32) (x3 : Vec F S64x64 .f32) (x4 : Vec F S1x64 .f32) :
    Σ' (L5 : List (View.Piece (Elt F) S5000x64 .f32)) (L6 : List (View.Piece (Elt F) S2x64 .f32)) (LS0 : List (View.Piece (Elt F) S1x64 .f32)), { LS1 : List (View.Piece (Elt F) S1x64 .f32) //
      ∀ (xi6 : Vec F S2x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc5__finlin_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc5__finlin_kernel_eq_skeleton]; unfold cc5__finlin_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [HS0]; · iexists _; iexact HS0
    iexists _; iexact HS1

end Cert.KernelIdeal.Hand

end
-- ==== Proof.FrameKI.Reg5RunB.lean ====
import proofs.«402365_j6828998001463_1_alg».proof.Proof.FrameKI.Reg5RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun5_B (c : Dev nD) (i : grid5.Coords) (arg1 : Memref sig .tc .vmem S5000x128 .f32) (harg1 : arg1.IsWhole) (arg2 : Memref sig .tc .vmem S5000x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S2x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : ¬cond5_1 i)
    (x0 : Vec F S5000x128 .f32) (x1 : Vec F S5000x64 .f32) (x2 : Vec F S128x64 .f32) (x3 : Vec F S64x64 .f32) (x4 : Vec F S1x64 .f32) (xs0 : Vec F S1x64 .f32) (xs1 : Vec F S1x64 .f32) :
    Σ' (L5 : List (View.Piece (Elt F) S5000x64 .f32)) (L6 : List (View.Piece (Elt F) S2x64 .f32)) (LS0 : List (View.Piece (Elt F) S1x64 .f32)), { LS1 : List (View.Piece (Elt F) S1x64 .f32) //
      ∀ (xi6 : Vec F S2x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc5__finlin_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc5__finlin_kernel_eq_skeleton]; unfold cc5__finlin_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [HS0]; · iexists _; iexact HS0
    iexists _; iexact HS1

end Cert.KernelIdeal.Hand

end
-- ==== Proof.FrameKI.Reg5RunC.lean ====
import proofs.«402365_j6828998001463_1_alg».proof.Proof.FrameKI.Reg5RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
noncomputable def kernelRun5_C (c : Dev nD) (i : grid5.Coords) (arg1 : Memref sig .tc .vmem S5000x128 .f32) (harg1 : arg1.IsWhole) (arg2 : Memref sig .tc .vmem S5000x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S2x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : cond5_1 i)
    (x0 : Vec F S5000x128 .f32) (x1 : Vec F S5000x64 .f32) (x2 : Vec F S128x64 .f32) (x3 : Vec F S64x64 .f32) (x4 : Vec F S1x64 .f32) (xs0 : Vec F S1x64 .f32) (xs1 : Vec F S1x64 .f32) :
    Σ' (L5 : List (View.Piece (Elt F) S5000x64 .f32)) (L6 : List (View.Piece (Elt F) S2x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc5__finlin_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc5__finlin_kernel_eq_skeleton]; unfold cc5__finlin_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]; · iexists _; iexact HS0
    iexists _; iexact HS1

end Cert.KernelIdeal.Hand

end
-- ==== Proof.FrameKI.Reg5.lean ====
import proofs.«402365_j6828998001463_1_alg».proof.Proof.FrameKI.Reg5RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (t : Fin cfg5.N)

section
variable (h0 : t.val = 0) (h1 : ¬t.val = 19)

def run5_A :=
  kernelRun5_A c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t)

theorem cover5_A_5 : ∀ y : S5000x64.Idx, ∃ pc ∈ (run5_A V c t h0 h1).1, y ∈ pc.1.set :=
  View.cover_of_tiledL _ S5000x64.size (by sl_kernel_rfl)
theorem scover5_A_0 : ∀ y : S1x64.Idx, ∃ pc ∈ (run5_A V c t h0 h1).2.2.1, y ∈ pc.1.set :=
  View.cover_of_tiledL _ S1x64.size (by sl_kernel_rfl)
theorem scover5_A_1 : ∀ y : S1x64.Idx, ∃ pc ∈ (run5_A V c t h0 h1).2.2.2.1, y ∈ pc.1.set :=
  View.cover_of_tiledL _ S1x64.size (by sl_kernel_rfl)

def outs5_A_at : Vec F S5000x64 .f32 × Vec F S2x64 .f32 × Vec F S1x64 .f32 × Vec F S1x64 .f32 :=
  (VO5_5.read (Elt F) (VO5_5.writes (Elt F) VO5_5.junk (run5_A V c t h0 h1).1),
    VO5_6.read (Elt F) (VO5_6.writes (Elt F) VO5_6.junk (run5_A V c t h0 h1).2.1),
    VS5_0.read (Elt F) (VS5_0.writes (Elt F) VS5_0.junk (run5_A V c t h0 h1).2.2.1),
    VS5_1.read (Elt F) (VS5_1.writes (Elt F) VS5_1.junk (run5_A V c t h0 h1).2.2.2.1))

end

section
variable (h0 : ¬t.val = 0) (h1 : ¬t.val = 19) (xs0 : Vec F S1x64 .f32) (xs1 : Vec F S1x64 .f32)

def run5_B :=
  kernelRun5_B c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) xs0 xs1

theorem cover5_B_5 : ∀ y : S5000x64.Idx, ∃ pc ∈ (run5_B V c t h0 h1 xs0 xs1).1, y ∈ pc.1.set :=
  View.cover_of_tiledL _ S5000x64.size (by sl_kernel_rfl)
theorem scover5_B_0 : ∀ y : S1x64.Idx, ∃ pc ∈ (run5_B V c t h0 h1 xs0 xs1).2.2.1, y ∈ pc.1.set :=
  View.cover_of_tiledL _ S1x64.size (by sl_kernel_rfl)
theorem scover5_B_1 : ∀ y : S1x64.Idx, ∃ pc ∈ (run5_B V c t h0 h1 xs0 xs1).2.2.2.1, y ∈ pc.1.set :=
  View.cover_of_tiledL _ S1x64.size (by sl_kernel_rfl)

def outs5_B_at : Vec F S5000x64 .f32 × Vec F S2x64 .f32 × Vec F S1x64 .f32 × Vec F S1x64 .f32 :=
  (VO5_5.read (Elt F) (VO5_5.writes (Elt F) VO5_5.junk (run5_B V c t h0 h1 xs0 xs1).1),
    VO5_6.read (Elt F) (VO5_6.writes (Elt F) VO5_6.junk (run5_B V c t h0 h1 xs0 xs1).2.1),
    VS5_0.read (Elt F) (VS5_0.writes (Elt F) VS5_0.junk (run5_B V c t h0 h1 xs0 xs1).2.2.1),
    VS5_1.read (Elt F) (VS5_1.writes (Elt F) VS5_1.junk (run5_B V c t h0 h1 xs0 xs1).2.2.2.1))

end

section
variable (h0 : ¬t.val = 0) (h1 : t.val = 19) (xs0 : Vec F S1x64 .f32) (xs1 : Vec F S1x64 .f32)

def run5_C :=
  kernelRun5_C c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) xs0 xs1

theorem cover5_C_5 : ∀ y : S5000x64.Idx, ∃ pc ∈ (run5_C V c t h0 h1 xs0 xs1).1, y ∈ pc.1.set :=
  View.cover_of_tiledL _ S5000x64.size (by sl_kernel_rfl)
theorem cover5_C_6 : ∀ y : S2x64.Idx, ∃ pc ∈ (run5_C V c t h0 h1 xs0 xs1).2.1, y ∈ pc.1.set :=
  View.cover_of_tiledL _ S1x64.size (by sl_kernel_rfl)
theorem scover5_C_0 : ∀ y : S1x64.Idx, ∃ pc ∈ (run5_C V c t h0 h1 xs0 xs1).2.2.1, y ∈ pc.1.set :=
  View.cover_of_tiledL _ S1x64.size (by sl_kernel_rfl)
theorem scover5_C_1 : ∀ y : S1x64.Idx, ∃ pc ∈ (run5_C V c t h0 h1 xs0 xs1).2.2.2.1, y ∈ pc.1.set :=
  View.cover_of_tiledL _ S1x64.size (by sl_kernel_rfl)

def outs5_C_at : Vec F S5000x64 .f32 × Vec F S2x64 .f32 × Vec F S1x64 .f32 × Vec F S1x64 .f32 :=
  (VO5_5.read (Elt F) (VO5_5.writes (Elt F) VO5_5.junk (run5_C V c t h0 h1 xs0 xs1).1),
    VO5_6.read (Elt F) (VO5_6.writes (Elt F) VO5_6.junk (run5_C V c t h0 h1 xs0 xs1).2.1),
    VS5_0.read (Elt F) (VS5_0.writes (Elt F) VS5_0.junk (run5_C V c t h0 h1 xs0 xs1).2.2.1),
    VS5_1.read (Elt F) (VS5_1.writes (Elt F) VS5_1.junk (run5_C V c t h0 h1 xs0 xs1).2.2.2.1))

end

end

-- the first point runs case A; a later point runs case C if it is the last and case B otherwise, over the accumulators the point before left
def outsAt5 (c : Dev nD) : (n : ℕ) → n < cfg5.N → Vec F S5000x64 .f32 × Vec F S2x64 .f32 × Vec F S1x64 .f32 × Vec F S1x64 .f32
  | 0, hn => outs5_A_at V c ⟨0, hn⟩ rfl (Nat.zero_ne_add_one 18)
  | n + 1, hn =>
    if h1 : n + 1 = 19 then
      outs5_C_at V c ⟨n + 1, hn⟩ (Nat.succ_ne_zero n) h1 (outsAt5 c n (Nat.lt_of_succ_lt hn)).2.2.1 (outsAt5 c n (Nat.lt_of_succ_lt hn)).2.2.2
    else
      outs5_B_at V c ⟨n + 1, hn⟩ (Nat.succ_ne_zero n) h1 (outsAt5 c n (Nat.lt_of_succ_lt hn)).2.2.1 (outsAt5 c n (Nat.lt_of_succ_lt hn)).2.2.2

theorem outsAt5_A (c : Dev nD) (t : Fin cfg5.N) (h0 : t.val = 0) (h1 : ¬t.val = 19) :
    outsAt5 V c t.val t.isLt = outs5_A_at V c t h0 h1 := by
  obtain ⟨n, hn⟩ := t
  cases n with
  | zero => exact rfl
  | succ n => exact absurd h0 (Nat.succ_ne_zero n)

theorem outsAt5_B (c : Dev nD) (t : Fin cfg5.N) (h0 : ¬t.val = 0) (h1 : ¬t.val = 19) :
    outsAt5 V c t.val t.isLt = outs5_B_at V c t h0 h1 (outsAt5 V c (t.val - 1) (Nat.lt_of_le_of_lt (Nat.sub_le _ _) t.isLt)).2.2.1 (outsAt5 V c (t.val - 1) (Nat.lt_of_le_of_lt (Nat.sub_le _ _) t.isLt)).2.2.2 := by
  obtain ⟨n, hn⟩ := t
  cases n with
  | zero => exact absurd rfl h0
  | succ n => exact (dif_neg h1).trans rfl

theorem outsAt5_C (c : Dev nD) (t : Fin cfg5.N) (h0 : ¬t.val = 0) (h1 : t.val = 19) :
    outsAt5 V c t.val t.isLt = outs5_C_at V c t h0 h1 (outsAt5 V c (t.val - 1) (Nat.lt_of_le_of_lt (Nat.sub_le _ _) t.isLt)).2.2.1 (outsAt5 V c (t.val - 1) (Nat.lt_of_le_of_lt (Nat.sub_le _ _) t.isLt)).2.2.2 := by
  obtain ⟨n, hn⟩ := t
  cases n with
  | zero => exact absurd rfl h0
  | succ n => exact (dif_pos h1).trans rfl

def PhiAt5 (c : Dev nD) (a0 a1 : Vec F S1x64 .f32) : sProp 𝕄 :=
  iprop(iprop(iprop(owns (c : Thread nD τ) scM5_0 fullShare a0 ∗ owns (c : Thread nD τ) scM5_1 fullShare a1)
      ∗ Pipeline.scopedRestBut (Ix := Unit) (Name := ℕ) (U := UR sig nD τ) (Lvl := ℕ) (Val := Elt F) spec5 c [cc5_scratch0, cc5_scratch1]) ∗ (∃ r, prngReg c r))

def PhiS5 (c : Dev nD) : (n : ℕ) → n ≤ cfg5.N → sProp 𝕄
  | 0, _ => Pipeline.ΦA spec5 c
  | n + 1, hn => PhiAt5 c (outsAt5 V c n hn).2.2.1 (outsAt5 V c n hn).2.2.2

theorem PhiS5_zero (c : Dev nD) (n : ℕ) (h : n ≤ cfg5.N) (hz : n = 0) : PhiS5 V c n h = Pipeline.ΦA spec5 c := by
  subst hz; rfl

theorem PhiS5_pos (c : Dev nD) (n : ℕ) (h : n ≤ cfg5.N) (hz : n ≠ 0) :
    PhiS5 V c n h = PhiAt5 c (outsAt5 V c (n - 1) (by omega)).2.2.1 (outsAt5 V c (n - 1) (by omega)).2.2.2 := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt).1
    | ⟨6, _⟩ => (outsAt5 V c t.val t.isLt).2.1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = (outsAt5 V c t.val t.isLt).1 := by dsimp only [dat5]
theorem after5_6 (c : Dev nD) (t : Fin cfg5.N) : (dat5 V c).after 6 t = (outsAt5 V c t.val t.isLt).2.1 := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d
theorem before5_4 (c : Dev nD) (t : Fin cfg5.N) (d) : (dat5 V c).before 4 t d = iblk5 V c 4 t :=
  (dat5 V c).before_in_eq_fetched 4 rfl (fun _ => rfl) (fun _ _ _ => rfl) (fun _ => rfl) t d

theorem idleAt5_6 : ∀ t : Fin cfg5.N, ¬t.val = 19 → cfg5.idle 6 (grid5.coords t) = true := by decide +kernel
theorem noFlush5_6 : ∀ t : Fin cfg5.N, ¬t.val = 19 → (cfg5.win 6).flush t = false := by decide +kernel
theorem liveAt5_6 : ∀ t : Fin cfg5.N, t.val = 19 → cfg5.idle 6 (grid5.coords t) = false := by decide +kernel

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t)

set_option maxHeartbeats 4800000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl]
  rw [show (dat5 V c).Φ t.succ = PhiAt5 c (outsAt5 V c t.val t.isLt).2.2.1 (outsAt5 V c t.val t.isLt).2.2.2 from rfl]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [liveAt5_4 t], after5_4]
  rw [show (dat5 V c).leavesExact 5 t = owns (c : Thread nD τ) (ms5_5 t) fullShare ((dat5 V c).after 5 t) from by
    unfold Dat.leavesExact; rw [liveAt5_5 t], after5_5]
  have hN : t.val < 20 := lt_of_lt_of_eq t.isLt (show cfg5.N = 20 from N_5)
  by_cases h0 : t.val = 0
  · have h1 : ¬t.val = 19 := by omega
    rw [Dat.leavesExact_idle (dat5 V c) 6 t (idleAt5_6 t h1) (noFlush5_6 t h1)]
    rw [outsAt5_A V c t h0 h1]
    unfold outs5_A_at; (try dsimp only)
    rw [PhiS5_castSucc V c t, PhiS5_zero V c _ _ h0, PhiA5_eq]; unfold PhiAt5
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((run5_A V c t h0 h1).2.2.2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    iintro ⟨H0, H1, H2, H3, H4, ⟨%e5, H5⟩, H6, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (fun _ => scover5_A_0 ..)
          · unfold owns; iexists _; isplitr
            swap; · iexact HS1
            ipureintro; exact View.read_writes_of_cover _ _ _ _ _ (fun _ => scover5_A_1 ..)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (fun _ => cover5_A_5 ..)
    iexists _; iexact H6
  · by_cases h1 : t.val = 19
    · rw [show (dat5 V c).leavesExact 6 t = owns (c : Thread nD τ) (ms5_6 t) fullShare ((dat5 V c).after 6 t) from by
        unfold Dat.leavesExact; rw [liveAt5_6 t h1], after5_6]
      rw [outsAt5_C V c t h0 h1]
      unfold outs5_C_at; (try dsimp only)
      rw [PhiS5_castSucc V c t, PhiS5_pos V c _ _ h0]; unfold PhiAt5
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((run5_C V c t h0 h1 _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (fun _ => scover5_C_0 ..)
            · unfold owns; iexists _; isplitr
              swap; · iexact HS1
              ipureintro; exact View.read_writes_of_cover _ _ _ _ _ (fun _ => scover5_C_1 ..)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (fun _ => cover5_C_5 ..)
      unfold owns; iexists _; isplitr
      swap; · iexact H6
      ipureintro; exact View.read_writes_of_cover _ _ _ _ _ (fun _ => cover5_C_6 ..)
    · rw [Dat.leavesExact_idle (dat5 V c) 6 t (idleAt5_6 t h1) (noFlush5_6 t h1)]
      rw [outsAt5_B V c t h0 h1]
      unfold outs5_B_at; (try dsimp only)
      rw [PhiS5_castSucc V c t, PhiS5_pos V c _ _ h0]; unfold PhiAt5
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((run5_B V c t h0 h1 _ _).2.2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      iintro ⟨H0, H1, H2, H3, H4, ⟨%e5, H5⟩, H6, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (fun _ => scover5_B_0 ..)
            · unfold owns; iexists _; isplitr
              swap; · iexact HS1
              ipureintro; exact View.read_writes_of_cover _ _ _ _ _ (fun _ => scover5_B_1 ..)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (fun _ => cover5_B_5 ..)
      iexists _; iexact H6

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]

theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]; unfold PhiAt5
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

theorem hout5 (c : Dev nD) : (dat5 V c).Φ (Fin.last cfg5.N) ⊢ Pipeline.ΦA spec5 c :=
  Phi_out5 V c _ (by rw [Fin.val_last]; have : cfg5.N = 20 := N_5; omega)

end Cert.KernelIdeal.Hand

end
-- ==== Proof.FrameKI.Reg6.lean ====
import proofs.«402365_j6828998001463_1_alg».proof.Proof.Gen.KernelIdeal.Launch
import proofs.«402365_j6828998001463_1_alg».proof.Proof.Gen.KernelIdeal.Skeleton
import proofs.«402365_j6828998001463_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S5000x64 := Rect.unit (s := S5000x64) ![0, 0] S5000x64.size inb_S5000x64_S5000x64_0_0
abbrev r6_1 : Rect S1x64 := Rect.unit (s := S1x64) ![0, 0] S1x64.size inb_S1x64_S1x64_0_0
abbrev r6_2 : Rect S64x1 := Rect.unit (s := S64x1) ![0, 0] S64x1.size inb_S64x1_S64x1_0_0
abbrev r6_3 : Rect S1x1 := Rect.unit (s := S1x1) ![0, 0] S1x1.size inb_S1x1_S1x1_0_0
abbrev r6_4 : Rect S5000x1 := Rect.unit (s := S5000x1) ![0, 0] S5000x1.size inb_S5000x1_S5000x1_0_0

def out6_7 (x0 : Vec F S5000x64 .f32) (x1 x2 x3 x4 : Vec F S1x64 .f32)
    (x5 : Vec F S64x1 .f32) (x6 : Vec F S1x1 .f32) : Vec F S5000x1 .f32 :=
  View.canon [⟨r6_4, k6_pay1 (View.ld x2 r6_1) (View.ld x3 r6_1) (View.ld x0 r6_0) (View.ld x1 r6_1) (View.ld x4 r6_1) (View.ld x5 r6_2) (View.ld x6 r6_3)⟩]

-- the one stored rectangle is the whole shape
theorem cover6_7 (p0 : Vec F S5000x1 .f32) (y : S5000x1.Idx) :
    ∃ pc ∈ ([⟨r6_4, p0⟩] : List (View.Piece (Elt F) S5000x1 .f32)), y ∈ pc.1.set :=
  View.cover_of_tiled [⟨r6_4, p0⟩] S5000x1.size (by sl_kernel_rfl) y

-- the body is whole-block loads and one whole-block store; the stored piece covers the shape, so what it leaves is that piece's canonical contents
set_option maxHeartbeats 1000000 in
theorem sound_kernel6 (E : Set ℕ) (i : grid6.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S64x1 .f32) (harg6 : arg6.IsWhole)
    (arg7 : Memref sig .tc .vmem S1x1 .f32) (harg7 : arg7.IsWhole) (arg8 : Memref sig .tc .vmem S5000x1 .f32) (harg8 : arg8.IsWhole)
    (x0 : Vec F S5000x64 .f32) (x1 x2 x3 x4 : Vec F S1x64 .f32)
    (x5 : Vec F S64x1 .f32) (x6 : Vec F S1x1 .f32) (K : PUnit → sProp 𝕄) :
    iprop(owns c arg1 fullShare x0 ∗ owns c arg2 fullShare x1 ∗ owns c arg3 fullShare x2
        ∗ owns c arg4 fullShare x3 ∗ owns c arg5 fullShare x4 ∗ owns c arg6 fullShare x5
        ∗ owns c arg7 fullShare x6 ∗ (∃ d, owns c arg8 fullShare d)
        ∗ (iprop(owns c arg1 fullShare x0 ∗ owns c arg2 fullShare x1 ∗ owns c arg3 fullShare x2
            ∗ owns c arg4 fullShare x3 ∗ owns c arg5 fullShare x4 ∗ owns c arg6 fullShare x5
            ∗ owns c arg7 fullShare x6 ∗ owns c arg8 fullShare (out6_7 x0 x1 x2 x3 x4 x5 x6)) -∗ K ⟨⟩))
      ⊢ wp frame (wpE (defs₀ (F := F)) Variants.none c none) E (cc6__finact_kernel i arg1 harg1 arg2 harg2 arg3 harg3 arg4 harg4 arg5 harg5 arg6 harg6 arg7 harg7 arg8 harg8) K := by
  simp only [cc6__finact_kernel_eq_skeleton]; unfold cc6__finact_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

def dat6 : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (w : Fin cfg6.W) : (dat6 V c).A w = V c (Pipeline.arrRef spec6 w) := rfl

theorem after6_7 (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

theorem before6_0 (t : Fin cfg6.N) (d) : (dat6 V c).before 0 t d = iblk6 V c 0 t :=
  ((dat6 V c).before_in_eq_fetched 0 rfl (fun _ => rfl) (fun _ _ _ => rfl) (fun _ => rfl) t d).trans rfl
theorem before6_1 (t : Fin cfg6.N) (d) : (dat6 V c).before 1 t d = iblk6 V c 1 t :=
  ((dat6 V c).before_in_eq_fetched 1 rfl (fun _ => rfl) (fun _ _ _ => rfl) (fun _ => rfl) t d).trans rfl
theorem before6_2 (t : Fin cfg6.N) (d) : (dat6 V c).before 2 t d = iblk6 V c 2 t :=
  ((dat6 V c).before_in_eq_fetched 2 rfl (fun _ => rfl) (fun _ _ _ => rfl) (fun _ => rfl) t d).trans rfl
theorem before6_3 (t : Fin cfg6.N) (d) : (dat6 V c).before 3 t d = iblk6 V c 3 t :=
  ((dat6 V c).before_in_eq_fetched 3 rfl (fun _ => rfl) (fun _ _ _ => rfl) (fun _ => rfl) t d).trans rfl
theorem before6_4 (t : Fin cfg6.N) (d) : (dat6 V c).before 4 t d = iblk6 V c 4 t :=
  ((dat6 V c).before_in_eq_fetched 4 rfl (fun _ => rfl) (fun _ _ _ => rfl) (fun _ => rfl) t d).trans rfl
theorem before6_5 (t : Fin cfg6.N) (d) : (dat6 V c).before 5 t d = iblk6 V c 5 t :=
  ((dat6 V c).before_in_eq_fetched 5 rfl (fun _ => rfl) (fun _ _ _ => rfl) (fun _ => rfl) t d).trans rfl
theorem before6_6 (t : Fin cfg6.N) (d) : (dat6 V c).before 6 t d = iblk6 V c 6 t :=
  ((dat6 V c).before_in_eq_fetched 6 rfl (fun _ => rfl) (fun _ _ _ => rfl) (fun _ => rfl) t d).trans rfl

-- every input holds its block, so the body's triple applies; everything else passes through unread
theorem body_obligation6 : BodyObligation (dat6 (F := F) V c) (defs₀ (F := F)) Variants.none () Set.univ := fun t => by
  rw [bigSep_W6, bigSep_W6]
  show iprop(_ ∗ _ ∗ (∃ d, _) ∗ (∃ d, _) ∗ (∃ d, _) ∗ (∃ d, _) ∗ (∃ d, _) ∗ (∃ d, _) ∗ (∃ d, _) ∗ (∃ d, _))
    ⊢ wp _ _ _ (bodyAt6 t) fun _ => iprop(_ ∗ _ ∗ owns _ _ _ _ ∗ owns _ _ _ _ ∗ owns _ _ _ _ ∗ owns _ _ _ _ ∗ owns _ _ _ _ ∗ owns _ _ _ _ ∗ owns _ _ _ _ ∗ owns _ _ _ _)
  simp only [before6_0, before6_1, before6_2, before6_3, before6_4, before6_5, before6_6]
  rw [show (dat6 V c).owesAt () t.succ = (dat6 V c).owesAt () t.castSucc from rfl]
  dsimp only [dat6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ (grid6.coords t) _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  iframe H0 H1 H2 H3 H4 H5 H6
  isplitl [H7]; · iexists _; iexact H7
  iintro ⟨H0, H1, H2, H3, H4, H5, H6, H7⟩
  iframe

theorem hin6 : Pipeline.ΦA spec6 c ⊢ (dat6 V c).Φ 0 := .rfl

theorem hout6 : (dat6 V c).Φ (Fin.last cfg6.N) ⊢ Pipeline.ΦA spec6 c := .rfl

end Cert.KernelIdeal.Hand

end
-- ==== Proof.FrameKI.Run.lean ====
import proofs.«402365_j6828998001463_1_alg».proof.Proof.FrameKI.RunCond
import proofs.«402365_j6828998001463_1_alg».proof.Proof.FrameKI.Reg0
import proofs.«402365_j6828998001463_1_alg».proof.Proof.FrameKI.Reg1
import proofs.«402365_j6828998001463_1_alg».proof.Proof.FrameKI.Reg2
import proofs.«402365_j6828998001463_1_alg».proof.Proof.FrameKI.Reg3
import proofs.«402365_j6828998001463_1_alg».proof.Proof.FrameKI.Reg4
import proofs.«402365_j6828998001463_1_alg».proof.Proof.FrameKI.Reg5
import proofs.«402365_j6828998001463_1_alg».proof.Proof.FrameKI.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

abbrev rd (W : Dev nD → Valuation τ sig (Elt F)) : (c : Dev nD) → (b : Ref sig .tc) → Buf (Elt F) ((c : Thread nD τ).loc b) :=
  fun c b => W c b

@[irreducible] def W1 : Valuation τ sig (Elt F) := StableHlo.after hostOps0 (fun b => m (c, b))
def o2_main_v6 : Buf (Elt F) ((c : Thread nD τ).loc main_v6) := (dat0 (rd (W1 m)) c).arrAt 4 cfg0.N
@[irreducible] def W2 : Valuation τ sig (Elt F) := Function.update (W1 m c) main_v6 (o2_main_v6 m c)
@[irreducible] def W3 : Valuation τ sig (Elt F) := StableHlo.after hostOps1 (W2 m c)
def o4_main_v24_0 : Buf (Elt F) ((c : Thread nD τ).loc main_v24_0) := (dat1 (rd (W3 m)) c).arrAt 5 cfg1.N
def o4_main_v24_1 : Buf (Elt F) ((c : Thread nD τ).loc main_v24_1) := (dat1 (rd (W3 m)) c).arrAt 6 cfg1.N
@[irreducible] def W4 : Valuation τ sig (Elt F) := Function.update (Function.update (W3 m c) main_v24_0 (o4_main_v24_0 m c)) main_v24_1 (o4_main_v24_1 m c)
@[irreducible] def W5 : Valuation τ sig (Elt F) := StableHlo.after hostOps2 (W4 m c)
def o6_main_v39 : Buf (Elt F) ((c : Thread nD τ).loc main_v39) := (dat2 (rd (W5 m)) c).arrAt 5 cfg2.N
@[irreducible] def W6 : Valuation τ sig (Elt F) := Function.update (W5 m c) main_v39 (o6_main_v39 m c)
@[irreducible] def W7 : Valuation τ sig (Elt F) := StableHlo.after hostOps3 (W6 m c)
def o8_main_v57_0 : Buf (Elt F) ((c : Thread nD τ).loc main_v57_0) := (dat3 (rd (W7 m)) c).arrAt 5 cfg3.N
def o8_main_v57_1 : Buf (Elt F) ((c : Thread nD τ).loc main_v57_1) := (dat3 (rd (W7 m)) c).arrAt 6 cfg3.N
@[irreducible] def W8 : Valuation τ sig (Elt F) := Function.update (Function.update (W7 m c) main_v57_0 (o8_main_v57_0 m c)) main_v57_1 (o8_main_v57_1 m c)
@[irreducible] def W9 : Valuation τ sig (Elt F) := StableHlo.after hostOps4 (W8 m c)
def o10_main_v72 : Buf (Elt F) ((c : Thread nD τ).loc main_v72) := (dat4 (rd (W9 m)) c).arrAt 5 cfg4.N
@[irreducible] def W10 : Valuation τ sig (Elt F) := Function.update (W9 m c) main_v72 (o10_main_v72 m c)
@[irreducible] def W11 : Valuation τ sig (Elt F) := StableHlo.after hostOps5 (W10 m c)
def o12_main_v76_0 : Buf (Elt F) ((c : Thread nD τ).loc main_v76_0) := (dat5 (rd (W11 m)) c).arrAt 5 cfg5.N
def o12_main_v76_1 : Buf (Elt F) ((c : Thread nD τ).loc main_v76_1) := (dat5 (rd (W11 m)) c).arrAt 6 cfg5.N
@[irreducible] def W12 : Valuation τ sig (Elt F) := Function.update (Function.update (W11 m c) main_v76_0 (o12_main_v76_0 m c)) main_v76_1 (o12_main_v76_1 m c)
@[irreducible] def W13 : Valuation τ sig (Elt F) := StableHlo.after hostOps6 (W12 m c)
def o14_main_v92 : Buf (Elt F) ((c : Thread nD τ).loc main_v92) := (dat6 (rd (W13 m)) c).arrAt 7 cfg6.N
@[irreducible] def W14 : Valuation τ sig (Elt F) := Function.update (W13 m c) main_v92 (o14_main_v92 m c)
@[irreducible] def W15 : Valuation τ sig (Elt F) := StableHlo.after hostOps7 (W14 m c)

def outsH : Outs (F := F) := fun _ r c =>
  if h : r = main_v6 then h ▸ o2_main_v6 m c else
  if h : r = main_v24_0 then h ▸ o4_main_v24_0 m c else
  if h : r = main_v24_1 then h ▸ o4_main_v24_1 m c else
  if h : r = main_v39 then h ▸ o6_main_v39 m c else
  if h : r = main_v57_0 then h ▸ o8_main_v57_0 m c else
  if h : r = main_v57_1 then h ▸ o8_main_v57_1 m c else
  if h : r = main_v72 then h ▸ o10_main_v72 m c else
  if h : r = main_v76_0 then h ▸ o12_main_v76_0 m c else
  if h : r = main_v76_1 then h ▸ o12_main_v76_1 m c else
  if h : r = main_v92 then h ▸ o14_main_v92 m c else
  V0 m c r

theorem outsH_main_v6 (n : ℕ) (c : Dev nD) : outsH m n main_v6 c = o2_main_v6 m c := rfl
theorem outsH_main_v24_0 (n : ℕ) (c : Dev nD) : outsH m n main_v24_0 c = o4_main_v24_0 m c := rfl
theorem outsH_main_v24_1 (n : ℕ) (c : Dev nD) : outsH m n main_v24_1 c = o4_main_v24_1 m c := rfl
theorem outsH_main_v39 (n : ℕ) (c : Dev nD) : outsH m n main_v39 c = o6_main_v39 m c := rfl
theorem outsH_main_v57_0 (n : ℕ) (c : Dev nD) : outsH m n main_v57_0 c = o8_main_v57_0 m c := rfl
theorem outsH_main_v57_1 (n : ℕ) (c : Dev nD) : outsH m n main_v57_1 c = o8_main_v57_1 m c := rfl
theorem outsH_main_v72 (n : ℕ) (c : Dev nD) : outsH m n main_v72 c = o10_main_v72 m c := rfl
theorem outsH_main_v76_0 (n : ℕ) (c : Dev nD) : outsH m n main_v76_0 c = o12_main_v76_0 m c := rfl
theorem outsH_main_v76_1 (n : ℕ) (c : Dev nD) : outsH m n main_v76_1 c = o12_main_v76_1 m c := rfl
theorem outsH_main_v92 (n : ℕ) (c : Dev nD) : outsH m n main_v92 c = o14_main_v92 m c := rfl

theorem V1_eq : V1 m c = W1 m c := by rw [W1]
theorem V2_eq : V2 m (outsH m) c = W2 m c := by
  unfold W2; dsimp only [V2]; rw [outsH_main_v6, V1_eq m c]
theorem V3_eq : V3 m (outsH m) c = W3 m c := by
  rw [W3]; dsimp only [V3]; rw [V2_eq]
theorem V4_eq : V4 m (outsH m) c = W4 m c := by
  unfold W4; dsimp only [V4]; rw [outsH_main_v24_0, outsH_main_v24_1, V3_eq m c]
theorem V5_eq : V5 m (outsH m) c = W5 m c := by
  rw [W5]; dsimp only [V5]; rw [V4_eq]
theorem V6_eq : V6 m (outsH m) c = W6 m c := by
  unfold W6; dsimp only [V6]; rw [outsH_main_v39, V5_eq m c]
theorem V7_eq : V7 m (outsH m) c = W7 m c := by
  rw [W7]; dsimp only [V7]; rw [V6_eq]
theorem V8_eq : V8 m (outsH m) c = W8 m c := by
  unfold W8; dsimp only [V8]; rw [outsH_main_v57_0, outsH_main_v57_1, V7_eq m c]
theorem V9_eq : V9 m (outsH m) c = W9 m c := by
  rw [W9]; dsimp only [V9]; rw [V8_eq]
theorem V10_eq : V10 m (outsH m) c = W10 m c := by
  unfold W10; dsimp only [V10]; rw [outsH_main_v72, V9_eq m c]
theorem V11_eq : V11 m (outsH m) c = W11 m c := by
  rw [W11]; dsimp only [V11]; rw [V10_eq]
theorem V12_eq : V12 m (outsH m) c = W12 m c := by
  unfold W12; dsimp only [V12]; rw [outsH_main_v76_0, outsH_main_v76_1, V11_eq m c]
theorem V13_eq : V13 m (outsH m) c = W13 m c := by
  rw [W13]; dsimp only [V13]; rw [V12_eq]
theorem V14_eq : V14 m (outsH m) c = W14 m c := by
  unfold W14; dsimp only [V14]; rw [outsH_main_v92, V13_eq m c]
theorem V15_eq : V15 m (outsH m) c = W15 m c := by
  rw [W15]; dsimp only [V15]; rw [V14_eq]

def pdats : (p : Fin 7) → (c : Dev nD) → Dat τ (Elt F) Unit ℕ (UR sig nD τ) ℕ (cfgs p) c
  | ⟨0, _⟩ => fun c => dat0 (rd (W1 m)) c
  | ⟨1, _⟩ => fun c => dat1 (rd (W3 m)) c
  | ⟨2, _⟩ => fun c => dat2 (rd (W5 m)) c
  | ⟨3, _⟩ => fun c => dat3 (rd (W7 m)) c
  | ⟨4, _⟩ => fun c => dat4 (rd (W9 m)) c
  | ⟨5, _⟩ => fun c => dat5 (rd (W11 m)) c
  | ⟨6, _⟩ => fun c => dat6 (rd (W13 m)) c
abbrev 𝒱₀ : Variants := Variants.none
abbrev L : GSem nD τ sig → Finset Unit := fun _ => ∅
abbrev lv : GSem nD τ sig → Unit → ℕ := fun _ _ => 0
abbrev R : sProp 𝕄 := iprop((∃ r, prngReg c r) ∗ ∃ W, owes (c : Thread nD τ) (0 : CellTallies nD τ sig Unit) W)
abbrev E : Fin 8 → Dev nD → sProp 𝕄 := fun _ c => R c

theorem upd_ne (V : Valuation τ sig (Elt F)) {r b : Ref sig .tc} (x : (Proc.devRef (τ := τ) .tc r).ty.Contents (Elt F)) (h : b ≠ r) :
    Function.update V (Proc.devRef .tc r) x (Proc.devRef .tc b) = V (Proc.devRef .tc b) :=
  Function.update_of_ne (StableHlo.devRef_ne_of_ne h) x V

theorem upd_self (V : Valuation τ sig (Elt F)) (r : Ref sig .tc) (x : (Proc.devRef (τ := τ) .tc r).ty.Contents (Elt F)) :
    Function.update V (Proc.devRef .tc r) x (Proc.devRef .tc r) = x :=
  Function.update_self ..

theorem ne_out {n : ℕ} {f : Fin n → Ref sig .tc} {b : Ref sig .tc} (hb : b ∉ Finset.univ.image f) (w : Fin n) : b ≠ f w :=
  fun e => hb (Finset.mem_image.mpr ⟨w, Finset.mem_univ _, e.symm⟩)

-- One region as a segment from the contents Wa to the contents Wb, given its body obligation and what its arrays hold at the two ends.
set_option backward.isDefEq.respectTransparency.types false in
def mkReg (p : Fin 7) (kit : Pipeline.LaunchFacts (nD := nD) (τ := τ) cfgs p) (Wa Wb : Dev nD → Valuation τ sig (Elt F))
    (hbody : ∀ c, BodyObligation (pdats m p c) (defs₀ (F := F)) 𝒱₀ () Set.univ)
    (howed : ∀ c t, (pdats m p c).owed t = 0) (hrec : ∀ c x, x ∈ (pdats m p c).recorded 0) (hq : ∀ c w, (pdats m p c).q w = fullShare)
    (hA : ∀ c w, (pdats m p c).A w = rd Wa c (Pipeline.arrRef (cfgs p).spec w))
    (hin : ∀ c, Pipeline.ΦA (cfgs p).spec c ⊢ (pdats m p c).Φ 0)
    (hout : ∀ c, (pdats m p c).Φ (Fin.last (cfgs p).N) ⊢ Pipeline.ΦA (cfgs p).spec c)
    (hF : ∀ c w, (pdats m p c).arrAt w (cfgs p).N = rd Wb c (Pipeline.arrRef (cfgs p).spec w))
    (hrest : ∀ c b, b ∉ Finset.univ.image (Pipeline.arrRef (cfgs p).spec) → rd Wb c b = rd Wa c b) :
    Pipeline.RegionSeg (pcfgs (F := F)) adm (pdats m) () defs₀ 𝒱₀ L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wa c) ∗ R c)
  post c := iprop(StableHlo.held (c : Thread nD τ) (Pipeline.ucRefs τ sig) (Wb c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Wa c)
  hentry c := by
    rw [Pipeline.ownSems0_none]; unfold Pipeline.Dat.owesAt Pipeline.owesWithin; rw [howed]
    have hsplit := Pipeline.arrays_of_unscopedBufs (p := p) (pcfgs (F := F)) adm (pdats m) kit.win kit.arr_whole c
      ((pdats m p c).share_full (hq c)) (rd Wa c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (hrec c _)
      iexact HO
    isplitl [Hp]; · iexact Hp
    iexact Hrest
  hin c := by
    refine (show _ ⊢ Pipeline.ΦA (cfgs p).spec c from ?_).trans (hin c)
    unfold Pipeline.ΦA
    iintro ⟨Hp, -, Hr⟩
    isplitl [Hr] <;> iassumption
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c (pdats m) ((pdats m p c).share_full (hq c))
      (rd Wa c) (rd Wb c) ((pdats m p c).arrAt · (cfgs p).N) (hF c) (hrest c)
    rw [Pipeline.unscopedBufs_held] at hjoin
    unfold Pipeline.Dat.owesAt Pipeline.owesWithin; rw [howed]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 : Pipeline.RegionSeg (pcfgs (F := F)) adm (pdats m) () defs₀ 𝒱₀ L lv 0 :=
  mkReg m 0 launch0 (W1 m) (W2 m) (body_obligation0 _) (fun _ _ => rfl) (fun _ _ => trivial) (fun _ _ => rfl) (fun _ _ => rfl) (hin0 _) (hout0 _)
    (fun c (w : Fin cfg0.W) => by
      unfold W2
      by_cases h : w = 4
      · subst h; exact (upd_self _ main_v6 _).symm
      · exact ((dat0 (rd (W1 m)) c).arrAt_in w (by revert w; decide) _).trans ((A_eq0 _ c w).trans (upd_ne _ _ (by revert w; decide)).symm))
    fun c b hb => by unfold W2; exact upd_ne _ _ (ne_out hb 4)

def reg1 : Pipeline.RegionSeg (pcfgs (F := F)) adm (pdats m) () defs₀ 𝒱₀ L lv 1 :=
  mkReg m 1 launch1 (W3 m) (W4 m) (body_obligation1 _) (fun _ _ => rfl) (fun _ _ => trivial) (fun _ _ => rfl) (fun _ _ => rfl) (hin1 _) (hout1 _)
    (fun c (w : Fin cfg1.W) => by
      unfold W4
      by_cases h5 : w = 5
      · subst h5; exact ((upd_ne _ _ (by decide +revert)).trans (upd_self _ main_v24_0 _)).symm
      by_cases h6 : w = 6
      · subst h6; exact (upd_self _ main_v24_1 _).symm
      exact ((dat1 (rd (W3 m)) c).arrAt_in w (by revert w; decide) _).trans ((A_eq1 _ c w).trans ((upd_ne _ _ (by revert w; decide)).trans (upd_ne _ _ (by revert w; decide))).symm))
    fun c b hb => by unfold W4; exact (upd_ne _ _ (ne_out hb 6)).trans (upd_ne _ _ (ne_out hb 5))

def reg2 : Pipeline.RegionSeg (pcfgs (F := F)) adm (pdats m) () defs₀ 𝒱₀ L lv 2 :=
  mkReg m 2 launch2 (W5 m) (W6 m) (body_obligation2 _) (fun _ _ => rfl) (fun _ _ => trivial) (fun _ _ => rfl) (fun _ _ => rfl) (hin2 _) (hout2 _)
    (fun c (w : Fin cfg2.W) => by
      unfold W6
      by_cases h : w = 5
      · subst h; exact (upd_self _ main_v39 _).symm
      · exact ((dat2 (rd (W5 m)) c).arrAt_in w (by revert w; decide) _).trans ((A_eq2 _ c w).trans (upd_ne _ _ (by revert w; decide)).symm))
    fun c b hb => by unfold W6; exact upd_ne _ _ (ne_out hb 5)

def reg3 : Pipeline.RegionSeg (pcfgs (F := F)) adm (pdats m) () defs₀ 𝒱₀ L lv 3 :=
  mkReg m 3 launch3 (W7 m) (W8 m) (body_obligation3 _) (fun _ _ => rfl) (fun _ _ => trivial) (fun _ _ => rfl) (fun _ _ => rfl) (hin3 _) (hout3 _)
    (fun c (w : Fin cfg3.W) => by
      unfold W8
      by_cases h5 : w = 5
      · subst h5; exact ((upd_ne _ _ (by decide +revert)).trans (upd_self _ main_v57_0 _)).symm
      by_cases h6 : w = 6
      · subst h6; exact (upd_self _ main_v57_1 _).symm
      exact ((dat3 (rd (W7 m)) c).arrAt_in w (by revert w; decide) _).trans ((A_eq3 _ c w).trans ((upd_ne _ _ (by revert w; decide)).trans (upd_ne _ _ (by revert w; decide))).symm))
    fun c b hb => by unfold W8; exact (upd_ne _ _ (ne_out hb 6)).trans (upd_ne _ _ (ne_out hb 5))

def reg4 : Pipeline.RegionSeg (pcfgs (F := F)) adm (pdats m) () defs₀ 𝒱₀ L lv 4 :=
  mkReg m 4 launch4 (W9 m) (W10 m) (body_obligation4 _) (fun _ _ => rfl) (fun _ _ => trivial) (fun _ _ => rfl) (fun _ _ => rfl) (hin4 _) (hout4 _)
    (fun c (w : Fin cfg4.W) => by
      unfold W10
      by_cases h : w = 5
      · subst h; exact (upd_self _ main_v72 _).symm
      · exact ((dat4 (rd (W9 m)) c).arrAt_in w (by revert w; decide) _).trans ((A_eq4 _ c w).trans (upd_ne _ _ (by revert w; decide)).symm))
    fun c b hb => by unfold W10; exact upd_ne _ _ (ne_out hb 5)

def reg5 : Pipeline.RegionSeg (pcfgs (F := F)) adm (pdats m) () defs₀ 𝒱₀ L lv 5 :=
  mkReg m 5 launch5 (W11 m) (W12 m) (body_obligation5 _) (fun _ _ => rfl) (fun _ _ => trivial) (fun _ _ => rfl) (fun _ _ => rfl) (hin5 _) (hout5 _)
    (fun c (w : Fin cfg5.W) => by
      unfold W12
      by_cases h5 : w = 5
      · subst h5; exact ((upd_ne _ _ (by decide +revert)).trans (upd_self _ main_v76_0 _)).symm
      by_cases h6 : w = 6
      · subst h6; exact (upd_self _ main_v76_1 _).symm
      exact ((dat5 (rd (W11 m)) c).arrAt_in w (by revert w; decide) _).trans ((A_eq5 _ c w).trans ((upd_ne _ _ (by revert w; decide)).trans (upd_ne _ _ (by revert w; decide))).symm))
    fun c b hb => by unfold W12; exact (upd_ne _ _ (ne_out hb 6)).trans (upd_ne _ _ (ne_out hb 5))

def reg6 : Pipeline.RegionSeg (pcfgs (F := F)) adm (pdats m) () defs₀ 𝒱₀ L lv 6 :=
  mkReg m 6 launch6 (W13 m) (W14 m) (body_obligation6 _) (fun _ _ => rfl) (fun _ _ => trivial) (fun _ _ => rfl) (fun _ _ => rfl) (hin6 _) (hout6 _)
    (fun c (w : Fin cfg6.W) => by
      unfold W14
      by_cases h : w = 7
      · subst h; exact (upd_self _ main_v92 _).symm
      · exact ((dat6 (rd (W13 m)) c).arrAt_in w (by revert w; decide) _).trans ((A_eq6 _ c w).trans (upd_ne _ _ (by revert w; decide)).symm))
    fun c b hb => by unfold W14; exact upd_ne _ _ (ne_out hb 7)

variable (ρ : Dev nD → PrngReg)

set_option backward.isDefEq.respectTransparency.types false in
theorem run_all : θ_run defs (onTc (τ := τ) (main (F := F))) ⟨m, fun _ => 0, ρ⟩ (fun r => ∀ c : Dev nD,
      r.2.mem ((c.tc : Thread nD τ).loc main_v93) = V15 m (outsH m) c main_v93
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  run_cond (F := F) m emb₁ () 𝒱₀ L lv (fun _ _ => rfl) ρ (outsH m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E)
    (hE0 := Pipeline.initEach L lv fun c => by
      iintro ⟨⟨-, HO, -, Hp, -⟩, -⟩
      imodintro
      isplitl [Hp]; · iexists _; iexact Hp
      iexists ∅; iexact HO)
    (hE7 := fun c => by
      iintro ⟨-, HO⟩
      iexact HO)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V9_eq]; exact .rfl) (fun c => by rw [V10_eq]; exact .rfl)
    (reg5 m) (fun c => by rw [V11_eq]; exact .rfl) (fun c => by rw [V12_eq]; exact .rfl)
    (reg6 m) (fun c => by rw [V13_eq]; exact .rfl) (fun c => by rw [V14_eq]; exact .rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => (h c).2) (run_all m ρ)

end Cert.KernelIdeal.Hand

end
-- ==== Proof.Ref.Base.lean ====
import proofs.«402365_j6828998001463_1_alg».proof.Proof.Gen.ReferenceIdeal
import Idealize.ShloMosaic.Lib.StableHlo.Run

noncomputable section

namespace Cert.ReferenceIdeal.RunH

open Cert.ReferenceIdeal.Gen Idealize.ShloMosaic Idealize.ShloMosaic.StableHlo

/-- The contents of a buffer of shape `s` and element type `t`. -/
abbrev C (F : FTy → Type) (s : Shape) (t : EltTy) : Type := (⟨s, t⟩ : BufTy).Contents (Elt F)

variable {τ : Topo} {sig : RefSig} {Val : EltTy → Type}

/-- A line whose operations write, one each and in order, the references `W` leaves every other reference as it was. -/
theorem after_keep {ops : List (HloOp τ sig Val)} {W : List (Ref sig .tc)}
    (h : ops.map HloOp.writes = W.map fun r => {Proc.devRef .tc r}) (V : Valuation τ sig Val) {r : Ref sig .tc}
    (hr : r ∉ W) : after ops V (Proc.devRef .tc r) = V (Proc.devRef .tc r) :=
  after_of_forall_not_mem ops V fun op hop hb => by
    obtain ⟨y, hy, he⟩ := List.mem_map.mp (h ▸ List.mem_map_of_mem (f := HloOp.writes) hop)
    rw [← he, Finset.mem_singleton] at hb
    exact hr (Proc.devRef_injective _ hb ▸ hy)

end Cert.ReferenceIdeal.RunH

end
-- ==== Proof.Ref.Stages.lean ====
import proofs.«402365_j6828998001463_1_alg».proof.Proof.Ref.Base

noncomputable section

namespace Cert.ReferenceIdeal.RunH

open Cert.ReferenceIdeal Cert.ReferenceIdeal.Gen Idealize.ShloMosaic Idealize.SL.Sem

variable {F : FTy → Type} [FloatOps F]

def pf_where (u0 : (⟨S100000x3, .i1⟩ : BufTy).Contents (Elt F)) (u1 : (⟨S100000x3, .f32⟩ : BufTy).Contents (Elt F)) (u2 : (⟨S100000x3, .f32⟩ : BufTy).Contents (Elt F)) :
    (⟨S100000x3, .f32⟩ : BufTy).Contents (Elt F) :=
  ((select : C F S100000x3 .i1 → C F S100000x3 .f32 → _) u0 u1 u2)

def pf_leaky_relu (u0 : (⟨S100000x3, .f32⟩ : BufTy).Contents (Elt F)) (u1 : (⟨S_, .f32⟩ : BufTy).Contents (Elt F)) :
    (⟨S100000x3, .f32⟩ : BufTy).Contents (Elt F) :=
  (pf_where (((cmpf (F := F) .oge) : C F S100000x3 .f32 → _) u0 (((broadcastInDim S100000x3 ![] bcast_S_S100000x3) : C F S_ .f32 → _) (constant S_ .f32 0x00000000#32))) u0 ((mulf : C F S100000x3 .f32 → _) (((broadcastInDim S100000x3 ![] bcast_S_S100000x3) : C F S_ .f32 → _) ((id : (⟨S_, .f32⟩ : BufTy).Contents (Elt F) → (⟨S_, .f32⟩ : BufTy).Contents (Elt F)) u1)) u0))

def pf_where_0 (u0 : (⟨S_, .i1⟩ : BufTy).Contents (Elt F)) (u1 : (⟨S64, .f32⟩ : BufTy).Contents (Elt F)) (u2 : (⟨S_, .f32⟩ : BufTy).Contents (Elt F)) :
    (⟨S64, .f32⟩ : BufTy).Contents (Elt F) :=
  (((fun p a b => select (broadcastInDim S64 ![] bcast_S_S64 p) a b) : C F S_ .i1 → C F S64 .f32 → C F S64 .f32 → C F S64 .f32) u0 u1 (((broadcastInDim S64 ![] bcast_S_S64) : C F S_ .f32 → _) ((id : (⟨S_, .f32⟩ : BufTy).Contents (Elt F) → (⟨S_, .f32⟩ : BufTy).Contents (Elt F)) u2)))

def pf_var (u0 : (⟨S100000x64, .f32⟩ : BufTy).Contents (Elt F)) (u1 : (⟨S_, .i32⟩ : BufTy).Contents (Elt F)) :
    (⟨S64, .f32⟩ : BufTy).Contents (Elt F) :=
  (pf_where_0 (((cmpf (F := F) .ogt) : C F S_ .f32 → _) ((subf : C F S_ .f32 → _) (constant S_ .f32 0x47C35000#32) (((sitofp (F := F) .f32) : C F S_ .i32 → _) u1)) (constant S_ .f32 0x00000000#32)) ((Host.divf : C F S64 .f32 → _) (((fun x v => Host.reduceAdd x v reducesTo_S100000x64_S64_d0 h_S_) : C F S100000x64 .f32 → C F S_ .f32 → C F S64 .f32) ((mulf : C F S100000x64 .f32 → _) ((subf : C F S100000x64 .f32 → _) u0 (((broadcastInDim S100000x64 ![0, 1] bcast_S1x64_S100000x64_0_1) : C F S1x64 .f32 → _) ((Host.divf : C F S1x64 .f32 → _) (((broadcastInDim S1x64 ![1] bcast_S64_S1x64_1) : C F S64 .f32 → _) (((fun x v => Host.reduceAdd x v reducesTo_S100000x64_S64_d0 h_S_) : C F S100000x64 .f32 → C F S_ .f32 → C F S64 .f32) u0 (constant S_ .f32 0x00000000#32))) (((broadcastInDim S1x64 ![] bcast_S_S1x64) : C F S_ .f32 → _) (constant S_ .f32 0x47C35000#32))))) ((subf : C F S100000x64 .f32 → _) u0 (((broadcastInDim S100000x64 ![0, 1] bcast_S1x64_S100000x64_0_1) : C F S1x64 .f32 → _) ((Host.divf : C F S1x64 .f32 → _) (((broadcastInDim S1x64 ![1] bcast_S64_S1x64_1) : C F S64 .f32 → _) (((fun x v => Host.reduceAdd x v reducesTo_S100000x64_S64_d0 h_S_) : C F S100000x64 .f32 → C F S_ .f32 → C F S64 .f32) u0 (constant S_ .f32 0x00000000#32))) (((broadcastInDim S1x64 ![] bcast_S_S1x64) : C F S_ .f32 → _) (constant S_ .f32 0x47C35000#32)))))) (constant S_ .f32 0x00000000#32)) (((broadcastInDim S64 ![] bcast_S_S64) : C F S_ .f32 → _) ((subf : C F S_ .f32 → _) (constant S_ .f32 0x47C35000#32) (((sitofp (F := F) .f32) : C F S_ .i32 → _) u1)))) (constant S_ .f32 0x7FC00000#32))

def pf_where_2 (u0 : (⟨S100000x64, .i1⟩ : BufTy).Contents (Elt F)) (u1 : (⟨S100000x64, .f32⟩ : BufTy).Contents (Elt F)) (u2 : (⟨S100000x64, .f32⟩ : BufTy).Contents (Elt F)) :
    (⟨S100000x64, .f32⟩ : BufTy).Contents (Elt F) :=
  ((select : C F S100000x64 .i1 → C F S100000x64 .f32 → _) u0 u1 u2)

def pf_leaky_relu_1 (u0 : (⟨S100000x64, .f32⟩ : BufTy).Contents (Elt F)) (u1 : (⟨S_, .f32⟩ : BufTy).Contents (Elt F)) :
    (⟨S100000x64, .f32⟩ : BufTy).Contents (Elt F) :=
  (pf_where_2 (((cmpf (F := F) .oge) : C F S100000x64 .f32 → _) u0 (((broadcastInDim S100000x64 ![] bcast_S_S100000x64) : C F S_ .f32 → _) (constant S_ .f32 0x00000000#32))) u0 ((mulf : C F S100000x64 .f32 → _) (((broadcastInDim S100000x64 ![] bcast_S_S100000x64) : C F S_ .f32 → _) ((id : (⟨S_, .f32⟩ : BufTy).Contents (Elt F) → (⟨S_, .f32⟩ : BufTy).Contents (Elt F)) u1)) u0))

def st_v1 (a2 : (⟨S2x1600000, .i32⟩ : BufTy).Contents (Elt F)) :
    (⟨S1600000, .i32⟩ : BufTy).Contents (Elt F) :=
  (shapeCast S1600000 (((extractStridedSlice S1x1600000 ![0, 0] · slices_S2x1600000_S1x1600000_0_0) : C F S2x1600000 .i32 → C F S1x1600000 .i32) a2) shapeCasts_S1x1600000_S1600000)

def st_v3 (a2 : (⟨S2x1600000, .i32⟩ : BufTy).Contents (Elt F)) :
    (⟨S1600000, .i32⟩ : BufTy).Contents (Elt F) :=
  (shapeCast S1600000 (((extractStridedSlice S1x1600000 ![1, 0] · slices_S2x1600000_S1x1600000_1_0) : C F S2x1600000 .i32 → C F S1x1600000 .i32) a2) shapeCasts_S1x1600000_S1600000)

def st_v10 (a0 : (⟨S100000, .i32⟩ : BufTy).Contents (Elt F)) (a4 : (⟨S64x64, .f32⟩ : BufTy).Contents (Elt F)) :
    (⟨S100000x64, .f32⟩ : BufTy).Contents (Elt F) :=
  (((fun x i => Host.gather gather_S64x64_S100000x1_S100000x64_1_0_n_n_0_1_164 x i) : C F S64x64 .f32 → C F S100000x1 .i32 → C F S100000x64 .f32) a4 ((broadcastInDim S100000x1 ![0] bcast_S100000_S100000x1_0 : C F S100000 .i32 → _) ((select : C F S100000 .i1 → C F S100000 .i32 → _) ((cmpi .slt : C F S100000 .i32 → _) a0 ((broadcastInDim S100000 ![] bcast_S_S100000 : C F S_ .i32 → _) (constantI S_ 32 0#32))) ((addi : C F S100000 .i32 → _) a0 ((broadcastInDim S100000 ![] bcast_S_S100000 : C F S_ .i32 → _) (constantI S_ 32 64#32))) a0)))

def st_v17 (a1 : (⟨S100000, .i32⟩ : BufTy).Contents (Elt F)) (a5 : (⟨S16x64, .f32⟩ : BufTy).Contents (Elt F)) :
    (⟨S100000x64, .f32⟩ : BufTy).Contents (Elt F) :=
  (((fun x i => Host.gather gather_S16x64_S100000x1_S100000x64_1_0_n_n_0_1_164 x i) : C F S16x64 .f32 → C F S100000x1 .i32 → C F S100000x64 .f32) a5 ((broadcastInDim S100000x1 ![0] bcast_S100000_S100000x1_0 : C F S100000 .i32 → _) ((select : C F S100000 .i1 → C F S100000 .i32 → _) ((cmpi .slt : C F S100000 .i32 → _) a1 ((broadcastInDim S100000 ![] bcast_S_S100000 : C F S_ .i32 → _) (constantI S_ 32 0#32))) ((addi : C F S100000 .i32 → _) a1 ((broadcastInDim S100000 ![] bcast_S_S100000 : C F S_ .i32 → _) (constantI S_ 32 16#32))) a1)))

def st_v18 (x10 : (⟨S100000x64, .f32⟩ : BufTy).Contents (Elt F)) (x17 : (⟨S100000x64, .f32⟩ : BufTy).Contents (Elt F)) :
    (⟨S100000x128, .f32⟩ : BufTy).Contents (Elt F) :=
  (((fun a b => concatenate S100000x128 1 [⟨S100000x64, a⟩, ⟨S100000x64, b⟩] concatenates_S100000x64_S100000x64_S100000x128_d1) : C F S100000x64 .f32 → C F S100000x64 .f32 → C F S100000x128 .f32) x10 x17)

def st_v34 (x1 : (⟨S1600000, .i32⟩ : BufTy).Contents (Elt F)) (x3 : (⟨S1600000, .i32⟩ : BufTy).Contents (Elt F)) (a3 : (⟨S100000x3, .f32⟩ : BufTy).Contents (Elt F)) (a6 : (⟨S1, .f32⟩ : BufTy).Contents (Elt F)) :
    (⟨S100000x3, .f32⟩ : BufTy).Contents (Elt F) :=
  ((addf : C F S100000x3 .f32 → _) ((mulf : C F S100000x3 .f32 → _) ((broadcastInDim S100000x3 ![0, 1] bcast_S1x1_S100000x3_0_1 : C F S1x1 .f32 → _) ((broadcastInDim S1x1 ![1] bcast_S1_S1x1_1 : C F S1 .f32 → _) ((addf : C F S1 .f32 → _) ((broadcastInDim S1 ![] bcast_S_S1 : C F S_ .f32 → _) (constant S_ .f32 0x3F800000#32)) a6))) a3) (((fun x i u => Host.scatterAdd scatter_S100000x3_S1600000x1_S1600000x3_1_0_0_1 x i u) : C F S100000x3 .f32 → C F S1600000x1 .i32 → C F S1600000x3 .f32 → C F S100000x3 .f32) ((broadcastInDim S100000x3 ![] bcast_S_S100000x3 : C F S_ .f32 → _) (constant S_ .f32 0x00000000#32)) ((broadcastInDim S1600000x1 ![0] bcast_S1600000_S1600000x1_0 : C F S1600000 .i32 → _) x3) (((fun x i => Host.gather gather_S100000x3_S1600000x1_S1600000x3_1_0_n_n_0_1_13 x i) : C F S100000x3 .f32 → C F S1600000x1 .i32 → C F S1600000x3 .f32) a3 ((broadcastInDim S1600000x1 ![0] bcast_S1600000_S1600000x1_0 : C F S1600000 .i32 → _) ((select : C F S1600000 .i1 → C F S1600000 .i32 → _) ((cmpi .slt : C F S1600000 .i32 → _) x1 ((broadcastInDim S1600000 ![] bcast_S_S1600000 : C F S_ .i32 → _) (constantI S_ 32 0#32))) ((addi : C F S1600000 .i32 → _) x1 ((broadcastInDim S1600000 ![] bcast_S_S1600000 : C F S_ .i32 → _) (constantI S_ 32 100000#32))) x1)))))

def st_v43 (x34 : (⟨S100000x3, .f32⟩ : BufTy).Contents (Elt F)) (a7 : (⟨S3x3, .f32⟩ : BufTy).Contents (Elt F)) (a8 : (⟨S3, .f32⟩ : BufTy).Contents (Elt F)) (a9 : (⟨S3x64, .f32⟩ : BufTy).Contents (Elt F)) (a10 : (⟨S64, .f32⟩ : BufTy).Contents (Elt F)) :
    (⟨S100000x64, .f32⟩ : BufTy).Contents (Elt F) :=
  ((addf : C F S100000x64 .f32 → _) (((fun l r => Host.dotGeneral dot_S100000x3_S3x64_S100000x64_1_0_0_1_n_n none l r) : C F S100000x3 .f32 → C F S3x64 .f32 → C F S100000x64 .f32) (pf_leaky_relu ((addf : C F S100000x3 .f32 → _) (((fun l r => Host.dotGeneral dot_S100000x3_S3x3_S100000x3_1_0_0_1_n_n none l r) : C F S100000x3 .f32 → C F S3x3 .f32 → C F S100000x3 .f32) x34 a7) ((broadcastInDim S100000x3 ![0, 1] bcast_S1x3_S100000x3_0_1 : C F S1x3 .f32 → _) ((broadcastInDim S1x3 ![1] bcast_S3_S1x3_1 : C F S3 .f32 → _) a8))) (constant S_ .f32 0x3C23D70A#32)) a9) ((broadcastInDim S100000x64 ![0, 1] bcast_S1x64_S100000x64_0_1 : C F S1x64 .f32 → _) ((broadcastInDim S1x64 ![1] bcast_S64_S1x64_1 : C F S64 .f32 → _) a10)))

def st_v46 (x43 : (⟨S100000x64, .f32⟩ : BufTy).Contents (Elt F)) :
    (⟨S64, .f32⟩ : BufTy).Contents (Elt F) :=
  ((Host.divf : C F S64 .f32 → _) (((fun x v => Host.reduceAdd x v reducesTo_S100000x64_S64_d0 h_S_) : C F S100000x64 .f32 → C F S_ .f32 → C F S64 .f32) x43 (constant S_ .f32 0x00000000#32)) ((broadcastInDim S64 ![] bcast_S_S64 : C F S_ .f32 → _) (constant S_ .f32 0x47C35000#32)))

def st_v47 (x43 : (⟨S100000x64, .f32⟩ : BufTy).Contents (Elt F)) :
    (⟨S64, .f32⟩ : BufTy).Contents (Elt F) :=
  (pf_var x43 (constantI S_ 32 0#32))

def st_v63 (x43 : (⟨S100000x64, .f32⟩ : BufTy).Contents (Elt F)) (x46 : (⟨S64, .f32⟩ : BufTy).Contents (Elt F)) (x47 : (⟨S64, .f32⟩ : BufTy).Contents (Elt F)) (a11 : (⟨S64, .f32⟩ : BufTy).Contents (Elt F)) (a12 : (⟨S64, .f32⟩ : BufTy).Contents (Elt F)) :
    (⟨S100000x64, .f32⟩ : BufTy).Contents (Elt F) :=
  (pf_leaky_relu_1 ((addf : C F S100000x64 .f32 → _) ((mulf : C F S100000x64 .f32 → _) ((mulf : C F S100000x64 .f32 → _) ((broadcastInDim S100000x64 ![0, 1] bcast_S1x64_S100000x64_0_1 : C F S1x64 .f32 → _) ((broadcastInDim S1x64 ![1] bcast_S64_S1x64_1 : C F S64 .f32 → _) a11)) ((subf : C F S100000x64 .f32 → _) x43 ((broadcastInDim S100000x64 ![0, 1] bcast_S1x64_S100000x64_0_1 : C F S1x64 .f32 → _) ((broadcastInDim S1x64 ![1] bcast_S64_S1x64_1 : C F S64 .f32 → _) x46)))) ((broadcastInDim S100000x64 ![0, 1] bcast_S1x64_S100000x64_0_1 : C F S1x64 .f32 → _) ((broadcastInDim S1x64 ![1] bcast_S64_S1x64_1 : C F S64 .f32 → _) ((Host.rsqrt : C F S64 .f32 → _) ((addf : C F S64 .f32 → _) x47 ((broadcastInDim S64 ![] bcast_S_S64 : C F S_ .f32 → _) (constant S_ .f32 0x3727C5AC#32))))))) ((broadcastInDim S100000x64 ![0, 1] bcast_S1x64_S100000x64_0_1 : C F S1x64 .f32 → _) ((broadcastInDim S1x64 ![1] bcast_S64_S1x64_1 : C F S64 .f32 → _) a12))) (constant S_ .f32 0x3C23D70A#32))

def st_v79 (x1 : (⟨S1600000, .i32⟩ : BufTy).Contents (Elt F)) (x3 : (⟨S1600000, .i32⟩ : BufTy).Contents (Elt F)) (x63 : (⟨S100000x64, .f32⟩ : BufTy).Contents (Elt F)) (a13 : (⟨S1, .f32⟩ : BufTy).Contents (Elt F)) :
    (⟨S100000x64, .f32⟩ : BufTy).Contents (Elt F) :=
  ((addf : C F S100000x64 .f32 → _) ((mulf : C F S100000x64 .f32 → _) ((broadcastInDim S100000x64 ![0, 1] bcast_S1x1_S100000x64_0_1 : C F S1x1 .f32 → _) ((broadcastInDim S1x1 ![1] bcast_S1_S1x1_1 : C F S1 .f32 → _) ((addf : C F S1 .f32 → _) ((broadcastInDim S1 ![] bcast_S_S1 : C F S_ .f32 → _) (constant S_ .f32 0x3F800000#32)) a13))) x63) (((fun x i u => Host.scatterAdd scatter_S100000x64_S1600000x1_S1600000x64_1_0_0_1 x i u) : C F S100000x64 .f32 → C F S1600000x1 .i32 → C F S1600000x64 .f32 → C F S100000x64 .f32) ((broadcastInDim S100000x64 ![] bcast_S_S100000x64 : C F S_ .f32 → _) (constant S_ .f32 0x00000000#32)) ((broadcastInDim S1600000x1 ![0] bcast_S1600000_S1600000x1_0 : C F S1600000 .i32 → _) x3) (((fun x i => Host.gather gather_S100000x64_S1600000x1_S1600000x64_1_0_n_n_0_1_164 x i) : C F S100000x64 .f32 → C F S1600000x1 .i32 → C F S1600000x64 .f32) x63 ((broadcastInDim S1600000x1 ![0] bcast_S1600000_S1600000x1_0 : C F S1600000 .i32 → _) ((select : C F S1600000 .i1 → C F S1600000 .i32 → _) ((cmpi .slt : C F S1600000 .i32 → _) x1 ((broadcastInDim S1600000 ![] bcast_S_S1600000 : C F S_ .i32 → _) (constantI S_ 32 0#32))) ((addi : C F S1600000 .i32 → _) x1 ((broadcastInDim S1600000 ![] bcast_S_S1600000 : C F S_ .i32 → _) (constantI S_ 32 100000#32))) x1)))))

def st_v88 (x79 : (⟨S100000x64, .f32⟩ : BufTy).Contents (Elt F)) (a14 : (⟨S64x64, .f32⟩ : BufTy).Contents (Elt F)) (a15 : (⟨S64, .f32⟩ : BufTy).Contents (Elt F)) (a16 : (⟨S64x64, .f32⟩ : BufTy).Contents (Elt F)) (a17 : (⟨S64, .f32⟩ : BufTy).Contents (Elt F)) :
    (⟨S100000x64, .f32⟩ : BufTy).Contents (Elt F) :=
  ((addf : C F S100000x64 .f32 → _) (((fun l r => Host.dotGeneral dot_S100000x64_S64x64_S100000x64_1_0_0_1_n_n none l r) : C F S100000x64 .f32 → C F S64x64 .f32 → C F S100000x64 .f32) (pf_leaky_relu_1 ((addf : C F S100000x64 .f32 → _) (((fun l r => Host.dotGeneral dot_S100000x64_S64x64_S100000x64_1_0_0_1_n_n none l r) : C F S100000x64 .f32 → C F S64x64 .f32 → C F S100000x64 .f32) x79 a14) ((broadcastInDim S100000x64 ![0, 1] bcast_S1x64_S100000x64_0_1 : C F S1x64 .f32 → _) ((broadcastInDim S1x64 ![1] bcast_S64_S1x64_1 : C F S64 .f32 → _) a15))) (constant S_ .f32 0x3C23D70A#32)) a16) ((broadcastInDim S100000x64 ![0, 1] bcast_S1x64_S100000x64_0_1 : C F S1x64 .f32 → _) ((broadcastInDim S1x64 ![1] bcast_S64_S1x64_1 : C F S64 .f32 → _) a17)))

def st_v91 (x88 : (⟨S100000x64, .f32⟩ : BufTy).Contents (Elt F)) :
    (⟨S64, .f32⟩ : BufTy).Contents (Elt F) :=
  ((Host.divf : C F S64 .f32 → _) (((fun x v => Host.reduceAdd x v reducesTo_S100000x64_S64_d0 h_S_) : C F S100000x64 .f32 → C F S_ .f32 → C F S64 .f32) x88 (constant S_ .f32 0x00000000#32)) ((broadcastInDim S64 ![] bcast_S_S64 : C F S_ .f32 → _) (constant S_ .f32 0x47C35000#32)))

def st_v92 (x88 : (⟨S100000x64, .f32⟩ : BufTy).Contents (Elt F)) :
    (⟨S64, .f32⟩ : BufTy).Contents (Elt F) :=
  (pf_var x88 (constantI S_ 32 0#32))

def st_v108 (x88 : (⟨S100000x64, .f32⟩ : BufTy).Contents (Elt F)) (x91 : (⟨S64, .f32⟩ : BufTy).Contents (Elt F)) (x92 : (⟨S64, .f32⟩ : BufTy).Contents (Elt F)) (a18 : (⟨S64, .f32⟩ : BufTy).Contents (Elt F)) (a19 : (⟨S64, .f32⟩ : BufTy).Contents (Elt F)) :
    (⟨S100000x64, .f32⟩ : BufTy).Contents (Elt F) :=
  (pf_leaky_relu_1 ((addf : C F S100000x64 .f32 → _) ((mulf : C F S100000x64 .f32 → _) ((mulf : C F S100000x64 .f32 → _) ((broadcastInDim S100000x64 ![0, 1] bcast_S1x64_S100000x64_0_1 : C F S1x64 .f32 → _) ((broadcastInDim S1x64 ![1] bcast_S64_S1x64_1 : C F S64 .f32 → _) a18)) ((subf : C F S100000x64 .f32 → _) x88 ((broadcastInDim S100000x64 ![0, 1] bcast_S1x64_S100000x64_0_1 : C F S1x64 .f32 → _) ((broadcastInDim S1x64 ![1] bcast_S64_S1x64_1 : C F S64 .f32 → _) x91)))) ((broadcastInDim S100000x64 ![0, 1] bcast_S1x64_S100000x64_0_1 : C F S1x64 .f32 → _) ((broadcastInDim S1x64 ![1] bcast_S64_S1x64_1 : C F S64 .f32 → _) ((Host.rsqrt : C F S64 .f32 → _) ((addf : C F S64 .f32 → _) x92 ((broadcastInDim S64 ![] bcast_S_S64 : C F S_ .f32 → _) (constant S_ .f32 0x3727C5AC#32))))))) ((broadcastInDim S100000x64 ![0, 1] bcast_S1x64_S100000x64_0_1 : C F S1x64 .f32 → _) ((broadcastInDim S1x64 ![1] bcast_S64_S1x64_1 : C F S64 .f32 → _) a19))) (constant S_ .f32 0x3C23D70A#32))

def st_v113 (x18 : (⟨S100000x128, .f32⟩ : BufTy).Contents (Elt F)) (x108 : (⟨S100000x64, .f32⟩ : BufTy).Contents (Elt F)) (a20 : (⟨S192x64, .f32⟩ : BufTy).Contents (Elt F)) (a21 : (⟨S64, .f32⟩ : BufTy).Contents (Elt F)) :
    (⟨S100000x64, .f32⟩ : BufTy).Contents (Elt F) :=
  ((addf : C F S100000x64 .f32 → _) (((fun l r => Host.dotGeneral dot_S100000x192_S192x64_S100000x64_1_0_0_1_n_n none l r) : C F S100000x192 .f32 → C F S192x64 .f32 → C F S100000x64 .f32) (((fun a b => concatenate S100000x192 1 [⟨S100000x128, a⟩, ⟨S100000x64, b⟩] concatenates_S100000x128_S100000x64_S100000x192_d1) : C F S100000x128 .f32 → C F S100000x64 .f32 → C F S100000x192 .f32) x18 x108) a20) ((broadcastInDim S100000x64 ![0, 1] bcast_S1x64_S100000x64_0_1 : C F S1x64 .f32 → _) ((broadcastInDim S1x64 ![1] bcast_S64_S1x64_1 : C F S64 .f32 → _) a21)))

def st_v116 (x113 : (⟨S100000x64, .f32⟩ : BufTy).Contents (Elt F)) :
    (⟨S64, .f32⟩ : BufTy).Contents (Elt F) :=
  ((Host.divf : C F S64 .f32 → _) (((fun x v => Host.reduceAdd x v reducesTo_S100000x64_S64_d0 h_S_) : C F S100000x64 .f32 → C F S_ .f32 → C F S64 .f32) x113 (constant S_ .f32 0x00000000#32)) ((broadcastInDim S64 ![] bcast_S_S64 : C F S_ .f32 → _) (constant S_ .f32 0x47C35000#32)))

def st_v117 (x113 : (⟨S100000x64, .f32⟩ : BufTy).Contents (Elt F)) :
    (⟨S64, .f32⟩ : BufTy).Contents (Elt F) :=
  (pf_var x113 (constantI S_ 32 0#32))

def st_v133 (x113 : (⟨S100000x64, .f32⟩ : BufTy).Contents (Elt F)) (x116 : (⟨S64, .f32⟩ : BufTy).Contents (Elt F)) (x117 : (⟨S64, .f32⟩ : BufTy).Contents (Elt F)) (a22 : (⟨S64, .f32⟩ : BufTy).Contents (Elt F)) (a23 : (⟨S64, .f32⟩ : BufTy).Contents (Elt F)) :
    (⟨S100000x64, .f32⟩ : BufTy).Contents (Elt F) :=
  (pf_leaky_relu_1 ((addf : C F S100000x64 .f32 → _) ((mulf : C F S100000x64 .f32 → _) ((mulf : C F S100000x64 .f32 → _) ((broadcastInDim S100000x64 ![0, 1] bcast_S1x64_S100000x64_0_1 : C F S1x64 .f32 → _) ((broadcastInDim S1x64 ![1] bcast_S64_S1x64_1 : C F S64 .f32 → _) a22)) ((subf : C F S100000x64 .f32 → _) x113 ((broadcastInDim S100000x64 ![0, 1] bcast_S1x64_S100000x64_0_1 : C F S1x64 .f32 → _) ((broadcastInDim S1x64 ![1] bcast_S64_S1x64_1 : C F S64 .f32 → _) x116)))) ((broadcastInDim S100000x64 ![0, 1] bcast_S1x64_S100000x64_0_1 : C F S1x64 .f32 → _) ((broadcastInDim S1x64 ![1] bcast_S64_S1x64_1 : C F S64 .f32 → _) ((Host.rsqrt : C F S64 .f32 → _) ((addf : C F S64 .f32 → _) x117 ((broadcastInDim S64 ![] bcast_S_S64 : C F S_ .f32 → _) (constant S_ .f32 0x3727C5AC#32))))))) ((broadcastInDim S100000x64 ![0, 1] bcast_S1x64_S100000x64_0_1 : C F S1x64 .f32 → _) ((broadcastInDim S1x64 ![1] bcast_S64_S1x64_1 : C F S64 .f32 → _) a23))) (constant S_ .f32 0x3C23D70A#32))

def st_v143 (x133 : (⟨S100000x64, .f32⟩ : BufTy).Contents (Elt F)) (a24 : (⟨S64x1, .f32⟩ : BufTy).Contents (Elt F)) (a25 : (⟨S1, .f32⟩ : BufTy).Contents (Elt F)) :
    (⟨S100000x1, .f32⟩ : BufTy).Contents (Elt F) :=
  ((Host.divf : C F S100000x1 .f32 → _) ((broadcastInDim S100000x1 ![] bcast_S_S100000x1 : C F S_ .f32 → _) (constant S_ .f32 0x3F800000#32)) ((addf : C F S100000x1 .f32 → _) ((broadcastInDim S100000x1 ![] bcast_S_S100000x1 : C F S_ .f32 → _) (constant S_ .f32 0x3F800000#32)) ((Host.exp : C F S100000x1 .f32 → _) ((Host.negf : C F S100000x1 .f32 → _) ((addf : C F S100000x1 .f32 → _) (((fun l r => Host.dotGeneral dot_S100000x64_S64x1_S100000x1_1_0_0_1_n_n none l r) : C F S100000x64 .f32 → C F S64x1 .f32 → C F S100000x1 .f32) x133 a24) ((broadcastInDim S100000x1 ![0, 1] bcast_S1x1_S100000x1_0_1 : C F S1x1 .f32 → _) ((broadcastInDim S1x1 ![1] bcast_S1_S1x1_1 : C F S1 .f32 → _) a25)))))))

def st_v144 (x143 : (⟨S100000x1, .f32⟩ : BufTy).Contents (Elt F)) :
    (⟨S100000, .f32⟩ : BufTy).Contents (Elt F) :=
  (shapeCast S100000 x143 shapeCasts_S100000x1_S100000)

def res (a0 : (⟨S100000, .i32⟩ : BufTy).Contents (Elt F)) (a1 : (⟨S100000, .i32⟩ : BufTy).Contents (Elt F)) (a2 : (⟨S2x1600000, .i32⟩ : BufTy).Contents (Elt F)) (a3 : (⟨S100000x3, .f32⟩ : BufTy).Contents (Elt F)) (a4 : (⟨S64x64, .f32⟩ : BufTy).Contents (Elt F)) (a5 : (⟨S16x64, .f32⟩ : BufTy).Contents (Elt F)) (a6 : (⟨S1, .f32⟩ : BufTy).Contents (Elt F)) (a7 : (⟨S3x3, .f32⟩ : BufTy).Contents (Elt F)) (a8 : (⟨S3, .f32⟩ : BufTy).Contents (Elt F)) (a9 : (⟨S3x64, .f32⟩ : BufTy).Contents (Elt F)) (a10 : (⟨S64, .f32⟩ : BufTy).Contents (Elt F)) (a11 : (⟨S64, .f32⟩ : BufTy).Contents (Elt F)) (a12 : (⟨S64, .f32⟩ : BufTy).Contents (Elt F)) (a13 : (⟨S1, .f32⟩ : BufTy).Contents (Elt F)) (a14 : (⟨S64x64, .f32⟩ : BufTy).Contents (Elt F)) (a15 : (⟨S64, .f32⟩ : BufTy).Contents (Elt F)) (a16 : (⟨S64x64, .f32⟩ : BufTy).Contents (Elt F)) (a17 : (⟨S64, .f32⟩ : BufTy).Contents (Elt F)) (a18 : (⟨S64, .f32⟩ : BufTy).Contents (Elt F)) (a19 : (⟨S64, .f32⟩ : BufTy).Contents (Elt F)) (a20 : (⟨S192x64, .f32⟩ : BufTy).Contents (Elt F)) (a21 : (⟨S64, .f32⟩ : BufTy).Contents (Elt F)) (a22 : (⟨S64, .f32⟩ : BufTy).Contents (Elt F)) (a23 : (⟨S64, .f32⟩ : BufTy).Contents (Elt F)) (a24 : (⟨S64x1, .f32⟩ : BufTy).Contents (Elt F)) (a25 : (⟨S1, .f32⟩ : BufTy).Contents (Elt F)) :
    (⟨S100000, .f32⟩ : BufTy).Contents (Elt F) :=
  let src := st_v1 a2
  let dst := st_v3 a2
  let tmp := st_v18 (st_v10 a0 a4) (st_v17 a1 a5)
  let h1 := st_v43 (st_v34 src dst a3 a6) a7 a8 a9 a10
  let x1 := st_v63 h1 (st_v46 h1) (st_v47 h1) a11 a12
  let h2 := st_v88 (st_v79 src dst x1 a13) a14 a15 a16 a17
  let x2 := st_v108 h2 (st_v91 h2) (st_v92 h2) a18 a19
  let hf := st_v113 tmp x2 a20 a21
  let y := st_v133 hf (st_v116 hf) (st_v117 hf) a22 a23
  st_v144 (st_v143 y a24 a25)

end Cert.ReferenceIdeal.RunH

end
-- ==== Proof.Ref.Ops1.lean ====
import proofs.«402365_j6828998001463_1_alg».proof.Proof.Ref.Base

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

def p1 : List (HloOp τ sig (Elt F)) :=
  [ StableHlo.unary main_arg2 main_v0 ((extractStridedSlice S1x1600000 ![0, 0] · slices_S2x1600000_S1x1600000_0_0) : C F S2x1600000 .i32 → C F S1x1600000 .i32),
    StableHlo.reshape main_v0 main_v1 rfl shapeCasts_S1x1600000_S1600000,
    StableHlo.unary main_arg2 main_v2 ((extractStridedSlice S1x1600000 ![1, 0] · slices_S2x1600000_S1x1600000_1_0) : C F S2x1600000 .i32 → C F S1x1600000 .i32),
    StableHlo.reshape main_v2 main_v3 rfl shapeCasts_S1x1600000_S1600000,
    StableHlo.nullary main_c (constantI S_ 32 0#32),
    StableHlo.unary main_c main_v4 (broadcastInDim S100000 ![] bcast_S_S100000 : C F S_ .i32 → C F S100000 .i32),
    StableHlo.binary main_arg0 main_v4 main_v5 (cmpi .slt : C F S100000 .i32 → C F S100000 .i32 → C F S100000 .i1),
    StableHlo.nullary main_c_0 (constantI S_ 32 64#32),
    StableHlo.unary main_c_0 main_v6 (broadcastInDim S100000 ![] bcast_S_S100000 : C F S_ .i32 → C F S100000 .i32),
    StableHlo.binary main_arg0 main_v6 main_v7 (addi : C F S100000 .i32 → C F S100000 .i32 → C F S100000 .i32),
    StableHlo.ternary main_v5 main_v7 main_arg0 main_v8 (select : C F S100000 .i1 → C F S100000 .i32 → C F S100000 .i32 → C F S100000 .i32),
    StableHlo.unary main_v8 main_v9 (broadcastInDim S100000x1 ![0] bcast_S100000_S100000x1_0 : C F S100000 .i32 → C F S100000x1 .i32),
    StableHlo.binary main_arg4 main_v9 main_v10 ((fun x i => Host.gather gather_S64x64_S100000x1_S100000x64_1_0_n_n_0_1_164 x i) : C F S64x64 .f32 → C F S100000x1 .i32 → C F S100000x64 .f32),
    StableHlo.nullary main_c_1 (constantI S_ 32 0#32),
    StableHlo.unary main_c_1 main_v11 (broadcastInDim S100000 ![] bcast_S_S100000 : C F S_ .i32 → C F S100000 .i32),
    StableHlo.binary main_arg1 main_v11 main_v12 (cmpi .slt : C F S100000 .i32 → C F S100000 .i32 → C F S100000 .i1),
    StableHlo.nullary main_c_2 (constantI S_ 32 16#32),
    StableHlo.unary main_c_2 main_v13 (broadcastInDim S100000 ![] bcast_S_S100000 : C F S_ .i32 → C F S100000 .i32),
    StableHlo.binary main_arg1 main_v13 main_v14 (addi : C F S100000 .i32 → C F S100000 .i32 → C F S100000 .i32),
    StableHlo.ternary main_v12 main_v14 main_arg1 main_v15 (select : C F S100000 .i1 → C F S100000 .i32 → C F S100000 .i32 → C F S100000 .i32),
    StableHlo.unary main_v15 main_v16 (broadcastInDim S100000x1 ![0] bcast_S100000_S100000x1_0 : C F S100000 .i32 → C F S100000x1 .i32),
    StableHlo.binary main_arg5 main_v16 main_v17 ((fun x i => Host.gather gather_S16x64_S100000x1_S100000x64_1_0_n_n_0_1_164 x i) : C F S16x64 .f32 → C F S100000x1 .i32 → C F S100000x64 .f32) ]

theorem p1_sub : (p1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem p1_fresh : (p1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

abbrev p1_W : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17]

theorem p1_keep (W : Valuation τ sig (Elt F)) (r : Ref sig .tc) (h : r ∉ p1_W) :
    after p1 W (Proc.devRef .tc r) = W (Proc.devRef .tc r) :=
  after_keep rfl W h

end Cert.ReferenceIdeal.RunH

end
-- ==== Proof.Ref.Val1.lean ====
import proofs.«402365_j6828998001463_1_alg».proof.Proof.Ref.Stages
import proofs.«402365_j6828998001463_1_alg».proof.Proof.Ref.Ops1

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F] (W : Valuation τ sig (Elt F))

attribute [local irreducible] Host.gather Host.scatterAdd Host.reduceAdd concatenate

theorem c1_v1 :
    after p1 W (Proc.devRef .tc main_v1) = st_v1 (W (Proc.devRef .tc main_arg2)) := by
  simp only [p1]
  after_results_simp <;> rfl

theorem c1_v3 :
    after p1 W (Proc.devRef .tc main_v3) = st_v3 (W (Proc.devRef .tc main_arg2)) := by
  simp only [p1]
  after_results_simp <;> rfl

theorem c1_v10 :
    after p1 W (Proc.devRef .tc main_v10) = st_v10 (W (Proc.devRef .tc main_arg0)) (W (Proc.devRef .tc main_arg4)) := by
  simp only [p1]
  after_results_simp <;> rfl

theorem c1_v17 :
    after p1 W (Proc.devRef .tc main_v17) = st_v17 (W (Proc.devRef .tc main_arg1)) (W (Proc.devRef .tc main_arg5)) := by
  simp only [p1]
  after_results_simp <;> rfl

end Cert.ReferenceIdeal.RunH

end
-- ==== Proof.Ref.Ops2.lean ====
import proofs.«402365_j6828998001463_1_alg».proof.Proof.Ref.Base

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

def p2 : List (HloOp τ sig (Elt F)) :=
  [ StableHlo.binary main_v10 main_v17 main_v18 ((fun a b => concatenate S100000x128 1 [⟨S100000x64, a⟩, ⟨S100000x64, b⟩] concatenates_S100000x64_S100000x64_S100000x128_d1) : C F S100000x64 .f32 → C F S100000x64 .f32 → C F S100000x128 .f32),
    StableHlo.nullary main_c_3 (constantI S_ 32 0#32),
    StableHlo.unary main_c_3 main_v19 (broadcastInDim S1600000 ![] bcast_S_S1600000 : C F S_ .i32 → C F S1600000 .i32),
    StableHlo.binary main_v1 main_v19 main_v20 (cmpi .slt : C F S1600000 .i32 → C F S1600000 .i32 → C F S1600000 .i1),
    StableHlo.nullary main_c_4 (constantI S_ 32 100000#32),
    StableHlo.unary main_c_4 main_v21 (broadcastInDim S1600000 ![] bcast_S_S1600000 : C F S_ .i32 → C F S1600000 .i32),
    StableHlo.binary main_v1 main_v21 main_v22 (addi : C F S1600000 .i32 → C F S1600000 .i32 → C F S1600000 .i32),
    StableHlo.ternary main_v20 main_v22 main_v1 main_v23 (select : C F S1600000 .i1 → C F S1600000 .i32 → C F S1600000 .i32 → C F S1600000 .i32),
    StableHlo.unary main_v23 main_v24 (broadcastInDim S1600000x1 ![0] bcast_S1600000_S1600000x1_0 : C F S1600000 .i32 → C F S1600000x1 .i32),
    StableHlo.binary main_arg3 main_v24 main_v25 ((fun x i => Host.gather gather_S100000x3_S1600000x1_S1600000x3_1_0_n_n_0_1_13 x i) : C F S100000x3 .f32 → C F S1600000x1 .i32 → C F S1600000x3 .f32),
    StableHlo.nullary main_cst (constant S_ .f32 0x00000000#32),
    StableHlo.unary main_cst main_v26 (broadcastInDim S100000x3 ![] bcast_S_S100000x3 : C F S_ .f32 → C F S100000x3 .f32),
    StableHlo.unary main_v3 main_v27 (broadcastInDim S1600000x1 ![0] bcast_S1600000_S1600000x1_0 : C F S1600000 .i32 → C F S1600000x1 .i32),
    StableHlo.ternary main_v26 main_v27 main_v25 main_v28 ((fun x i u => Host.scatterAdd scatter_S100000x3_S1600000x1_S1600000x3_1_0_0_1 x i u) : C F S100000x3 .f32 → C F S1600000x1 .i32 → C F S1600000x3 .f32 → C F S100000x3 .f32),
    StableHlo.nullary main_cst_5 (constant S_ .f32 0x3F800000#32),
    StableHlo.unary main_cst_5 main_v29 (broadcastInDim S1 ![] bcast_S_S1 : C F S_ .f32 → C F S1 .f32),
    StableHlo.binary main_v29 main_arg6 main_v30 (addf : C F S1 .f32 → C F S1 .f32 → C F S1 .f32),
    StableHlo.unary main_v30 main_v31 (broadcastInDim S1x1 ![1] bcast_S1_S1x1_1 : C F S1 .f32 → C F S1x1 .f32),
    StableHlo.unary main_v31 main_v32 (broadcastInDim S100000x3 ![0, 1] bcast_S1x1_S100000x3_0_1 : C F S1x1 .f32 → C F S100000x3 .f32),
    StableHlo.binary main_v32 main_arg3 main_v33 (mulf : C F S100000x3 .f32 → C F S100000x3 .f32 → C F S100000x3 .f32),
    StableHlo.binary main_v33 main_v28 main_v34 (addf : C F S100000x3 .f32 → C F S100000x3 .f32 → C F S100000x3 .f32),
    StableHlo.binary main_v34 main_arg7 main_v35 ((fun l r => Host.dotGeneral dot_S100000x3_S3x3_S100000x3_1_0_0_1_n_n none l r) : C F S100000x3 .f32 → C F S3x3 .f32 → C F S100000x3 .f32),
    StableHlo.unary main_arg8 main_v36 (broadcastInDim S1x3 ![1] bcast_S3_S1x3_1 : C F S3 .f32 → C F S1x3 .f32),
    StableHlo.unary main_v36 main_v37 (broadcastInDim S100000x3 ![0, 1] bcast_S1x3_S100000x3_0_1 : C F S1x3 .f32 → C F S100000x3 .f32),
    StableHlo.binary main_v35 main_v37 main_v38 (addf : C F S100000x3 .f32 → C F S100000x3 .f32 → C F S100000x3 .f32),
    StableHlo.nullary main_cst_6 (constant S_ .f32 0x3C23D70A#32),
    StableHlo.TRef.nullary main_call0.cst (constant S_ .f32 0x00000000#32),
    StableHlo.TRef.unary main_call0.cst main_call0.v0 (broadcastInDim S100000x3 ![] bcast_S_S100000x3),
    StableHlo.TRef.binary (TRef.of main_v38 : TRef sig ⟨S100000x3, .f32⟩) main_call0.v0 main_call0.v1 (cmpf .oge),
    StableHlo.TRef.unary (TRef.of main_cst_6 : TRef sig ⟨S_, .f32⟩) main_call0.v2 id,
    StableHlo.TRef.unary main_call0.v2 main_call0.v3 (broadcastInDim S100000x3 ![] bcast_S_S100000x3),
    StableHlo.TRef.binary main_call0.v3 (TRef.of main_v38 : TRef sig ⟨S100000x3, .f32⟩) main_call0.v4 mulf,
    StableHlo.TRef.ternary main_call0.v1 (TRef.of main_v38 : TRef sig ⟨S100000x3, .f32⟩) main_call0.v4 main_call0.call0.v0 select,
    StableHlo.binary main_v39 main_arg9 main_v40 ((fun l r => Host.dotGeneral dot_S100000x3_S3x64_S100000x64_1_0_0_1_n_n none l r) : C F S100000x3 .f32 → C F S3x64 .f32 → C F S100000x64 .f32),
    StableHlo.unary main_arg10 main_v41 (broadcastInDim S1x64 ![1] bcast_S64_S1x64_1 : C F S64 .f32 → C F S1x64 .f32),
    StableHlo.unary main_v41 main_v42 (broadcastInDim S100000x64 ![0, 1] bcast_S1x64_S100000x64_0_1 : C F S1x64 .f32 → C F S100000x64 .f32),
    StableHlo.binary main_v40 main_v42 main_v43 (addf : C F S100000x64 .f32 → C F S100000x64 .f32 → C F S100000x64 .f32) ]

theorem p2_sub : (p2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub ..⟩

theorem p2_fresh : (p2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev p2_W : List (Ref sig .tc) := [main_v18, main_c_3, main_v19, main_v20, main_c_4, main_v21, main_v22, main_v23, main_v24, main_v25, main_cst, main_v26, main_v27, main_v28, main_cst_5, main_v29, main_v30, main_v31, main_v32, main_v33, main_v34, main_v35, main_v36, main_v37, main_v38, main_cst_6, main_call0_cst, main_call0_v0, main_call0_v1, main_call0_v2, main_call0_v3, main_call0_v4, main_v39, main_v40, main_v41, main_v42, main_v43]

theorem p2_keep (W : Valuation τ sig (Elt F)) (r : Ref sig .tc) (h : r ∉ p2_W) :
    after p2 W (Proc.devRef .tc r) = W (Proc.devRef .tc r) :=
  after_keep rfl W h

end Cert.ReferenceIdeal.RunH

end
-- ==== Proof.Ref.Val2.lean ====
import proofs.«402365_j6828998001463_1_alg».proof.Proof.Ref.Stages
import proofs.«402365_j6828998001463_1_alg».proof.Proof.Ref.Ops2

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F] (W : Valuation τ sig (Elt F))

attribute [local irreducible] Host.gather Host.scatterAdd Host.reduceAdd concatenate

theorem c2_v18 :
    after p2 W (Proc.devRef .tc main_v18) = st_v18 (W (Proc.devRef .tc main_v10)) (W (Proc.devRef .tc main_v17)) := by
  simp only [p2]
  after_results_simp <;> rfl

set_option maxHeartbeats 1000000 in
theorem c2_v43 :
    after p2 W (Proc.devRef .tc main_v43)
      = st_v43 (st_v34 (W (Proc.devRef .tc main_v1)) (W (Proc.devRef .tc main_v3)) (W (Proc.devRef .tc main_arg3)) (W (Proc.devRef .tc main_arg6)))
          (W (Proc.devRef .tc main_arg7)) (W (Proc.devRef .tc main_arg8)) (W (Proc.devRef .tc main_arg9)) (W (Proc.devRef .tc main_arg10)) := by
  simp only [p2]
  after_results_simp <;> rfl

end Cert.ReferenceIdeal.RunH

end
-- ==== Proof.Ref.Ops3.lean ====
import proofs.«402365_j6828998001463_1_alg».proof.Proof.Ref.Base

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

def p3 : List (HloOp τ sig (Elt F)) :=
  [ StableHlo.nullary main_cst_7 (constant S_ .f32 0x00000000#32),
    StableHlo.binary main_v43 main_cst_7 main_v44 ((fun x v => Host.reduceAdd x v reducesTo_S100000x64_S64_d0 h_S_) : C F S100000x64 .f32 → C F S_ .f32 → C F S64 .f32),
    StableHlo.nullary main_cst_8 (constant S_ .f32 0x47C35000#32),
    StableHlo.unary main_cst_8 main_v45 (broadcastInDim S64 ![] bcast_S_S64 : C F S_ .f32 → C F S64 .f32),
    StableHlo.binary main_v44 main_v45 main_v46 (Host.divf : C F S64 .f32 → C F S64 .f32 → C F S64 .f32),
    StableHlo.nullary main_c_9 (constantI S_ 32 0#32),
    StableHlo.TRef.nullary main_call1.cst (constant S_ .f32 0x00000000#32),
    StableHlo.TRef.binary (TRef.of main_v43 : TRef sig ⟨S100000x64, .f32⟩) main_call1.cst main_call1.v0 (fun x v => Host.reduceAdd x v reducesTo_S100000x64_S64_d0 h_S_),
    StableHlo.TRef.unary main_call1.v0 main_call1.v1 (broadcastInDim S1x64 ![1] bcast_S64_S1x64_1),
    StableHlo.TRef.nullary main_call1.cst_0 (constant S_ .f32 0x47C35000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S100000x64 ![0, 1] bcast_S1x64_S100000x64_0_1),
    StableHlo.TRef.binary (TRef.of main_v43 : TRef sig ⟨S100000x64, .f32⟩) main_call1.v4 main_call1.v5 subf,
    StableHlo.TRef.binary main_call1.v5 main_call1.v5 main_call1.v6 mulf,
    StableHlo.TRef.unary (TRef.of main_c_9 : TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b) ]

theorem p3_sub : (p3 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem p3_fresh : (p3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

abbrev p3_W : List (Ref sig .tc) := [main_cst_7, main_v44, main_cst_8, main_v45, main_v46, main_c_9, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v47]

theorem p3_keep (W : Valuation τ sig (Elt F)) (r : Ref sig .tc) (h : r ∉ p3_W) :
    after p3 W (Proc.devRef .tc r) = W (Proc.devRef .tc r) :=
  after_keep rfl W h

end Cert.ReferenceIdeal.RunH

end
-- ==== Proof.Ref.Val3.lean ====
import proofs.«402365_j6828998001463_1_alg».proof.Proof.Ref.Stages
import proofs.«402365_j6828998001463_1_alg».proof.Proof.Ref.Ops3

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F] (W : Valuation τ sig (Elt F))

attribute [local irreducible] Host.gather Host.scatterAdd Host.reduceAdd concatenate

theorem c3_v46 :
    after p3 W (Proc.devRef .tc main_v46) = st_v46 (W (Proc.devRef .tc main_v43)) := by
  simp only [p3]
  after_results_simp <;> rfl

set_option maxHeartbeats 1000000 in
theorem c3_v47 :
    after p3 W (Proc.devRef .tc main_v47) = st_v47 (W (Proc.devRef .tc main_v43)) := by
  simp only [p3]
  after_results_simp <;> rfl

end Cert.ReferenceIdeal.RunH

end
-- ==== Proof.Ref.Ops4.lean ====
import proofs.«402365_j6828998001463_1_alg».proof.Proof.Ref.Base

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

def p4 : List (HloOp τ sig (Elt F)) :=
  [ StableHlo.unary main_v46 main_v48 (broadcastInDim S1x64 ![1] bcast_S64_S1x64_1 : C F S64 .f32 → C F S1x64 .f32),
    StableHlo.unary main_v48 main_v49 (broadcastInDim S100000x64 ![0, 1] bcast_S1x64_S100000x64_0_1 : C F S1x64 .f32 → C F S100000x64 .f32),
    StableHlo.binary main_v43 main_v49 main_v50 (subf : C F S100000x64 .f32 → C F S100000x64 .f32 → C F S100000x64 .f32),
    StableHlo.unary main_arg11 main_v51 (broadcastInDim S1x64 ![1] bcast_S64_S1x64_1 : C F S64 .f32 → C F S1x64 .f32),
    StableHlo.unary main_v51 main_v52 (broadcastInDim S100000x64 ![0, 1] bcast_S1x64_S100000x64_0_1 : C F S1x64 .f32 → C F S100000x64 .f32),
    StableHlo.binary main_v52 main_v50 main_v53 (mulf : C F S100000x64 .f32 → C F S100000x64 .f32 → C F S100000x64 .f32),
    StableHlo.nullary main_cst_10 (constant S_ .f32 0x3727C5AC#32),
    StableHlo.unary main_cst_10 main_v54 (broadcastInDim S64 ![] bcast_S_S64 : C F S_ .f32 → C F S64 .f32),
    StableHlo.binary main_v47 main_v54 main_v55 (addf : C F S64 .f32 → C F S64 .f32 → C F S64 .f32),
    StableHlo.unary main_v55 main_v56 (Host.rsqrt : C F S64 .f32 → C F S64 .f32),
    StableHlo.unary main_v56 main_v57 (broadcastInDim S1x64 ![1] bcast_S64_S1x64_1 : C F S64 .f32 → C F S1x64 .f32),
    StableHlo.unary main_v57 main_v58 (broadcastInDim S100000x64 ![0, 1] bcast_S1x64_S100000x64_0_1 : C F S1x64 .f32 → C F S100000x64 .f32),
    StableHlo.binary main_v53 main_v58 main_v59 (mulf : C F S100000x64 .f32 → C F S100000x64 .f32 → C F S100000x64 .f32),
    StableHlo.unary main_arg12 main_v60 (broadcastInDim S1x64 ![1] bcast_S64_S1x64_1 : C F S64 .f32 → C F S1x64 .f32),
    StableHlo.unary main_v60 main_v61 (broadcastInDim S100000x64 ![0, 1] bcast_S1x64_S100000x64_0_1 : C F S1x64 .f32 → C F S100000x64 .f32),
    StableHlo.binary main_v59 main_v61 main_v62 (addf : C F S100000x64 .f32 → C F S100000x64 .f32 → C F S100000x64 .f32),
    StableHlo.nullary main_cst_11 (constant S_ .f32 0x3C23D70A#32),
    StableHlo.TRef.nullary main_call2.cst (constant S_ .f32 0x00000000#32),
    StableHlo.TRef.unary main_call2.cst main_call2.v0 (broadcastInDim S100000x64 ![] bcast_S_S100000x64),
    StableHlo.TRef.binary (TRef.of main_v62 : TRef sig ⟨S100000x64, .f32⟩) main_call2.v0 main_call2.v1 (cmpf .oge),
    StableHlo.TRef.unary (TRef.of main_cst_11 : TRef sig ⟨S_, .f32⟩) main_call2.v2 id,
    StableHlo.TRef.unary main_call2.v2 main_call2.v3 (broadcastInDim S100000x64 ![] bcast_S_S100000x64),
    StableHlo.TRef.binary main_call2.v3 (TRef.of main_v62 : TRef sig ⟨S100000x64, .f32⟩) main_call2.v4 mulf,
    StableHlo.TRef.ternary main_call2.v1 (TRef.of main_v62 : TRef sig ⟨S100000x64, .f32⟩) main_call2.v4 main_call2.call0.v0 select ]

theorem p4_sub : (p4 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem p4_fresh : (p4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

abbrev p4_W : List (Ref sig .tc) := [main_v48, main_v49, main_v50, main_v51, main_v52, main_v53, main_cst_10, main_v54, main_v55, main_v56, main_v57, main_v58, main_v59, main_v60, main_v61, main_v62, main_cst_11, main_call2_cst, main_call2_v0, main_call2_v1, main_call2_v2, main_call2_v3, main_call2_v4, main_v63]

theorem p4_keep (W : Valuation τ sig (Elt F)) (r : Ref sig .tc) (h : r ∉ p4_W) :
    after p4 W (Proc.devRef .tc r) = W (Proc.devRef .tc r) :=
  after_keep rfl W h

end Cert.ReferenceIdeal.RunH

end
-- ==== Proof.Ref.Val4.lean ====
import proofs.«402365_j6828998001463_1_alg».proof.Proof.Ref.Stages
import proofs.«402365_j6828998001463_1_alg».proof.Proof.Ref.Ops4

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd Host.reduceAdd concatenate

set_option maxHeartbeats 1000000 in
theorem c4_v63 (W : Valuation τ sig (Elt F)) :
    after p4 W (Proc.devRef .tc main_v63)
      = st_v63 (W (Proc.devRef .tc main_v43)) (W (Proc.devRef .tc main_v46)) (W (Proc.devRef .tc main_v47)) (W (Proc.devRef .tc main_arg11)) (W (Proc.devRef .tc main_arg12)) := by
  simp only [p4]
  after_results_simp <;> rfl

end Cert.ReferenceIdeal.RunH

end
-- ==== Proof.Ref.Ops5.lean ====
import proofs.«402365_j6828998001463_1_alg».proof.Proof.Ref.Base

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

def p5 : List (HloOp τ sig (Elt F)) :=
  [ StableHlo.nullary main_c_12 (constantI S_ 32 0#32),
    StableHlo.unary main_c_12 main_v64 (broadcastInDim S1600000 ![] bcast_S_S1600000 : C F S_ .i32 → C F S1600000 .i32),
    StableHlo.binary main_v1 main_v64 main_v65 (cmpi .slt : C F S1600000 .i32 → C F S1600000 .i32 → C F S1600000 .i1),
    StableHlo.nullary main_c_13 (constantI S_ 32 100000#32),
    StableHlo.unary main_c_13 main_v66 (broadcastInDim S1600000 ![] bcast_S_S1600000 : C F S_ .i32 → C F S1600000 .i32),
    StableHlo.binary main_v1 main_v66 main_v67 (addi : C F S1600000 .i32 → C F S1600000 .i32 → C F S1600000 .i32),
    StableHlo.ternary main_v65 main_v67 main_v1 main_v68 (select : C F S1600000 .i1 → C F S1600000 .i32 → C F S1600000 .i32 → C F S1600000 .i32),
    StableHlo.unary main_v68 main_v69 (broadcastInDim S1600000x1 ![0] bcast_S1600000_S1600000x1_0 : C F S1600000 .i32 → C F S1600000x1 .i32),
    StableHlo.binary main_v63 main_v69 main_v70 ((fun x i => Host.gather gather_S100000x64_S1600000x1_S1600000x64_1_0_n_n_0_1_164 x i) : C F S100000x64 .f32 → C F S1600000x1 .i32 → C F S1600000x64 .f32),
    StableHlo.nullary main_cst_14 (constant S_ .f32 0x00000000#32),
    StableHlo.unary main_cst_14 main_v71 (broadcastInDim S100000x64 ![] bcast_S_S100000x64 : C F S_ .f32 → C F S100000x64 .f32),
    StableHlo.unary main_v3 main_v72 (broadcastInDim S1600000x1 ![0] bcast_S1600000_S1600000x1_0 : C F S1600000 .i32 → C F S1600000x1 .i32),
    StableHlo.ternary main_v71 main_v72 main_v70 main_v73 ((fun x i u => Host.scatterAdd scatter_S100000x64_S1600000x1_S1600000x64_1_0_0_1 x i u) : C F S100000x64 .f32 → C F S1600000x1 .i32 → C F S1600000x64 .f32 → C F S100000x64 .f32),
    StableHlo.nullary main_cst_15 (constant S_ .f32 0x3F800000#32),
    StableHlo.unary main_cst_15 main_v74 (broadcastInDim S1 ![] bcast_S_S1 : C F S_ .f32 → C F S1 .f32),
    StableHlo.binary main_v74 main_arg13 main_v75 (addf : C F S1 .f32 → C F S1 .f32 → C F S1 .f32),
    StableHlo.unary main_v75 main_v76 (broadcastInDim S1x1 ![1] bcast_S1_S1x1_1 : C F S1 .f32 → C F S1x1 .f32),
    StableHlo.unary main_v76 main_v77 (broadcastInDim S100000x64 ![0, 1] bcast_S1x1_S100000x64_0_1 : C F S1x1 .f32 → C F S100000x64 .f32),
    StableHlo.binary main_v77 main_v63 main_v78 (mulf : C F S100000x64 .f32 → C F S100000x64 .f32 → C F S100000x64 .f32),
    StableHlo.binary main_v78 main_v73 main_v79 (addf : C F S100000x64 .f32 → C F S100000x64 .f32 → C F S100000x64 .f32),
    StableHlo.binary main_v79 main_arg14 main_v80 ((fun l r => Host.dotGeneral dot_S100000x64_S64x64_S100000x64_1_0_0_1_n_n none l r) : C F S100000x64 .f32 → C F S64x64 .f32 → C F S100000x64 .f32),
    StableHlo.unary main_arg15 main_v81 (broadcastInDim S1x64 ![1] bcast_S64_S1x64_1 : C F S64 .f32 → C F S1x64 .f32),
    StableHlo.unary main_v81 main_v82 (broadcastInDim S100000x64 ![0, 1] bcast_S1x64_S100000x64_0_1 : C F S1x64 .f32 → C F S100000x64 .f32),
    StableHlo.binary main_v80 main_v82 main_v83 (addf : C F S100000x64 .f32 → C F S100000x64 .f32 → C F S100000x64 .f32),
    StableHlo.nullary main_cst_16 (constant S_ .f32 0x3C23D70A#32),
    StableHlo.TRef.nullary main_call3.cst (constant S_ .f32 0x00000000#32),
    StableHlo.TRef.unary main_call3.cst main_call3.v0 (broadcastInDim S100000x64 ![] bcast_S_S100000x64),
    StableHlo.TRef.binary (TRef.of main_v83 : TRef sig ⟨S100000x64, .f32⟩) main_call3.v0 main_call3.v1 (cmpf .oge),
    StableHlo.TRef.unary (TRef.of main_cst_16 : TRef sig ⟨S_, .f32⟩) main_call3.v2 id,
    StableHlo.TRef.unary main_call3.v2 main_call3.v3 (broadcastInDim S100000x64 ![] bcast_S_S100000x64),
    StableHlo.TRef.binary main_call3.v3 (TRef.of main_v83 : TRef sig ⟨S100000x64, .f32⟩) main_call3.v4 mulf,
    StableHlo.TRef.ternary main_call3.v1 (TRef.of main_v83 : TRef sig ⟨S100000x64, .f32⟩) main_call3.v4 main_call3.call0.v0 select,
    StableHlo.binary main_v84 main_arg16 main_v85 ((fun l r => Host.dotGeneral dot_S100000x64_S64x64_S100000x64_1_0_0_1_n_n none l r) : C F S100000x64 .f32 → C F S64x64 .f32 → C F S100000x64 .f32),
    StableHlo.unary main_arg17 main_v86 (broadcastInDim S1x64 ![1] bcast_S64_S1x64_1 : C F S64 .f32 → C F S1x64 .f32),
    StableHlo.unary main_v86 main_v87 (broadcastInDim S100000x64 ![0, 1] bcast_S1x64_S100000x64_0_1 : C F S1x64 .f32 → C F S100000x64 .f32),
    StableHlo.binary main_v85 main_v87 main_v88 (addf : C F S100000x64 .f32 → C F S100000x64 .f32 → C F S100000x64 .f32) ]

theorem p5_sub : (p5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub ..⟩

theorem p5_fresh : (p5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev p5_W : List (Ref sig .tc) := [main_c_12, main_v64, main_v65, main_c_13, main_v66, main_v67, main_v68, main_v69, main_v70, main_cst_14, main_v71, main_v72, main_v73, main_cst_15, main_v74, main_v75, main_v76, main_v77, main_v78, main_v79, main_v80, main_v81, main_v82, main_v83, main_cst_16, main_call3_cst, main_call3_v0, main_call3_v1, main_call3_v2, main_call3_v3, main_call3_v4, main_v84, main_v85, main_v86, main_v87, main_v88]

theorem p5_keep (W : Valuation τ sig (Elt F)) (r : Ref sig .tc) (h : r ∉ p5_W) :
    after p5 W (Proc.devRef .tc r) = W (Proc.devRef .tc r) :=
  after_keep rfl W h

end Cert.ReferenceIdeal.RunH

end
-- ==== Proof.Ref.Val5.lean ====
import proofs.«402365_j6828998001463_1_alg».proof.Proof.Ref.Stages
import proofs.«402365_j6828998001463_1_alg».proof.Proof.Ref.Ops5

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd Host.reduceAdd concatenate

set_option maxHeartbeats 1000000 in
theorem c5_v88 (W : Valuation τ sig (Elt F)) :
    after p5 W (Proc.devRef .tc main_v88)
      = st_v88 (st_v79 (W (Proc.devRef .tc main_v1)) (W (Proc.devRef .tc main_v3)) (W (Proc.devRef .tc main_v63)) (W (Proc.devRef .tc main_arg13)))
          (W (Proc.devRef .tc main_arg14)) (W (Proc.devRef .tc main_arg15)) (W (Proc.devRef .tc main_arg16)) (W (Proc.devRef .tc main_arg17)) := by
  simp only [p5]
  after_results_simp <;> rfl

end Cert.ReferenceIdeal.RunH

end
-- ==== Proof.Ref.Ops6.lean ====
import proofs.«402365_j6828998001463_1_alg».proof.Proof.Ref.Base

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

def p6 : List (HloOp τ sig (Elt F)) :=
  [ StableHlo.nullary main_cst_17 (constant S_ .f32 0x00000000#32),
    StableHlo.binary main_v88 main_cst_17 main_v89 ((fun x v => Host.reduceAdd x v reducesTo_S100000x64_S64_d0 h_S_) : C F S100000x64 .f32 → C F S_ .f32 → C F S64 .f32),
    StableHlo.nullary main_cst_18 (constant S_ .f32 0x47C35000#32),
    StableHlo.unary main_cst_18 main_v90 (broadcastInDim S64 ![] bcast_S_S64 : C F S_ .f32 → C F S64 .f32),
    StableHlo.binary main_v89 main_v90 main_v91 (Host.divf : C F S64 .f32 → C F S64 .f32 → C F S64 .f32),
    StableHlo.nullary main_c_19 (constantI S_ 32 0#32),
    StableHlo.TRef.nullary main_call4.cst (constant S_ .f32 0x00000000#32),
    StableHlo.TRef.binary (TRef.of main_v88 : TRef sig ⟨S100000x64, .f32⟩) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (TRef.of main_v88 : TRef sig ⟨S100000x64, .f32⟩) main_call4.v4 main_call4.v5 subf,
    StableHlo.TRef.binary main_call4.v5 main_call4.v5 main_call4.v6 mulf,
    StableHlo.TRef.unary (TRef.of main_c_19 : TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b) ]

theorem p6_sub : (p6 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem p6_fresh : (p6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

abbrev p6_W : List (Ref sig .tc) := [main_cst_17, main_v89, main_cst_18, main_v90, main_v91, main_c_19, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v92]

theorem p6_keep (W : Valuation τ sig (Elt F)) (r : Ref sig .tc) (h : r ∉ p6_W) :
    after p6 W (Proc.devRef .tc r) = W (Proc.devRef .tc r) :=
  after_keep rfl W h

end Cert.ReferenceIdeal.RunH

end
-- ==== Proof.Ref.Val6.lean ====
import proofs.«402365_j6828998001463_1_alg».proof.Proof.Ref.Stages
import proofs.«402365_j6828998001463_1_alg».proof.Proof.Ref.Ops6

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F] (W : Valuation τ sig (Elt F))

attribute [local irreducible] Host.gather Host.scatterAdd Host.reduceAdd concatenate

theorem c6_v91 :
    after p6 W (Proc.devRef .tc main_v91) = st_v91 (W (Proc.devRef .tc main_v88)) := by
  simp only [p6]
  after_results_simp <;> rfl

set_option maxHeartbeats 1000000 in
theorem c6_v92 :
    after p6 W (Proc.devRef .tc main_v92) = st_v92 (W (Proc.devRef .tc main_v88)) := by
  simp only [p6]
  after_results_simp <;> rfl

end Cert.ReferenceIdeal.RunH

end
-- ==== Proof.Ref.Ops7.lean ====
import proofs.«402365_j6828998001463_1_alg».proof.Proof.Ref.Base

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

def p7a : List (HloOp τ sig (Elt F)) :=
  [ StableHlo.unary main_v91 main_v93 (broadcastInDim S1x64 ![1] bcast_S64_S1x64_1 : C F S64 .f32 → C F S1x64 .f32),
    StableHlo.unary main_v93 main_v94 (broadcastInDim S100000x64 ![0, 1] bcast_S1x64_S100000x64_0_1 : C F S1x64 .f32 → C F S100000x64 .f32),
    StableHlo.binary main_v88 main_v94 main_v95 (subf : C F S100000x64 .f32 → C F S100000x64 .f32 → C F S100000x64 .f32),
    StableHlo.unary main_arg18 main_v96 (broadcastInDim S1x64 ![1] bcast_S64_S1x64_1 : C F S64 .f32 → C F S1x64 .f32),
    StableHlo.unary main_v96 main_v97 (broadcastInDim S100000x64 ![0, 1] bcast_S1x64_S100000x64_0_1 : C F S1x64 .f32 → C F S100000x64 .f32) ]

theorem p7a_sub : (p7a : List (HloOp τ sig (Elt F))).Forall fun op => op.bufs ⊆ tcRefs τ sig :=
  ⟨unary_bufs_sub .., unary_bufs_sub .., binary_bufs_sub .., unary_bufs_sub .., unary_bufs_sub ..⟩

theorem p7a_fresh : (p7a : List (HloOp τ sig (Elt F))).Forall fun op => op.fresh = ∅ :=
  ⟨rfl, rfl, rfl, rfl, rfl⟩

abbrev p7a_W : List (Ref sig .tc) := [main_v93, main_v94, main_v95, main_v96, main_v97]

theorem p7a_keep (W : Valuation τ sig (Elt F)) (r : Ref sig .tc) (h : r ∉ p7a_W) :
    after p7a W (Proc.devRef .tc r) = W (Proc.devRef .tc r) :=
  after_keep rfl W h

def p7b : List (HloOp τ sig (Elt F)) :=
  [ StableHlo.binary main_v97 main_v95 main_v98 (mulf : C F S100000x64 .f32 → C F S100000x64 .f32 → C F S100000x64 .f32),
    StableHlo.nullary main_cst_20 (constant S_ .f32 0x3727C5AC#32),
    StableHlo.unary main_cst_20 main_v99 (broadcastInDim S64 ![] bcast_S_S64 : C F S_ .f32 → C F S64 .f32),
    StableHlo.binary main_v92 main_v99 main_v100 (addf : C F S64 .f32 → C F S64 .f32 → C F S64 .f32),
    StableHlo.unary main_v100 main_v101 (Host.rsqrt : C F S64 .f32 → C F S64 .f32),
    StableHlo.unary main_v101 main_v102 (broadcastInDim S1x64 ![1] bcast_S64_S1x64_1 : C F S64 .f32 → C F S1x64 .f32),
    StableHlo.unary main_v102 main_v103 (broadcastInDim S100000x64 ![0, 1] bcast_S1x64_S100000x64_0_1 : C F S1x64 .f32 → C F S100000x64 .f32),
    StableHlo.binary main_v98 main_v103 main_v104 (mulf : C F S100000x64 .f32 → C F S100000x64 .f32 → C F S100000x64 .f32),
    StableHlo.unary main_arg19 main_v105 (broadcastInDim S1x64 ![1] bcast_S64_S1x64_1 : C F S64 .f32 → C F S1x64 .f32),
    StableHlo.unary main_v105 main_v106 (broadcastInDim S100000x64 ![0, 1] bcast_S1x64_S100000x64_0_1 : C F S1x64 .f32 → C F S100000x64 .f32),
    StableHlo.binary main_v104 main_v106 main_v107 (addf : C F S100000x64 .f32 → C F S100000x64 .f32 → C F S100000x64 .f32),
    StableHlo.nullary main_cst_21 (constant S_ .f32 0x3C23D70A#32),
    StableHlo.TRef.nullary main_call5.cst (constant S_ .f32 0x00000000#32),
    StableHlo.TRef.unary main_call5.cst main_call5.v0 (broadcastInDim S100000x64 ![] bcast_S_S100000x64),
    StableHlo.TRef.binary (TRef.of main_v107 : TRef sig ⟨S100000x64, .f32⟩) main_call5.v0 main_call5.v1 (cmpf .oge),
    StableHlo.TRef.unary (TRef.of main_cst_21 : TRef sig ⟨S_, .f32⟩) main_call5.v2 id,
    StableHlo.TRef.unary main_call5.v2 main_call5.v3 (broadcastInDim S100000x64 ![] bcast_S_S100000x64),
    StableHlo.TRef.binary main_call5.v3 (TRef.of main_v107 : TRef sig ⟨S100000x64, .f32⟩) main_call5.v4 mulf,
    StableHlo.TRef.ternary main_call5.v1 (TRef.of main_v107 : TRef sig ⟨S100000x64, .f32⟩) main_call5.v4 main_call5.call0.v0 select ]

theorem p7b_sub : (p7b : List (HloOp τ sig (Elt F))).Forall fun op => op.bufs ⊆ tcRefs τ sig :=
  ⟨binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem p7b_fresh : (p7b : List (HloOp τ sig (Elt F))).Forall fun op => op.fresh = ∅ :=
  ⟨rfl, rfl, rfl, rfl, rfl, rfl, rfl, rfl, rfl, rfl, rfl, rfl, rfl, rfl, rfl, rfl, rfl, rfl, rfl⟩

abbrev p7b_W : List (Ref sig .tc) := [main_v98, main_cst_20, main_v99, main_v100, main_v101, main_v102, main_v103, main_v104, main_v105, main_v106, main_v107, main_cst_21, main_call5_cst, main_call5_v0, main_call5_v1, main_call5_v2, main_call5_v3, main_call5_v4, main_v108]

theorem p7b_keep (W : Valuation τ sig (Elt F)) (r : Ref sig .tc) (h : r ∉ p7b_W) :
    after p7b W (Proc.devRef .tc r) = W (Proc.devRef .tc r) :=
  after_keep rfl W h

end Cert.ReferenceIdeal.RunH

end
-- ==== Proof.Ref.Val7.lean ====
import proofs.«402365_j6828998001463_1_alg».proof.Proof.Ref.Stages
import proofs.«402365_j6828998001463_1_alg».proof.Proof.Ref.Ops7
import Idealize.ShloMosaic.Lib.Pipeline.Frame

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd Host.reduceAdd concatenate

set_option maxHeartbeats 1000000 in
theorem c7_v108 (W : Valuation τ sig (Elt F)) :
    after (p7a ++ p7b) W (Proc.devRef .tc main_v108)
      = st_v108 (W (Proc.devRef .tc main_v88)) (W (Proc.devRef .tc main_v91)) (W (Proc.devRef .tc main_v92)) (W (Proc.devRef .tc main_arg18)) (W (Proc.devRef .tc main_arg19)) := by
  simp only [p7a, p7b, List.cons_append, List.nil_append]
  after_results_simp <;> rfl

end Cert.ReferenceIdeal.RunH

end
-- ==== Proof.Ref.Ops8.lean ====
import proofs.«402365_j6828998001463_1_alg».proof.Proof.Ref.Base

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

def p8 : List (HloOp τ sig (Elt F)) :=
  [ StableHlo.binary main_v18 main_v108 main_v109 ((fun a b => concatenate S100000x192 1 [⟨S100000x128, a⟩, ⟨S100000x64, b⟩] concatenates_S100000x128_S100000x64_S100000x192_d1) : C F S100000x128 .f32 → C F S100000x64 .f32 → C F S100000x192 .f32),
    StableHlo.binary main_v109 main_arg20 main_v110 ((fun l r => Host.dotGeneral dot_S100000x192_S192x64_S100000x64_1_0_0_1_n_n none l r) : C F S100000x192 .f32 → C F S192x64 .f32 → C F S100000x64 .f32),
    StableHlo.unary main_arg21 main_v111 (broadcastInDim S1x64 ![1] bcast_S64_S1x64_1 : C F S64 .f32 → C F S1x64 .f32),
    StableHlo.unary main_v111 main_v112 (broadcastInDim S100000x64 ![0, 1] bcast_S1x64_S100000x64_0_1 : C F S1x64 .f32 → C F S100000x64 .f32),
    StableHlo.binary main_v110 main_v112 main_v113 (addf : C F S100000x64 .f32 → C F S100000x64 .f32 → C F S100000x64 .f32),
    StableHlo.nullary main_cst_22 (constant S_ .f32 0x00000000#32),
    StableHlo.binary main_v113 main_cst_22 main_v114 ((fun x v => Host.reduceAdd x v reducesTo_S100000x64_S64_d0 h_S_) : C F S100000x64 .f32 → C F S_ .f32 → C F S64 .f32),
    StableHlo.nullary main_cst_23 (constant S_ .f32 0x47C35000#32),
    StableHlo.unary main_cst_23 main_v115 (broadcastInDim S64 ![] bcast_S_S64 : C F S_ .f32 → C F S64 .f32),
    StableHlo.binary main_v114 main_v115 main_v116 (Host.divf : C F S64 .f32 → C F S64 .f32 → C F S64 .f32),
    StableHlo.nullary main_c_24 (constantI S_ 32 0#32),
    StableHlo.TRef.nullary main_call6.cst (constant S_ .f32 0x00000000#32),
    StableHlo.TRef.binary (TRef.of main_v113 : TRef sig ⟨S100000x64, .f32⟩) main_call6.cst main_call6.v0 (fun x v => Host.reduceAdd x v reducesTo_S100000x64_S64_d0 h_S_),
    StableHlo.TRef.unary main_call6.v0 main_call6.v1 (broadcastInDim S1x64 ![1] bcast_S64_S1x64_1),
    StableHlo.TRef.nullary main_call6.cst_0 (constant S_ .f32 0x47C35000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S100000x64 ![0, 1] bcast_S1x64_S100000x64_0_1),
    StableHlo.TRef.binary (TRef.of main_v113 : TRef sig ⟨S100000x64, .f32⟩) main_call6.v4 main_call6.v5 subf,
    StableHlo.TRef.binary main_call6.v5 main_call6.v5 main_call6.v6 mulf,
    StableHlo.TRef.unary (TRef.of main_c_24 : TRef sig ⟨S_, .i32⟩) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b) ]

theorem p8_sub : (p8 : List (HloOp τ sig (Elt F))).Forall fun op => op.bufs ⊆ tcRefs τ sig :=
  ⟨binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem p8_fresh : (p8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev p8_W : List (Ref sig .tc) := [main_v109, main_v110, main_v111, main_v112, main_v113, main_cst_22, main_v114, main_cst_23, main_v115, main_v116, main_c_24, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v117]

theorem p8_keep (W : Valuation τ sig (Elt F)) (r : Ref sig .tc) (h : r ∉ p8_W) :
    after p8 W (Proc.devRef .tc r) = W (Proc.devRef .tc r) :=
  after_keep rfl W h

end Cert.ReferenceIdeal.RunH

end
-- ==== Proof.Ref.Val8.lean ====
import proofs.«402365_j6828998001463_1_alg».proof.Proof.Ref.Stages
import proofs.«402365_j6828998001463_1_alg».proof.Proof.Ref.Ops8

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F] (W : Valuation τ sig (Elt F))

attribute [local irreducible] Host.gather Host.scatterAdd Host.reduceAdd concatenate

theorem c8_v113 :
    after p8 W (Proc.devRef .tc main_v113) = st_v113 (W (Proc.devRef .tc main_v18)) (W (Proc.devRef .tc main_v108)) (W (Proc.devRef .tc main_arg20)) (W (Proc.devRef .tc main_arg21)) := by
  simp only [p8]
  after_results_simp <;> rfl

set_option maxHeartbeats 1000000 in
theorem c8_v116 :
    after p8 W (Proc.devRef .tc main_v116)
      = st_v116 (st_v113 (W (Proc.devRef .tc main_v18)) (W (Proc.devRef .tc main_v108)) (W (Proc.devRef .tc main_arg20)) (W (Proc.devRef .tc main_arg21))) := by
  simp only [p8]
  after_results_simp <;> rfl

set_option maxHeartbeats 1000000 in
theorem c8_v117 :
    after p8 W (Proc.devRef .tc main_v117)
      = st_v117 (st_v113 (W (Proc.devRef .tc main_v18)) (W (Proc.devRef .tc main_v108)) (W (Proc.devRef .tc main_arg20)) (W (Proc.devRef .tc main_arg21))) := by
  simp only [p8]
  after_results_simp <;> rfl

end Cert.ReferenceIdeal.RunH

end
-- ==== Proof.Ref.Ops9.lean ====
import proofs.«402365_j6828998001463_1_alg».proof.Proof.Ref.Base

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

def p9 : List (HloOp τ sig (Elt F)) :=
  [ StableHlo.unary main_v116 main_v118 (broadcastInDim S1x64 ![1] bcast_S64_S1x64_1 : C F S64 .f32 → C F S1x64 .f32),
    StableHlo.unary main_v118 main_v119 (broadcastInDim S100000x64 ![0, 1] bcast_S1x64_S100000x64_0_1 : C F S1x64 .f32 → C F S100000x64 .f32),
    StableHlo.binary main_v113 main_v119 main_v120 (subf : C F S100000x64 .f32 → C F S100000x64 .f32 → C F S100000x64 .f32),
    StableHlo.unary main_arg22 main_v121 (broadcastInDim S1x64 ![1] bcast_S64_S1x64_1 : C F S64 .f32 → C F S1x64 .f32),
    StableHlo.unary main_v121 main_v122 (broadcastInDim S100000x64 ![0, 1] bcast_S1x64_S100000x64_0_1 : C F S1x64 .f32 → C F S100000x64 .f32),
    StableHlo.binary main_v122 main_v120 main_v123 (mulf : C F S100000x64 .f32 → C F S100000x64 .f32 → C F S100000x64 .f32),
    StableHlo.nullary main_cst_25 (constant S_ .f32 0x3727C5AC#32),
    StableHlo.unary main_cst_25 main_v124 (broadcastInDim S64 ![] bcast_S_S64 : C F S_ .f32 → C F S64 .f32),
    StableHlo.binary main_v117 main_v124 main_v125 (addf : C F S64 .f32 → C F S64 .f32 → C F S64 .f32),
    StableHlo.unary main_v125 main_v126 (Host.rsqrt : C F S64 .f32 → C F S64 .f32),
    StableHlo.unary main_v126 main_v127 (broadcastInDim S1x64 ![1] bcast_S64_S1x64_1 : C F S64 .f32 → C F S1x64 .f32),
    StableHlo.unary main_v127 main_v128 (broadcastInDim S100000x64 ![0, 1] bcast_S1x64_S100000x64_0_1 : C F S1x64 .f32 → C F S100000x64 .f32),
    StableHlo.binary main_v123 main_v128 main_v129 (mulf : C F S100000x64 .f32 → C F S100000x64 .f32 → C F S100000x64 .f32),
    StableHlo.unary main_arg23 main_v130 (broadcastInDim S1x64 ![1] bcast_S64_S1x64_1 : C F S64 .f32 → C F S1x64 .f32),
    StableHlo.unary main_v130 main_v131 (broadcastInDim S100000x64 ![0, 1] bcast_S1x64_S100000x64_0_1 : C F S1x64 .f32 → C F S100000x64 .f32),
    StableHlo.binary main_v129 main_v131 main_v132 (addf : C F S100000x64 .f32 → C F S100000x64 .f32 → C F S100000x64 .f32),
    StableHlo.nullary main_cst_26 (constant S_ .f32 0x3C23D70A#32),
    StableHlo.TRef.nullary main_call7.cst (constant S_ .f32 0x00000000#32),
    StableHlo.TRef.unary main_call7.cst main_call7.v0 (broadcastInDim S100000x64 ![] bcast_S_S100000x64),
    StableHlo.TRef.binary (TRef.of main_v132 : TRef sig ⟨S100000x64, .f32⟩) main_call7.v0 main_call7.v1 (cmpf .oge),
    StableHlo.TRef.unary (TRef.of main_cst_26 : TRef sig ⟨S_, .f32⟩) main_call7.v2 id,
    StableHlo.TRef.unary main_call7.v2 main_call7.v3 (broadcastInDim S100000x64 ![] bcast_S_S100000x64),
    StableHlo.TRef.binary main_call7.v3 (TRef.of main_v132 : TRef sig ⟨S100000x64, .f32⟩) main_call7.v4 mulf,
    StableHlo.TRef.ternary main_call7.v1 (TRef.of main_v132 : TRef sig ⟨S100000x64, .f32⟩) main_call7.v4 main_call7.call0.v0 select,
    StableHlo.binary main_v133 main_arg24 main_v134 ((fun l r => Host.dotGeneral dot_S100000x64_S64x1_S100000x1_1_0_0_1_n_n none l r) : C F S100000x64 .f32 → C F S64x1 .f32 → C F S100000x1 .f32),
    StableHlo.unary main_arg25 main_v135 (broadcastInDim S1x1 ![1] bcast_S1_S1x1_1 : C F S1 .f32 → C F S1x1 .f32),
    StableHlo.unary main_v135 main_v136 (broadcastInDim S100000x1 ![0, 1] bcast_S1x1_S100000x1_0_1 : C F S1x1 .f32 → C F S100000x1 .f32),
    StableHlo.binary main_v134 main_v136 main_v137 (addf : C F S100000x1 .f32 → C F S100000x1 .f32 → C F S100000x1 .f32),
    StableHlo.unary main_v137 main_v138 (Host.negf : C F S100000x1 .f32 → C F S100000x1 .f32),
    StableHlo.unary main_v138 main_v139 (Host.exp : C F S100000x1 .f32 → C F S100000x1 .f32),
    StableHlo.nullary main_cst_27 (constant S_ .f32 0x3F800000#32),
    StableHlo.unary main_cst_27 main_v140 (broadcastInDim S100000x1 ![] bcast_S_S100000x1 : C F S_ .f32 → C F S100000x1 .f32),
    StableHlo.binary main_v140 main_v139 main_v141 (addf : C F S100000x1 .f32 → C F S100000x1 .f32 → C F S100000x1 .f32),
    StableHlo.nullary main_cst_28 (constant S_ .f32 0x3F800000#32),
    StableHlo.unary main_cst_28 main_v142 (broadcastInDim S100000x1 ![] bcast_S_S100000x1 : C F S_ .f32 → C F S100000x1 .f32),
    StableHlo.binary main_v142 main_v141 main_v143 (Host.divf : C F S100000x1 .f32 → C F S100000x1 .f32 → C F S100000x1 .f32),
    StableHlo.reshape main_v143 main_v144 rfl shapeCasts_S100000x1_S100000 ]

theorem p9_sub : (p9 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub ..⟩

theorem p9_fresh : (p9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev p9_W : List (Ref sig .tc) := [main_v118, main_v119, main_v120, main_v121, main_v122, main_v123, main_cst_25, main_v124, main_v125, main_v126, main_v127, main_v128, main_v129, main_v130, main_v131, main_v132, main_cst_26, main_call7_cst, main_call7_v0, main_call7_v1, main_call7_v2, main_call7_v3, main_call7_v4, main_v133, main_v134, main_v135, main_v136, main_v137, main_v138, main_v139, main_cst_27, main_v140, main_v141, main_cst_28, main_v142, main_v143, main_v144]

theorem p9_keep (W : Valuation τ sig (Elt F)) (r : Ref sig .tc) (h : r ∉ p9_W) :
    after p9 W (Proc.devRef .tc r) = W (Proc.devRef .tc r) :=
  after_keep rfl W h

end Cert.ReferenceIdeal.RunH

end
-- ==== Proof.Ref.Val9.lean ====
import proofs.«402365_j6828998001463_1_alg».proof.Proof.Ref.Stages
import proofs.«402365_j6828998001463_1_alg».proof.Proof.Ref.Ops9

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd Host.reduceAdd concatenate

set_option maxHeartbeats 1000000 in
theorem c9_v144 (W : Valuation τ sig (Elt F)) :
    after p9 W (Proc.devRef .tc main_v144)
      = st_v144 (st_v143 (st_v133 (W (Proc.devRef .tc main_v113)) (W (Proc.devRef .tc main_v116)) (W (Proc.devRef .tc main_v117)) (W (Proc.devRef .tc main_arg22)) (W (Proc.devRef .tc main_arg23)))
          (W (Proc.devRef .tc main_arg24)) (W (Proc.devRef .tc main_arg25))) := by
  simp only [p9]
  after_results_simp <;> rfl

end Cert.ReferenceIdeal.RunH

end
-- ==== Proof.Ref.Run.lean ====
import proofs.«402365_j6828998001463_1_alg».proof.Proof.Ref.Stages
import proofs.«402365_j6828998001463_1_alg».proof.Proof.Ref.Val1
import proofs.«402365_j6828998001463_1_alg».proof.Proof.Ref.Val2
import proofs.«402365_j6828998001463_1_alg».proof.Proof.Ref.Val3
import proofs.«402365_j6828998001463_1_alg».proof.Proof.Ref.Val4
import proofs.«402365_j6828998001463_1_alg».proof.Proof.Ref.Val5
import proofs.«402365_j6828998001463_1_alg».proof.Proof.Ref.Val6
import proofs.«402365_j6828998001463_1_alg».proof.Proof.Ref.Val7
import proofs.«402365_j6828998001463_1_alg».proof.Proof.Ref.Val8
import proofs.«402365_j6828998001463_1_alg».proof.Proof.Ref.Val9
import Idealize.ShloMosaic.Lib.StableHlo.Run
import Idealize.ShloMosaic.Lib.Pipeline.Frame

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

def ops0 : List (HloOp τ sig (Elt F)) := p1 ++ (p2 ++ p3)
def ops1 : List (HloOp τ sig (Elt F)) := p4 ++ (p5 ++ (p6 ++ p7a))
def ops2 : List (HloOp τ sig (Elt F)) := p7b ++ (p8 ++ p9)
def ops : List (HloOp τ sig (Elt F)) := ops0 ++ (ops1 ++ ops2)

theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

set_option maxRecDepth 16384 in
set_option maxHeartbeats 4000000 in
theorem part0_eq (c : Dev nD) : main_part0 (F := F) c = seq ops0 := rfl

set_option maxRecDepth 16384 in
set_option maxHeartbeats 4000000 in
theorem part1_eq (c : Dev nD) : main_part1 (F := F) c = seq ops1 := rfl

set_option maxRecDepth 16384 in
set_option maxHeartbeats 4000000 in
theorem part2_eq (c : Dev nD) : main_part2 (F := F) c = seq ops2 := rfl

theorem main_eq (c : Dev nD) : main (F := F) c = seq ops := by
  simp only [ops, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append (forall_append p1_sub (forall_append p2_sub p3_sub))
    (forall_append (forall_append p4_sub (forall_append p5_sub (forall_append p6_sub p7a_sub)))
      (forall_append p7b_sub (forall_append p8_sub p9_sub)))

theorem ops_fresh : (ops : List (HloOp τ sig (Elt F))).Forall fun op => op.fresh = ∅ :=
  forall_append (forall_append p1_fresh (forall_append p2_fresh p3_fresh))
    (forall_append (forall_append p4_fresh (forall_append p5_fresh (forall_append p6_fresh p7a_fresh)))
      (forall_append p7b_fresh (forall_append p8_fresh p9_fresh)))

section Down

variable (W : Valuation τ sig (Elt F))

theorem c1_v1' : after p1 W (no_index (Proc.devRef .tc main_v1)) = st_v1 (W (Proc.devRef .tc main_arg2)) := c1_v1 W
theorem c1_v3' : after p1 W (no_index (Proc.devRef .tc main_v3)) = st_v3 (W (Proc.devRef .tc main_arg2)) := c1_v3 W
theorem c1_v10' : after p1 W (no_index (Proc.devRef .tc main_v10)) = st_v10 (W (Proc.devRef .tc main_arg0)) (W (Proc.devRef .tc main_arg4)) := c1_v10 W
theorem c1_v17' : after p1 W (no_index (Proc.devRef .tc main_v17)) = st_v17 (W (Proc.devRef .tc main_arg1)) (W (Proc.devRef .tc main_arg5)) := c1_v17 W
theorem c2_v18' : after p2 W (no_index (Proc.devRef .tc main_v18)) = st_v18 (W (Proc.devRef .tc main_v10)) (W (Proc.devRef .tc main_v17)) := c2_v18 W
theorem c2_v43' : after p2 W (no_index (Proc.devRef .tc main_v43))
    = st_v43 (st_v34 (W (Proc.devRef .tc main_v1)) (W (Proc.devRef .tc main_v3)) (W (Proc.devRef .tc main_arg3)) (W (Proc.devRef .tc main_arg6)))
        (W (Proc.devRef .tc main_arg7)) (W (Proc.devRef .tc main_arg8)) (W (Proc.devRef .tc main_arg9)) (W (Proc.devRef .tc main_arg10)) := c2_v43 W
theorem c3_v46' : after p3 W (no_index (Proc.devRef .tc main_v46)) = st_v46 (W (Proc.devRef .tc main_v43)) := c3_v46 W
theorem c3_v47' : after p3 W (no_index (Proc.devRef .tc main_v47)) = st_v47 (W (Proc.devRef .tc main_v43)) := c3_v47 W
theorem c4_v63' : after p4 W (no_index (Proc.devRef .tc main_v63))
    = st_v63 (W (Proc.devRef .tc main_v43)) (W (Proc.devRef .tc main_v46)) (W (Proc.devRef .tc main_v47)) (W (Proc.devRef .tc main_arg11)) (W (Proc.devRef .tc main_arg12)) := c4_v63 W
theorem c5_v88' : after p5 W (no_index (Proc.devRef .tc main_v88))
    = st_v88 (st_v79 (W (Proc.devRef .tc main_v1)) (W (Proc.devRef .tc main_v3)) (W (Proc.devRef .tc main_v63)) (W (Proc.devRef .tc main_arg13)))
        (W (Proc.devRef .tc main_arg14)) (W (Proc.devRef .tc main_arg15)) (W (Proc.devRef .tc main_arg16)) (W (Proc.devRef .tc main_arg17)) := c5_v88 W
theorem c6_v91' : after p6 W (no_index (Proc.devRef .tc main_v91)) = st_v91 (W (Proc.devRef .tc main_v88)) := c6_v91 W
theorem c6_v92' : after p6 W (no_index (Proc.devRef .tc main_v92)) = st_v92 (W (Proc.devRef .tc main_v88)) := c6_v92 W
theorem c7_v108' : after p7b (after p7a W) (no_index (Proc.devRef .tc main_v108))
    = st_v108 (W (Proc.devRef .tc main_v88)) (W (Proc.devRef .tc main_v91)) (W (Proc.devRef .tc main_v92)) (W (Proc.devRef .tc main_arg18)) (W (Proc.devRef .tc main_arg19)) := by
  rw [← StableHlo.after_append]; exact c7_v108 W
theorem c8_v113' : after p8 W (no_index (Proc.devRef .tc main_v113))
    = st_v113 (W (Proc.devRef .tc main_v18)) (W (Proc.devRef .tc main_v108)) (W (Proc.devRef .tc main_arg20)) (W (Proc.devRef .tc main_arg21)) := c8_v113 W
theorem c8_v116' : after p8 W (no_index (Proc.devRef .tc main_v116))
    = st_v116 (st_v113 (W (Proc.devRef .tc main_v18)) (W (Proc.devRef .tc main_v108)) (W (Proc.devRef .tc main_arg20)) (W (Proc.devRef .tc main_arg21))) := c8_v116 W
theorem c8_v117' : after p8 W (no_index (Proc.devRef .tc main_v117))
    = st_v117 (st_v113 (W (Proc.devRef .tc main_v18)) (W (Proc.devRef .tc main_v108)) (W (Proc.devRef .tc main_arg20)) (W (Proc.devRef .tc main_arg21))) := c8_v117 W
theorem c9_v144' : after p9 W (no_index (Proc.devRef .tc main_v144))
    = st_v144 (st_v143 (st_v133 (W (Proc.devRef .tc main_v113)) (W (Proc.devRef .tc main_v116)) (W (Proc.devRef .tc main_v117)) (W (Proc.devRef .tc main_arg22)) (W (Proc.devRef .tc main_arg23)))
        (W (Proc.devRef .tc main_arg24)) (W (Proc.devRef .tc main_arg25))) := c9_v144 W

variable (r : Ref sig .tc)

theorem p1_keep' (h : r ∉ p1_W) : after p1 W (no_index (Proc.devRef .tc r)) = W (Proc.devRef .tc r) := p1_keep W r h
theorem p2_keep' (h : r ∉ p2_W) : after p2 W (no_index (Proc.devRef .tc r)) = W (Proc.devRef .tc r) := p2_keep W r h
theorem p3_keep' (h : r ∉ p3_W) : after p3 W (no_index (Proc.devRef .tc r)) = W (Proc.devRef .tc r) := p3_keep W r h
theorem p4_keep' (h : r ∉ p4_W) : after p4 W (no_index (Proc.devRef .tc r)) = W (Proc.devRef .tc r) := p4_keep W r h
theorem p5_keep' (h : r ∉ p5_W) : after p5 W (no_index (Proc.devRef .tc r)) = W (Proc.devRef .tc r) := p5_keep W r h
theorem p6_keep' (h : r ∉ p6_W) : after p6 W (no_index (Proc.devRef .tc r)) = W (Proc.devRef .tc r) := p6_keep W r h
theorem p7a_keep' (h : r ∉ p7a_W) : after p7a W (no_index (Proc.devRef .tc r)) = W (Proc.devRef .tc r) := p7a_keep W r h
theorem p7b_keep' (h : r ∉ p7b_W) : after p7b W (no_index (Proc.devRef .tc r)) = W (Proc.devRef .tc r) := p7b_keep W r h
theorem p8_keep' (h : r ∉ p8_W) : after p8 W (no_index (Proc.devRef .tc r)) = W (Proc.devRef .tc r) := p8_keep W r h
theorem p9_keep' (h : r ∉ p9_W) : after p9 W (no_index (Proc.devRef .tc r)) = W (Proc.devRef .tc r) := p9_keep W r h

end Down

theorem after_ops (V : Valuation τ sig (Elt F)) :
    after ops V = after p9 (after p8 (after p7b (after p7a (after p6 (after p5 (after p4 (after p3 (after p2 (after p1 V))))))))) := by
  simp only [ops, ops0, ops1, ops2, StableHlo.after_append]

theorem arg_keep (V : Valuation τ sig (Elt F)) (r : Ref sig .tc)
    (h : r ∉ p1_W ++ (p2_W ++ (p3_W ++ (p4_W ++ (p5_W ++ (p6_W ++ (p7a_W ++ (p7b_W ++ (p8_W ++ p9_W))))))))) :
    after ops V (Proc.devRef .tc r) = V (Proc.devRef .tc r) := by
  simp only [List.mem_append, not_or] at h
  obtain ⟨h1, h2, h3, h4, h5, h6, h7, h8, h9, h10⟩ := h
  rw [after_ops, p9_keep _ r h10, p8_keep _ r h9, p7b_keep _ r h8, p7a_keep _ r h7, p6_keep _ r h6, p5_keep _ r h5,
    p4_keep _ r h4, p3_keep _ r h3, p2_keep _ r h2, p1_keep _ r h1]

set_option maxRecDepth 8192 in
set_option maxHeartbeats 2000000 in
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v144)
        = res (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
            (m ((c.tc : Thread nD τ).loc main_arg18))
            (m ((c.tc : Thread nD τ).loc main_arg19))
            (m ((c.tc : Thread nD τ).loc main_arg20))
            (m ((c.tc : Thread nD τ).loc main_arg21))
            (m ((c.tc : Thread nD τ).loc main_arg22))
            (m ((c.tc : Thread nD τ).loc main_arg23))
            (m ((c.tc : Thread nD τ).loc main_arg24))
            (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => by
      have k := fun a ha => (h c a).trans (arg_keep (launchContents m c) a ha)
      refine ⟨(h c main_v144).trans ?_, k main_arg0 (by decide), k main_arg1 (by decide), k main_arg2 (by decide), k main_arg3 (by decide), k main_arg4 (by decide), k main_arg5 (by decide),
        k main_arg6 (by decide), k main_arg7 (by decide), k main_arg8 (by decide), k main_arg9 (by decide), k main_arg10 (by decide), k main_arg11 (by decide),
        k main_arg12 (by decide), k main_arg13 (by decide), k main_arg14 (by decide), k main_arg15 (by decide), k main_arg16 (by decide), k main_arg17 (by decide),
        k main_arg18 (by decide), k main_arg19 (by decide), k main_arg20 (by decide), k main_arg21 (by decide), k main_arg22 (by decide), k main_arg23 (by decide),
        k main_arg24 (by decide), k main_arg25 (by decide)⟩
      rw [after_ops]
      simp (disch := decide) only [c1_v1', c1_v3', c1_v10', c1_v17', c2_v18', c2_v43', c3_v46', c3_v47', c4_v63', c5_v88',
        c6_v91', c6_v92', c7_v108', c8_v113', c8_v116', c8_v117', c9_v144',
        p1_keep', p2_keep', p3_keep', p4_keep', p5_keep', p6_keep', p7a_keep', p7b_keep', p8_keep', p9_keep']
      rfl)
    (run_seq scopedRefs_eq scopedSems_eq defs main (fun _ => ops) main_eq (fun _ => ops_sub) m ρ
      (fun _ => List.forall_iff_forall_mem.mp ops_fresh))

end Cert.ReferenceIdeal.RunH

end
-- ==== Proof.Spec.lean ====
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev Mat (a b : ℕ) : Type := Fin a → Fin b → EReal
abbrev Row (b : ℕ) : Type := Fin b → EReal

def mat {a b : ℕ} (v : (⟨2, ![a, b]⟩ : Shape).Idx → EReal) : Mat a b := fun p q => v (ix2 p q)
def row {b : ℕ} (v : (⟨1, ![b]⟩ : Shape).Idx → EReal) : Row b := fun q => v (ix1 q)

def zero : EReal := Ideal.ofBits .f32 0x00000000#32
def one : EReal := Ideal.ofBits .f32 0x3F800000#32
def slope : EReal := Ideal.ofBits .f32 0x3C23D70A#32
def bnEps : EReal := Ideal.ofBits .f32 0x3727C5AC#32
def cnt : EReal := Ideal.ofBits .f32 0x47C35000#32

def lrelu (x : EReal) : EReal := if Ideal.cmp .oge x zero = 1#1 then x else slope * x

def hot (k : ℕ) (v : BitVec 32) : EReal := if BitVec.ofNat 32 k = v then 1 else 0

def embHot {n : ℕ} (deg lab : Fin n → BitVec 32) (Ed : Mat 64 64) (El : Mat 16 64) : Mat n 128 := fun r j =>
  if h : j.val < 64 then ∑ k : Fin 64, hot k.val (deg r) * Ed k ⟨j.val, h⟩
  else ∑ k : Fin 16, hot k.val (lab r) * El k ⟨j.val - 64, by have := j.isLt; omega⟩

def wrap (n : ℕ) (v : BitVec 32) : BitVec 32 := if IntOp.cmpi .slt v 0#32 = 1#1 then v + BitVec.ofNat 32 n else v

def clampRow (n : ℕ) (hn : 0 < n) (v : BitVec 32) : Fin n := ⟨min v.toInt.toNat (n - 1), by omega⟩

def embTake {n : ℕ} (deg lab : Fin n → BitVec 32) (Ed : Mat 64 64) (El : Mat 16 64) : Mat n 128 := fun r j =>
  if h : j.val < 64 then Ed (clampRow 64 (by decide) (wrap 64 (deg r))) ⟨j.val, h⟩
  else El (clampRow 16 (by decide) (wrap 16 (lab r))) ⟨j.val - 64, by have := j.isLt; omega⟩

def agg {n d E : ℕ} (hn : 0 < n) (src dst : Fin E → BitVec 32) (x : Mat n d) : Mat n d := fun a b =>
  zero + ∑ e : Fin E, if (dst e).toInt = (a.val : Int) then x (clampRow n hn (wrap n (src e))) b else 0

def ginIn {n d : ℕ} (eps : EReal) (x ag : Mat n d) : Mat n d := fun r l => (one + eps) * x r l + ag r l

def lin {n K D : ℕ} (x : Mat n K) (Wa : Mat K K) (ba : Row K) (Wb : Mat K D) (bb : Row D) : Mat n D := fun r j =>
  (∑ k : Fin K, lrelu ((∑ l : Fin K, x r l * Wa l k) + ba k) * Wb k j) + bb j

def colSum {n D : ℕ} (h : Mat n D) : Row D := fun j => ∑ r : Fin n, h r j
def colSumSq {n D : ℕ} (h : Mat n D) : Row D := fun j => ∑ r : Fin n, h r j * h r j

def meanOf {D : ℕ} (s : Row D) : Row D := fun j => Ideal.div (s j) cnt
def varOf {D : ℕ} (s ss : Row D) : Row D := fun j => Ideal.div (ss j) cnt - meanOf s j * meanOf s j
def varDev {n D : ℕ} (h : Mat n D) : Row D := fun j =>
  Ideal.div (∑ r : Fin n, (h r j - meanOf (colSum h) j) * (h r j - meanOf (colSum h) j)) cnt

def bnAct {n D : ℕ} (h : Mat n D) (mean var g be : Row D) : Mat n D := fun r j =>
  lrelu (g j * (h r j - mean j) * Ideal.rsqrt (var j + bnEps) + be j)

def finWhole {n : ℕ} (tmp : Mat n 128) (x2 : Mat n 64) (Wf1 : Mat 192 64) (bf1 : Row 64) : Mat n 64 := fun r j =>
  (∑ k : Fin 192, (if h : k.val < 128 then tmp r ⟨k.val, h⟩ else x2 r ⟨k.val - 128, by have := k.isLt; omega⟩) * Wf1 k j) + bf1 j

def finTwo {n : ℕ} (tmp : Mat n 128) (x2 : Mat n 64) (Wa : Mat 128 64) (Wb : Mat 64 64) (bf1 : Row 64) : Mat n 64 := fun r j =>
  ((∑ k : Fin 128, tmp r k * Wa k j) + (∑ k : Fin 64, x2 r k * Wb k j)) + bf1 j

def wTop (Wf1 : Mat 192 64) : Mat 128 64 := fun k j => Wf1 ⟨k.val, by have := k.isLt; omega⟩ j
def wBot (Wf1 : Mat 192 64) : Mat 64 64 := fun k j => Wf1 ⟨128 + k.val, by have := k.isLt; omega⟩ j

def finSplit {n : ℕ} (tmp : Mat n 128) (x2 : Mat n 64) (Wf1 : Mat 192 64) (bf1 : Row 64) : Mat n 64 :=
  finTwo tmp x2 (wTop Wf1) (wBot Wf1) bf1

def outOf {n : ℕ} (y : Mat n 64) (Wf2 : Mat 64 1) (bf2 : EReal) : Fin n → EReal := fun r =>
  Ideal.logistic ((∑ k : Fin 64, y r k * Wf2 k 0) + bf2)

structure Args where
  deg : Fin 100000 → BitVec 32
  lab : Fin 100000 → BitVec 32
  src : Fin 1600000 → BitVec 32
  dst : Fin 1600000 → BitVec 32
  pos : Mat 100000 3
  Ed : Mat 64 64
  El : Mat 16 64
  eps1 : EReal
  W1a : Mat 3 3
  b1a : Row 3
  W1b : Mat 3 64
  b1b : Row 64
  g1 : Row 64
  be1 : Row 64
  eps2 : EReal
  W2a : Mat 64 64
  b2a : Row 64
  W2b : Mat 64 64
  b2b : Row 64
  g2 : Row 64
  be2 : Row 64
  Wf1 : Mat 192 64
  bf1 : Row 64
  gf : Row 64
  bef : Row 64
  Wf2 : Mat 64 1
  bf2 : EReal

def convK {d : ℕ} (A : Args) (x : Mat 100000 d) (eps : EReal) (Wa : Mat d d) (ba : Row d) (Wb : Mat d 64) (bb g be : Row 64) : Mat 100000 64 :=
  let h := lin (ginIn eps x (agg (by decide) A.src A.dst x)) Wa ba Wb bb
  bnAct h (meanOf (colSum h)) (varOf (colSum h) (colSumSq h)) g be

def convR {d : ℕ} (A : Args) (x : Mat 100000 d) (eps : EReal) (Wa : Mat d d) (ba : Row d) (Wb : Mat d 64) (bb g be : Row 64) : Mat 100000 64 :=
  let h := lin (ginIn eps x (agg (by decide) A.src A.dst x)) Wa ba Wb bb
  bnAct h (meanOf (colSum h)) (varDev h) g be

def netK (A : Args) : Fin 100000 → EReal :=
  let tmp := embHot A.deg A.lab A.Ed A.El
  let x1 := convK A A.pos A.eps1 A.W1a A.b1a A.W1b A.b1b A.g1 A.be1
  let x2 := convK A x1 A.eps2 A.W2a A.b2a A.W2b A.b2b A.g2 A.be2
  let hf := finSplit tmp x2 A.Wf1 A.bf1
  outOf (bnAct hf (meanOf (colSum hf)) (varOf (colSum hf) (colSumSq hf)) A.gf A.bef) A.Wf2 A.bf2

def netR (A : Args) : Fin 100000 → EReal :=
  let tmp := embTake A.deg A.lab A.Ed A.El
  let x1 := convR A A.pos A.eps1 A.W1a A.b1a A.W1b A.b1b A.g1 A.be1
  let x2 := convR A x1 A.eps2 A.W2a A.b2a A.W2b A.b2b A.g2 A.be2
  let hf := finWhole tmp x2 A.Wf1 A.bf1
  outOf (bnAct hf (meanOf (colSum hf)) (varDev hf) A.gf A.bef) A.Wf2 A.bf2

structure Args.Ok (A : Args) : Prop where
  pos : ∀ r l, ∃ v : ℝ, A.pos r l = (v : EReal)
  Ed : ∀ r l, ∃ v : ℝ, A.Ed r l = (v : EReal)
  El : ∀ r l, ∃ v : ℝ, A.El r l = (v : EReal)
  eps1 : ∃ v : ℝ, A.eps1 = (v : EReal)
  W1a : ∀ r l, ∃ v : ℝ, A.W1a r l = (v : EReal)
  b1a : ∀ l, ∃ v : ℝ, A.b1a l = (v : EReal)
  W1b : ∀ r l, ∃ v : ℝ, A.W1b r l = (v : EReal)
  b1b : ∀ l, ∃ v : ℝ, A.b1b l = (v : EReal)
  g1 : ∀ l, ∃ v : ℝ, A.g1 l = (v : EReal)
  be1 : ∀ l, ∃ v : ℝ, A.be1 l = (v : EReal)
  eps2 : ∃ v : ℝ, A.eps2 = (v : EReal)
  W2a : ∀ r l, ∃ v : ℝ, A.W2a r l = (v : EReal)
  b2a : ∀ l, ∃ v : ℝ, A.b2a l = (v : EReal)
  W2b : ∀ r l, ∃ v : ℝ, A.W2b r l = (v : EReal)
  b2b : ∀ l, ∃ v : ℝ, A.b2b l = (v : EReal)
  g2 : ∀ l, ∃ v : ℝ, A.g2 l = (v : EReal)
  be2 : ∀ l, ∃ v : ℝ, A.be2 l = (v : EReal)
  Wf1 : ∀ r l, ∃ v : ℝ, A.Wf1 r l = (v : EReal)
  bf1 : ∀ l, ∃ v : ℝ, A.bf1 l = (v : EReal)
  gf : ∀ l, ∃ v : ℝ, A.gf l = (v : EReal)
  bef : ∀ l, ∃ v : ℝ, A.bef l = (v : EReal)
  Wf2 : ∀ r l, ∃ v : ℝ, A.Wf2 r l = (v : EReal)
  bf2 : ∃ v : ℝ, A.bf2 = (v : EReal)
  deg : ∀ r, 0 ≤ (A.deg r).toInt ∧ (A.deg r).toInt < 64
  lab : ∀ r, 0 ≤ (A.lab r).toInt ∧ (A.lab r).toInt < 16

end Cert.Spec

end
-- ==== Proof.LibRowDims.lean ====
import Idealize.ShloMosaic.PureOps.Ideal
import Idealize.ShloMosaic.PureOps.Ideal.Laws
import Idealize.ShloMosaic.Lib.ValueIdx
import Idealize.ShloMosaic.Lib.StackMember

noncomputable section

open scoped BigOperators

namespace Idealize.ShloMosaic.RowDims

open Idealize.ShloMosaic Idealize.ShloMosaic.ValueIdx

theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply _ prec lhs rhs _).trans
    ((Ideal.dotGeneral_apply _ prec _ lhs rhs _).symm.trans (StackMember.dotGeneral_plain_apply prec lhs rhs p q))

abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

def clampRow (N : Nat) (hN : 0 < N) {w : Nat} (v : BitVec w) : Fin N := ⟨min v.toInt.toNat (N - 1), by omega⟩

section
variable {α : Type} {N C R w : Nat} (hN : 0 < N)
  (wf : GatherDims.WF ⟨2, ![N, C]⟩ ⟨2, ![R, 1]⟩ ⟨2, ![R, C]⟩ [1] [0] [] [0] [] 1 ![1, C])
  (x : (⟨2, ![N, C]⟩ : Shape).Idx → α) (idx : IVec ⟨2, ![R, 1]⟩ w) (r : Fin R) (c : Fin C)

theorem rowGather_siIdx :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

-- on the row axis neither a batching nor an offset coordinate contributes, so the index is the clamped start
theorem rowGather_operandIdx_row :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

-- on the column axis the start contributes nothing, so the index is the result's column
theorem rowGather_operandIdx_col :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

theorem rowGather_apply :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

end

abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N C R w : Nat} (wf : ScatterDims.WF ⟨2, ![N, C]⟩ ⟨2, ![R, 1]⟩ ⟨2, ![R, C]⟩ [1] [0] [0] 1)

section
variable (idx : IVec ⟨2, ![R, 1]⟩ w) (r : Fin R) (c : Fin C)

theorem rowScatter_siIdx :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

theorem rowScatter_start_row : (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

theorem rowScatter_start_col : (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

theorem rowScatter_resultIdx?_eq_some_iff (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 : (rowScatter N C R wf).window (ix2 r c) 0 = 0 := rfl
  have hw1 : (rowScatter N C R wf).window (ix2 r c) 1 = c.val := rfl
  unfold ScatterDims.resultIdx?
  constructor
  · intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

end

theorem rowScatterAdd_apply (x : (⟨2, ![N, C]⟩ : Shape).Idx → EReal) (idx : IVec ⟨2, ![R, 1]⟩ w)
    (upd : (⟨2, ![R, C]⟩ : Shape).Idx → EReal) (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  rw [Finset.sum_filter, sum_idx2]
  refine Finset.sum_congr rfl fun r _ => ?_
  simp only [rowScatter_resultIdx?_eq_some_iff]
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Ref.ValueBase.lean ====
import proofs.«402365_j6828998001463_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.ReferenceIdeal.ValH

open Idealize.ShloMosaic Idealize.ShloMosaic.ValueIdx

variable {α : Type}

theorem val_eq_ite {n : ℕ} (c : Fin n) : c.val = if n = 1 then 0 else c.val := by
  split
  · have := c.isLt; omega
  · rfl

theorem bcast0 {T : Shape} (h) (x : (⟨0, ![]⟩ : Shape).Idx → α) (j : T.Idx) :
    broadcastInDim T ![] h x j = x ix0 :=
  broadcastInDim_scalar_apply h x j

theorem bcastVecRow {n : ℕ} (h)
    (v : (⟨1, ![n]⟩ : Shape).Idx → α) (u : Fin 1) (c : Fin n) :
    broadcastInDim ⟨2, ![1, n]⟩ ![1] h v (ix2 u c) = v (ix1 c) := by
  refine broadcastInDim_apply _ h v (ix2 u c) (ix1 c) fun a => ?_
  match a with
  | ⟨0, _⟩ =>
    exact val_eq_ite c

theorem bcastVecCol {n : ℕ} (h)
    (v : (⟨1, ![n]⟩ : Shape).Idx → α) (r : Fin n) (u : Fin 1) :
    broadcastInDim ⟨2, ![n, 1]⟩ ![0] h v (ix2 r u) = v (ix1 r) := by
  refine broadcastInDim_apply _ h v (ix2 r u) (ix1 r) fun a => ?_
  match a with
  | ⟨0, _⟩ =>
    exact val_eq_ite r

theorem bcastRows {m n : ℕ} (h)
    (w : (⟨2, ![1, n]⟩ : Shape).Idx → α) (p : Fin m) (c : Fin n) :
    broadcastInDim ⟨2, ![m, n]⟩ ![0, 1] h w (ix2 p c) = w (ix2 (0 : Fin 1) c) := by
  refine broadcastInDim_apply _ h w (ix2 p c) (ix2 (0 : Fin 1) c) fun a => ?_
  match a with
  | ⟨0, _⟩ => rfl
  | ⟨1, _⟩ =>
    exact val_eq_ite c

theorem bcast11 {m n : ℕ} (h)
    (w : (⟨2, ![1, 1]⟩ : Shape).Idx → α) (p : Fin m) (c : Fin n) :
    broadcastInDim ⟨2, ![m, n]⟩ ![0, 1] h w (ix2 p c) = w (ix2 (0 : Fin 1) (0 : Fin 1)) := by
  refine broadcastInDim_apply _ h w (ix2 p c) (ix2 (0 : Fin 1) (0 : Fin 1)) fun a => ?_
  match a with
  | ⟨0, _⟩ => rfl
  | ⟨1, _⟩ => rfl

theorem bcastVec {m n : ℕ} (h1 h2) (v : (⟨1, ![n]⟩ : Shape).Idx → α)
    (p : Fin m) (c : Fin n) :
    broadcastInDim ⟨2, ![m, n]⟩ ![0, 1] h2 (broadcastInDim ⟨2, ![1, n]⟩ ![1] h1 v) (ix2 p c) = v (ix1 c) := by
  rw [bcastRows, bcastVecRow]

theorem bcastOne {m n : ℕ} (h1 h2) (v : (⟨1, ![1]⟩ : Shape).Idx → α)
    (p : Fin m) (c : Fin n) :
    broadcastInDim ⟨2, ![m, n]⟩ ![0, 1] h2 (broadcastInDim ⟨2, ![1, 1]⟩ ![1] h1 v) (ix2 p c) = v (ix1 (0 : Fin 1)) := by
  rw [bcast11, bcastVecRow]

theorem colReduce {n d : ℕ} (h' : (⟨2, ![n, d]⟩ : Shape).ReducesTo [0] ⟨1, ![d]⟩)
    (h : (⟨2, ![n, d]⟩ : Shape).Reduces [0] ⟨1, ![d]⟩) (hu : 0 < (⟨0, ![]⟩ : Shape).numel)
    (x : FVec Ideal ⟨2, ![n, d]⟩ .f32) (init : (⟨0, ![]⟩ : Shape).Idx → Ideal .f32) (j : Fin d) :
    Host.reduceAdd x init h' hu (ix1 j) = init ix0 + ∑ r : Fin n, x (ix2 r j) := by
  rw [hostReduceAdd_apply, Ideal.hostReduceAdd_single h' h, eq_ix0 (Shape.Idx.first hu)]
  congr 1
  refine Finset.sum_congr rfl fun r _ => congrArg x ?_
  funext a
  match a with
  | ⟨0, _⟩ => rfl
  | ⟨1, _⟩ => rfl

theorem castCol {a : ℕ} (x : (⟨2, ![a, 1]⟩ : Shape).Idx → α) (h) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

theorem wrap_apply {n : ℕ} (N : ℕ) (hb)
    (a : (⟨1, ![n]⟩ : Shape).Idx → BitVec 32) (r : Fin n) :
    select (cmpi .slt a (broadcastInDim ⟨1, ![n]⟩ ![] hb (constantI ⟨0, ![]⟩ 32 0#32)))
        (addi a (broadcastInDim ⟨1, ![n]⟩ ![] hb (constantI ⟨0, ![]⟩ 32 (BitVec.ofNat 32 N)))) a (ix1 r)
      = Cert.Spec.wrap N (a (ix1 r)) := by
  show Scalar.select (IntOp.cmpi .slt (a (ix1 r)) (broadcastInDim ⟨1, ![n]⟩ ![] hb (constantI ⟨0, ![]⟩ 32 0#32) (ix1 r)))
      (IntOp.addi (a (ix1 r)) (broadcastInDim ⟨1, ![n]⟩ ![] hb (constantI ⟨0, ![]⟩ 32 (BitVec.ofNat 32 N)) (ix1 r))) (a (ix1 r)) = _
  rw [bcast0, bcast0]
  rfl

theorem lrelu_apply {T : Shape} (hb) (u : FVec Ideal T .f32) (i : T.Idx) :
    select (cmpf (F := Ideal) .oge u (broadcastInDim T ![] hb (constant ⟨0, ![]⟩ .f32 0x00000000#32))) u
        (mulf (broadcastInDim T ![] hb (id (constant ⟨0, ![]⟩ .f32 0x3C23D70A#32))) u) i
      = Cert.Spec.lrelu (u i) := by
  rw [select_apply, cmpf_apply, mulf_apply, bcast0, bcast0]
  rfl

end Cert.ReferenceIdeal.ValH

end
-- ==== Proof.ArgsOf.lean ====
import proofs.«402365_j6828998001463_1_alg».proof.Proof.Spec

noncomputable section

namespace Cert.Spec

open Idealize.ShloMosaic Idealize.ShloMosaic.ValueIdx

def argsOf (a0 a1 : (⟨1, ![100000]⟩ : Shape).Idx → BitVec 32) (a2 : (⟨2, ![2, 1600000]⟩ : Shape).Idx → BitVec 32) (a3 : (⟨2, ![100000, 3]⟩ : Shape).Idx → EReal) (a4 : (⟨2, ![64, 64]⟩ : Shape).Idx → EReal) (a5 : (⟨2, ![16, 64]⟩ : Shape).Idx → EReal) (a6 : (⟨1, ![1]⟩ : Shape).Idx → EReal) (a7 : (⟨2, ![3, 3]⟩ : Shape).Idx → EReal) (a8 : (⟨1, ![3]⟩ : Shape).Idx → EReal) (a9 : (⟨2, ![3, 64]⟩ : Shape).Idx → EReal) (a10 a11 a12 : (⟨1, ![64]⟩ : Shape).Idx → EReal) (a13 : (⟨1, ![1]⟩ : Shape).Idx → EReal) (a14 : (⟨2, ![64, 64]⟩ : Shape).Idx → EReal) (a15 : (⟨1, ![64]⟩ : Shape).Idx → EReal) (a16 : (⟨2, ![64, 64]⟩ : Shape).Idx → EReal) (a17 a18 a19 : (⟨1, ![64]⟩ : Shape).Idx → EReal) (a20 : (⟨2, ![192, 64]⟩ : Shape).Idx → EReal) (a21 a22 a23 : (⟨1, ![64]⟩ : Shape).Idx → EReal) (a24 : (⟨2, ![64, 1]⟩ : Shape).Idx → EReal) (a25 : (⟨1, ![1]⟩ : Shape).Idx → EReal) : Args where
  deg := fun r => a0 (ix1 r)
  lab := fun r => a1 (ix1 r)
  src := fun e => a2 (ix2 0 e)
  dst := fun e => a2 (ix2 1 e)
  pos := mat a3
  Ed := mat a4
  El := mat a5
  eps1 := a6 (ix1 0)
  W1a := mat a7
  b1a := row a8
  W1b := mat a9
  b1b := row a10
  g1 := row a11
  be1 := row a12
  eps2 := a13 (ix1 0)
  W2a := mat a14
  b2a := row a15
  W2b := mat a16
  b2b := row a17
  g2 := row a18
  be2 := row a19
  Wf1 := mat a20
  bf1 := row a21
  gf := row a22
  bef := row a23
  Wf2 := mat a24
  bf2 := a25 (ix1 0)

end Cert.Spec

end
-- ==== Proof.Ref.ValueA.lean ====
import proofs.«402365_j6828998001463_1_alg».proof.Proof.Spec
import proofs.«402365_j6828998001463_1_alg».proof.Proof.LibRowDims
import proofs.«402365_j6828998001463_1_alg».proof.Proof.Ref.Stages
import proofs.«402365_j6828998001463_1_alg».proof.Proof.Ref.ValueBase

noncomputable section

open scoped BigOperators

namespace Cert.ReferenceIdeal.ValH

open Cert.ReferenceIdeal Cert.ReferenceIdeal.Gen Cert.ReferenceIdeal.RunH Idealize.ShloMosaic Idealize.ShloMosaic.ValueIdx
open Cert.Spec

theorem st_v1_apply (a2) (e : Fin 1600000) :
    st_v1 (F := Ideal) a2 (ix1 e) = a2 (ix2 (0 : Fin 2) e) := by
  unfold st_v1
  beta_reduce
  rw [shapeCast_1a_a_apply, slice2_axis0_eq]
  rfl

theorem st_v3_apply (a2) (e : Fin 1600000) :
    st_v3 (F := Ideal) a2 (ix1 e) = a2 (ix2 (1 : Fin 2) e) := by
  unfold st_v3
  beta_reduce
  rw [shapeCast_1a_a_apply, slice2_axis0_eq]
  rfl

theorem st_v10_apply (a0 a4)
    (r : Fin 100000) (c : Fin 64) :
    st_v10 (F := Ideal) a0 a4 (ix2 r c) = a4 (ix2 (clampRow 64 (by decide) (wrap 64 (a0 (ix1 r)))) c) := by
  unfold st_v10
  beta_reduce
  have hg : gather_S64x64_S100000x1_S100000x64_1_0_n_n_0_1_164
      = RowDims.rowGather 64 64 100000 gather_S64x64_S100000x1_S100000x64_1_0_n_n_0_1_164_wf := rfl
  rw [hg, RowDims.rowGather_apply (by decide), bcastVecCol, wrap_apply 64]
  rfl

theorem st_v17_apply (a1 a5)
    (r : Fin 100000) (c : Fin 64) :
    st_v17 (F := Ideal) a1 a5 (ix2 r c) = a5 (ix2 (clampRow 16 (by decide) (wrap 16 (a1 (ix1 r)))) c) := by
  unfold st_v17
  beta_reduce
  have hg : gather_S16x64_S100000x1_S100000x64_1_0_n_n_0_1_164
      = RowDims.rowGather 16 64 100000 gather_S16x64_S100000x1_S100000x64_1_0_n_n_0_1_164_wf := rfl
  rw [hg, RowDims.rowGather_apply (by decide), bcastVecCol, wrap_apply 16]
  rfl

theorem st_v18_eq (a0 a1 a4 a5) :
    mat (st_v18 (F := Ideal) (st_v10 a0 a4) (st_v17 a1 a5))
      = embTake (fun r => a0 (ix1 r)) (fun r => a1 (ix1 r)) (mat a4) (mat a5) := by
  funext r j
  unfold mat st_v18 embTake
  beta_reduce
  split
  · rename_i h
    rw [concatenate_pair_apply_left (t := S100000x128) (s₁ := S100000x64) (s₂ := S100000x64) (1 : Fin 2) _ _ _ (ix2 r j) rfl (ix2 r ⟨j.val, h⟩) (fun b => by
      match b with
      | ⟨0, _⟩ => rfl
      | ⟨1, _⟩ => rfl)]
    exact st_v10_apply a0 a4 r ⟨j.val, h⟩
  · rename_i h
    rw [concatenate_pair_apply_right (t := S100000x128) (s₁ := S100000x64) (s₂ := S100000x64) (1 : Fin 2) _ _ _ (ix2 r j) rfl rfl
      (ix2 r ⟨j.val - 64, by have := j.isLt; omega⟩) (fun b hb => by
        match b with
        | ⟨0, _⟩ => rfl
        | ⟨1, _⟩ => exact absurd rfl hb) (by show j.val - 64 + 64 = j.val; omega)]
    exact st_v17_apply a1 a5 r ⟨j.val - 64, by have := j.isLt; omega⟩

end Cert.ReferenceIdeal.ValH

end
-- ==== Proof.Ref.ValueB.lean ====
import proofs.«402365_j6828998001463_1_alg».proof.Proof.Spec
import proofs.«402365_j6828998001463_1_alg».proof.Proof.LibRowDims
import proofs.«402365_j6828998001463_1_alg».proof.Proof.Ref.Stages
import proofs.«402365_j6828998001463_1_alg».proof.Proof.Ref.ValueBase

noncomputable section

open scoped BigOperators

namespace Cert.ReferenceIdeal.ValH

open Cert.ReferenceIdeal Cert.ReferenceIdeal.Gen Cert.ReferenceIdeal.RunH Idealize.ShloMosaic Idealize.ShloMosaic.ValueIdx
open Cert.Spec

theorem scatterRaw {d : ℕ}
    (wfS)
    (X : FVec Ideal ⟨2, ![100000, d]⟩ .f32) (I : IVec ⟨2, ![1600000, 1]⟩ 32)
    (upd : FVec Ideal ⟨2, ![1600000, d]⟩ .f32) (r : Fin 100000) (l : Fin d) :
    Host.scatterAdd (RowDims.rowScatter 100000 d 1600000 wfS) X I upd (ix2 r l)
      = X (ix2 r l) + ∑ e : Fin 1600000, if (I (ix2 e 0)).toInt = (r.val : Int) then upd (ix2 e l) else 0 := by
  unfold Host.scatterAdd
  rw [Ideal.hostScatterAdd_def, RowDims.rowScatterAdd_apply]

theorem zeroTable {d : ℕ} (hb0) (r : Fin 100000) (l : Fin d) :
    (broadcastInDim ⟨2, ![100000, d]⟩ ![] hb0 (constant (F := Ideal) ⟨0, ![]⟩ .f32 0x00000000#32)) (ix2 r l) = Cert.Spec.zero := by
  rw [bcast0]
  rfl

theorem gatherRaw {d : ℕ}
    (wfG hbc hbs)
    (x : FVec Ideal ⟨2, ![100000, d]⟩ .f32) (x1 : (⟨1, ![1600000]⟩ : Shape).Idx → BitVec 32) (e : Fin 1600000) (l : Fin d) :
    Host.gather (RowDims.rowGather 100000 d 1600000 wfG) x
          (broadcastInDim ⟨2, ![1600000, 1]⟩ ![0] hbc
            (select (cmpi .slt x1 (broadcastInDim ⟨1, ![1600000]⟩ ![] hbs (constantI ⟨0, ![]⟩ 32 0#32)))
              (addi x1 (broadcastInDim ⟨1, ![1600000]⟩ ![] hbs (constantI ⟨0, ![]⟩ 32 100000#32))) x1)) (ix2 e l)
      = mat x (clampRow 100000 (by decide) (wrap 100000 (x1 (ix1 e)))) l := by
  rw [RowDims.rowGather_apply (by decide), bcastVecCol, wrap_apply 100000]
  rfl

theorem aggRaw_apply {d : ℕ}
    (wfS wfG)
    (hb0 hbc hbs)
    (x : FVec Ideal ⟨2, ![100000, d]⟩ .f32) (x1 x3 : (⟨1, ![1600000]⟩ : Shape).Idx → BitVec 32) (r : Fin 100000) (l : Fin d) :
    Host.scatterAdd (RowDims.rowScatter 100000 d 1600000 wfS)
        (broadcastInDim ⟨2, ![100000, d]⟩ ![] hb0 (constant (F := Ideal) ⟨0, ![]⟩ .f32 0x00000000#32))
        (broadcastInDim ⟨2, ![1600000, 1]⟩ ![0] hbc x3)
        (Host.gather (RowDims.rowGather 100000 d 1600000 wfG) x
          (broadcastInDim ⟨2, ![1600000, 1]⟩ ![0] hbc
            (select (cmpi .slt x1 (broadcastInDim ⟨1, ![1600000]⟩ ![] hbs (constantI ⟨0, ![]⟩ 32 0#32)))
              (addi x1 (broadcastInDim ⟨1, ![1600000]⟩ ![] hbs (constantI ⟨0, ![]⟩ 32 100000#32))) x1))) (ix2 r l)
      = agg (by decide) (fun e => x1 (ix1 e)) (fun e => x3 (ix1 e)) (mat x) r l := by
  rw [scatterRaw, zeroTable]
  unfold agg
  refine congrArg (Cert.Spec.zero + ·) (Finset.sum_congr rfl fun e _ => ?_)
  rw [bcastVecCol, gatherRaw]

theorem st_v34_eq (x1 x3 a3 a6) :
    mat (st_v34 (F := Ideal) x1 x3 a3 a6)
      = ginIn (a6 (ix1 (0 : Fin 1))) (mat a3) (agg (by decide) (fun e => x1 (ix1 e)) (fun e => x3 (ix1 e)) (mat a3)) := by
  funext r l
  unfold mat st_v34
  beta_reduce
  have hs : scatter_S100000x3_S1600000x1_S1600000x3_1_0_0_1
      = RowDims.rowScatter 100000 3 1600000 scatter_S100000x3_S1600000x1_S1600000x3_1_0_0_1_wf := rfl
  have hg : gather_S100000x3_S1600000x1_S1600000x3_1_0_n_n_0_1_13
      = RowDims.rowGather 100000 3 1600000 gather_S100000x3_S1600000x1_S1600000x3_1_0_n_n_0_1_13_wf := rfl
  rw [hs, hg, addf_apply, mulf_apply, bcastOne, addf_apply, bcast0, aggRaw_apply]
  rfl

theorem st_v79_eq (x1 x3 x63 a13) :
    mat (st_v79 (F := Ideal) x1 x3 x63 a13)
      = ginIn (a13 (ix1 (0 : Fin 1))) (mat x63) (agg (by decide) (fun e => x1 (ix1 e)) (fun e => x3 (ix1 e)) (mat x63)) := by
  funext r l
  unfold mat st_v79
  beta_reduce
  have hs : scatter_S100000x64_S1600000x1_S1600000x64_1_0_0_1
      = RowDims.rowScatter 100000 64 1600000 scatter_S100000x64_S1600000x1_S1600000x64_1_0_0_1_wf := rfl
  have hg : gather_S100000x64_S1600000x1_S1600000x64_1_0_n_n_0_1_164
      = RowDims.rowGather 100000 64 1600000 gather_S100000x64_S1600000x1_S1600000x64_1_0_n_n_0_1_164_wf := rfl
  rw [hs, hg, addf_apply, mulf_apply, bcastOne, addf_apply, bcast0, aggRaw_apply]
  rfl

end Cert.ReferenceIdeal.ValH

end
-- ==== Proof.Ref.ValueC.lean ====
import proofs.«402365_j6828998001463_1_alg».proof.Proof.Spec
import proofs.«402365_j6828998001463_1_alg».proof.Proof.LibRowDims
import proofs.«402365_j6828998001463_1_alg».proof.Proof.Ref.Stages
import proofs.«402365_j6828998001463_1_alg».proof.Proof.Ref.ValueBase

noncomputable section

open scoped BigOperators

namespace Cert.ReferenceIdeal.ValH

open Cert.ReferenceIdeal Cert.ReferenceIdeal.Gen Cert.ReferenceIdeal.RunH Idealize.ShloMosaic Idealize.ShloMosaic.ValueIdx
open Cert.Spec

theorem st_v43_eq (x34 a7 a8 a9 a10) :
    mat (st_v43 (F := Ideal) x34 a7 a8 a9 a10) = lin (mat x34) (mat a7) (row a8) (mat a9) (row a10) := by
  funext r j
  unfold mat st_v43 pf_leaky_relu pf_where
  beta_reduce
  have hd1 : dot_S100000x3_S3x3_S100000x3_1_0_0_1_n_n = DotDims.plain 100000 3 3 := rfl
  have hd2 : dot_S100000x3_S3x64_S100000x64_1_0_0_1_n_n = DotDims.plain 100000 3 64 := rfl
  rw [hd1, hd2, addf_apply, bcastVec, StackMember.dotGeneral_plain_apply]
  unfold lin
  refine congrArg (· + row a10 j) (Finset.sum_congr rfl fun k _ => congrArg (· * mat a9 k j) ?_)
  rw [lrelu_apply, addf_apply, bcastVec, StackMember.dotGeneral_plain_apply]
  rfl

theorem st_v88_eq (x79 a14 a15 a16 a17) :
    mat (st_v88 (F := Ideal) x79 a14 a15 a16 a17) = lin (mat x79) (mat a14) (row a15) (mat a16) (row a17) := by
  funext r j
  unfold mat st_v88 pf_leaky_relu_1 pf_where_2
  beta_reduce
  have hd : dot_S100000x64_S64x64_S100000x64_1_0_0_1_n_n = DotDims.plain 100000 64 64 := rfl
  rw [hd, addf_apply, bcastVec, StackMember.dotGeneral_plain_apply]
  unfold lin
  refine congrArg (· + row a17 j) (Finset.sum_congr rfl fun k _ => congrArg (· * mat a16 k j) ?_)
  rw [lrelu_apply, addf_apply, bcastVec, StackMember.dotGeneral_plain_apply]
  rfl

end Cert.ReferenceIdeal.ValH

end
-- ==== Proof.Alg.Lit.lean ====
import proofs.«402365_j6828998001463_1_alg».proof.Proof.Spec
import Idealize.ShloMosaic.PureOps.Ideal
import Mathlib.Data.EReal.Basic
import Mathlib.Tactic.NormNum

namespace Cert.Alg

open Idealize.ShloMosaic Cert.Spec

theorem zero_eq : zero = ((0 : ℝ) : EReal) := by
  simp [zero, Ideal.ofBits, Ideal.ieee]

theorem one_eq : one = ((1 : ℝ) : EReal) := by
  simp [one, Ideal.ofBits, Ideal.ieee, -EReal.coe_mul]; norm_num

theorem cnt_eq : cnt = ((100000 : ℝ) : EReal) := by
  simp [cnt, Ideal.ofBits, Ideal.ieee, -EReal.coe_mul]; norm_num

theorem bnEps_eq : ∃ e : ℝ, 0 < e ∧ bnEps = (e : EReal) := by
  refine ⟨10995116 * (2 : ℝ) ^ (-40 : ℤ), by positivity, ?_⟩
  simp [bnEps, Ideal.ofBits, Ideal.ieee, -EReal.coe_mul] <;> norm_num

theorem slope_eq : ∃ s : ℝ, Cert.Spec.slope = (s : EReal) := by
  refine ⟨10737418 * (2 : ℝ) ^ (-30 : ℤ), ?_⟩
  simp [Cert.Spec.slope, Ideal.ofBits, Ideal.ieee, -EReal.coe_mul] <;> norm_num

end Cert.Alg
-- ==== Proof.Ref.ValueOps.lean ====
import proofs.«402365_j6828998001463_1_alg».proof.Proof.Spec
import proofs.«402365_j6828998001463_1_alg».proof.Proof.Alg.Lit
import Idealize.ShloMosaic.PureOps.Ideal
import Idealize.ShloMosaic.PureOps.Ideal.Laws
import Idealize.ShloMosaic.Lib.ValueIdx

noncomputable section

namespace Cert.ReferenceIdeal.ValH

open Idealize.ShloMosaic Idealize.ShloMosaic.ValueIdx Cert.Spec

variable {s : Shape}

theorem hostDivf_apply (x y : FVec Ideal s .f32) (i : s.Idx) : Host.divf x y i = Ideal.div (x i) (y i) := rfl
theorem hostRsqrt_apply (x : FVec Ideal s .f32) (i : s.Idx) : Host.rsqrt x i = Ideal.rsqrt (x i) := rfl
theorem hostExp_apply (x : FVec Ideal s .f32) (i : s.Idx) : Host.exp x i = Ideal.exp (x i) := rfl
theorem hostNegf_apply (x : FVec Ideal s .f32) (i : s.Idx) : Host.negf x i = -(x i) := rfl

theorem one_eq1 : Cert.Spec.one = (1 : EReal) := by rw [Cert.Alg.one_eq, EReal.coe_one]

theorem sitofp_zero : FloatOps.sitofp (F := Ideal) .f32 (0#32 : BitVec 32) = (0 : EReal) := by
  show ((((0#32 : BitVec 32).toInt : ℤ) : ℝ) : EReal) = 0
  simp

theorem cnt_gt : Ideal.cmp .ogt cnt Cert.Spec.zero = 1#1 := by
  rw [Cert.Alg.cnt_eq, Cert.Alg.zero_eq]
  show BitVec.ofBool (decide (((0 : ℝ) : EReal) < ((100000 : ℝ) : EReal))) = 1#1
  rw [decide_eq_true (by exact_mod_cast (by norm_num : (0 : ℝ) < 100000))]
  rfl

end Cert.ReferenceIdeal.ValH

end
-- ==== Proof.Ref.ValueD.lean ====
import proofs.«402365_j6828998001463_1_alg».proof.Proof.Spec
import proofs.«402365_j6828998001463_1_alg».proof.Proof.LibRowDims
import proofs.«402365_j6828998001463_1_alg».proof.Proof.Ref.Stages
import proofs.«402365_j6828998001463_1_alg».proof.Proof.Ref.ValueBase
import proofs.«402365_j6828998001463_1_alg».proof.Proof.Ref.ValueOps

noncomputable section

open scoped BigOperators

namespace Cert.ReferenceIdeal.ValH

open Cert.ReferenceIdeal Cert.ReferenceIdeal.Gen Cert.ReferenceIdeal.RunH Idealize.ShloMosaic Idealize.ShloMosaic.ValueIdx
open Cert.Spec

theorem reduces_rows : (⟨2, ![100000, 64]⟩ : Shape).Reduces [0] ⟨1, ![64]⟩ := by decide

theorem colSum0 (x) (j : Fin 64) :
    Host.reduceAdd (F := Ideal) x (constant S_ .f32 0x00000000#32) reducesTo_S100000x64_S64_d0 h_S_ (ix1 j)
      = ∑ r : Fin 100000, x (ix2 r j) := by
  rw [colReduce reducesTo_S100000x64_S64_d0 reduces_rows h_S_, constant_apply, Ideal.ofBits_zero_f32, zero_add]

theorem st_v46_eq (x) :
    row (st_v46 (F := Ideal) x) = meanOf (colSum (mat x)) := by
  funext j
  unfold row st_v46
  beta_reduce
  rw [hostDivf_apply, colSum0, bcast0]
  rfl
theorem st_v91_eq (x) :
    row (st_v91 (F := Ideal) x) = meanOf (colSum (mat x)) :=
  st_v46_eq x
theorem st_v116_eq (x) :
    row (st_v116 (F := Ideal) x) = meanOf (colSum (mat x)) :=
  st_v46_eq x

theorem centered_apply (x) (r : Fin 100000) (j : Fin 64) :
    (subf (F := Ideal) x (broadcastInDim S100000x64 ![0, 1] bcast_S1x64_S100000x64_0_1
        (Host.divf (F := Ideal) (broadcastInDim S1x64 ![1] bcast_S64_S1x64_1 (Host.reduceAdd (F := Ideal) x (constant S_ .f32 0x00000000#32) reducesTo_S100000x64_S64_d0 h_S_)) (broadcastInDim S1x64 ![] bcast_S_S1x64 (constant (F := Ideal) S_ .f32 0x47C35000#32))))) (ix2 r j)
      = mat x r j - meanOf (colSum (mat x)) j := by
  rw [subf_apply, bcastRows, hostDivf_apply, bcastVecRow, colSum0, bcast0]
  rfl

theorem sqsum_apply (D : FVec Ideal S100000x64 .f32) (f : Fin 100000 → Fin 64 → EReal)
    (hD : ∀ r j, D (ix2 r j) = f r j) (j : Fin 64) :
    Host.reduceAdd (F := Ideal) (mulf (F := Ideal) D D) (constant S_ .f32 0x00000000#32) reducesTo_S100000x64_S64_d0 h_S_ (ix1 j)
      = ∑ r : Fin 100000, f r j * f r j := by
  rw [colSum0]
  exact Finset.sum_congr rfl fun r _ => by rw [mulf_apply, hD]

theorem pf_var_eq (x) :
    row (pf_var (F := Ideal) x (constantI S_ 32 0#32)) = varDev (mat x) := by
  funext j
  unfold row pf_var pf_where_0
  beta_reduce
  rw [select_apply, hostDivf_apply, bcast0, bcast0, bcast0,
    sqsum_apply _ (fun r j => mat x r j - meanOf (colSum (mat x)) j) (centered_apply x), cmpf_apply, subf_apply, sitofp_apply,
    constantI_apply, constant_apply, constant_apply, sitofp_zero, sub_zero,
    show FloatOps.cmpf (F := Ideal) .ogt (Ideal.ofBits .f32 0x47C35000#32) (Ideal.ofBits .f32 0x00000000#32) = 1#1 from cnt_gt,
    select_one]
  rfl

theorem st_v47_eq (x) :
    row (st_v47 (F := Ideal) x) = varDev (mat x) := pf_var_eq x
theorem st_v92_eq (x) :
    row (st_v92 (F := Ideal) x) = varDev (mat x) := pf_var_eq x
theorem st_v117_eq (x) :
    row (st_v117 (F := Ideal) x) = varDev (mat x) := pf_var_eq x

theorem st_v63_eq (h m v g b) :
    mat (st_v63 (F := Ideal) h m v g b) = bnAct (mat h) (row m) (row v) (row g) (row b) := by
  funext r j
  unfold mat st_v63 pf_leaky_relu_1 pf_where_2
  beta_reduce
  rw [lrelu_apply, addf_apply, mulf_apply, mulf_apply, subf_apply, bcastVec, bcastVec, bcastVec, bcastVec,
    hostRsqrt_apply, addf_apply, bcast0]
  rfl
theorem st_v108_eq (h m v g b) :
    mat (st_v108 (F := Ideal) h m v g b) = bnAct (mat h) (row m) (row v) (row g) (row b) :=
  st_v63_eq h m v g b
theorem st_v133_eq (h m v g b) :
    mat (st_v133 (F := Ideal) h m v g b) = bnAct (mat h) (row m) (row v) (row g) (row b) :=
  st_v63_eq h m v g b

end Cert.ReferenceIdeal.ValH

end
-- ==== Proof.Ref.ValueE.lean ====
import proofs.«402365_j6828998001463_1_alg».proof.Proof.Spec
import proofs.«402365_j6828998001463_1_alg».proof.Proof.LibRowDims
import proofs.«402365_j6828998001463_1_alg».proof.Proof.Ref.Stages
import proofs.«402365_j6828998001463_1_alg».proof.Proof.Ref.ValueBase
import proofs.«402365_j6828998001463_1_alg».proof.Proof.Ref.ValueOps

noncomputable section

open scoped BigOperators

namespace Cert.ReferenceIdeal.ValH

open Cert.ReferenceIdeal Cert.ReferenceIdeal.Gen Cert.ReferenceIdeal.RunH Idealize.ShloMosaic Idealize.ShloMosaic.ValueIdx
open Cert.Spec

theorem concat192_apply (x18 x108) (r : Fin 100000) (k : Fin 192) :
    concatenate S100000x192 1 [⟨S100000x128, x18⟩, ⟨S100000x64, x108⟩] concatenates_S100000x128_S100000x64_S100000x192_d1 (ix2 r k)
      = if h : k.val < 128 then mat x18 r ⟨k.val, h⟩ else mat x108 r ⟨k.val - 128, by have := k.isLt; omega⟩ := by
  split
  · rename_i h
    exact concatenate_pair_apply_left (t := S100000x192) (s₁ := S100000x128) (s₂ := S100000x64) (1 : Fin 2) _ _ _ (ix2 r k) rfl
      (ix2 r ⟨k.val, h⟩) (fun b => by
        match b with
        | ⟨0, _⟩ => rfl
        | ⟨1, _⟩ => rfl)
  · rename_i h
    exact concatenate_pair_apply_right (t := S100000x192) (s₁ := S100000x128) (s₂ := S100000x64) (1 : Fin 2) _ _ _ (ix2 r k) rfl rfl
      (ix2 r ⟨k.val - 128, by have := k.isLt; omega⟩) (fun b hb => by
        match b with
        | ⟨0, _⟩ => rfl
        | ⟨1, _⟩ => exact absurd rfl hb) (by show k.val - 128 + 128 = k.val; omega)

theorem st_v113_eq (x18 x108 a20 a21) :
    mat (st_v113 (F := Ideal) x18 x108 a20 a21) = finWhole (mat x18) (mat x108) (mat a20) (row a21) := by
  funext r j
  unfold mat st_v113
  beta_reduce
  have hd : dot_S100000x192_S192x64_S100000x64_1_0_0_1_n_n = DotDims.plain 100000 192 64 := rfl
  rw [hd, addf_apply, bcastVec, StackMember.dotGeneral_plain_apply]
  unfold finWhole
  refine congrArg (· + row a21 j) (Finset.sum_congr rfl fun k _ => ?_)
  rw [concat192_apply]
  rfl

theorem st_v143_apply (x133 a24 a25) (p : Fin 100000) :
    st_v143 (F := Ideal) x133 a24 a25 (ix2 p (0 : Fin 1)) = outOf (mat x133) (mat a24) (a25 (ix1 (0 : Fin 1))) p := by
  unfold st_v143
  beta_reduce
  have hd : dot_S100000x64_S64x1_S100000x1_1_0_0_1_n_n = DotDims.plain 100000 64 1 := rfl
  rw [hd, hostDivf_apply, bcast0, addf_apply, bcast0, hostExp_apply, hostNegf_apply, addf_apply, bcastOne,
    StackMember.dotGeneral_plain_apply, constant_apply]
  unfold outOf Ideal.logistic
  rw [show Ideal.ofBits .f32 0x3F800000#32 = (1 : EReal) from one_eq1]
  rfl

theorem st_v144_apply (x143) (p : Fin 100000) :
    st_v144 (F := Ideal) x143 (ix1 p) = x143 (ix2 p (0 : Fin 1)) := by
  unfold st_v144
  exact castCol x143 _ p

end Cert.ReferenceIdeal.ValH

end
-- ==== Proof.Ref.Value.lean ====
import proofs.«402365_j6828998001463_1_alg».proof.Proof.Spec
import proofs.«402365_j6828998001463_1_alg».proof.Proof.LibRowDims
import proofs.«402365_j6828998001463_1_alg».proof.Proof.Ref.Stages
import proofs.«402365_j6828998001463_1_alg».proof.Proof.Ref.ValueBase
import proofs.«402365_j6828998001463_1_alg».proof.Proof.ArgsOf
import proofs.«402365_j6828998001463_1_alg».proof.Proof.Ref.ValueA
import proofs.«402365_j6828998001463_1_alg».proof.Proof.Ref.ValueB
import proofs.«402365_j6828998001463_1_alg».proof.Proof.Ref.ValueC
import proofs.«402365_j6828998001463_1_alg».proof.Proof.Ref.ValueD
import proofs.«402365_j6828998001463_1_alg».proof.Proof.Ref.ValueE

noncomputable section

open scoped BigOperators

namespace Cert.ReferenceIdeal.ValH

open Cert.ReferenceIdeal Cert.ReferenceIdeal.Gen Cert.ReferenceIdeal.RunH Idealize.ShloMosaic Idealize.ShloMosaic.ValueIdx
open Cert.Spec

theorem res_eq (a0 a1 a2 a3 a4 a5 a6 a7 a8 a9 a10 a11 a12 a13 a14 a15 a16 a17 a18 a19 a20 a21 a22 a23 a24 a25)
    (p : Fin 100000) :
    res (F := Ideal) a0 a1 a2 a3 a4 a5 a6 a7 a8 a9 a10 a11 a12 a13 a14 a15 a16 a17 a18 a19 a20 a21 a22 a23 a24 a25 (ix1 p)
      = netR (argsOf a0 a1 a2 a3 a4 a5 a6 a7 a8 a9 a10 a11 a12 a13 a14 a15 a16 a17 a18 a19 a20 a21 a22 a23 a24 a25) p := by
  unfold res
  dsimp only
  rw [st_v144_apply, st_v143_apply, st_v133_eq, st_v116_eq, st_v117_eq, st_v113_eq, st_v18_eq, st_v108_eq, st_v91_eq,
    st_v92_eq, st_v88_eq, st_v79_eq, st_v63_eq, st_v46_eq, st_v47_eq, st_v43_eq, st_v34_eq]
  simp only [st_v1_apply, st_v3_apply]
  rfl

end Cert.ReferenceIdeal.ValH

end
-- ==== Proof.ValKI.Reg0.lean ====
import proofs.«402365_j6828998001463_1_alg».proof.Proof.FrameKI.Reg0
import proofs.«402365_j6828998001463_1_alg».proof.Proof.Spec
import proofs.«402365_j6828998001463_1_alg».proof.Proof.LibRowDims
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

theorem hot_word (k : ℕ) (v : BitVec 32) :
    (FloatOps.sitofp (F := Ideal) .f32 ((IntOp.cmpi .eq (BitVec.ofNat 32 k) v).setWidth 32) : EReal) = Cert.Spec.hot k v := by
  unfold Cert.Spec.hot
  by_cases h : BitVec.ofNat 32 k = v
  · rw [if_pos h, StableHlo.Predicate.cmpi_eq_iff.mpr h]
    have e : ((1#1 : BitVec 1).setWidth 32).toInt = 1 := by decide
    show ((((1#1 : BitVec 1).setWidth 32).toInt : ℝ) : EReal) = 1
    rw [e]; simp
  · rw [if_neg h, eq_zero_of_ne_one (fun h' => h (StableHlo.Predicate.cmpi_eq_iff.mp h'))]
    have e : ((0#1 : BitVec 1).setWidth 32).toInt = 0 := by decide
    show ((((0#1 : BitVec 1).setWidth 32).toInt : ℝ) : EReal) = 0
    rw [e]; simp

theorem onehot_apply {C : ℕ} (x : IVec S2000x1 32) (hI : (⟨2, ![2000, C]⟩ : Shape).Iotas .tc 32 [1])
    (hS : S2000x1.ShapeCasts S2000x1) (hB : S2000x1.Broadcasts ⟨2, ![2000, C]⟩) (h1 : 1 < 32)
    (hb : FTy.bf16.bits < FTy.f32.bits) (p : Fin 2000) (k : Fin C) :
    (truncf .bf16 (sitofp (F := Ideal) .f32 (extui 32 (cmpi .eq (iota .tc ⟨2, ![2000, C]⟩ 32 [1] hI)
        (broadcastTo ⟨2, ![2000, C]⟩ (shapeCast S2000x1 x hS) hB)) h1)) hb : FVec Ideal ⟨2, ![2000, C]⟩ .bf16) (ix2 p k)
      = Cert.Spec.hot k.val (x (ix2 p 0)) := by
  rw [truncf_apply, sitofp_apply, extui_apply]
  show FloatOps.sitofp .f32 ((IntOp.cmpi .eq (iota .tc ⟨2, ![2000, C]⟩ 32 [1] hI (ix2 p k))
    (broadcastTo ⟨2, ![2000, C]⟩ (shapeCast S2000x1 x hS) hB (ix2 p k))).setWidth 32) = _
  rw [iota_single_apply, shapeCast_self, broadcastTo_apply x hB (ix2 p k) (ix2 p 0) (fun a => by
    match a with
    | ⟨0, _⟩ => rfl
    | ⟨1, _⟩ => rfl)]
  exact hot_word k.val _

theorem pay_apply (x0 x1 : Vec Ideal S2000x1 .i32) (x2 : Vec Ideal S64x64 .f32) (x3 : Vec Ideal S16x64 .f32)
    (p : Fin 2000) (q : Fin 128) :
    k0_pay1 (F := Ideal) x0 x1 x2 x3 (ix2 p q)
      = Cert.Spec.embHot (fun r => x0 (ix2 r 0)) (fun r => x1 (ix2 r 0)) (Cert.Spec.mat x2) (Cert.Spec.mat x3) p q := by
  unfold k0_pay1 Cert.Spec.embHot
  by_cases h : q.val < 64
  · rw [dif_pos h]
    refine (concatenate_pair_apply_left (t := S2000x128) (s₁ := S2000x64) (s₂ := S2000x64) (1 : Fin 2) _ _
      concatenates_S2000x64_S2000x64_S2000x128_d1 (ix2 p q) rfl
      (ix2 p (⟨q.val, h⟩ : Fin 64) : S2000x64.Idx) (fun b => by
        match b with
        | ⟨0, _⟩ => rfl
        | ⟨1, _⟩ => rfl)).trans ?_
    refine (RowDims.matmul_plain_zero_apply (M := 2000) (K := 64) (N := 64) none _ _ p ⟨q.val, h⟩).trans ?_
    refine Finset.sum_congr rfl fun k _ => ?_
    refine congrArg₂ (· * ·) ?_ rfl
    exact onehot_apply x0 _ _ _ _ _ p k
  · rw [dif_neg h]
    have hq : q.val - 64 < 64 := by have := q.isLt; omega
    refine (concatenate_pair_apply_right (t := S2000x128) (s₁ := S2000x64) (s₂ := S2000x64) (1 : Fin 2) _ _
      concatenates_S2000x64_S2000x64_S2000x128_d1 (ix2 p q) rfl rfl
      (ix2 p (⟨q.val - 64, hq⟩ : Fin 64) : S2000x64.Idx) (fun b hb => by
        match b with
        | ⟨0, _⟩ => rfl
        | ⟨1, _⟩ => exact absurd rfl hb) (by
        show q.val - 64 + 64 = q.val
        omega)).trans ?_
    refine (RowDims.matmul_plain_zero_apply (M := 2000) (K := 16) (N := 64) none _ _ p ⟨q.val - 64, hq⟩).trans ?_
    refine Finset.sum_congr rfl fun k _ => ?_
    refine congrArg₂ (· * ·) ?_ rfl
    exact onehot_apply x1 _ _ _ _ _ p k

variable (V : (c : Dev nD) → (b : Ref sig .tc) → Buf (Elt Ideal) ((c : Thread nD τ).loc b)) (c : Dev nD)

theorem hzR0 : (![0, 0] : Fin 2 → Nat) = fun _ => 0 := funext fun a => by fin_cases a <;> rfl

theorem embHot_congr {n n' : ℕ} (deg lab : Fin n → BitVec 32) (deg' lab' : Fin n' → BitVec 32)
    (Ed : Cert.Spec.Mat 64 64) (El : Cert.Spec.Mat 16 64) (r : Fin n) (r' : Fin n') (q : Fin 128)
    (hd : deg r = deg' r') (hl : lab r = lab' r') :
    Cert.Spec.embHot deg lab Ed El r q = Cert.Spec.embHot deg' lab' Ed El r' q := by
  unfold Cert.Spec.embHot
  rw [hd, hl]

theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem iblk0_0_apply (t : Fin cfg0.N) (x : S2000x1.Idx) (k : S100000x1.Idx)
    (hk0 : (k 0).val = t.val * 2000 + (x 0).val) (hk1 : (k 1).val = (x 1).val) :
    (iblk0 V c 0 t : Vec Ideal S2000x1 .i32) x = (V c main_v4 : S100000x1.Idx → BitVec 32) k := by
  obtain ⟨e0, e1, -⟩ := idx_facts0 t
  show (V c main_v4 : S100000x1.Idx → BitVec 32) (((cfg0.win 0).blk t).view.emb x) = _
  refine congrArg _ (funext fun a => Fin.ext ?_)
  match a with
  | ⟨0, _⟩ => show win0_0.index t (0 : Fin 2) * 2000 + 1 * (x 0).val = (k 0).val; rw [e0, hk0]; omega
  | ⟨1, _⟩ => show win0_0.index t (1 : Fin 2) * 1 + 1 * (x 1).val = (k 1).val; rw [e1, hk1]; omega

theorem iblk0_1_apply (t : Fin cfg0.N) (x : S2000x1.Idx) (k : S100000x1.Idx)
    (hk0 : (k 0).val = t.val * 2000 + (x 0).val) (hk1 : (k 1).val = (x 1).val) :
    (iblk0 V c 1 t : Vec Ideal S2000x1 .i32) x = (V c main_v5 : S100000x1.Idx → BitVec 32) k := by
  obtain ⟨-, -, e0, e1, -⟩ := idx_facts0 t
  show (V c main_v5 : S100000x1.Idx → BitVec 32) (((cfg0.win 1).blk t).view.emb x) = _
  refine congrArg _ (funext fun a => Fin.ext ?_)
  match a with
  | ⟨0, _⟩ => show win0_1.index t (0 : Fin 2) * 2000 + 1 * (x 0).val = (k 0).val; rw [e0, hk0]; omega
  | ⟨1, _⟩ => show win0_1.index t (1 : Fin 2) * 1 + 1 * (x 1).val = (k 1).val; rw [e1, hk1]; omega

theorem iblk0_2_apply (t : Fin cfg0.N) (x : S64x64.Idx) :
    (iblk0 V c 2 t : Vec Ideal S64x64 .f32) x = (V c main_arg4 : S64x64.Idx → EReal) x := by
  obtain ⟨-, -, -, -, e0, e1, -⟩ := idx_facts0 t
  exact congrArg _ (Shape.idx_ext₂ (win0_2.rect_emb_val_of_index_zero t 0 e0 _) (win0_2.rect_emb_val_of_index_zero t 1 e1 _))

theorem iblk0_3_apply (t : Fin cfg0.N) (x : S16x64.Idx) :
    (iblk0 V c 3 t : Vec Ideal S16x64 .f32) x = (V c main_arg5 : S16x64.Idx → EReal) x := by
  obtain ⟨-, -, -, -, -, -, e0, e1, -⟩ := idx_facts0 t
  exact congrArg _ (Shape.idx_ext₂ (win0_3.rect_emb_val_of_index_zero t 0 e0 _) (win0_3.rect_emb_val_of_index_zero t 1 e1 _))

theorem block_value (deg lab : Fin 100000 → BitVec 32) (Ed : Cert.Spec.Mat 64 64) (El : Cert.Spec.Mat 16 64)
    (x0 x1 : Vec Ideal S2000x1 .i32) (x2 : Vec Ideal S64x64 .f32) (x3 : Vec Ideal S16x64 .f32)
    (T : ℕ) (hT : T < 50)
    (h0 : ∀ r : Fin 2000, x0 (ix2 r 0) = deg ⟨T * 2000 + r.val, by have := r.isLt; omega⟩)
    (h1 : ∀ r : Fin 2000, x1 (ix2 r 0) = lab ⟨T * 2000 + r.val, by have := r.isLt; omega⟩)
    (h2 : ∀ a b, x2 (ix2 a b) = Ed a b) (h3 : ∀ a b, x3 (ix2 a b) = El a b)
    (j : S2000x128.Idx) (i : S100000x128.Idx) (hi0 : (i 0).val = T * 2000 + (j 0).val) (hi1 : (i 1).val = (j 1).val) :
    k0_pay1 (F := Ideal) x0 x1 x2 x3 j = Cert.Spec.embHot deg lab Ed El (i 0) (i 1) := by
  refine ((congrArg (k0_pay1 (F := Ideal) x0 x1 x2 x3) (eq_ix2 j)).trans (pay_apply x0 x1 x2 x3 (j 0) (j 1))).trans ?_
  have e2 : Cert.Spec.mat x2 = Ed := funext fun a => funext fun b => h2 a b
  have e3 : Cert.Spec.mat x3 = El := funext fun a => funext fun b => h3 a b
  have ej : (j 1 : Fin 128) = i 1 := Fin.ext hi1.symm
  rw [e2, e3, ej]
  refine embHot_congr _ _ deg lab Ed El (j 0) (i 0) (i 1) ?_ ?_
  · exact (h0 (j 0)).trans (congrArg deg (Fin.ext hi0.symm))
  · exact (h1 (j 0)).trans (congrArg lab (Fin.ext hi0.symm))

abbrev G0_4 : S100000x128.Idx → EReal := fun i =>
  Cert.Spec.embHot (fun r => (V c main_v4 : S100000x1.Idx → BitVec 32) (ix2 r 0))
    (fun r => (V c main_v5 : S100000x1.Idx → BitVec 32) (ix2 r 0))
    (Cert.Spec.mat (V c main_arg4 : S64x64.Idx → EReal)) (Cert.Spec.mat (V c main_arg5 : S16x64.Idx → EReal)) (i 0) (i 1)

theorem flushed0_4_eq (t : Fin cfg0.N) :
    (dat0 V c).flushed 4 t = ((cfg0.win 4).blk t).view.read (Elt Ideal) (G0_4 V c) := by
  show (cfg0.win 4).cut (grid0.coords t) ((dat0 V c).after 4 t) = _
  rw [after0_4]
  unfold out0_4
  rw [View.canon_unit_zero hzR0]
  simp only [View.ld_unit_zero (S := S2000x1) hzR0, View.ld_unit_zero (S := S64x64) hzR0, View.ld_unit_zero (S := S16x64) hzR0]
  obtain ⟨-, -, -, -, -, -, -, -, e8, e9⟩ := idx_facts0 t
  have ht : t.val < 50 := by have := t.isLt; have hN : cfg0.N = 50 := N_0; omega
  funext j
  show k0_pay1 (F := Ideal) (iblk0 V c 0 t) (iblk0 V c 1 t) (iblk0 V c 2 t) (iblk0 V c 3 t) j
    = G0_4 V c (((cfg0.win 4).blk t).view.emb j)
  refine block_value (fun r => (V c main_v4 : S100000x1.Idx → BitVec 32) (ix2 r 0))
    (fun r => (V c main_v5 : S100000x1.Idx → BitVec 32) (ix2 r 0))
    (Cert.Spec.mat (V c main_arg4 : S64x64.Idx → EReal)) (Cert.Spec.mat (V c main_arg5 : S16x64.Idx → EReal))
    (iblk0 V c 0 t) (iblk0 V c 1 t) (iblk0 V c 2 t) (iblk0 V c 3 t) t.val ht
    (fun r => iblk0_0_apply V c t (ix2 r 0) (ix2 ⟨t.val * 2000 + r.val, by have := r.isLt; omega⟩ 0) rfl rfl)
    (fun r => iblk0_1_apply V c t (ix2 r 0) (ix2 ⟨t.val * 2000 + r.val, by have := r.isLt; omega⟩ 0) rfl rfl)
    (fun a b => iblk0_2_apply V c t (ix2 a b)) (fun a b => iblk0_3_apply V c t (ix2 a b))
    j (((cfg0.win 4).blk t).view.emb j) ?_ ?_
  · show win0_4.index t (0 : Fin 2) * 2000 + 1 * (j 0).val = t.val * 2000 + (j 0).val
    rw [e8]; omega
  · show win0_4.index t (1 : Fin 2) * 128 + 1 * (j 1).val = (j 1).val
    rw [e9]; omega

theorem mem_blk0_4 (t : Fin cfg0.N) (i : S100000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v6).slice (win0_4.rect t)).set ↔ _
  rw [View.set_slice_whole, Rect.mem_set_unit]
  exact Iff.rfl

theorem covered0_4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 50 := N_0
  have hlt : (i 0).val / 2000 < cfg0.N := by omega
  obtain ⟨-, -, -, -, -, -, -, -, e8, e9⟩ := idx_facts0 ⟨(i 0).val / 2000, hlt⟩
  refine ⟨⟨(i 0).val / 2000, hlt⟩, flush0_4 _, ?_⟩
  rw [mem_blk0_4]
  intro a
  match a with
  | ⟨0, _⟩ =>
    show win0_4.index ⟨(i 0).val / 2000, hlt⟩ (0 : Fin 2) * 2000 ≤ (i 0).val
      ∧ (i 0).val < win0_4.index ⟨(i 0).val / 2000, hlt⟩ (0 : Fin 2) * 2000 + 2000
    rw [e8]
    show (i 0).val / 2000 * 2000 ≤ (i 0).val ∧ (i 0).val < (i 0).val / 2000 * 2000 + 2000
    omega
  | ⟨1, _⟩ =>
    show win0_4.index ⟨(i 0).val / 2000, hlt⟩ (1 : Fin 2) * 128 ≤ (i 1).val
      ∧ (i 1).val < win0_4.index ⟨(i 0).val / 2000, hlt⟩ (1 : Fin 2) * 128 + 128
    rw [e9]
    omega

theorem final0_4 : (dat0 V c).arrAt 4 cfg0.N = G0_4 V c :=
  (dat0 V c).arrAt_eq_of_cover 4 (G0_4 V c) (fun t _ => flushed0_4_eq V c t) covered0_4

theorem arr0_4 (p : Fin 100000) (q : Fin 128) :
    (dat0 (F := Ideal) V c).arrAt 4 cfg0.N (ix2 p q)
      = Cert.Spec.embHot (fun r => V c main_v4 (ix2 r 0)) (fun r => V c main_v5 (ix2 r 0))
          (Cert.Spec.mat (V c main_arg4)) (Cert.Spec.mat (V c main_arg5)) p q :=
  congrFun (final0_4 V c) (ix2 p q)

end Cert.KernelIdeal.Val

end
-- ==== Proof.ValKI.Reg1Pieces.lean ====
import proofs.«402365_j6828998001463_1_alg».proof.Proof.FrameKI.Reg1
import Idealize.ShloMosaic.Lib.Pipeline.Value
import Idealize.ShloMosaic.Lib.ValueIdx
import Idealize.ShloMosaic.Lib.Tactic

set_option maxRecDepth 16384

noncomputable section

open scoped BigOperators

namespace Cert.KernelIdeal.Val.R1

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F]

theorem hz1 : (![0, 0] : Fin 2 → Nat) = fun _ => 0 := funext fun a => by fin_cases a <;> rfl

section
variable (c : Dev nD) (i : grid1.Coords) (arg1 : Memref sig .tc .vmem S5000x3 .f32) (harg1 : arg1.IsWhole) (arg2 : Memref sig .tc .vmem S3x3 .f32) (harg2 : arg2.IsWhole) (arg3 : Memref sig .tc .vmem S1x3 .f32) (harg3 : arg3.IsWhole) (arg4 : Memref sig .tc .vmem S3x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S2x64 .f32) (harg7 : arg7.IsWhole) (arg8 : Memref sig .tc .vmem S1x64 .f32) (harg8 : arg8.IsWhole) (arg9 : Memref sig .tc .vmem S1x64 .f32) (harg9 : arg9.IsWhole)

section
variable (hc0 : cond1_0 i) (hc1 : ¬cond1_1 i) (x1 : Vec F S5000x3 .f32) (x2 : Vec F S3x3 .f32) (x3 : Vec F S1x3 .f32) (x4 : Vec F S3x64 .f32) (x5 : Vec F S1x64 .f32)

theorem r1_out5_A :
    (outs1_A c i arg1 harg1 arg2 harg2 arg3 harg3 arg4 harg4 arg5 harg5 arg6 harg6 arg7 harg7 arg8 harg8 arg9 harg9 hc0 hc1 x1 x2 x3 x4 x5).1 = k1_pay6 x1 x2 x3 x4 x5 := by
  dsimp only [outs1_A, reads1]
  rw [View.read_writes_eq_canon _ _ _ (covers1_A ..).1]
  unfold kernelRun1_A
  dsimp only
  sl_unfold_words
  rw [View.canon_unit_zero hz1]
  simp only [View.readAt_eq_ld, harg1.read_unread, harg2.read_unread, harg3.read_unread, harg4.read_unread, harg5.read_unread, View.ld_unit_zero (S := S5000x3) hz1, View.ld_unit_zero (S := S3x3) hz1, View.ld_unit_zero (S := S1x3) hz1, View.ld_unit_zero (S := S3x64) hz1, View.ld_unit_zero (S := S1x64) hz1]

theorem r1_acc0_A :
    (outs1_A c i arg1 harg1 arg2 harg2 arg3 harg3 arg4 harg4 arg5 harg5 arg6 harg6 arg7 harg7 arg8 harg8 arg9 harg9 hc0 hc1 x1 x2 x3 x4 x5).2.2.1 = k1_pay7 x1 x2 x3 x4 x5 (k1_pay4 (F := F)) := by
  dsimp only [outs1_A, reads1]
  rw [View.read_writes_eq_canon _ _ _ (covers1_A ..).2.1]
  unfold kernelRun1_A
  dsimp only
  sl_unfold_words
  rw [View.canon_cons_unit_zero (S := S1x64) hz1]
  simp only [View.readAt_eq_ld, harg1.read_unread, harg2.read_unread, harg3.read_unread, harg4.read_unread, harg5.read_unread, View.ld_unit_zero (S := S5000x3) hz1, View.ld_unit_zero (S := S3x3) hz1, View.ld_unit_zero (S := S1x3) hz1, View.ld_unit_zero (S := S3x64) hz1, View.ld_unit_zero (S := S1x64) hz1, View.readCov_unit_zero (S := S1x64) _ hz1]

theorem r1_acc1_A :
    (outs1_A c i arg1 harg1 arg2 harg2 arg3 harg3 arg4 harg4 arg5 harg5 arg6 harg6 arg7 harg7 arg8 harg8 arg9 harg9 hc0 hc1 x1 x2 x3 x4 x5).2.2.2 = k1_pay1 (k1_pay6 x1 x2 x3 x4 x5) (k1_pay5 (F := F)) := by
  dsimp only [outs1_A, reads1]
  rw [View.read_writes_eq_canon _ _ _ (covers1_A ..).2.2]
  unfold kernelRun1_A
  dsimp only
  sl_unfold_words
  rw [View.canon_cons_unit_zero (S := S1x64) hz1]
  simp only [View.readAt_eq_ld, harg1.read_unread, harg2.read_unread, harg3.read_unread, harg4.read_unread, harg5.read_unread, View.ld_unit_zero (S := S5000x3) hz1, View.ld_unit_zero (S := S3x3) hz1, View.ld_unit_zero (S := S1x3) hz1, View.ld_unit_zero (S := S3x64) hz1, View.ld_unit_zero (S := S1x64) hz1, View.readCov_unit_zero (S := S1x64) _ hz1]

end

section
variable (hc0 : ¬cond1_0 i) (hc1 : ¬cond1_1 i) (x1 : Vec F S5000x3 .f32) (x2 : Vec F S3x3 .f32) (x3 : Vec F S1x3 .f32) (x4 : Vec F S3x64 .f32) (x5 : Vec F S1x64 .f32) (xs0 : Vec F S1x64 .f32) (xs1 : Vec F S1x64 .f32)

theorem r1_out5_B :
    (outs1_B c i arg1 harg1 arg2 harg2 arg3 harg3 arg4 harg4 arg5 harg5 arg6 harg6 arg7 harg7 arg8 harg8 arg9 harg9 hc0 hc1 x1 x2 x3 x4 x5 xs0 xs1).1 = k1_pay6 x1 x2 x3 x4 x5 := by
  dsimp only [outs1_B, reads1]
  rw [View.read_writes_eq_canon _ _ _ (covers1_B ..).1]
  unfold kernelRun1_B
  dsimp only
  sl_unfold_words
  rw [View.canon_unit_zero hz1]
  simp only [View.readAt_eq_ld, harg1.read_unread, harg2.read_unread, harg3.read_unread, harg4.read_unread, harg5.read_unread, View.ld_unit_zero (S := S5000x3) hz1, View.ld_unit_zero (S := S3x3) hz1, View.ld_unit_zero (S := S1x3) hz1, View.ld_unit_zero (S := S3x64) hz1, View.ld_unit_zero (S := S1x64) hz1]

theorem r1_acc0_B :
    (outs1_B c i arg1 harg1 arg2 harg2 arg3 harg3 arg4 harg4 arg5 harg5 arg6 harg6 arg7 harg7 arg8 harg8 arg9 harg9 hc0 hc1 x1 x2 x3 x4 x5 xs0 xs1).2.2.1 = k1_pay7 x1 x2 x3 x4 x5 xs0 := by
  dsimp only [outs1_B, reads1]
  rw [View.read_writes_eq_canon _ _ _ (covers1_B ..).2.1]
  unfold kernelRun1_B
  dsimp only
  sl_unfold_words
  rw [View.canon_unit_zero hz1]
  simp only [View.readAt_eq_ld, harg1.read_unread, harg2.read_unread, harg3.read_unread, harg4.read_unread, harg5.read_unread, harg8.read_unread, View.ld_unit_zero (S := S5000x3) hz1, View.ld_unit_zero (S := S3x3) hz1, View.ld_unit_zero (S := S1x3) hz1, View.ld_unit_zero (S := S3x64) hz1, View.ld_unit_zero (S := S1x64) hz1]

theorem r1_acc1_B :
    (outs1_B c i arg1 harg1 arg2 harg2 arg3 harg3 arg4 harg4 arg5 harg5 arg6 harg6 arg7 harg7 arg8 harg8 arg9 harg9 hc0 hc1 x1 x2 x3 x4 x5 xs0 xs1).2.2.2 = k1_pay1 (k1_pay6 x1 x2 x3 x4 x5) xs1 := by
  dsimp only [outs1_B, reads1]
  rw [View.read_writes_eq_canon _ _ _ (covers1_B ..).2.2]
  unfold kernelRun1_B
  dsimp only
  sl_unfold_words
  rw [View.canon_unit_zero hz1]
  simp only [View.readAt_eq_ld, harg1.read_unread, harg2.read_unread, harg3.read_unread, harg4.read_unread, harg5.read_unread, harg9.read_unread, View.ld_unit_zero (S := S5000x3) hz1, View.ld_unit_zero (S := S3x3) hz1, View.ld_unit_zero (S := S1x3) hz1, View.ld_unit_zero (S := S3x64) hz1, View.ld_unit_zero (S := S1x64) hz1]

end

section
variable (hc0 : ¬cond1_0 i) (hc1 : cond1_1 i) (x1 : Vec F S5000x3 .f32) (x2 : Vec F S3x3 .f32) (x3 : Vec F S1x3 .f32) (x4 : Vec F S3x64 .f32) (x5 : Vec F S1x64 .f32) (xs0 : Vec F S1x64 .f32) (xs1 : Vec F S1x64 .f32)

theorem r1_out5_C :
    (outs1_C c i arg1 harg1 arg2 harg2 arg3 harg3 arg4 harg4 arg5 harg5 arg6 harg6 arg7 harg7 arg8 harg8 arg9 harg9 hc0 hc1 x1 x2 x3 x4 x5 xs0 xs1).1 = k1_pay6 x1 x2 x3 x4 x5 := by
  dsimp only [outs1_C, reads1]
  rw [View.read_writes_eq_canon _ _ _ (covers1_C ..).1]
  unfold kernelRun1_C
  dsimp only
  sl_unfold_words
  rw [View.canon_unit_zero hz1]
  simp only [View.readAt_eq_ld, harg1.read_unread, harg2.read_unread, harg3.read_unread, harg4.read_unread, harg5.read_unread, View.ld_unit_zero (S := S5000x3) hz1, View.ld_unit_zero (S := S3x3) hz1, View.ld_unit_zero (S := S1x3) hz1, View.ld_unit_zero (S := S3x64) hz1, View.ld_unit_zero (S := S1x64) hz1]

theorem r1_acc0_C :
    (outs1_C c i arg1 harg1 arg2 harg2 arg3 harg3 arg4 harg4 arg5 harg5 arg6 harg6 arg7 harg7 arg8 harg8 arg9 harg9 hc0 hc1 x1 x2 x3 x4 x5 xs0 xs1).2.2.1 = k1_pay7 x1 x2 x3 x4 x5 xs0 := by
  dsimp only [outs1_C, reads1]
  rw [View.read_writes_eq_canon _ _ _ (covers1_C ..).2.1]
  unfold kernelRun1_C
  dsimp only
  sl_unfold_words
  rw [View.canon_unit_zero hz1]
  simp only [View.readAt_eq_ld, harg1.read_unread, harg2.read_unread, harg3.read_unread, harg4.read_unread, harg5.read_unread, harg8.read_unread, View.ld_unit_zero (S := S5000x3) hz1, View.ld_unit_zero (S := S3x3) hz1, View.ld_unit_zero (S := S1x3) hz1, View.ld_unit_zero (S := S3x64) hz1, View.ld_unit_zero (S := S1x64) hz1]

theorem r1_acc1_C :
    (outs1_C c i arg1 harg1 arg2 harg2 arg3 harg3 arg4 harg4 arg5 harg5 arg6 harg6 arg7 harg7 arg8 harg8 arg9 harg9 hc0 hc1 x1 x2 x3 x4 x5 xs0 xs1).2.2.2 = k1_pay1 (k1_pay6 x1 x2 x3 x4 x5) xs1 := by
  dsimp only [outs1_C, reads1]
  rw [View.read_writes_eq_canon _ _ _ (covers1_C ..).2.2]
  unfold kernelRun1_C
  dsimp only
  sl_unfold_words
  rw [View.canon_unit_zero hz1]
  simp only [View.readAt_eq_ld, harg1.read_unread, harg2.read_unread, harg3.read_unread, harg4.read_unread, harg5.read_unread, harg9.read_unread, View.ld_unit_zero (S := S5000x3) hz1, View.ld_unit_zero (S := S3x3) hz1, View.ld_unit_zero (S := S1x3) hz1, View.ld_unit_zero (S := S3x64) hz1, View.ld_unit_zero (S := S1x64) hz1]

set_option maxHeartbeats 1600000 in
theorem r1_stats0_C (q : Fin 64) :
    (outs1_C c i arg1 harg1 arg2 harg2 arg3 harg3 arg4 harg4 arg5 harg5 arg6 harg6 arg7 harg7 arg8 harg8 arg9 harg9 hc0 hc1 x1 x2 x3 x4 x5 xs0 xs1).2.1 (ix2 0 q) = k1_pay2 (k1_pay7 x1 x2 x3 x4 x5 xs0) (ix2 0 q) := by
  dsimp only [outs1_C, reads1]
  rw [View.read_writes_eq_canon _ _ _ (fun _ => cover1_C_6 ..)]
  unfold kernelRun1_C
  dsimp only
  sl_unfold_words
  have hnot : (ix2 0 q : S2x64.Idx) ∉ (Rect.unit (s := S2x64) ![1, 0] S1x64.size inb_S2x64_S1x64_1_0).set := by
    rw [Rect.mem_set_unit]; intro h
    have h10 : (1 : ℕ) ≤ 0 := (h 0).1
    omega
  have hemb : (ix2 0 q : S2x64.Idx) = (Rect.unit (s := S2x64) ![0, 0] S1x64.size inb_S2x64_S1x64_0_0).emb (ix2 0 q) := by
    funext a; apply Fin.ext
    match a with
    | ⟨0, _⟩ => rfl
    | ⟨1, _⟩ => show q.val = 0 + 1 * q.val; omega
  refine (View.canon_cons_of_not_mem _ _ hnot).trans ?_
  refine (congrArg (View.canon _) hemb).trans ?_
  refine (View.canon_cons_emb _ _ _ _).trans ?_
  simp only [View.readAt_eq_ld, harg1.read_unread, harg2.read_unread, harg3.read_unread, harg4.read_unread, harg5.read_unread, harg8.read_unread, View.ld_unit_zero (S := S5000x3) hz1, View.ld_unit_zero (S := S3x3) hz1, View.ld_unit_zero (S := S1x3) hz1, View.ld_unit_zero (S := S3x64) hz1, View.ld_unit_zero (S := S1x64) hz1, View.readCov_unit_zero (S := S1x64) _ hz1]

set_option maxHeartbeats 1600000 in
theorem r1_stats1_C (q : Fin 64) :
    (outs1_C c i arg1 harg1 arg2 harg2 arg3 harg3 arg4 harg4 arg5 harg5 arg6 harg6 arg7 harg7 arg8 harg8 arg9 harg9 hc0 hc1 x1 x2 x3 x4 x5 xs0 xs1).2.1 (ix2 1 q) = k1_pay3 (k1_pay1 (k1_pay6 x1 x2 x3 x4 x5) xs1) (ix2 0 q) := by
  dsimp only [outs1_C, reads1]
  rw [View.read_writes_eq_canon _ _ _ (fun _ => cover1_C_6 ..)]
  unfold kernelRun1_C
  dsimp only
  sl_unfold_words
  have hemb : (ix2 1 q : S2x64.Idx) = (Rect.unit (s := S2x64) ![1, 0] S1x64.size inb_S2x64_S1x64_1_0).emb (ix2 0 q) := by
    funext a; apply Fin.ext
    match a with
    | ⟨0, _⟩ => rfl
    | ⟨1, _⟩ => show q.val = 0 + 1 * q.val; omega
  refine (congrArg (View.canon _) hemb).trans ?_
  refine (View.canon_cons_emb _ _ _ _).trans ?_
  simp only [View.readAt_eq_ld, harg1.read_unread, harg2.read_unread, harg3.read_unread, harg4.read_unread, harg5.read_unread, harg9.read_unread, View.ld_unit_zero (S := S5000x3) hz1, View.ld_unit_zero (S := S3x3) hz1, View.ld_unit_zero (S := S1x3) hz1, View.ld_unit_zero (S := S3x64) hz1, View.ld_unit_zero (S := S1x64) hz1, View.readCov_unit_zero (S := S1x64) _ hz1]

end

end

end Cert.KernelIdeal.Val.R1

end
-- ==== Proof.ValKI.Reg1Outs.lean ====
import proofs.«402365_j6828998001463_1_alg».proof.Proof.ValKI.Reg1Pieces

set_option maxRecDepth 16384

noncomputable section

open scoped BigOperators

namespace Cert.KernelIdeal.Val.R1

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F]
variable (V : (c : Dev nD) → (b : Ref sig .tc) → Buf (Elt F) ((c : Thread nD τ).loc b))

theorem r1_outs5_eq (c : Dev nD) (t : Fin cfg1.N) : (outsAt1 V c t.val t.isLt).1 = k1_pay6 (iblk1 V c 0 t) (iblk1 V c 1 t) (iblk1 V c 2 t) (iblk1 V c 3 t) (iblk1 V c 4 t) := by
  by_cases h0 : t.val = 0
  · rw [outsAt1_eq V c t]; unfold step1; rw [dif_pos h0]
    exact r1_out5_A ..
  · by_cases h1 : t.val = 19
    · rw [outsAt1_eq V c t]; unfold step1; rw [dif_neg h0, dif_pos h1]
      exact r1_out5_C ..
    · rw [outsAt1_eq V c t]; unfold step1; rw [dif_neg h0, dif_neg h1]
      exact r1_out5_B ..

theorem r1_accs_zero (c : Dev nD) (t : Fin cfg1.N) (h0 : t.val = 0) :
    (outsAt1 V c t.val t.isLt).2.2.1 = k1_pay7 (iblk1 V c 0 t) (iblk1 V c 1 t) (iblk1 V c 2 t) (iblk1 V c 3 t) (iblk1 V c 4 t) (k1_pay4 (F := F))
    ∧ (outsAt1 V c t.val t.isLt).2.2.2 = k1_pay1 (k1_pay6 (iblk1 V c 0 t) (iblk1 V c 1 t) (iblk1 V c 2 t) (iblk1 V c 3 t) (iblk1 V c 4 t)) (k1_pay5 (F := F)) := by
  rw [outsAt1_eq V c t]; unfold step1; rw [dif_pos h0]
  exact ⟨r1_acc0_A .., r1_acc1_A ..⟩

theorem r1_accs_pos (c : Dev nD) (t : Fin cfg1.N) (h0 : ¬t.val = 0) :
    (outsAt1 V c t.val t.isLt).2.2.1 = k1_pay7 (iblk1 V c 0 t) (iblk1 V c 1 t) (iblk1 V c 2 t) (iblk1 V c 3 t) (iblk1 V c 4 t) (outsAt1 V c (t.val - 1) (Nat.lt_of_le_of_lt (Nat.sub_le _ _) t.isLt)).2.2.1
    ∧ (outsAt1 V c t.val t.isLt).2.2.2 = k1_pay1 (k1_pay6 (iblk1 V c 0 t) (iblk1 V c 1 t) (iblk1 V c 2 t) (iblk1 V c 3 t) (iblk1 V c 4 t)) (outsAt1 V c (t.val - 1) (Nat.lt_of_le_of_lt (Nat.sub_le _ _) t.isLt)).2.2.2 := by
  by_cases h1 : t.val = 19
  · rw [outsAt1_eq V c t]; unfold step1; rw [dif_neg h0, dif_pos h1]
    exact ⟨r1_acc0_C .., r1_acc1_C ..⟩
  · rw [outsAt1_eq V c t]; unfold step1; rw [dif_neg h0, dif_neg h1]
    exact ⟨r1_acc0_B .., r1_acc1_B ..⟩

theorem r1_stats_row0 (c : Dev nD) (t : Fin cfg1.N) (h1 : t.val = 19) (q : Fin 64) :
    (outsAt1 V c t.val t.isLt).2.1 (ix2 0 q) = k1_pay2 (outsAt1 V c t.val t.isLt).2.2.1 (ix2 0 q) := by
  have h0 : ¬t.val = 0 := by omega
  rw [(r1_accs_pos V c t h0).1]
  rw [outsAt1_eq V c t]; unfold step1; rw [dif_neg h0, dif_pos h1]
  exact r1_stats0_C ..
theorem r1_stats_row1 (c : Dev nD) (t : Fin cfg1.N) (h1 : t.val = 19) (q : Fin 64) :
    (outsAt1 V c t.val t.isLt).2.1 (ix2 1 q) = k1_pay3 (outsAt1 V c t.val t.isLt).2.2.2 (ix2 0 q) := by
  have h0 : ¬t.val = 0 := by omega
  rw [(r1_accs_pos V c t h0).2]
  rw [outsAt1_eq V c t]; unfold step1; rw [dif_neg h0, dif_pos h1]
  exact r1_stats1_C ..

end Cert.KernelIdeal.Val.R1

end
-- ==== Proof.ValKI.Reg1Pay.lean ====
import proofs.«402365_j6828998001463_1_alg».proof.Proof.Gen.KernelIdeal.Skeleton
import proofs.«402365_j6828998001463_1_alg».proof.Proof.Spec
import proofs.«402365_j6828998001463_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val.R1

open Cert.KernelIdeal Cert.KernelIdeal.Gen
open Idealize.ShloMosaic Idealize.ShloMosaic.ValueIdx

theorem dot1a_eq : dot_S5000x3_S3x3_S5000x3_1_0_0_1_n_n = DotDims.plain 5000 3 3 := rfl
theorem dot1b_eq : dot_S5000x3_S3x64_S5000x64_1_0_0_1_n_n = DotDims.plain 5000 3 64 := rfl

theorem lrelu1_apply (a : FVec Ideal S5000x3 .f32) (i : S5000x3.Idx) :
    select (cmpf .oge a (broadcast S5000x3 (Scalar.ofBits .f32 0x00000000#32))) a
        (mulf (broadcast S5000x3 (Scalar.ofBits .f32 0x3C23D70A#32)) a) i = Cert.Spec.lrelu (a i) := by
  show Scalar.select (FloatOps.cmpf .oge (a i) (Scalar.ofBits .f32 0x00000000#32)) (a i) (Scalar.ofBits .f32 0x3C23D70A#32 * a i) = _
  unfold Cert.Spec.lrelu Cert.Spec.zero Cert.Spec.slope Scalar.select
  rfl

theorem lin1a_apply (x1 : FVec Ideal S5000x3 .f32) (x2 : FVec Ideal S3x3 .f32) (x3 : FVec Ideal S1x3 .f32) (p : Fin 5000) (k : Fin 3) :
    addf (matmul (F := Ideal) dot_S5000x3_S3x3_S5000x3_1_0_0_1_n_n none (truncf .bf16 x1 bitsLt_bf16_f32) (truncf .bf16 x2 bitsLt_bf16_f32)
        (constant (F := Ideal) S5000x3 .f32 0x00000000#32)) (broadcastTo S5000x3 x3 broadcasts_S1x3_S5000x3) (ix2 p k)
      = (∑ l : Fin 3, x1 (ix2 p l) * x2 (ix2 l k)) + x3 (ix2 0 k) := by
  show FloatOps.matmul (F := Ideal) dot_S5000x3_S3x3_S5000x3_1_0_0_1_n_n none (truncf .bf16 x1 bitsLt_bf16_f32) (truncf .bf16 x2 bitsLt_bf16_f32)
        (constant (F := Ideal) S5000x3 .f32 0x00000000#32) (ix2 p k) + broadcastTo S5000x3 x3 broadcasts_S1x3_S5000x3 (ix2 p k) = _
  rw [dot1a_eq]
  refine congrArg₂ (· + ·) (RowDims.matmul_plain_zero_apply none _ _ p k) (broadcastTo_1b_ab_apply x3 _ p k)

theorem lin1b_apply (y : FVec Ideal S5000x3 .f32) (x4 : FVec Ideal S3x64 .f32) (x5 : FVec Ideal S1x64 .f32) (p : Fin 5000) (q : Fin 64) :
    addf (matmul (F := Ideal) dot_S5000x3_S3x64_S5000x64_1_0_0_1_n_n none (truncf .bf16 y bitsLt_bf16_f32) (truncf .bf16 x4 bitsLt_bf16_f32)
        (constant (F := Ideal) S5000x64 .f32 0x00000000#32)) (broadcastTo S5000x64 x5 broadcasts_S1x64_S5000x64) (ix2 p q)
      = (∑ k : Fin 3, y (ix2 p k) * x4 (ix2 k q)) + x5 (ix2 0 q) := by
  show FloatOps.matmul (F := Ideal) dot_S5000x3_S3x64_S5000x64_1_0_0_1_n_n none (truncf .bf16 y bitsLt_bf16_f32) (truncf .bf16 x4 bitsLt_bf16_f32)
        (constant (F := Ideal) S5000x64 .f32 0x00000000#32) (ix2 p q) + broadcastTo S5000x64 x5 broadcasts_S1x64_S5000x64 (ix2 p q) = _
  rw [dot1b_eq]
  refine congrArg₂ (· + ·) (RowDims.matmul_plain_zero_apply none _ _ p q) (broadcastTo_1b_ab_apply x5 _ p q)

theorem r1_pay6_apply (x1 : Vec Ideal S5000x3 .f32) (x2 : Vec Ideal S3x3 .f32) (x3 : Vec Ideal S1x3 .f32) (x4 : Vec Ideal S3x64 .f32)
    (x5 : Vec Ideal S1x64 .f32) (p : Fin 5000) (q : Fin 64) :
    k1_pay6 (F := Ideal) x1 x2 x3 x4 x5 (ix2 p q)
      = Cert.Spec.lin (Cert.Spec.mat x1) (Cert.Spec.mat x2) (fun k => x3 (ix2 0 k)) (Cert.Spec.mat x4) (fun k => x5 (ix2 0 k)) p q := by
  unfold k1_pay6
  simp only [shapeCast_self]
  refine (lin1b_apply _ x4 x5 p q).trans ?_
  unfold Cert.Spec.lin Cert.Spec.mat
  refine congrArg₂ (· + ·) (Finset.sum_congr rfl fun k _ => congrArg₂ (· * ·) ?_ rfl) rfl
  refine (lrelu1_apply _ (ix2 p k)).trans (congrArg Cert.Spec.lrelu ?_)
  exact lin1a_apply x1 x2 x3 p k

theorem r1_row_cast_apply (v : Vec Ideal S1x64 .f32) (q : Fin 64) :
    shapeCast S1x64 (shapeCast S64 v shapeCasts_S1x64_S64) shapeCasts_S64_S1x64 (ix2 0 q) = v (ix2 0 q) := by
  rw [shapeCast_a_1a_apply, shapeCast_1a_a_apply]

theorem r1_colsum_apply (b : FVec Ideal S5000x64 .f32) (hacc : (0x00000000#32 : BitVec 32) = 0x00000000#32) (q : Fin 64) :
    shapeCast S1x64 (multiReduction (F := Ideal) .add [0] S64 b 0x00000000#32 reduces_S5000x64_S64 (.inl rfl) hacc) shapeCasts_S64_S1x64 (ix2 0 q)
      = ∑ p : Fin 5000, b (ix2 p q) := by
  refine (shapeCast_a_1a_apply _ _ 0 q).trans ?_
  refine (Ideal.multiReduction_add_single b 0x00000000#32 reduces_S5000x64_S64 (.inl rfl) hacc (ix1 q)).trans ?_
  refine Finset.sum_congr rfl fun p _ => congrArg b ?_
  funext a
  match a with
  | ⟨0, _⟩ => rfl
  | ⟨1, _⟩ => rfl

theorem r1_pay7_apply (x1 : Vec Ideal S5000x3 .f32) (x2 : Vec Ideal S3x3 .f32) (x3 : Vec Ideal S1x3 .f32) (x4 : Vec Ideal S3x64 .f32)
    (x5 : Vec Ideal S1x64 .f32) (a : Vec Ideal S1x64 .f32) (q : Fin 64) :
    k1_pay7 (F := Ideal) x1 x2 x3 x4 x5 a (ix2 0 q) = a (ix2 0 q) + ∑ p : Fin 5000, k1_pay6 (F := Ideal) x1 x2 x3 x4 x5 (ix2 p q) := by
  unfold k1_pay7
  simp only [shapeCast_self]
  exact congrArg (a (ix2 0 q) + ·) (r1_colsum_apply _ rfl q)

theorem r1_pay1_apply (b : FVec Ideal S5000x64 .f32) (a : Vec Ideal S1x64 .f32) (q : Fin 64) :
    k1_pay1 (F := Ideal) b a (ix2 0 q) = a (ix2 0 q) + ∑ p : Fin 5000, b (ix2 p q) * b (ix2 p q) := by
  unfold k1_pay1
  simp only [shapeCast_self]
  exact congrArg (a (ix2 0 q) + ·) (r1_colsum_apply (mulf b b) rfl q)

theorem r1_pay4_apply (q : Fin 64) : k1_pay4 (F := Ideal) (ix2 0 q) = 0 := by
  unfold k1_pay4
  simp only [shapeCast_self]
  show Ideal.ofBits .f32 0x00000000#32 = 0
  exact Ideal.ofBits_zero_f32
theorem r1_pay5_apply (q : Fin 64) : k1_pay5 (F := Ideal) (ix2 0 q) = 0 := by
  unfold k1_pay5
  simp only [shapeCast_self]
  show Ideal.ofBits .f32 0x00000000#32 = 0
  exact Ideal.ofBits_zero_f32

theorem r1_pay2_apply (a : Vec Ideal S1x64 .f32) (q : Fin 64) : k1_pay2 (F := Ideal) a (ix2 0 q) = a (ix2 0 q) := by
  unfold k1_pay2
  exact r1_row_cast_apply a q
theorem r1_pay3_apply (a : Vec Ideal S1x64 .f32) (q : Fin 64) : k1_pay3 (F := Ideal) a (ix2 0 q) = a (ix2 0 q) := by
  unfold k1_pay3
  exact r1_row_cast_apply a q

end Cert.KernelIdeal.Val.R1

end
-- ==== Proof.ValKI.Reg1.lean ====
import proofs.«402365_j6828998001463_1_alg».proof.Proof.ValKI.Reg1Outs
import proofs.«402365_j6828998001463_1_alg».proof.Proof.ValKI.Reg1Pay
import proofs.«402365_j6828998001463_1_alg».proof.Proof.Spec
import proofs.«402365_j6828998001463_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val.R1

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat)

variable (V : (c : Dev nD) → (b : Ref sig .tc) → Buf (Elt Ideal) ((c : Thread nD τ).loc b))

abbrev xarr1 (c : Dev nD) : Vec Ideal S100000x3 .f32 := V c main_v21
abbrev warr1a (c : Dev nD) : Vec Ideal S3x3 .f32 := V c main_arg7
abbrev barr1a (c : Dev nD) : Vec Ideal S1x3 .f32 := V c main_v22
abbrev warr1b (c : Dev nD) : Vec Ideal S3x64 .f32 := V c main_arg9
abbrev barr1b (c : Dev nD) : Vec Ideal S1x64 .f32 := V c main_v23
abbrev xblk1_0 (c : Dev nD) (t : Fin cfg1.N) : Vec Ideal S5000x3 .f32 := iblk1 V c 0 t
abbrev xblk1_1 (c : Dev nD) (t : Fin cfg1.N) : Vec Ideal S3x3 .f32 := iblk1 V c 1 t
abbrev xblk1_2 (c : Dev nD) (t : Fin cfg1.N) : Vec Ideal S1x3 .f32 := iblk1 V c 2 t
abbrev xblk1_3 (c : Dev nD) (t : Fin cfg1.N) : Vec Ideal S3x64 .f32 := iblk1 V c 3 t
abbrev xblk1_4 (c : Dev nD) (t : Fin cfg1.N) : Vec Ideal S1x64 .f32 := iblk1 V c 4 t

abbrev Hm1 (c : Dev nD) : Cert.Spec.Mat 100000 64 :=
  Cert.Spec.lin (Cert.Spec.mat (xarr1 V c)) (Cert.Spec.mat (warr1a V c)) (fun k => barr1a V c (ix2 0 k)) (Cert.Spec.mat (warr1b V c)) (fun k => barr1b V c (ix2 0 k))

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0 :=
  (by decide +kernel : ∀ t : Fin grid1.N, _)

theorem r1_xblk0_apply (c : Dev nD) (t : Fin cfg1.N) (p : Fin 5000) (l : Fin 3) (r : Fin 100000) (hr : r.val = 5000 * t.val + p.val) :
    xblk1_0 V c t (ix2 p l) = xarr1 V c (ix2 r l) := by
  show V c main_v21 (((cfg1.win 0).blk t).view.emb (ix2 p l)) = V c main_v21 (ix2 r l)
  refine congrArg (V c main_v21) ?_
  obtain ⟨e0, e1, -⟩ := idx_facts1 t
  funext a; apply Fin.ext
  match a with
  | ⟨0, _⟩ => show win1_0.index t (0 : Fin 2) * 5000 + 1 * p.val = r.val; omega
  | ⟨1, _⟩ => show win1_0.index t (1 : Fin 2) * 3 + 1 * l.val = l.val; omega

theorem r1_xblk1_apply (c : Dev nD) (t : Fin cfg1.N) (l : Fin 3) (k : Fin 3) : xblk1_1 V c t (ix2 l k) = warr1a V c (ix2 l k) := by
  show V c main_arg7 (((cfg1.win 1).blk t).view.emb (ix2 l k)) = V c main_arg7 (ix2 l k)
  refine congrArg (V c main_arg7) ?_
  obtain ⟨-, -, e0, e1, -⟩ := idx_facts1 t
  funext a; apply Fin.ext
  match a with
  | ⟨0, _⟩ => show win1_1.index t (0 : Fin 2) * 3 + 1 * l.val = l.val; omega
  | ⟨1, _⟩ => show win1_1.index t (1 : Fin 2) * 3 + 1 * k.val = k.val; omega
theorem r1_xblk2_apply (c : Dev nD) (t : Fin cfg1.N) (k : Fin 3) : xblk1_2 V c t (ix2 0 k) = barr1a V c (ix2 0 k) := by
  show V c main_v22 (((cfg1.win 2).blk t).view.emb (ix2 0 k)) = V c main_v22 (ix2 0 k)
  refine congrArg (V c main_v22) ?_
  obtain ⟨-, -, -, -, e0, e1, -⟩ := idx_facts1 t
  funext a; apply Fin.ext
  match a with
  | ⟨0, _⟩ => show win1_2.index t (0 : Fin 2) * 1 + 1 * 0 = 0; omega
  | ⟨1, _⟩ => show win1_2.index t (1 : Fin 2) * 3 + 1 * k.val = k.val; omega
theorem r1_xblk3_apply (c : Dev nD) (t : Fin cfg1.N) (k : Fin 3) (q : Fin 64) : xblk1_3 V c t (ix2 k q) = warr1b V c (ix2 k q) := by
  show V c main_arg9 (((cfg1.win 3).blk t).view.emb (ix2 k q)) = V c main_arg9 (ix2 k q)
  refine congrArg (V c main_arg9) ?_
  obtain ⟨-, -, -, -, -, -, e0, e1, -⟩ := idx_facts1 t
  funext a; apply Fin.ext
  match a with
  | ⟨0, _⟩ => show win1_3.index t (0 : Fin 2) * 3 + 1 * k.val = k.val; omega
  | ⟨1, _⟩ => show win1_3.index t (1 : Fin 2) * 64 + 1 * q.val = q.val; omega
theorem r1_xblk4_apply (c : Dev nD) (t : Fin cfg1.N) (q : Fin 64) : xblk1_4 V c t (ix2 0 q) = barr1b V c (ix2 0 q) := by
  show V c main_v23 (((cfg1.win 4).blk t).view.emb (ix2 0 q)) = V c main_v23 (ix2 0 q)
  refine congrArg (V c main_v23) ?_
  obtain ⟨-, -, -, -, -, -, -, -, e0, e1, -⟩ := idx_facts1 t
  funext a; apply Fin.ext
  match a with
  | ⟨0, _⟩ => show win1_4.index t (0 : Fin 2) * 1 + 1 * 0 = 0; omega
  | ⟨1, _⟩ => show win1_4.index t (1 : Fin 2) * 64 + 1 * q.val = q.val; omega

theorem r1_blk_apply (c : Dev nD) (t : Fin cfg1.N) (p : Fin 5000) (q : Fin 64) (r : Fin 100000) (hr : r.val = 5000 * t.val + p.val) :
    k1_pay6 (F := Ideal) (xblk1_0 V c t) (xblk1_1 V c t) (xblk1_2 V c t) (xblk1_3 V c t) (xblk1_4 V c t) (ix2 p q) = Hm1 V c r q := by
  refine (r1_pay6_apply _ _ _ _ _ p q).trans ?_
  unfold Cert.Spec.lin Cert.Spec.mat
  refine congrArg₂ (· + ·) (Finset.sum_congr rfl fun k _ => congrArg₂ (· * ·) (congrArg Cert.Spec.lrelu
    (congrArg₂ (· + ·) (Finset.sum_congr rfl fun l _ => congrArg₂ (· * ·) (r1_xblk0_apply V c t p l r hr) (r1_xblk1_apply V c t l k))
      (r1_xblk2_apply V c t k))) (r1_xblk3_apply V c t k q)) (r1_xblk4_apply V c t q)

def Hn1 (c : Dev nD) (r : ℕ) (q : Fin 64) : EReal := if h : r < 100000 then Hm1 V c ⟨r, h⟩ q else 0

theorem r1_blk_sum (c : Dev nD) (t : Fin cfg1.N) (q : Fin 64) :
    ∑ p : Fin 5000, k1_pay6 (F := Ideal) (xblk1_0 V c t) (xblk1_1 V c t) (xblk1_2 V c t) (xblk1_3 V c t) (xblk1_4 V c t) (ix2 p q) = ∑ i ∈ Finset.range 5000, Hn1 V c (5000 * t.val + i) q := by
  have hN : t.val < 20 := lt_of_lt_of_eq t.isLt (show cfg1.N = 20 from N_1)
  rw [← Fin.sum_univ_eq_sum_range (fun i => Hn1 V c (5000 * t.val + i) q) 5000]
  refine Finset.sum_congr rfl fun p _ => ?_
  have hlt : 5000 * t.val + p.val < 100000 := by have := p.isLt; omega
  refine (r1_blk_apply V c t p q ⟨5000 * t.val + p.val, hlt⟩ rfl).trans ?_
  unfold Hn1; rw [dif_pos hlt]

theorem r1_blk_sumsq (c : Dev nD) (t : Fin cfg1.N) (q : Fin 64) :
    ∑ p : Fin 5000, k1_pay6 (F := Ideal) (xblk1_0 V c t) (xblk1_1 V c t) (xblk1_2 V c t) (xblk1_3 V c t) (xblk1_4 V c t) (ix2 p q) * k1_pay6 (F := Ideal) (xblk1_0 V c t) (xblk1_1 V c t) (xblk1_2 V c t) (xblk1_3 V c t) (xblk1_4 V c t) (ix2 p q)
      = ∑ i ∈ Finset.range 5000, Hn1 V c (5000 * t.val + i) q * Hn1 V c (5000 * t.val + i) q := by
  have hN : t.val < 20 := lt_of_lt_of_eq t.isLt (show cfg1.N = 20 from N_1)
  rw [← Fin.sum_univ_eq_sum_range (fun i => Hn1 V c (5000 * t.val + i) q * Hn1 V c (5000 * t.val + i) q) 5000]
  refine Finset.sum_congr rfl fun p _ => ?_
  have hlt : 5000 * t.val + p.val < 100000 := by have := p.isLt; omega
  have e := (r1_blk_apply V c t p q ⟨5000 * t.val + p.val, hlt⟩ rfl).trans (by unfold Hn1; rw [dif_pos hlt] : Hm1 V c ⟨5000 * t.val + p.val, hlt⟩ q = Hn1 V c (5000 * t.val + p.val) q)
  exact congrArg₂ (· * ·) e e

theorem r1_accs_eq (c : Dev nD) : ∀ (n : ℕ) (h : n < cfg1.N) (q : Fin 64),
    (outsAt1 V c n h).2.2.1 (ix2 0 q) = ∑ r ∈ Finset.range (5000 * (n + 1)), Hn1 V c r q
    ∧ (outsAt1 V c n h).2.2.2 (ix2 0 q) = ∑ r ∈ Finset.range (5000 * (n + 1)), Hn1 V c r q * Hn1 V c r q
  | 0, h, q => by
    obtain ⟨e0, e1⟩ := r1_accs_zero V c ⟨0, h⟩ rfl
    constructor
    · refine (congrFun e0 (ix2 0 q)).trans ?_
      refine (r1_pay7_apply (xblk1_0 V c ⟨0, h⟩) (xblk1_1 V c ⟨0, h⟩) (xblk1_2 V c ⟨0, h⟩) (xblk1_3 V c ⟨0, h⟩) (xblk1_4 V c ⟨0, h⟩) (k1_pay4 (F := Ideal)) q).trans ?_
      rw [r1_pay4_apply, zero_add, r1_blk_sum V c ⟨0, h⟩ q]
      simp only [Nat.mul_zero, Nat.zero_add, Nat.mul_one]
    · refine (congrFun e1 (ix2 0 q)).trans ?_
      refine (r1_pay1_apply (k1_pay6 (F := Ideal) (xblk1_0 V c ⟨0, h⟩) (xblk1_1 V c ⟨0, h⟩) (xblk1_2 V c ⟨0, h⟩) (xblk1_3 V c ⟨0, h⟩) (xblk1_4 V c ⟨0, h⟩)) (k1_pay5 (F := Ideal)) q).trans ?_
      rw [r1_pay5_apply, zero_add, r1_blk_sumsq V c ⟨0, h⟩ q]
      simp only [Nat.mul_zero, Nat.zero_add, Nat.mul_one]
  | n + 1, h, q => by
    obtain ⟨e0, e1⟩ := r1_accs_pos V c ⟨n + 1, h⟩ (Nat.succ_ne_zero n)
    obtain ⟨i0, i1⟩ := r1_accs_eq c n (Nat.lt_of_succ_lt h) q
    have hsplit : 5000 * (n + 1 + 1) = 5000 * (n + 1) + 5000 := by omega
    constructor
    · refine (congrFun e0 (ix2 0 q)).trans ?_
      refine (r1_pay7_apply (xblk1_0 V c ⟨n + 1, h⟩) (xblk1_1 V c ⟨n + 1, h⟩) (xblk1_2 V c ⟨n + 1, h⟩) (xblk1_3 V c ⟨n + 1, h⟩) (xblk1_4 V c ⟨n + 1, h⟩) _ q).trans ?_
      rw [r1_blk_sum V c ⟨n + 1, h⟩ q, hsplit, Finset.sum_range_add]
      exact congrArg (· + _) i0
    · refine (congrFun e1 (ix2 0 q)).trans ?_
      refine (r1_pay1_apply (k1_pay6 (F := Ideal) (xblk1_0 V c ⟨n + 1, h⟩) (xblk1_1 V c ⟨n + 1, h⟩) (xblk1_2 V c ⟨n + 1, h⟩) (xblk1_3 V c ⟨n + 1, h⟩) (xblk1_4 V c ⟨n + 1, h⟩)) _ q).trans ?_
      rw [r1_blk_sumsq V c ⟨n + 1, h⟩ q, hsplit, Finset.sum_range_add]
      exact congrArg (· + _) i1

theorem r1_sum_all (c : Dev nD) (q : Fin 64) : ∑ r ∈ Finset.range 100000, Hn1 V c r q = Cert.Spec.colSum (Hm1 V c) q := by
  rw [← Fin.sum_univ_eq_sum_range (fun r => Hn1 V c r q) 100000]
  unfold Cert.Spec.colSum
  refine Finset.sum_congr rfl fun r _ => ?_
  unfold Hn1; rw [dif_pos r.isLt]
theorem r1_sumsq_all (c : Dev nD) (q : Fin 64) :
    ∑ r ∈ Finset.range 100000, Hn1 V c r q * Hn1 V c r q = Cert.Spec.colSumSq (Hm1 V c) q := by
  rw [← Fin.sum_univ_eq_sum_range (fun r => Hn1 V c r q * Hn1 V c r q) 100000]
  unfold Cert.Spec.colSumSq
  refine Finset.sum_congr rfl fun r _ => ?_
  unfold Hn1; rw [dif_pos r.isLt]

abbrev G1_5 (c : Dev nD) : Vec Ideal S100000x64 .f32 := fun i => Hm1 V c (i 0) (i 1)

theorem flushed1_5_eq (c : Dev nD) (t : Fin cfg1.N) :
    (dat1 V c).flushed 5 t = ((cfg1.win 5).blk t).view.read (Elt Ideal) (G1_5 V c) := by
  show (cfg1.win 5).cut (grid1.coords t) ((dat1 V c).after 5 t) = _
  rw [after1_5, r1_outs5_eq V c t]
  have hN : t.val < 20 := lt_of_lt_of_eq t.isLt (show cfg1.N = 20 from N_1)
  obtain ⟨-, -, -, -, -, -, -, -, -, -, e0, e1, -⟩ := idx_facts1 t
  funext j
  show k1_pay6 (F := Ideal) (xblk1_0 V c t) (xblk1_1 V c t) (xblk1_2 V c t) (xblk1_3 V c t) (xblk1_4 V c t) j = G1_5 V c (((cfg1.win 5).blk t).view.emb j)
  obtain ⟨p, q, rfl⟩ : ∃ (p : Fin 5000) (q : Fin 64), j = ix2 p q := ⟨j 0, j 1, eq_ix2 j⟩
  have hlt : 5000 * t.val + p.val < 100000 := by have := p.isLt; omega
  refine (r1_blk_apply V c t p q ⟨5000 * t.val + p.val, hlt⟩ rfl).trans ?_
  refine congrArg₂ (Hm1 V c) (Fin.ext ?_) (Fin.ext ?_)
  · show 5000 * t.val + p.val = win1_5.index t (0 : Fin 2) * 5000 + 1 * p.val
    omega
  · show q.val = win1_5.index t (1 : Fin 2) * 64 + 1 * q.val
    omega

theorem mem_blk1_5 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v24_0).slice (win1_5.rect t)).set ↔ _
  rw [View.set_slice_whole, Rect.mem_set_unit]
  exact Iff.rfl

theorem cover1_5 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, e0, e1, -⟩ := idx_facts1 t
  refine ⟨t, flush1_5 t, ?_⟩
  rw [mem_blk1_5]
  intro a
  match a with
  | ⟨0, _⟩ =>
    show win1_5.index t (0 : Fin 2) * 5000 ≤ (i 0).val ∧ (i 0).val < win1_5.index t (0 : Fin 2) * 5000 + 5000
    rw [ht] at e0; omega
  | ⟨1, _⟩ =>
    show win1_5.index t (1 : Fin 2) * 64 ≤ (i 1).val ∧ (i 1).val < win1_5.index t (1 : Fin 2) * 64 + 64
    omega

theorem final1_5 (c : Dev nD) : (dat1 V c).arrAt 5 cfg1.N = G1_5 V c :=
  (dat1 V c).arrAt_eq_of_cover 5 (G1_5 V c) (fun t _ => flushed1_5_eq V c t) cover1_5

abbrev G1_6 (c : Dev nD) : Vec Ideal S2x64 .f32 :=
  fun i => if (i 0).val = 0 then Cert.Spec.colSum (Hm1 V c) (i 1) else Cert.Spec.colSumSq (Hm1 V c) (i 1)

theorem flushed1_6_eq (c : Dev nD) (t : Fin cfg1.N) (hf : (cfg1.win 6).flush t = true) :
    (dat1 V c).flushed 6 t = ((cfg1.win 6).blk t).view.read (Elt Ideal) (G1_6 V c) := by
  have hN : t.val < 20 := lt_of_lt_of_eq t.isLt (show cfg1.N = 20 from N_1)
  have h19 : t.val = 19 := by have := (flush1_6 t).mp hf; omega
  show (cfg1.win 6).cut (grid1.coords t) ((dat1 V c).after 6 t) = _
  rw [after1_6]
  obtain ⟨-, -, -, -, -, -, -, -, -, -, -, -, e0, e1⟩ := idx_facts1 t
  funext j
  show (outsAt1 V c t.val t.isLt).2.1 j = G1_6 V c (((cfg1.win 6).blk t).view.emb j)
  obtain ⟨u, q, rfl⟩ : ∃ (u : Fin 2) (q : Fin 64), j = ix2 u q := ⟨j 0, j 1, eq_ix2 j⟩
  have hemb : ((cfg1.win 6).blk t).view.emb (ix2 u q) = ix2 u q := by
    funext a; apply Fin.ext
    match a with
    | ⟨0, _⟩ => show win1_6.index t (0 : Fin 2) * 2 + 1 * u.val = u.val; omega
    | ⟨1, _⟩ => show win1_6.index t (1 : Fin 2) * 64 + 1 * q.val = q.val; omega
  rw [hemb]
  obtain ⟨a0, a1⟩ := r1_accs_eq V c t.val t.isLt q
  have h100 : 5000 * (t.val + 1) = 100000 := by omega
  rw [h100] at a0 a1
  match u with
  | ⟨0, _⟩ =>
    refine (r1_stats_row0 V c t h19 q).trans ?_
    refine (r1_pay2_apply _ q).trans ?_
    exact a0.trans (r1_sum_all V c q)
  | ⟨1, _⟩ =>
    refine (r1_stats_row1 V c t h19 q).trans ?_
    refine (r1_pay3_apply _ q).trans ?_
    exact a1.trans (r1_sumsq_all V c q)

theorem mem_blk1_6 (t : Fin cfg1.N) (i : S2x64.Idx) :
    i ∈ ((cfg1.win 6).blk t).view.set ↔ ∀ a : Fin 2, win1_6.index t a * S2x64.size a ≤ (i a).val ∧ (i a).val < win1_6.index t a * S2x64.size a + S2x64.size a := by
  show i ∈ ((View.whole main_v24_1).slice (win1_6.rect t)).set ↔ _
  rw [View.set_slice_whole, Rect.mem_set_unit]
  exact Iff.rfl

theorem cover1_6 (i : S2x64.Idx) : ∃ t : Fin cfg1.N, (cfg1.win 6).flush t = true ∧ i ∈ ((cfg1.win 6).blk t).view.set := by
  have hi0 : (i 0).val < 2 := (i 0).isLt
  have hi1 : (i 1).val < 64 := (i 1).isLt
  have hN : cfg1.N = 20 := N_1
  obtain ⟨t, ht⟩ : ∃ t : Fin cfg1.N, t.val = 19 := ⟨⟨19, by rw [hN]; omega⟩, rfl⟩
  obtain ⟨-, -, -, -, -, -, -, -, -, -, -, -, e0, e1⟩ := idx_facts1 t
  refine ⟨t, (flush1_6 t).mpr (by rw [ht]), ?_⟩
  rw [mem_blk1_6]
  intro a
  match a with
  | ⟨0, _⟩ =>
    show win1_6.index t (0 : Fin 2) * 2 ≤ (i 0).val ∧ (i 0).val < win1_6.index t (0 : Fin 2) * 2 + 2
    omega
  | ⟨1, _⟩ =>
    show win1_6.index t (1 : Fin 2) * 64 ≤ (i 1).val ∧ (i 1).val < win1_6.index t (1 : Fin 2) * 64 + 64
    omega

theorem final1_6 (c : Dev nD) : (dat1 V c).arrAt 6 cfg1.N = G1_6 V c :=
  (dat1 V c).arrAt_eq_of_cover 6 (G1_6 V c) (fun t hf => flushed1_6_eq V c t hf) cover1_6

end Cert.KernelIdeal.Val.R1

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem arr1_5 (c : Dev nD) (p : Fin 100000) (q : Fin 64) :
    (dat1 (F := Ideal) V c).arrAt 5 cfg1.N (ix2 p q) = (Cert.Spec.lin (Cert.Spec.mat (V c main_v21)) (Cert.Spec.mat (V c main_arg7)) (fun k => V c main_v22 (ix2 0 k)) (Cert.Spec.mat (V c main_arg9)) (fun k => V c main_v23 (ix2 0 k))) p q :=
  congrFun (R1.final1_5 V c) (ix2 p q)

theorem arr1_6_0 (c : Dev nD) (q : Fin 64) :
    (dat1 (F := Ideal) V c).arrAt 6 cfg1.N (ix2 0 q) = Cert.Spec.colSum (Cert.Spec.lin (Cert.Spec.mat (V c main_v21)) (Cert.Spec.mat (V c main_arg7)) (fun k => V c main_v22 (ix2 0 k)) (Cert.Spec.mat (V c main_arg9)) (fun k => V c main_v23 (ix2 0 k))) q :=
  congrFun (R1.final1_6 V c) (ix2 0 q)

theorem arr1_6_1 (c : Dev nD) (q : Fin 64) :
    (dat1 (F := Ideal) V c).arrAt 6 cfg1.N (ix2 1 q) = Cert.Spec.colSumSq (Cert.Spec.lin (Cert.Spec.mat (V c main_v21)) (Cert.Spec.mat (V c main_arg7)) (fun k => V c main_v22 (ix2 0 k)) (Cert.Spec.mat (V c main_arg9)) (fun k => V c main_v23 (ix2 0 k))) q :=
  congrFun (R1.final1_6 V c) (ix2 1 q)

end Cert.KernelIdeal.Val

end
-- ==== Proof.ValKI.Reg2.lean ====
import proofs.«402365_j6828998001463_1_alg».proof.Proof.FrameKI.Reg2
import proofs.«402365_j6828998001463_1_alg».proof.Proof.Spec
import proofs.«402365_j6828998001463_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

noncomputable section

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

namespace Cert.KernelIdeal.Val.R2

theorem bcast_row2 (x : S1x64.Idx → EReal) (p : Fin 5000) (q : Fin 64) :
    broadcastTo S5000x64 x broadcasts_S1x64_S5000x64 (ix2 p q) = x (ix2 0 q) :=
  broadcastTo_apply x broadcasts_S1x64_S5000x64 (ix2 p q) (ix2 0 q) (fun a => by
    match a with
    | ⟨0, _⟩ => rfl
    | ⟨1, _⟩ => rfl)

theorem pay2_apply (v0 v5 : Vec Ideal S1x64 .f32) (v7 : Vec Ideal S5000x64 .f32) (v9 v17 : Vec Ideal S1x64 .f32)
    (p : Fin 5000) (q : Fin 64) :
    k2_pay1 (F := Ideal) v0 v5 v7 v9 v17 (ix2 p q)
      = Cert.Spec.lrelu (v5 (ix2 0 q) * (v7 (ix2 p q) - v9 (ix2 0 q)) * Ideal.rsqrt (v0 (ix2 0 q) + Cert.Spec.bnEps) + v17 (ix2 0 q)) := by
  unfold k2_pay1
  simp only [shapeCast_self]
  rw [select_apply, cmpf_apply, mulf_apply, addf_apply, mulf_apply, mulf_apply, subf_apply, bcast_row2, bcast_row2, bcast_row2, bcast_row2,
    broadcast_apply, broadcast_apply]
  rfl

theorem hz2 : (![0, 0] : Fin 2 → Nat) = fun _ => 0 := funext fun a => by fin_cases a <;> rfl

theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem read2_0 (t : Fin cfg2.N) (p : Fin 5000) (q : Fin 64) (h : t.val * 5000 + p.val < 100000) :
    iblk2 V c 0 t (ix2 p q) = Cert.Spec.mat (V c main_v24_0) ⟨t.val * 5000 + p.val, h⟩ q := by
  obtain ⟨e0, e1, -⟩ := idx_facts2 t
  show V c main_v24_0 (((cfg2.win 0).blk t).view.emb (ix2 p q)) = V c main_v24_0 (ix2 ⟨t.val * 5000 + p.val, h⟩ q)
  refine congrArg (V c main_v24_0) ?_
  funext a; apply Fin.ext
  match a with
  | ⟨0, _⟩ => show win2_0.index t (0 : Fin 2) * 5000 + 1 * p.val = t.val * 5000 + p.val; omega
  | ⟨1, _⟩ => show win2_0.index t (1 : Fin 2) * 64 + 1 * q.val = q.val; omega

theorem read2_1 (t : Fin cfg2.N) (q : Fin 64) : iblk2 V c 1 t (ix2 0 q) = V c main_v35 (ix2 0 q) := by
  obtain ⟨-, -, e0, e1, -⟩ := idx_facts2 t
  exact congrArg (V c main_v35) (Shape.idx_ext₂ (win2_1.rect_emb_val_of_index_zero t 0 e0 _) (win2_1.rect_emb_val_of_index_zero t 1 e1 _))

theorem read2_2 (t : Fin cfg2.N) (q : Fin 64) : iblk2 V c 2 t (ix2 0 q) = V c main_v36 (ix2 0 q) := by
  obtain ⟨-, -, -, -, e0, e1, -⟩ := idx_facts2 t
  exact congrArg (V c main_v36) (Shape.idx_ext₂ (win2_2.rect_emb_val_of_index_zero t 0 e0 _) (win2_2.rect_emb_val_of_index_zero t 1 e1 _))

theorem read2_3 (t : Fin cfg2.N) (q : Fin 64) : iblk2 V c 3 t (ix2 0 q) = V c main_v37 (ix2 0 q) := by
  obtain ⟨-, -, -, -, -, -, e0, e1, -⟩ := idx_facts2 t
  exact congrArg (V c main_v37) (Shape.idx_ext₂ (win2_3.rect_emb_val_of_index_zero t 0 e0 _) (win2_3.rect_emb_val_of_index_zero t 1 e1 _))

theorem read2_4 (t : Fin cfg2.N) (q : Fin 64) : iblk2 V c 4 t (ix2 0 q) = V c main_v38 (ix2 0 q) := by
  obtain ⟨-, -, -, -, -, -, -, -, e0, e1, -⟩ := idx_facts2 t
  exact congrArg (V c main_v38) (Shape.idx_ext₂ (win2_4.rect_emb_val_of_index_zero t 0 e0 _) (win2_4.rect_emb_val_of_index_zero t 1 e1 _))

def G2 : S100000x64.Idx → EReal := fun i =>
  Cert.Spec.bnAct (Cert.Spec.mat (V c main_v24_0)) (fun k => V c main_v35 (ix2 0 k)) (fun k => V c main_v36 (ix2 0 k))
    (fun k => V c main_v37 (ix2 0 k)) (fun k => V c main_v38 (ix2 0 k)) (i 0) (i 1)

theorem flushed2_5_eq (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz2]
  simp only [View.ld_unit_zero (S := S5000x64) hz2, View.ld_unit_zero (S := S1x64) hz2]
  funext j
  obtain ⟨p, q, rfl⟩ : ∃ (p : Fin 5000) (q : Fin 64), j = ix2 p q := ⟨j 0, j 1, eq_ix2 j⟩
  obtain ⟨-, -, -, -, -, -, -, -, -, -, e0, e1⟩ := idx_facts2 t
  have ht : t.val < 20 := Nat.lt_of_lt_of_eq t.isLt N_2
  have hr : t.val * 5000 + p.val < 100000 := by have := p.isLt; omega

  have he : ((cfg2.win 5).blk t).view.emb (ix2 p q) = ix2 ⟨t.val * 5000 + p.val, hr⟩ q := by
    funext a; apply Fin.ext
    match a with
    | ⟨0, _⟩ => show win2_5.index t (0 : Fin 2) * 5000 + 1 * p.val = t.val * 5000 + p.val; omega
    | ⟨1, _⟩ => show win2_5.index t (1 : Fin 2) * 64 + 1 * q.val = q.val; omega
  show k2_pay1 (F := Ideal) (iblk2 V c 2 t) (iblk2 V c 3 t) (iblk2 V c 0 t) (iblk2 V c 1 t) (iblk2 V c 4 t) (ix2 p q)
    = G2 V c (((cfg2.win 5).blk t).view.emb (ix2 p q))
  rw [he]
  refine (pay2_apply (iblk2 V c 2 t) (iblk2 V c 3 t) (iblk2 V c 0 t) (iblk2 V c 1 t) (iblk2 V c 4 t) p q).trans ?_
  rw [read2_0 V c t p q hr, read2_1 V c t q, read2_2 V c t q, read2_3 V c t q, read2_4 V c t q]
  rfl

theorem mem_blk2_5 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v39).slice (win2_5.rect t)).set ↔ _
  rw [View.set_slice_whole, Rect.mem_set_unit]
  exact Iff.rfl

theorem covered2_5 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, Nat.lt_of_lt_of_eq (by omega : (i 0).val / 5000 < 20) N_2.symm⟩, rfl⟩
  obtain ⟨-, -, -, -, -, -, -, -, -, -, e0, e1⟩ := idx_facts2 t
  refine ⟨t, flush2_5 t, ?_⟩
  rw [mem_blk2_5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

end Cert.KernelIdeal.Val.R2

namespace Cert.KernelIdeal.Val

theorem arr2_5 (p : Fin 100000) (q : Fin 64) :
    (dat2 (F := Ideal) V c).arrAt 5 cfg2.N (ix2 p q)
      = Cert.Spec.bnAct (Cert.Spec.mat (V c main_v24_0)) (fun k => V c main_v35 (ix2 0 k)) (fun k => V c main_v36 (ix2 0 k))
          (fun k => V c main_v37 (ix2 0 k)) (fun k => V c main_v38 (ix2 0 k)) p q :=
  congrFun ((dat2 V c).arrAt_eq_of_cover 5 (R2.G2 V c) (fun t _ => R2.flushed2_5_eq V c t) R2.covered2_5) (ix2 p q)

end Cert.KernelIdeal.Val

end
-- ==== Proof.ValKI.Reg3Pieces.lean ====
import proofs.«402365_j6828998001463_1_alg».proof.Proof.FrameKI.Reg3
import Idealize.ShloMosaic.Lib.Pipeline.Value
import Idealize.ShloMosaic.Lib.ValueIdx
import Idealize.ShloMosaic.Lib.Tactic

set_option maxRecDepth 16384

noncomputable section

open scoped BigOperators

namespace Cert.KernelIdeal.Val.R3

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F]

theorem hz3 : (![0, 0] : Fin 2 → Nat) = fun _ => 0 := funext fun a => by fin_cases a <;> rfl

section
variable (c : Dev nD) (i : grid3.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S2x64 .f32) (harg7 : arg7.IsWhole) (arg8 : Memref sig .tc .vmem S1x64 .f32) (harg8 : arg8.IsWhole) (arg9 : Memref sig .tc .vmem S1x64 .f32) (harg9 : arg9.IsWhole)

section
variable (hc0 : cond3_0 i) (hc1 : ¬cond3_1 i) (x1 : Vec F S5000x64 .f32) (x2 : Vec F S64x64 .f32) (x3 : Vec F S1x64 .f32) (x4 : Vec F S64x64 .f32) (x5 : Vec F S1x64 .f32)

theorem r3_out5_A :
    (outs3_A c i arg1 harg1 arg2 harg2 arg3 harg3 arg4 harg4 arg5 harg5 arg6 harg6 arg7 harg7 arg8 harg8 arg9 harg9 hc0 hc1 x1 x2 x3 x4 x5).1 = k3_pay6 x1 x2 x3 x4 x5 := by
  dsimp only [outs3_A, reads3]
  rw [View.read_writes_eq_canon _ _ _ (covers3_A ..).1]
  unfold kernelRun3_A
  dsimp only
  sl_unfold_words
  rw [View.canon_unit_zero hz3]
  simp only [View.readAt_eq_ld, harg1.read_unread, harg2.read_unread, harg3.read_unread, harg4.read_unread, harg5.read_unread, View.ld_unit_zero (S := S5000x64) hz3, View.ld_unit_zero (S := S64x64) hz3, View.ld_unit_zero (S := S1x64) hz3, View.ld_unit_zero (S := S64x64) hz3, View.ld_unit_zero (S := S1x64) hz3]

theorem r3_acc0_A :
    (outs3_A c i arg1 harg1 arg2 harg2 arg3 harg3 arg4 harg4 arg5 harg5 arg6 harg6 arg7 harg7 arg8 harg8 arg9 harg9 hc0 hc1 x1 x2 x3 x4 x5).2.2.1 = k3_pay7 x1 x2 x3 x4 x5 (k3_pay4 (F := F)) := by
  dsimp only [outs3_A, reads3]
  rw [View.read_writes_eq_canon _ _ _ (covers3_A ..).2.1]
  unfold kernelRun3_A
  dsimp only
  sl_unfold_words
  rw [View.canon_cons_unit_zero (S := S1x64) hz3]
  simp only [View.readAt_eq_ld, harg1.read_unread, harg2.read_unread, harg3.read_unread, harg4.read_unread, harg5.read_unread, View.ld_unit_zero (S := S5000x64) hz3, View.ld_unit_zero (S := S64x64) hz3, View.ld_unit_zero (S := S1x64) hz3, View.ld_unit_zero (S := S64x64) hz3, View.ld_unit_zero (S := S1x64) hz3, View.readCov_unit_zero (S := S1x64) _ hz3]

theorem r3_acc1_A :
    (outs3_A c i arg1 harg1 arg2 harg2 arg3 harg3 arg4 harg4 arg5 harg5 arg6 harg6 arg7 harg7 arg8 harg8 arg9 harg9 hc0 hc1 x1 x2 x3 x4 x5).2.2.2 = k3_pay1 (k3_pay6 x1 x2 x3 x4 x5) (k3_pay5 (F := F)) := by
  dsimp only [outs3_A, reads3]
  rw [View.read_writes_eq_canon _ _ _ (covers3_A ..).2.2]
  unfold kernelRun3_A
  dsimp only
  sl_unfold_words
  rw [View.canon_cons_unit_zero (S := S1x64) hz3]
  simp only [View.readAt_eq_ld, harg1.read_unread, harg2.read_unread, harg3.read_unread, harg4.read_unread, harg5.read_unread, View.ld_unit_zero (S := S5000x64) hz3, View.ld_unit_zero (S := S64x64) hz3, View.ld_unit_zero (S := S1x64) hz3, View.ld_unit_zero (S := S64x64) hz3, View.ld_unit_zero (S := S1x64) hz3, View.readCov_unit_zero (S := S1x64) _ hz3]

end

section
variable (hc0 : ¬cond3_0 i) (hc1 : ¬cond3_1 i) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32)

theorem r3_out5_B :
    (outs3_B c i arg1 harg1 arg2 harg2 arg3 harg3 arg4 harg4 arg5 harg5 arg6 harg6 arg7 harg7 arg8 harg8 arg9 harg9 hc0 hc1 x1 x2 x3 x4 x5 xs0 xs1).1 = k3_pay6 x1 x2 x3 x4 x5 := by
  dsimp only [outs3_B, reads3]
  rw [View.read_writes_eq_canon _ _ _ (covers3_B ..).1]
  unfold kernelRun3_B
  dsimp only
  sl_unfold_words
  rw [View.canon_unit_zero hz3]
  simp only [View.readAt_eq_ld, harg1.read_unread, harg2.read_unread, harg3.read_unread, harg4.read_unread, harg5.read_unread, View.ld_unit_zero (S := S5000x64) hz3, View.ld_unit_zero (S := S64x64) hz3, View.ld_unit_zero (S := S1x64) hz3, View.ld_unit_zero (S := S64x64) hz3, View.ld_unit_zero (S := S1x64) hz3]

theorem r3_acc0_B :
    (outs3_B c i arg1 harg1 arg2 harg2 arg3 harg3 arg4 harg4 arg5 harg5 arg6 harg6 arg7 harg7 arg8 harg8 arg9 harg9 hc0 hc1 x1 x2 x3 x4 x5 xs0 xs1).2.2.1 = k3_pay7 x1 x2 x3 x4 x5 xs0 := by
  dsimp only [outs3_B, reads3]
  rw [View.read_writes_eq_canon _ _ _ (covers3_B ..).2.1]
  unfold kernelRun3_B
  dsimp only
  sl_unfold_words
  rw [View.canon_unit_zero hz3]
  simp only [View.readAt_eq_ld, harg1.read_unread, harg2.read_unread, harg3.read_unread, harg4.read_unread, harg5.read_unread, harg8.read_unread, View.ld_unit_zero (S := S5000x64) hz3, View.ld_unit_zero (S := S64x64) hz3, View.ld_unit_zero (S := S1x64) hz3, View.ld_unit_zero (S := S64x64) hz3, View.ld_unit_zero (S := S1x64) hz3]

theorem r3_acc1_B :
    (outs3_B c i arg1 harg1 arg2 harg2 arg3 harg3 arg4 harg4 arg5 harg5 arg6 harg6 arg7 harg7 arg8 harg8 arg9 harg9 hc0 hc1 x1 x2 x3 x4 x5 xs0 xs1).2.2.2 = k3_pay1 (k3_pay6 x1 x2 x3 x4 x5) xs1 := by
  dsimp only [outs3_B, reads3]
  rw [View.read_writes_eq_canon _ _ _ (covers3_B ..).2.2]
  unfold kernelRun3_B
  dsimp only
  sl_unfold_words
  rw [View.canon_unit_zero hz3]
  simp only [View.readAt_eq_ld, harg1.read_unread, harg2.read_unread, harg3.read_unread, harg4.read_unread, harg5.read_unread, harg9.read_unread, View.ld_unit_zero (S := S5000x64) hz3, View.ld_unit_zero (S := S64x64) hz3, View.ld_unit_zero (S := S1x64) hz3, View.ld_unit_zero (S := S64x64) hz3, View.ld_unit_zero (S := S1x64) hz3]

end

section
variable (hc0 : ¬cond3_0 i) (hc1 : cond3_1 i) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32)

theorem r3_out5_C :
    (outs3_C c i arg1 harg1 arg2 harg2 arg3 harg3 arg4 harg4 arg5 harg5 arg6 harg6 arg7 harg7 arg8 harg8 arg9 harg9 hc0 hc1 x1 x2 x3 x4 x5 xs0 xs1).1 = k3_pay6 x1 x2 x3 x4 x5 := by
  dsimp only [outs3_C, reads3]
  rw [View.read_writes_eq_canon _ _ _ (covers3_C ..).1]
  unfold kernelRun3_C
  dsimp only
  sl_unfold_words
  rw [View.canon_unit_zero hz3]
  simp only [View.readAt_eq_ld, harg1.read_unread, harg2.read_unread, harg3.read_unread, harg4.read_unread, harg5.read_unread, View.ld_unit_zero (S := S5000x64) hz3, View.ld_unit_zero (S := S64x64) hz3, View.ld_unit_zero (S := S1x64) hz3, View.ld_unit_zero (S := S64x64) hz3, View.ld_unit_zero (S := S1x64) hz3]

theorem r3_acc0_C :
    (outs3_C c i arg1 harg1 arg2 harg2 arg3 harg3 arg4 harg4 arg5 harg5 arg6 harg6 arg7 harg7 arg8 harg8 arg9 harg9 hc0 hc1 x1 x2 x3 x4 x5 xs0 xs1).2.2.1 = k3_pay7 x1 x2 x3 x4 x5 xs0 := by
  dsimp only [outs3_C, reads3]
  rw [View.read_writes_eq_canon _ _ _ (covers3_C ..).2.1]
  unfold kernelRun3_C
  dsimp only
  sl_unfold_words
  rw [View.canon_unit_zero hz3]
  simp only [View.readAt_eq_ld, harg1.read_unread, harg2.read_unread, harg3.read_unread, harg4.read_unread, harg5.read_unread, harg8.read_unread, View.ld_unit_zero (S := S5000x64) hz3, View.ld_unit_zero (S := S64x64) hz3, View.ld_unit_zero (S := S1x64) hz3, View.ld_unit_zero (S := S64x64) hz3, View.ld_unit_zero (S := S1x64) hz3]

theorem r3_acc1_C :
    (outs3_C c i arg1 harg1 arg2 harg2 arg3 harg3 arg4 harg4 arg5 harg5 arg6 harg6 arg7 harg7 arg8 harg8 arg9 harg9 hc0 hc1 x1 x2 x3 x4 x5 xs0 xs1).2.2.2 = k3_pay1 (k3_pay6 x1 x2 x3 x4 x5) xs1 := by
  dsimp only [outs3_C, reads3]
  rw [View.read_writes_eq_canon _ _ _ (covers3_C ..).2.2]
  unfold kernelRun3_C
  dsimp only
  sl_unfold_words
  rw [View.canon_unit_zero hz3]
  simp only [View.readAt_eq_ld, harg1.read_unread, harg2.read_unread, harg3.read_unread, harg4.read_unread, harg5.read_unread, harg9.read_unread, View.ld_unit_zero (S := S5000x64) hz3, View.ld_unit_zero (S := S64x64) hz3, View.ld_unit_zero (S := S1x64) hz3, View.ld_unit_zero (S := S64x64) hz3, View.ld_unit_zero (S := S1x64) hz3]

set_option maxHeartbeats 1600000 in
theorem r3_stats0_C (q : Fin 64) :
    (outs3_C c i arg1 harg1 arg2 harg2 arg3 harg3 arg4 harg4 arg5 harg5 arg6 harg6 arg7 harg7 arg8 harg8 arg9 harg9 hc0 hc1 x1 x2 x3 x4 x5 xs0 xs1).2.1 (ix2 0 q) = k3_pay2 (k3_pay7 x1 x2 x3 x4 x5 xs0) (ix2 0 q) := by
  dsimp only [outs3_C, reads3]
  rw [View.read_writes_eq_canon _ _ _ (fun _ => cover3_C_6 ..)]
  unfold kernelRun3_C
  dsimp only
  sl_unfold_words
  have hnot : (ix2 0 q : S2x64.Idx) ∉ (Rect.unit (s := S2x64) ![1, 0] S1x64.size inb_S2x64_S1x64_1_0).set := by
    rw [Rect.mem_set_unit]; intro h
    have h10 : (1 : ℕ) ≤ 0 := (h 0).1
    omega
  have hemb : (ix2 0 q : S2x64.Idx) = (Rect.unit (s := S2x64) ![0, 0] S1x64.size inb_S2x64_S1x64_0_0).emb (ix2 0 q) := by
    funext a; apply Fin.ext
    match a with
    | ⟨0, _⟩ => rfl
    | ⟨1, _⟩ => show q.val = 0 + 1 * q.val; omega
  refine (View.canon_cons_of_not_mem _ _ hnot).trans ?_
  refine (congrArg (View.canon _) hemb).trans ?_
  refine (View.canon_cons_emb _ _ _ _).trans ?_
  simp only [View.readAt_eq_ld, harg1.read_unread, harg2.read_unread, harg3.read_unread, harg4.read_unread, harg5.read_unread, harg8.read_unread, View.ld_unit_zero (S := S5000x64) hz3, View.ld_unit_zero (S := S64x64) hz3, View.ld_unit_zero (S := S1x64) hz3, View.ld_unit_zero (S := S64x64) hz3, View.ld_unit_zero (S := S1x64) hz3, View.readCov_unit_zero (S := S1x64) _ hz3]

set_option maxHeartbeats 1600000 in
theorem r3_stats1_C (q : Fin 64) :
    (outs3_C c i arg1 harg1 arg2 harg2 arg3 harg3 arg4 harg4 arg5 harg5 arg6 harg6 arg7 harg7 arg8 harg8 arg9 harg9 hc0 hc1 x1 x2 x3 x4 x5 xs0 xs1).2.1 (ix2 1 q) = k3_pay3 (k3_pay1 (k3_pay6 x1 x2 x3 x4 x5) xs1) (ix2 0 q) := by
  dsimp only [outs3_C, reads3]
  rw [View.read_writes_eq_canon _ _ _ (fun _ => cover3_C_6 ..)]
  unfold kernelRun3_C
  dsimp only
  sl_unfold_words
  have hemb : (ix2 1 q : S2x64.Idx) = (Rect.unit (s := S2x64) ![1, 0] S1x64.size inb_S2x64_S1x64_1_0).emb (ix2 0 q) := by
    funext a; apply Fin.ext
    match a with
    | ⟨0, _⟩ => rfl
    | ⟨1, _⟩ => show q.val = 0 + 1 * q.val; omega
  refine (congrArg (View.canon _) hemb).trans ?_
  refine (View.canon_cons_emb _ _ _ _).trans ?_
  simp only [View.readAt_eq_ld, harg1.read_unread, harg2.read_unread, harg3.read_unread, harg4.read_unread, harg5.read_unread, harg9.read_unread, View.ld_unit_zero (S := S5000x64) hz3, View.ld_unit_zero (S := S64x64) hz3, View.ld_unit_zero (S := S1x64) hz3, View.ld_unit_zero (S := S64x64) hz3, View.ld_unit_zero (S := S1x64) hz3, View.readCov_unit_zero (S := S1x64) _ hz3]

end

end

end Cert.KernelIdeal.Val.R3

end
-- ==== Proof.ValKI.Reg3Outs.lean ====
import proofs.«402365_j6828998001463_1_alg».proof.Proof.ValKI.Reg3Pieces

set_option maxRecDepth 16384

noncomputable section

open scoped BigOperators

namespace Cert.KernelIdeal.Val.R3

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F]
variable (V : (c : Dev nD) → (b : Ref sig .tc) → Buf (Elt F) ((c : Thread nD τ).loc b))

theorem r3_outs5_eq (c : Dev nD) (t : Fin cfg3.N) : (outsAt3 V c t.val t.isLt).1 = k3_pay6 (iblk3 V c 0 t) (iblk3 V c 1 t) (iblk3 V c 2 t) (iblk3 V c 3 t) (iblk3 V c 4 t) := by
  by_cases h0 : t.val = 0
  · rw [outsAt3_eq V c t]; unfold step3; rw [dif_pos h0]
    exact r3_out5_A ..
  · by_cases h1 : t.val = 19
    · rw [outsAt3_eq V c t]; unfold step3; rw [dif_neg h0, dif_pos h1]
      exact r3_out5_C ..
    · rw [outsAt3_eq V c t]; unfold step3; rw [dif_neg h0, dif_neg h1]
      exact r3_out5_B ..

theorem r3_accs_zero (c : Dev nD) (t : Fin cfg3.N) (h0 : t.val = 0) :
    (outsAt3 V c t.val t.isLt).2.2.1 = k3_pay7 (iblk3 V c 0 t) (iblk3 V c 1 t) (iblk3 V c 2 t) (iblk3 V c 3 t) (iblk3 V c 4 t) (k3_pay4 (F := F))
    ∧ (outsAt3 V c t.val t.isLt).2.2.2 = k3_pay1 (k3_pay6 (iblk3 V c 0 t) (iblk3 V c 1 t) (iblk3 V c 2 t) (iblk3 V c 3 t) (iblk3 V c 4 t)) (k3_pay5 (F := F)) := by
  rw [outsAt3_eq V c t]; unfold step3; rw [dif_pos h0]
  exact ⟨r3_acc0_A .., r3_acc1_A ..⟩

theorem r3_accs_pos (c : Dev nD) (t : Fin cfg3.N) (h0 : ¬t.val = 0) :
    (outsAt3 V c t.val t.isLt).2.2.1 = k3_pay7 (iblk3 V c 0 t) (iblk3 V c 1 t) (iblk3 V c 2 t) (iblk3 V c 3 t) (iblk3 V c 4 t) (outsAt3 V c (t.val - 1) (Nat.lt_of_le_of_lt (Nat.sub_le _ _) t.isLt)).2.2.1
    ∧ (outsAt3 V c t.val t.isLt).2.2.2 = k3_pay1 (k3_pay6 (iblk3 V c 0 t) (iblk3 V c 1 t) (iblk3 V c 2 t) (iblk3 V c 3 t) (iblk3 V c 4 t)) (outsAt3 V c (t.val - 1) (Nat.lt_of_le_of_lt (Nat.sub_le _ _) t.isLt)).2.2.2 := by
  by_cases h1 : t.val = 19
  · rw [outsAt3_eq V c t]; unfold step3; rw [dif_neg h0, dif_pos h1]
    exact ⟨r3_acc0_C .., r3_acc1_C ..⟩
  · rw [outsAt3_eq V c t]; unfold step3; rw [dif_neg h0, dif_neg h1]
    exact ⟨r3_acc0_B .., r3_acc1_B ..⟩

theorem r3_stats_row0 (c : Dev nD) (t : Fin cfg3.N) (h1 : t.val = 19) (q : Fin 64) :
    (outsAt3 V c t.val t.isLt).2.1 (ix2 0 q) = k3_pay2 (outsAt3 V c t.val t.isLt).2.2.1 (ix2 0 q) := by
  have h0 : ¬t.val = 0 := by omega
  rw [(r3_accs_pos V c t h0).1]
  rw [outsAt3_eq V c t]; unfold step3; rw [dif_neg h0, dif_pos h1]
  exact r3_stats0_C ..
theorem r3_stats_row1 (c : Dev nD) (t : Fin cfg3.N) (h1 : t.val = 19) (q : Fin 64) :
    (outsAt3 V c t.val t.isLt).2.1 (ix2 1 q) = k3_pay3 (outsAt3 V c t.val t.isLt).2.2.2 (ix2 0 q) := by
  have h0 : ¬t.val = 0 := by omega
  rw [(r3_accs_pos V c t h0).2]
  rw [outsAt3_eq V c t]; unfold step3; rw [dif_neg h0, dif_pos h1]
  exact r3_stats1_C ..

end Cert.KernelIdeal.Val.R3

end
-- ==== Proof.ValKI.Reg3Pay.lean ====
import proofs.«402365_j6828998001463_1_alg».proof.Proof.Gen.KernelIdeal.Skeleton
import proofs.«402365_j6828998001463_1_alg».proof.Proof.Spec
import proofs.«402365_j6828998001463_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val.R3

open Cert.KernelIdeal Cert.KernelIdeal.Gen
open Idealize.ShloMosaic Idealize.ShloMosaic.ValueIdx

theorem dot3a_eq : dot_S5000x64_S64x64_S5000x64_1_0_0_1_n_n = DotDims.plain 5000 64 64 := rfl
theorem dot3b_eq : dot_S5000x64_S64x64_S5000x64_1_0_0_1_n_n = DotDims.plain 5000 64 64 := rfl

theorem lrelu3_apply (a : FVec Ideal S5000x64 .f32) (i : S5000x64.Idx) :
    select (cmpf .oge a (broadcast S5000x64 (Scalar.ofBits .f32 0x00000000#32))) a
        (mulf (broadcast S5000x64 (Scalar.ofBits .f32 0x3C23D70A#32)) a) i = Cert.Spec.lrelu (a i) := by
  show Scalar.select (FloatOps.cmpf .oge (a i) (Scalar.ofBits .f32 0x00000000#32)) (a i) (Scalar.ofBits .f32 0x3C23D70A#32 * a i) = _
  unfold Cert.Spec.lrelu Cert.Spec.zero Cert.Spec.slope Scalar.select
  rfl

theorem lin3a_apply (x1 : FVec Ideal S5000x64 .f32) (x2 : FVec Ideal S64x64 .f32) (x3 : FVec Ideal S1x64 .f32) (p : Fin 5000) (k : Fin 64) :
    addf (matmul (F := Ideal) dot_S5000x64_S64x64_S5000x64_1_0_0_1_n_n none (truncf .bf16 x1 bitsLt_bf16_f32) (truncf .bf16 x2 bitsLt_bf16_f32)
        (constant (F := Ideal) S5000x64 .f32 0x00000000#32)) (broadcastTo S5000x64 x3 broadcasts_S1x64_S5000x64) (ix2 p k)
      = (∑ l : Fin 64, x1 (ix2 p l) * x2 (ix2 l k)) + x3 (ix2 0 k) := by
  show FloatOps.matmul (F := Ideal) dot_S5000x64_S64x64_S5000x64_1_0_0_1_n_n none (truncf .bf16 x1 bitsLt_bf16_f32) (truncf .bf16 x2 bitsLt_bf16_f32)
        (constant (F := Ideal) S5000x64 .f32 0x00000000#32) (ix2 p k) + broadcastTo S5000x64 x3 broadcasts_S1x64_S5000x64 (ix2 p k) = _
  rw [dot3a_eq]
  refine congrArg₂ (· + ·) (RowDims.matmul_plain_zero_apply none _ _ p k) (broadcastTo_1b_ab_apply x3 _ p k)

theorem lin3b_apply (y : FVec Ideal S5000x64 .f32) (x4 : FVec Ideal S64x64 .f32) (x5 : FVec Ideal S1x64 .f32) (p : Fin 5000) (q : Fin 64) :
    addf (matmul (F := Ideal) dot_S5000x64_S64x64_S5000x64_1_0_0_1_n_n none (truncf .bf16 y bitsLt_bf16_f32) (truncf .bf16 x4 bitsLt_bf16_f32)
        (constant (F := Ideal) S5000x64 .f32 0x00000000#32)) (broadcastTo S5000x64 x5 broadcasts_S1x64_S5000x64) (ix2 p q)
      = (∑ k : Fin 64, y (ix2 p k) * x4 (ix2 k q)) + x5 (ix2 0 q) := by
  show FloatOps.matmul (F := Ideal) dot_S5000x64_S64x64_S5000x64_1_0_0_1_n_n none (truncf .bf16 y bitsLt_bf16_f32) (truncf .bf16 x4 bitsLt_bf16_f32)
        (constant (F := Ideal) S5000x64 .f32 0x00000000#32) (ix2 p q) + broadcastTo S5000x64 x5 broadcasts_S1x64_S5000x64 (ix2 p q) = _
  rw [dot3b_eq]
  refine congrArg₂ (· + ·) (RowDims.matmul_plain_zero_apply none _ _ p q) (broadcastTo_1b_ab_apply x5 _ p q)

theorem r3_pay6_apply (x1 : Vec Ideal S5000x64 .f32) (x2 : Vec Ideal S64x64 .f32) (x3 : Vec Ideal S1x64 .f32) (x4 : Vec Ideal S64x64 .f32)
    (x5 : Vec Ideal S1x64 .f32) (p : Fin 5000) (q : Fin 64) :
    k3_pay6 (F := Ideal) x1 x2 x3 x4 x5 (ix2 p q)
      = Cert.Spec.lin (Cert.Spec.mat x1) (Cert.Spec.mat x2) (fun k => x3 (ix2 0 k)) (Cert.Spec.mat x4) (fun k => x5 (ix2 0 k)) p q := by
  unfold k3_pay6
  simp only [shapeCast_self]
  refine (lin3b_apply _ x4 x5 p q).trans ?_
  unfold Cert.Spec.lin Cert.Spec.mat
  refine congrArg₂ (· + ·) (Finset.sum_congr rfl fun k _ => congrArg₂ (· * ·) ?_ rfl) rfl
  refine (lrelu3_apply _ (ix2 p k)).trans (congrArg Cert.Spec.lrelu ?_)
  exact lin3a_apply x1 x2 x3 p k

theorem r3_row_cast_apply (v : Vec Ideal S1x64 .f32) (q : Fin 64) :
    shapeCast S1x64 (shapeCast S64 v shapeCasts_S1x64_S64) shapeCasts_S64_S1x64 (ix2 0 q) = v (ix2 0 q) := by
  rw [shapeCast_a_1a_apply, shapeCast_1a_a_apply]

theorem r3_colsum_apply (b : FVec Ideal S5000x64 .f32) (hacc : (0x00000000#32 : BitVec 32) = 0x00000000#32) (q : Fin 64) :
    shapeCast S1x64 (multiReduction (F := Ideal) .add [0] S64 b 0x00000000#32 reduces_S5000x64_S64 (.inl rfl) hacc) shapeCasts_S64_S1x64 (ix2 0 q)
      = ∑ p : Fin 5000, b (ix2 p q) := by
  refine (shapeCast_a_1a_apply _ _ 0 q).trans ?_
  refine (Ideal.multiReduction_add_single b 0x00000000#32 reduces_S5000x64_S64 (.inl rfl) hacc (ix1 q)).trans ?_
  refine Finset.sum_congr rfl fun p _ => congrArg b ?_
  funext a
  match a with
  | ⟨0, _⟩ => rfl
  | ⟨1, _⟩ => rfl

theorem r3_pay7_apply (x1 : Vec Ideal S5000x64 .f32) (x2 : Vec Ideal S64x64 .f32) (x3 : Vec Ideal S1x64 .f32) (x4 : Vec Ideal S64x64 .f32)
    (x5 : Vec Ideal S1x64 .f32) (a : Vec Ideal S1x64 .f32) (q : Fin 64) :
    k3_pay7 (F := Ideal) x1 x2 x3 x4 x5 a (ix2 0 q) = a (ix2 0 q) + ∑ p : Fin 5000, k3_pay6 (F := Ideal) x1 x2 x3 x4 x5 (ix2 p q) := by
  unfold k3_pay7
  simp only [shapeCast_self]
  exact congrArg (a (ix2 0 q) + ·) (r3_colsum_apply _ rfl q)

theorem r3_pay1_apply (b : FVec Ideal S5000x64 .f32) (a : Vec Ideal S1x64 .f32) (q : Fin 64) :
    k3_pay1 (F := Ideal) b a (ix2 0 q) = a (ix2 0 q) + ∑ p : Fin 5000, b (ix2 p q) * b (ix2 p q) := by
  unfold k3_pay1
  simp only [shapeCast_self]
  exact congrArg (a (ix2 0 q) + ·) (r3_colsum_apply (mulf b b) rfl q)

theorem r3_pay4_apply (q : Fin 64) : k3_pay4 (F := Ideal) (ix2 0 q) = 0 := by
  unfold k3_pay4
  simp only [shapeCast_self]
  show Ideal.ofBits .f32 0x00000000#32 = 0
  exact Ideal.ofBits_zero_f32
theorem r3_pay5_apply (q : Fin 64) : k3_pay5 (F := Ideal) (ix2 0 q) = 0 := by
  unfold k3_pay5
  simp only [shapeCast_self]
  show Ideal.ofBits .f32 0x00000000#32 = 0
  exact Ideal.ofBits_zero_f32

theorem r3_pay2_apply (a : Vec Ideal S1x64 .f32) (q : Fin 64) : k3_pay2 (F := Ideal) a (ix2 0 q) = a (ix2 0 q) := by
  unfold k3_pay2
  exact r3_row_cast_apply a q
theorem r3_pay3_apply (a : Vec Ideal S1x64 .f32) (q : Fin 64) : k3_pay3 (F := Ideal) a (ix2 0 q) = a (ix2 0 q) := by
  unfold k3_pay3
  exact r3_row_cast_apply a q

end Cert.KernelIdeal.Val.R3

end
-- ==== Proof.ValKI.Reg3.lean ====
import proofs.«402365_j6828998001463_1_alg».proof.Proof.ValKI.Reg3Outs
import proofs.«402365_j6828998001463_1_alg».proof.Proof.ValKI.Reg3Pay
import proofs.«402365_j6828998001463_1_alg».proof.Proof.Spec
import proofs.«402365_j6828998001463_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val.R3

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat)

variable (V : (c : Dev nD) → (b : Ref sig .tc) → Buf (Elt Ideal) ((c : Thread nD τ).loc b))

abbrev xarr3 (c : Dev nD) : Vec Ideal S100000x64 .f32 := V c main_v54
abbrev warr3a (c : Dev nD) : Vec Ideal S64x64 .f32 := V c main_arg14
abbrev barr3a (c : Dev nD) : Vec Ideal S1x64 .f32 := V c main_v55
abbrev warr3b (c : Dev nD) : Vec Ideal S64x64 .f32 := V c main_arg16
abbrev barr3b (c : Dev nD) : Vec Ideal S1x64 .f32 := V c main_v56
abbrev xblk3_0 (c : Dev nD) (t : Fin cfg3.N) : Vec Ideal S5000x64 .f32 := iblk3 V c 0 t
abbrev xblk3_1 (c : Dev nD) (t : Fin cfg3.N) : Vec Ideal S64x64 .f32 := iblk3 V c 1 t
abbrev xblk3_2 (c : Dev nD) (t : Fin cfg3.N) : Vec Ideal S1x64 .f32 := iblk3 V c 2 t
abbrev xblk3_3 (c : Dev nD) (t : Fin cfg3.N) : Vec Ideal S64x64 .f32 := iblk3 V c 3 t
abbrev xblk3_4 (c : Dev nD) (t : Fin cfg3.N) : Vec Ideal S1x64 .f32 := iblk3 V c 4 t

abbrev Hm3 (c : Dev nD) : Cert.Spec.Mat 100000 64 :=
  Cert.Spec.lin (Cert.Spec.mat (xarr3 V c)) (Cert.Spec.mat (warr3a V c)) (fun k => barr3a V c (ix2 0 k)) (Cert.Spec.mat (warr3b V c)) (fun k => barr3b V c (ix2 0 k))

theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = 0 ∧ win3_6.index t (1 : Fin 2) = 0 :=
  (by decide +kernel : ∀ t : Fin grid3.N, _)

theorem r3_xblk0_apply (c : Dev nD) (t : Fin cfg3.N) (p : Fin 5000) (l : Fin 64) (r : Fin 100000) (hr : r.val = 5000 * t.val + p.val) :
    xblk3_0 V c t (ix2 p l) = xarr3 V c (ix2 r l) := by
  show V c main_v54 (((cfg3.win 0).blk t).view.emb (ix2 p l)) = V c main_v54 (ix2 r l)
  refine congrArg (V c main_v54) ?_
  obtain ⟨e0, e1, -⟩ := idx_facts3 t
  funext a; apply Fin.ext
  match a with
  | ⟨0, _⟩ => show win3_0.index t (0 : Fin 2) * 5000 + 1 * p.val = r.val; omega
  | ⟨1, _⟩ => show win3_0.index t (1 : Fin 2) * 64 + 1 * l.val = l.val; omega

theorem r3_xblk1_apply (c : Dev nD) (t : Fin cfg3.N) (l : Fin 64) (k : Fin 64) : xblk3_1 V c t (ix2 l k) = warr3a V c (ix2 l k) := by
  show V c main_arg14 (((cfg3.win 1).blk t).view.emb (ix2 l k)) = V c main_arg14 (ix2 l k)
  refine congrArg (V c main_arg14) ?_
  obtain ⟨-, -, e0, e1, -⟩ := idx_facts3 t
  funext a; apply Fin.ext
  match a with
  | ⟨0, _⟩ => show win3_1.index t (0 : Fin 2) * 64 + 1 * l.val = l.val; omega
  | ⟨1, _⟩ => show win3_1.index t (1 : Fin 2) * 64 + 1 * k.val = k.val; omega
theorem r3_xblk2_apply (c : Dev nD) (t : Fin cfg3.N) (k : Fin 64) : xblk3_2 V c t (ix2 0 k) = barr3a V c (ix2 0 k) := by
  show V c main_v55 (((cfg3.win 2).blk t).view.emb (ix2 0 k)) = V c main_v55 (ix2 0 k)
  refine congrArg (V c main_v55) ?_
  obtain ⟨-, -, -, -, e0, e1, -⟩ := idx_facts3 t
  funext a; apply Fin.ext
  match a with
  | ⟨0, _⟩ => show win3_2.index t (0 : Fin 2) * 1 + 1 * 0 = 0; omega
  | ⟨1, _⟩ => show win3_2.index t (1 : Fin 2) * 64 + 1 * k.val = k.val; omega
theorem r3_xblk3_apply (c : Dev nD) (t : Fin cfg3.N) (k : Fin 64) (q : Fin 64) : xblk3_3 V c t (ix2 k q) = warr3b V c (ix2 k q) := by
  show V c main_arg16 (((cfg3.win 3).blk t).view.emb (ix2 k q)) = V c main_arg16 (ix2 k q)
  refine congrArg (V c main_arg16) ?_
  obtain ⟨-, -, -, -, -, -, e0, e1, -⟩ := idx_facts3 t
  funext a; apply Fin.ext
  match a with
  | ⟨0, _⟩ => show win3_3.index t (0 : Fin 2) * 64 + 1 * k.val = k.val; omega
  | ⟨1, _⟩ => show win3_3.index t (1 : Fin 2) * 64 + 1 * q.val = q.val; omega
theorem r3_xblk4_apply (c : Dev nD) (t : Fin cfg3.N) (q : Fin 64) : xblk3_4 V c t (ix2 0 q) = barr3b V c (ix2 0 q) := by
  show V c main_v56 (((cfg3.win 4).blk t).view.emb (ix2 0 q)) = V c main_v56 (ix2 0 q)
  refine congrArg (V c main_v56) ?_
  obtain ⟨-, -, -, -, -, -, -, -, e0, e1, -⟩ := idx_facts3 t
  funext a; apply Fin.ext
  match a with
  | ⟨0, _⟩ => show win3_4.index t (0 : Fin 2) * 1 + 1 * 0 = 0; omega
  | ⟨1, _⟩ => show win3_4.index t (1 : Fin 2) * 64 + 1 * q.val = q.val; omega

theorem r3_blk_apply (c : Dev nD) (t : Fin cfg3.N) (p : Fin 5000) (q : Fin 64) (r : Fin 100000) (hr : r.val = 5000 * t.val + p.val) :
    k3_pay6 (F := Ideal) (xblk3_0 V c t) (xblk3_1 V c t) (xblk3_2 V c t) (xblk3_3 V c t) (xblk3_4 V c t) (ix2 p q) = Hm3 V c r q := by
  refine (r3_pay6_apply _ _ _ _ _ p q).trans ?_
  unfold Cert.Spec.lin Cert.Spec.mat
  refine congrArg₂ (· + ·) (Finset.sum_congr rfl fun k _ => congrArg₂ (· * ·) (congrArg Cert.Spec.lrelu
    (congrArg₂ (· + ·) (Finset.sum_congr rfl fun l _ => congrArg₂ (· * ·) (r3_xblk0_apply V c t p l r hr) (r3_xblk1_apply V c t l k))
      (r3_xblk2_apply V c t k))) (r3_xblk3_apply V c t k q)) (r3_xblk4_apply V c t q)

def Hn3 (c : Dev nD) (r : ℕ) (q : Fin 64) : EReal := if h : r < 100000 then Hm3 V c ⟨r, h⟩ q else 0

theorem r3_blk_sum (c : Dev nD) (t : Fin cfg3.N) (q : Fin 64) :
    ∑ p : Fin 5000, k3_pay6 (F := Ideal) (xblk3_0 V c t) (xblk3_1 V c t) (xblk3_2 V c t) (xblk3_3 V c t) (xblk3_4 V c t) (ix2 p q) = ∑ i ∈ Finset.range 5000, Hn3 V c (5000 * t.val + i) q := by
  have hN : t.val < 20 := lt_of_lt_of_eq t.isLt (show cfg3.N = 20 from N_3)
  rw [← Fin.sum_univ_eq_sum_range (fun i => Hn3 V c (5000 * t.val + i) q) 5000]
  refine Finset.sum_congr rfl fun p _ => ?_
  have hlt : 5000 * t.val + p.val < 100000 := by have := p.isLt; omega
  refine (r3_blk_apply V c t p q ⟨5000 * t.val + p.val, hlt⟩ rfl).trans ?_
  unfold Hn3; rw [dif_pos hlt]

theorem r3_blk_sumsq (c : Dev nD) (t : Fin cfg3.N) (q : Fin 64) :
    ∑ p : Fin 5000, k3_pay6 (F := Ideal) (xblk3_0 V c t) (xblk3_1 V c t) (xblk3_2 V c t) (xblk3_3 V c t) (xblk3_4 V c t) (ix2 p q) * k3_pay6 (F := Ideal) (xblk3_0 V c t) (xblk3_1 V c t) (xblk3_2 V c t) (xblk3_3 V c t) (xblk3_4 V c t) (ix2 p q)
      = ∑ i ∈ Finset.range 5000, Hn3 V c (5000 * t.val + i) q * Hn3 V c (5000 * t.val + i) q := by
  have hN : t.val < 20 := lt_of_lt_of_eq t.isLt (show cfg3.N = 20 from N_3)
  rw [← Fin.sum_univ_eq_sum_range (fun i => Hn3 V c (5000 * t.val + i) q * Hn3 V c (5000 * t.val + i) q) 5000]
  refine Finset.sum_congr rfl fun p _ => ?_
  have hlt : 5000 * t.val + p.val < 100000 := by have := p.isLt; omega
  have e := (r3_blk_apply V c t p q ⟨5000 * t.val + p.val, hlt⟩ rfl).trans (by unfold Hn3; rw [dif_pos hlt] : Hm3 V c ⟨5000 * t.val + p.val, hlt⟩ q = Hn3 V c (5000 * t.val + p.val) q)
  exact congrArg₂ (· * ·) e e

theorem r3_accs_eq (c : Dev nD) : ∀ (n : ℕ) (h : n < cfg3.N) (q : Fin 64),
    (outsAt3 V c n h).2.2.1 (ix2 0 q) = ∑ r ∈ Finset.range (5000 * (n + 1)), Hn3 V c r q
    ∧ (outsAt3 V c n h).2.2.2 (ix2 0 q) = ∑ r ∈ Finset.range (5000 * (n + 1)), Hn3 V c r q * Hn3 V c r q
  | 0, h, q => by
    obtain ⟨e0, e1⟩ := r3_accs_zero V c ⟨0, h⟩ rfl
    constructor
    · refine (congrFun e0 (ix2 0 q)).trans ?_
      refine (r3_pay7_apply (xblk3_0 V c ⟨0, h⟩) (xblk3_1 V c ⟨0, h⟩) (xblk3_2 V c ⟨0, h⟩) (xblk3_3 V c ⟨0, h⟩) (xblk3_4 V c ⟨0, h⟩) (k3_pay4 (F := Ideal)) q).trans ?_
      rw [r3_pay4_apply, zero_add, r3_blk_sum V c ⟨0, h⟩ q]
      simp only [Nat.mul_zero, Nat.zero_add, Nat.mul_one]
    · refine (congrFun e1 (ix2 0 q)).trans ?_
      refine (r3_pay1_apply (k3_pay6 (F := Ideal) (xblk3_0 V c ⟨0, h⟩) (xblk3_1 V c ⟨0, h⟩) (xblk3_2 V c ⟨0, h⟩) (xblk3_3 V c ⟨0, h⟩) (xblk3_4 V c ⟨0, h⟩)) (k3_pay5 (F := Ideal)) q).trans ?_
      rw [r3_pay5_apply, zero_add, r3_blk_sumsq V c ⟨0, h⟩ q]
      simp only [Nat.mul_zero, Nat.zero_add, Nat.mul_one]
  | n + 1, h, q => by
    obtain ⟨e0, e1⟩ := r3_accs_pos V c ⟨n + 1, h⟩ (Nat.succ_ne_zero n)
    obtain ⟨i0, i1⟩ := r3_accs_eq c n (Nat.lt_of_succ_lt h) q
    have hsplit : 5000 * (n + 1 + 1) = 5000 * (n + 1) + 5000 := by omega
    constructor
    · refine (congrFun e0 (ix2 0 q)).trans ?_
      refine (r3_pay7_apply (xblk3_0 V c ⟨n + 1, h⟩) (xblk3_1 V c ⟨n + 1, h⟩) (xblk3_2 V c ⟨n + 1, h⟩) (xblk3_3 V c ⟨n + 1, h⟩) (xblk3_4 V c ⟨n + 1, h⟩) _ q).trans ?_
      rw [r3_blk_sum V c ⟨n + 1, h⟩ q, hsplit, Finset.sum_range_add]
      exact congrArg (· + _) i0
    · refine (congrFun e1 (ix2 0 q)).trans ?_
      refine (r3_pay1_apply (k3_pay6 (F := Ideal) (xblk3_0 V c ⟨n + 1, h⟩) (xblk3_1 V c ⟨n + 1, h⟩) (xblk3_2 V c ⟨n + 1, h⟩) (xblk3_3 V c ⟨n + 1, h⟩) (xblk3_4 V c ⟨n + 1, h⟩)) _ q).trans ?_
      rw [r3_blk_sumsq V c ⟨n + 1, h⟩ q, hsplit, Finset.sum_range_add]
      exact congrArg (· + _) i1

theorem r3_sum_all (c : Dev nD) (q : Fin 64) : ∑ r ∈ Finset.range 100000, Hn3 V c r q = Cert.Spec.colSum (Hm3 V c) q := by
  rw [← Fin.sum_univ_eq_sum_range (fun r => Hn3 V c r q) 100000]
  unfold Cert.Spec.colSum
  refine Finset.sum_congr rfl fun r _ => ?_
  unfold Hn3; rw [dif_pos r.isLt]
theorem r3_sumsq_all (c : Dev nD) (q : Fin 64) :
    ∑ r ∈ Finset.range 100000, Hn3 V c r q * Hn3 V c r q = Cert.Spec.colSumSq (Hm3 V c) q := by
  rw [← Fin.sum_univ_eq_sum_range (fun r => Hn3 V c r q * Hn3 V c r q) 100000]
  unfold Cert.Spec.colSumSq
  refine Finset.sum_congr rfl fun r _ => ?_
  unfold Hn3; rw [dif_pos r.isLt]

abbrev G3_5 (c : Dev nD) : Vec Ideal S100000x64 .f32 := fun i => Hm3 V c (i 0) (i 1)

theorem flushed3_5_eq (c : Dev nD) (t : Fin cfg3.N) :
    (dat3 V c).flushed 5 t = ((cfg3.win 5).blk t).view.read (Elt Ideal) (G3_5 V c) := by
  show (cfg3.win 5).cut (grid3.coords t) ((dat3 V c).after 5 t) = _
  rw [after3_5, r3_outs5_eq V c t]
  have hN : t.val < 20 := lt_of_lt_of_eq t.isLt (show cfg3.N = 20 from N_3)
  obtain ⟨-, -, -, -, -, -, -, -, -, -, e0, e1, -⟩ := idx_facts3 t
  funext j
  show k3_pay6 (F := Ideal) (xblk3_0 V c t) (xblk3_1 V c t) (xblk3_2 V c t) (xblk3_3 V c t) (xblk3_4 V c t) j = G3_5 V c (((cfg3.win 5).blk t).view.emb j)
  obtain ⟨p, q, rfl⟩ : ∃ (p : Fin 5000) (q : Fin 64), j = ix2 p q := ⟨j 0, j 1, eq_ix2 j⟩
  have hlt : 5000 * t.val + p.val < 100000 := by have := p.isLt; omega
  refine (r3_blk_apply V c t p q ⟨5000 * t.val + p.val, hlt⟩ rfl).trans ?_
  refine congrArg₂ (Hm3 V c) (Fin.ext ?_) (Fin.ext ?_)
  · show 5000 * t.val + p.val = win3_5.index t (0 : Fin 2) * 5000 + 1 * p.val
    omega
  · show q.val = win3_5.index t (1 : Fin 2) * 64 + 1 * q.val
    omega

theorem mem_blk3_5 (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v57_0).slice (win3_5.rect t)).set ↔ _
  rw [View.set_slice_whole, Rect.mem_set_unit]
  exact Iff.rfl

theorem cover3_5 (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, -, -, -, -, -, e0, e1, -⟩ := idx_facts3 t
  refine ⟨t, flush3_5 t, ?_⟩
  rw [mem_blk3_5]
  intro a
  match a with
  | ⟨0, _⟩ =>
    show win3_5.index t (0 : Fin 2) * 5000 ≤ (i 0).val ∧ (i 0).val < win3_5.index t (0 : Fin 2) * 5000 + 5000
    rw [ht] at e0; omega
  | ⟨1, _⟩ =>
    show win3_5.index t (1 : Fin 2) * 64 ≤ (i 1).val ∧ (i 1).val < win3_5.index t (1 : Fin 2) * 64 + 64
    omega

theorem final3_5 (c : Dev nD) : (dat3 V c).arrAt 5 cfg3.N = G3_5 V c :=
  (dat3 V c).arrAt_eq_of_cover 5 (G3_5 V c) (fun t _ => flushed3_5_eq V c t) cover3_5

abbrev G3_6 (c : Dev nD) : Vec Ideal S2x64 .f32 :=
  fun i => if (i 0).val = 0 then Cert.Spec.colSum (Hm3 V c) (i 1) else Cert.Spec.colSumSq (Hm3 V c) (i 1)

theorem flushed3_6_eq (c : Dev nD) (t : Fin cfg3.N) (hf : (cfg3.win 6).flush t = true) :
    (dat3 V c).flushed 6 t = ((cfg3.win 6).blk t).view.read (Elt Ideal) (G3_6 V c) := by
  have hN : t.val < 20 := lt_of_lt_of_eq t.isLt (show cfg3.N = 20 from N_3)
  have h19 : t.val = 19 := by have := (flush3_6 t).mp hf; omega
  show (cfg3.win 6).cut (grid3.coords t) ((dat3 V c).after 6 t) = _
  rw [after3_6]
  obtain ⟨-, -, -, -, -, -, -, -, -, -, -, -, e0, e1⟩ := idx_facts3 t
  funext j
  show (outsAt3 V c t.val t.isLt).2.1 j = G3_6 V c (((cfg3.win 6).blk t).view.emb j)
  obtain ⟨u, q, rfl⟩ : ∃ (u : Fin 2) (q : Fin 64), j = ix2 u q := ⟨j 0, j 1, eq_ix2 j⟩
  have hemb : ((cfg3.win 6).blk t).view.emb (ix2 u q) = ix2 u q := by
    funext a; apply Fin.ext
    match a with
    | ⟨0, _⟩ => show win3_6.index t (0 : Fin 2) * 2 + 1 * u.val = u.val; omega
    | ⟨1, _⟩ => show win3_6.index t (1 : Fin 2) * 64 + 1 * q.val = q.val; omega
  rw [hemb]
  obtain ⟨a0, a1⟩ := r3_accs_eq V c t.val t.isLt q
  have h100 : 5000 * (t.val + 1) = 100000 := by omega
  rw [h100] at a0 a1
  match u with
  | ⟨0, _⟩ =>
    refine (r3_stats_row0 V c t h19 q).trans ?_
    refine (r3_pay2_apply _ q).trans ?_
    exact a0.trans (r3_sum_all V c q)
  | ⟨1, _⟩ =>
    refine (r3_stats_row1 V c t h19 q).trans ?_
    refine (r3_pay3_apply _ q).trans ?_
    exact a1.trans (r3_sumsq_all V c q)

theorem mem_blk3_6 (t : Fin cfg3.N) (i : S2x64.Idx) :
    i ∈ ((cfg3.win 6).blk t).view.set ↔ ∀ a : Fin 2, win3_6.index t a * S2x64.size a ≤ (i a).val ∧ (i a).val < win3_6.index t a * S2x64.size a + S2x64.size a := by
  show i ∈ ((View.whole main_v57_1).slice (win3_6.rect t)).set ↔ _
  rw [View.set_slice_whole, Rect.mem_set_unit]
  exact Iff.rfl

theorem cover3_6 (i : S2x64.Idx) : ∃ t : Fin cfg3.N, (cfg3.win 6).flush t = true ∧ i ∈ ((cfg3.win 6).blk t).view.set := by
  have hi0 : (i 0).val < 2 := (i 0).isLt
  have hi1 : (i 1).val < 64 := (i 1).isLt
  have hN : cfg3.N = 20 := N_3
  obtain ⟨t, ht⟩ : ∃ t : Fin cfg3.N, t.val = 19 := ⟨⟨19, by rw [hN]; omega⟩, rfl⟩
  obtain ⟨-, -, -, -, -, -, -, -, -, -, -, -, e0, e1⟩ := idx_facts3 t
  refine ⟨t, (flush3_6 t).mpr (by rw [ht]), ?_⟩
  rw [mem_blk3_6]
  intro a
  match a with
  | ⟨0, _⟩ =>
    show win3_6.index t (0 : Fin 2) * 2 ≤ (i 0).val ∧ (i 0).val < win3_6.index t (0 : Fin 2) * 2 + 2
    omega
  | ⟨1, _⟩ =>
    show win3_6.index t (1 : Fin 2) * 64 ≤ (i 1).val ∧ (i 1).val < win3_6.index t (1 : Fin 2) * 64 + 64
    omega

theorem final3_6 (c : Dev nD) : (dat3 V c).arrAt 6 cfg3.N = G3_6 V c :=
  (dat3 V c).arrAt_eq_of_cover 6 (G3_6 V c) (fun t hf => flushed3_6_eq V c t hf) cover3_6

end Cert.KernelIdeal.Val.R3

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem arr3_5 (c : Dev nD) (p : Fin 100000) (q : Fin 64) :
    (dat3 (F := Ideal) V c).arrAt 5 cfg3.N (ix2 p q) = (Cert.Spec.lin (Cert.Spec.mat (V c main_v54)) (Cert.Spec.mat (V c main_arg14)) (fun k => V c main_v55 (ix2 0 k)) (Cert.Spec.mat (V c main_arg16)) (fun k => V c main_v56 (ix2 0 k))) p q :=
  congrFun (R3.final3_5 V c) (ix2 p q)

theorem arr3_6_0 (c : Dev nD) (q : Fin 64) :
    (dat3 (F := Ideal) V c).arrAt 6 cfg3.N (ix2 0 q) = Cert.Spec.colSum (Cert.Spec.lin (Cert.Spec.mat (V c main_v54)) (Cert.Spec.mat (V c main_arg14)) (fun k => V c main_v55 (ix2 0 k)) (Cert.Spec.mat (V c main_arg16)) (fun k => V c main_v56 (ix2 0 k))) q :=
  congrFun (R3.final3_6 V c) (ix2 0 q)

theorem arr3_6_1 (c : Dev nD) (q : Fin 64) :
    (dat3 (F := Ideal) V c).arrAt 6 cfg3.N (ix2 1 q) = Cert.Spec.colSumSq (Cert.Spec.lin (Cert.Spec.mat (V c main_v54)) (Cert.Spec.mat (V c main_arg14)) (fun k => V c main_v55 (ix2 0 k)) (Cert.Spec.mat (V c main_arg16)) (fun k => V c main_v56 (ix2 0 k))) q :=
  congrFun (R3.final3_6 V c) (ix2 1 q)

end Cert.KernelIdeal.Val

end
-- ==== Proof.ValKI.Reg4.lean ====
import proofs.«402365_j6828998001463_1_alg».proof.Proof.FrameKI.Reg4
import proofs.«402365_j6828998001463_1_alg».proof.Proof.Spec
import proofs.«402365_j6828998001463_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

noncomputable section

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

namespace Cert.KernelIdeal.Val.R4

theorem bcast_row4 (x : S1x64.Idx → EReal) (p : Fin 5000) (q : Fin 64) :
    broadcastTo S5000x64 x broadcasts_S1x64_S5000x64 (ix2 p q) = x (ix2 0 q) :=
  broadcastTo_apply x broadcasts_S1x64_S5000x64 (ix2 p q) (ix2 0 q) (fun a => by
    match a with
    | ⟨0, _⟩ => rfl
    | ⟨1, _⟩ => rfl)

theorem pay4_apply (v0 v5 : Vec Ideal S1x64 .f32) (v7 : Vec Ideal S5000x64 .f32) (v9 v17 : Vec Ideal S1x64 .f32)
    (p : Fin 5000) (q : Fin 64) :
    k4_pay1 (F := Ideal) v0 v5 v7 v9 v17 (ix2 p q)
      = Cert.Spec.lrelu (v5 (ix2 0 q) * (v7 (ix2 p q) - v9 (ix2 0 q)) * Ideal.rsqrt (v0 (ix2 0 q) + Cert.Spec.bnEps) + v17 (ix2 0 q)) := by
  unfold k4_pay1
  simp only [shapeCast_self]
  rw [select_apply, cmpf_apply, mulf_apply, addf_apply, mulf_apply, mulf_apply, subf_apply, bcast_row4, bcast_row4, bcast_row4, bcast_row4,
    broadcast_apply, broadcast_apply]
  rfl

theorem hz4 : (![0, 0] : Fin 2 → Nat) = fun _ => 0 := funext fun a => by fin_cases a <;> rfl

theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

theorem read4_0 (t : Fin cfg4.N) (p : Fin 5000) (q : Fin 64) (h : t.val * 5000 + p.val < 100000) :
    iblk4 V c 0 t (ix2 p q) = Cert.Spec.mat (V c main_v57_0) ⟨t.val * 5000 + p.val, h⟩ q := by
  obtain ⟨e0, e1, -⟩ := idx_facts4 t
  show V c main_v57_0 (((cfg4.win 0).blk t).view.emb (ix2 p q)) = V c main_v57_0 (ix2 ⟨t.val * 5000 + p.val, h⟩ q)
  refine congrArg (V c main_v57_0) ?_
  funext a; apply Fin.ext
  match a with
  | ⟨0, _⟩ => show win4_0.index t (0 : Fin 2) * 5000 + 1 * p.val = t.val * 5000 + p.val; omega
  | ⟨1, _⟩ => show win4_0.index t (1 : Fin 2) * 64 + 1 * q.val = q.val; omega

theorem read4_1 (t : Fin cfg4.N) (q : Fin 64) : iblk4 V c 1 t (ix2 0 q) = V c main_v68 (ix2 0 q) := by
  obtain ⟨-, -, e0, e1, -⟩ := idx_facts4 t
  exact congrArg (V c main_v68) (Shape.idx_ext₂ (win4_1.rect_emb_val_of_index_zero t 0 e0 _) (win4_1.rect_emb_val_of_index_zero t 1 e1 _))

theorem read4_2 (t : Fin cfg4.N) (q : Fin 64) : iblk4 V c 2 t (ix2 0 q) = V c main_v69 (ix2 0 q) := by
  obtain ⟨-, -, -, -, e0, e1, -⟩ := idx_facts4 t
  exact congrArg (V c main_v69) (Shape.idx_ext₂ (win4_2.rect_emb_val_of_index_zero t 0 e0 _) (win4_2.rect_emb_val_of_index_zero t 1 e1 _))

theorem read4_3 (t : Fin cfg4.N) (q : Fin 64) : iblk4 V c 3 t (ix2 0 q) = V c main_v70 (ix2 0 q) := by
  obtain ⟨-, -, -, -, -, -, e0, e1, -⟩ := idx_facts4 t
  exact congrArg (V c main_v70) (Shape.idx_ext₂ (win4_3.rect_emb_val_of_index_zero t 0 e0 _) (win4_3.rect_emb_val_of_index_zero t 1 e1 _))

theorem read4_4 (t : Fin cfg4.N) (q : Fin 64) : iblk4 V c 4 t (ix2 0 q) = V c main_v71 (ix2 0 q) := by
  obtain ⟨-, -, -, -, -, -, -, -, e0, e1, -⟩ := idx_facts4 t
  exact congrArg (V c main_v71) (Shape.idx_ext₂ (win4_4.rect_emb_val_of_index_zero t 0 e0 _) (win4_4.rect_emb_val_of_index_zero t 1 e1 _))

def G4 : S100000x64.Idx → EReal := fun i =>
  Cert.Spec.bnAct (Cert.Spec.mat (V c main_v57_0)) (fun k => V c main_v68 (ix2 0 k)) (fun k => V c main_v69 (ix2 0 k))
    (fun k => V c main_v70 (ix2 0 k)) (fun k => V c main_v71 (ix2 0 k)) (i 0) (i 1)

theorem flushed4_5_eq (t : Fin cfg4.N) :
    (dat4 V c).flushed 5 t = ((cfg4.win 5).blk t).view.read (Elt Ideal) (G4 V c) := by
  show (cfg4.win 5).cut (grid4.coords t) ((dat4 V c).after 5 t) = _
  rw [after4_5]
  unfold out4_5
  rw [View.canon_unit_zero hz4]
  simp only [View.ld_unit_zero (S := S5000x64) hz4, View.ld_unit_zero (S := S1x64) hz4]
  funext j
  obtain ⟨p, q, rfl⟩ : ∃ (p : Fin 5000) (q : Fin 64), j = ix2 p q := ⟨j 0, j 1, eq_ix2 j⟩
  obtain ⟨-, -, -, -, -, -, -, -, -, -, e0, e1⟩ := idx_facts4 t
  have ht : t.val < 20 := Nat.lt_of_lt_of_eq t.isLt N_4
  have hr : t.val * 5000 + p.val < 100000 := by have := p.isLt; omega

  have he : ((cfg4.win 5).blk t).view.emb (ix2 p q) = ix2 ⟨t.val * 5000 + p.val, hr⟩ q := by
    funext a; apply Fin.ext
    match a with
    | ⟨0, _⟩ => show win4_5.index t (0 : Fin 2) * 5000 + 1 * p.val = t.val * 5000 + p.val; omega
    | ⟨1, _⟩ => show win4_5.index t (1 : Fin 2) * 64 + 1 * q.val = q.val; omega
  show k4_pay1 (F := Ideal) (iblk4 V c 2 t) (iblk4 V c 3 t) (iblk4 V c 0 t) (iblk4 V c 1 t) (iblk4 V c 4 t) (ix2 p q)
    = G4 V c (((cfg4.win 5).blk t).view.emb (ix2 p q))
  rw [he]
  refine (pay4_apply (iblk4 V c 2 t) (iblk4 V c 3 t) (iblk4 V c 0 t) (iblk4 V c 1 t) (iblk4 V c 4 t) p q).trans ?_
  rw [read4_0 V c t p q hr, read4_1 V c t q, read4_2 V c t q, read4_3 V c t q, read4_4 V c t q]
  rfl

theorem mem_blk4_5 (t : Fin cfg4.N) (i : S100000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v72).slice (win4_5.rect t)).set ↔ _
  rw [View.set_slice_whole, Rect.mem_set_unit]
  exact Iff.rfl

theorem covered4_5 (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  obtain ⟨t, ht⟩ : ∃ t : Fin cfg4.N, t.val = (i 0).val / 5000 :=
    ⟨⟨(i 0).val / 5000, Nat.lt_of_lt_of_eq (by omega : (i 0).val / 5000 < 20) N_4.symm⟩, rfl⟩
  obtain ⟨-, -, -, -, -, -, -, -, -, -, e0, e1⟩ := idx_facts4 t
  refine ⟨t, flush4_5 t, ?_⟩
  rw [mem_blk4_5]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 64 ≤ (i 1).val ∧ (i 1).val < win4_5.index t (1 : Fin 2) * 64 + 64; omega

end Cert.KernelIdeal.Val.R4

namespace Cert.KernelIdeal.Val

theorem arr4_5 (p : Fin 100000) (q : Fin 64) :
    (dat4 (F := Ideal) V c).arrAt 5 cfg4.N (ix2 p q)
      = Cert.Spec.bnAct (Cert.Spec.mat (V c main_v57_0)) (fun k => V c main_v68 (ix2 0 k)) (fun k => V c main_v69 (ix2 0 k))
          (fun k => V c main_v70 (ix2 0 k)) (fun k => V c main_v71 (ix2 0 k)) p q :=
  congrFun ((dat4 V c).arrAt_eq_of_cover 5 (R4.G4 V c) (fun t _ => R4.flushed4_5_eq V c t) R4.covered4_5) (ix2 p q)

end Cert.KernelIdeal.Val

end
-- ==== Proof.ValKI.Reg5Pay.lean ====
import proofs.«402365_j6828998001463_1_alg».proof.Proof.Gen.KernelIdeal.Skeleton
import proofs.«402365_j6828998001463_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val.R5

open Cert.KernelIdeal Cert.KernelIdeal.Gen
open Idealize.ShloMosaic Idealize.ShloMosaic.ValueIdx

theorem addUnit64_apply {α : Type} (v : S64.Idx → α) (h : S64.ShapeCasts S1x64) (q : Fin 64) :
    shapeCast S1x64 v h (ix2 0 q) = v (ix1 q) := by
  refine (shapeCast_addUnit_apply ![64] v h (ix2 0 q)).trans (congrArg v ?_)
  funext a
  match a with
  | ⟨0, _⟩ => rfl

theorem bcastRow_apply {α : Type} (v : S1x64.Idx → α) (h : S1x64.Broadcasts S5000x64) (r : Fin 5000) (q : Fin 64) :
    broadcastTo S5000x64 v h (ix2 r q) = v (ix2 0 q) :=
  broadcastTo_apply v h (ix2 r q) (ix2 0 q) (fun a => match a with | ⟨0, _⟩ => rfl | ⟨1, _⟩ => rfl)

theorem colReduce_apply (src : FVec Ideal S5000x64 .f32) (q : Fin 64) :
    multiReduction (F := Ideal) .add [0] S64 src 0x00000000#32 reduces_S5000x64_S64 (.inl rfl) rfl (ix1 q)
      = ∑ r : Fin 5000, src (ix2 r q) := by
  refine (Ideal.multiReduction_add_single src 0x00000000#32 reduces_S5000x64_S64 (.inl rfl) rfl (ix1 q)).trans ?_
  refine Finset.sum_congr rfl fun r _ => congrArg src ?_
  funext a
  refine Fin.ext ?_
  match a with
  | ⟨0, _⟩ => rfl
  | ⟨1, _⟩ => rfl

theorem accAdd_apply (acc : Vec Ideal S1x64 .f32) (src : FVec Ideal S5000x64 .f32) (q : Fin 64) :
    shapeCast S1x64 (addf acc (shapeCast S1x64
        (multiReduction (F := Ideal) .add [0] S64 src 0x00000000#32 reduces_S5000x64_S64 (.inl rfl) rfl) shapeCasts_S64_S1x64))
      shapeCasts_S1x64_S1x64 (ix2 0 q) = acc (ix2 0 q) + ∑ r : Fin 5000, src (ix2 r q) := by
  rw [shapeCast_self, addf_apply, addUnit64_apply, colReduce_apply]

variable {F : FTy → Type} [FloatOps F]

theorem pay6_eq (x0 : Vec F S5000x128 .f32) (x1 : Vec F S5000x64 .f32) (x2 : Vec F S128x64 .f32) (x3 : Vec F S64x64 .f32) (x4 : Vec F S1x64 .f32) :
    k5_pay6 x0 x1 x2 x3 x4
      = addf (addf (matmul dot_S5000x128_S128x64_S5000x64_1_0_0_1_n_n none (truncf .bf16 x0 bitsLt_bf16_f32) (truncf .bf16 x2 bitsLt_bf16_f32) (constant S5000x64 .f32 0x00000000#32))
                   (matmul dot_S5000x64_S64x64_S5000x64_1_0_0_1_n_n none (truncf .bf16 x1 bitsLt_bf16_f32) (truncf .bf16 x3 bitsLt_bf16_f32) (constant S5000x64 .f32 0x00000000#32)))
             (broadcastTo S5000x64 x4 broadcasts_S1x64_S5000x64) := by
  unfold k5_pay6
  simp only [shapeCast_self]

theorem pay2_eq (v : Vec F S1x64 .f32) : k5_pay2 v = v := by
  unfold k5_pay2
  exact shapeCast_shapeCast v shapeCasts_S1x64_S64 shapeCasts_S64_S1x64
theorem pay3_eq (v : Vec F S1x64 .f32) : k5_pay3 v = v := by
  unfold k5_pay3
  exact shapeCast_shapeCast v shapeCasts_S1x64_S64 shapeCasts_S64_S1x64

theorem pay6_apply (x0 : Vec Ideal S5000x128 .f32) (x1 : Vec Ideal S5000x64 .f32) (x2 : Vec Ideal S128x64 .f32) (x3 : Vec Ideal S64x64 .f32) (x4 : Vec Ideal S1x64 .f32) (r : Fin 5000) (q : Fin 64) :
    k5_pay6 (F := Ideal) x0 x1 x2 x3 x4 (ix2 r q)
      = ((∑ k : Fin 128, x0 (ix2 r k) * x2 (ix2 k q)) + (∑ k : Fin 64, x1 (ix2 r k) * x3 (ix2 k q))) + x4 (ix2 0 q) := by
  rw [pay6_eq, addf_apply, addf_apply]
  refine congrArg₂ (· + ·) (congrArg₂ (· + ·) ?_ ?_) ?_
  · exact RowDims.matmul_plain_zero_apply (M := 5000) (K := 128) (N := 64) none (truncf .bf16 x0 bitsLt_bf16_f32) (truncf .bf16 x2 bitsLt_bf16_f32) r q
  · exact RowDims.matmul_plain_zero_apply (M := 5000) (K := 64) (N := 64) none (truncf .bf16 x1 bitsLt_bf16_f32) (truncf .bf16 x3 bitsLt_bf16_f32) r q
  · exact bcastRow_apply x4 broadcasts_S1x64_S5000x64 r q

theorem pay7_apply (x0 : Vec Ideal S5000x128 .f32) (x1 : Vec Ideal S5000x64 .f32) (x2 : Vec Ideal S128x64 .f32) (x3 : Vec Ideal S64x64 .f32) (x4 : Vec Ideal S1x64 .f32) (acc : Vec Ideal S1x64 .f32) (q : Fin 64) :
    k5_pay7 (F := Ideal) x0 x1 x2 x3 x4 acc (ix2 0 q)
      = acc (ix2 0 q) + ∑ r : Fin 5000, k5_pay6 (F := Ideal) x0 x1 x2 x3 x4 (ix2 r q) :=
  accAdd_apply acc (k5_pay6 (F := Ideal) x0 x1 x2 x3 x4) q

theorem pay1_apply (acc : Vec Ideal S1x64 .f32) (sq : FVec Ideal S5000x64 .f32) (q : Fin 64) :
    k5_pay1 (F := Ideal) acc sq (ix2 0 q) = acc (ix2 0 q) + ∑ r : Fin 5000, sq (ix2 r q) :=
  accAdd_apply acc sq q

theorem pay8_apply (x0 : Vec Ideal S5000x128 .f32) (x1 : Vec Ideal S5000x64 .f32) (x2 : Vec Ideal S128x64 .f32) (x3 : Vec Ideal S64x64 .f32) (x4 : Vec Ideal S1x64 .f32) (r : Fin 5000) (q : Fin 64) :
    k5_pay8 (F := Ideal) x0 x1 x2 x3 x4 (ix2 r q)
      = k5_pay6 (F := Ideal) x0 x1 x2 x3 x4 (ix2 r q) * k5_pay6 (F := Ideal) x0 x1 x2 x3 x4 (ix2 r q) := rfl

theorem pay4_apply (q : Fin 64) : k5_pay4 (F := Ideal) (ix2 0 q) = 0 := by
  unfold k5_pay4
  rw [shapeCast_self]
  exact Ideal.ofBits_zero_f32
theorem pay5_apply (q : Fin 64) : k5_pay5 (F := Ideal) (ix2 0 q) = 0 := by
  unfold k5_pay5
  rw [shapeCast_self]
  exact Ideal.ofBits_zero_f32

end Cert.KernelIdeal.Val.R5

end
-- ==== Proof.ValKI.Reg5Pieces.lean ====
import proofs.«402365_j6828998001463_1_alg».proof.Proof.FrameKI.Reg5
import proofs.«402365_j6828998001463_1_alg».proof.Proof.ValKI.Reg5Pay
import Idealize.ShloMosaic.Lib.Pipeline.Value
import Idealize.ShloMosaic.Lib.ValueIdx

set_option maxRecDepth 16384

noncomputable section

namespace Cert.KernelIdeal.Val.R5

open Cert.KernelIdeal Cert.KernelIdeal.Gen Cert.KernelIdeal.Hand
open Idealize.ShloMosaic Idealize.ShloMosaic.TcCoe Idealize.ShloMosaic.Tactic Idealize.ShloMosaic.ValueIdx
open Idealize.SL.Sem

variable {F : FTy → Type} [FloatOps F]

theorem hz2 : (![0, 0] : Fin 2 → Nat) = fun _ => 0 := funext fun a => by fin_cases a <;> rfl

theorem rows2_row0 (inb0 : ∀ a, (![0, 0] : Fin 2 → Nat) a + S1x64.size a ≤ S2x64.size a)
    (inb1 : ∀ a, (![1, 0] : Fin 2 → Nat) a + S1x64.size a ≤ S2x64.size a) (w0 w1 : S1x64.Idx → Elt F .f32) (q : Fin 64) :
    View.canon [(⟨Rect.unit (s := S2x64) ![1, 0] S1x64.size inb1, w1⟩ : View.Piece (Elt F) S2x64 .f32),
      ⟨Rect.unit (s := S2x64) ![0, 0] S1x64.size inb0, w0⟩] (ix2 0 q) = w0 (ix2 0 q) := by
  rw [View.canon_cons_of_not_mem _ _ (by
    rw [Rect.mem_set_unit]; intro h; exact absurd (h 0).1 (Nat.not_succ_le_zero 0))]
  have e : (Rect.unit (s := S2x64) ![0, 0] S1x64.size inb0).emb (ix2 0 q) = ix2 0 q := by
    funext a
    refine Fin.ext ?_
    match a with
    | ⟨0, _⟩ => rfl
    | ⟨1, _⟩ => show 0 + 1 * q.val = q.val; omega
  have h := View.canon_cons_emb (Val := Elt F) (Rect.unit (s := S2x64) ![0, 0] S1x64.size inb0) w0 [] (ix2 0 q)
  rw [e] at h
  exact h

theorem rows2_row1 (inb0 : ∀ a, (![0, 0] : Fin 2 → Nat) a + S1x64.size a ≤ S2x64.size a)
    (inb1 : ∀ a, (![1, 0] : Fin 2 → Nat) a + S1x64.size a ≤ S2x64.size a) (w0 w1 : S1x64.Idx → Elt F .f32) (q : Fin 64) :
    View.canon [(⟨Rect.unit (s := S2x64) ![1, 0] S1x64.size inb1, w1⟩ : View.Piece (Elt F) S2x64 .f32),
      ⟨Rect.unit (s := S2x64) ![0, 0] S1x64.size inb0, w0⟩] (ix2 1 q) = w1 (ix2 0 q) := by
  have e : (Rect.unit (s := S2x64) ![1, 0] S1x64.size inb1).emb (ix2 0 q) = ix2 1 q := by
    funext a
    refine Fin.ext ?_
    match a with
    | ⟨0, _⟩ => rfl
    | ⟨1, _⟩ => show 0 + 1 * q.val = q.val; omega
  have h := View.canon_cons_emb (Val := Elt F) (Rect.unit (s := S2x64) ![1, 0] S1x64.size inb1) w1
    [(⟨Rect.unit (s := S2x64) ![0, 0] S1x64.size inb0, w0⟩ : View.Piece (Elt F) S2x64 .f32)] (ix2 0 q)
  rw [e] at h
  exact h

variable (V : (c : Dev nD) → (b : Ref sig .tc) → Buf (Elt F) ((c : Thread nD τ).loc b))

abbrev blk0 (c : Dev nD) (t : Fin cfg5.N) : Vec F S5000x128 .f32 := iblk5 V c 0 t
abbrev blk1 (c : Dev nD) (t : Fin cfg5.N) : Vec F S5000x64 .f32 := iblk5 V c 1 t
abbrev blk2 (c : Dev nD) (t : Fin cfg5.N) : Vec F S128x64 .f32 := iblk5 V c 2 t
abbrev blk3 (c : Dev nD) (t : Fin cfg5.N) : Vec F S64x64 .f32 := iblk5 V c 3 t
abbrev blk4 (c : Dev nD) (t : Fin cfg5.N) : Vec F S1x64 .f32 := iblk5 V c 4 t

section
variable (c : Dev nD) (t : Fin cfg5.N)

section
variable (h0 : t.val = 0) (h1 : ¬t.val = 19)

theorem out5_A_5_eq : (outs5_A_at V c t h0 h1).1 = k5_pay6 (blk0 V c t) (blk1 V c t) (blk2 V c t) (blk3 V c t) (blk4 V c t) := by
  unfold outs5_A_at; dsimp only
  rw [View.read_writes_eq_canon _ _ _ (cover5_A_5 V c t h0 h1)]
  unfold run5_A kernelRun5_A
  dsimp only
  sl_unfold_words
  rw [View.canon_unit_zero hz2]
  simp only [View.readAt_eq_ld, (hs5_0 t).read_unread, (hs5_1 t).read_unread, (hs5_2 t).read_unread, (hs5_3 t).read_unread, (hs5_4 t).read_unread,
    View.ld_unit_zero (S := S5000x128) hz2, View.ld_unit_zero (S := S5000x64) hz2, View.ld_unit_zero (S := S128x64) hz2,
    View.ld_unit_zero (S := S64x64) hz2, View.ld_unit_zero (S := S1x64) hz2]

theorem sout5_A_0_eq : (outs5_A_at V c t h0 h1).2.2.1 = k5_pay7 (blk0 V c t) (blk1 V c t) (blk2 V c t) (blk3 V c t) (blk4 V c t) k5_pay4 := by
  unfold outs5_A_at; dsimp only
  rw [View.read_writes_eq_canon _ _ _ (scover5_A_0 V c t h0 h1)]
  unfold run5_A kernelRun5_A
  dsimp only
  sl_unfold_words
  rw [View.canon_cons_unit_zero (S := S1x64) hz2, View.readCov_unit_zero (S := S1x64) _ hz2]
  simp only [View.readAt_eq_ld, (hs5_0 t).read_unread, (hs5_1 t).read_unread, (hs5_2 t).read_unread, (hs5_3 t).read_unread, (hs5_4 t).read_unread,
    View.ld_unit_zero (S := S5000x128) hz2, View.ld_unit_zero (S := S5000x64) hz2, View.ld_unit_zero (S := S128x64) hz2,
    View.ld_unit_zero (S := S64x64) hz2, View.ld_unit_zero (S := S1x64) hz2]

theorem sout5_A_1_eq : (outs5_A_at V c t h0 h1).2.2.2 = k5_pay1 k5_pay5 (k5_pay8 (blk0 V c t) (blk1 V c t) (blk2 V c t) (blk3 V c t) (blk4 V c t)) := by
  unfold outs5_A_at; dsimp only
  rw [View.read_writes_eq_canon _ _ _ (scover5_A_1 V c t h0 h1)]
  unfold run5_A kernelRun5_A
  dsimp only
  sl_unfold_words
  rw [View.canon_cons_unit_zero (S := S1x64) hz2, View.readCov_unit_zero (S := S1x64) _ hz2]
  simp only [View.readAt_eq_ld, (hs5_0 t).read_unread, (hs5_1 t).read_unread, (hs5_2 t).read_unread, (hs5_3 t).read_unread, (hs5_4 t).read_unread,
    View.ld_unit_zero (S := S5000x128) hz2, View.ld_unit_zero (S := S5000x64) hz2, View.ld_unit_zero (S := S128x64) hz2,
    View.ld_unit_zero (S := S64x64) hz2, View.ld_unit_zero (S := S1x64) hz2]

end

section
variable (h0 : ¬t.val = 0) (h1 : ¬t.val = 19) (xs0 : Vec F S1x64 .f32) (xs1 : Vec F S1x64 .f32)

theorem out5_B_5_eq : (outs5_B_at V c t h0 h1 xs0 xs1).1 = k5_pay6 (blk0 V c t) (blk1 V c t) (blk2 V c t) (blk3 V c t) (blk4 V c t) := by
  unfold outs5_B_at; dsimp only
  rw [View.read_writes_eq_canon _ _ _ (cover5_B_5 V c t h0 h1 xs0 xs1)]
  unfold run5_B kernelRun5_B
  dsimp only
  sl_unfold_words
  rw [View.canon_unit_zero hz2]
  simp only [View.readAt_eq_ld, (hs5_0 t).read_unread, (hs5_1 t).read_unread, (hs5_2 t).read_unread, (hs5_3 t).read_unread, (hs5_4 t).read_unread,
    View.ld_unit_zero (S := S5000x128) hz2, View.ld_unit_zero (S := S5000x64) hz2, View.ld_unit_zero (S := S128x64) hz2,
    View.ld_unit_zero (S := S64x64) hz2, View.ld_unit_zero (S := S1x64) hz2]

theorem sout5_B_0_eq : (outs5_B_at V c t h0 h1 xs0 xs1).2.2.1 = k5_pay7 (blk0 V c t) (blk1 V c t) (blk2 V c t) (blk3 V c t) (blk4 V c t) xs0 := by
  unfold outs5_B_at; dsimp only
  rw [View.read_writes_eq_canon _ _ _ (scover5_B_0 V c t h0 h1 xs0 xs1)]
  unfold run5_B kernelRun5_B
  dsimp only
  sl_unfold_words
  rw [View.canon_unit_zero hz2]
  simp only [View.readAt_eq_ld, (hs5_0 t).read_unread, (hs5_1 t).read_unread, (hs5_2 t).read_unread, (hs5_3 t).read_unread, (hs5_4 t).read_unread, (Memref.isWhole_whole cc5_scratch0).read_unread,
    View.ld_unit_zero (S := S5000x128) hz2, View.ld_unit_zero (S := S5000x64) hz2, View.ld_unit_zero (S := S128x64) hz2,
    View.ld_unit_zero (S := S64x64) hz2, View.ld_unit_zero (S := S1x64) hz2]

theorem sout5_B_1_eq : (outs5_B_at V c t h0 h1 xs0 xs1).2.2.2 = k5_pay1 xs1 (k5_pay8 (blk0 V c t) (blk1 V c t) (blk2 V c t) (blk3 V c t) (blk4 V c t)) := by
  unfold outs5_B_at; dsimp only
  rw [View.read_writes_eq_canon _ _ _ (scover5_B_1 V c t h0 h1 xs0 xs1)]
  unfold run5_B kernelRun5_B
  dsimp only
  sl_unfold_words
  rw [View.canon_unit_zero hz2]
  simp only [View.readAt_eq_ld, (hs5_0 t).read_unread, (hs5_1 t).read_unread, (hs5_2 t).read_unread, (hs5_3 t).read_unread, (hs5_4 t).read_unread, (Memref.isWhole_whole cc5_scratch1).read_unread,
    View.ld_unit_zero (S := S5000x128) hz2, View.ld_unit_zero (S := S5000x64) hz2, View.ld_unit_zero (S := S128x64) hz2,
    View.ld_unit_zero (S := S64x64) hz2, View.ld_unit_zero (S := S1x64) hz2]

end

section
variable (h0 : ¬t.val = 0) (h1 : t.val = 19) (xs0 : Vec F S1x64 .f32) (xs1 : Vec F S1x64 .f32)

theorem out5_C_5_eq : (outs5_C_at V c t h0 h1 xs0 xs1).1 = k5_pay6 (blk0 V c t) (blk1 V c t) (blk2 V c t) (blk3 V c t) (blk4 V c t) := by
  unfold outs5_C_at; dsimp only
  rw [View.read_writes_eq_canon _ _ _ (cover5_C_5 V c t h0 h1 xs0 xs1)]
  unfold run5_C kernelRun5_C
  dsimp only
  sl_unfold_words
  rw [View.canon_unit_zero hz2]
  simp only [View.readAt_eq_ld, (hs5_0 t).read_unread, (hs5_1 t).read_unread, (hs5_2 t).read_unread, (hs5_3 t).read_unread, (hs5_4 t).read_unread,
    View.ld_unit_zero (S := S5000x128) hz2, View.ld_unit_zero (S := S5000x64) hz2, View.ld_unit_zero (S := S128x64) hz2,
    View.ld_unit_zero (S := S64x64) hz2, View.ld_unit_zero (S := S1x64) hz2]

theorem sout5_C_0_eq : (outs5_C_at V c t h0 h1 xs0 xs1).2.2.1 = k5_pay7 (blk0 V c t) (blk1 V c t) (blk2 V c t) (blk3 V c t) (blk4 V c t) xs0 := by
  unfold outs5_C_at; dsimp only
  rw [View.read_writes_eq_canon _ _ _ (scover5_C_0 V c t h0 h1 xs0 xs1)]
  unfold run5_C kernelRun5_C
  dsimp only
  sl_unfold_words
  rw [View.canon_unit_zero hz2]
  simp only [View.readAt_eq_ld, (hs5_0 t).read_unread, (hs5_1 t).read_unread, (hs5_2 t).read_unread, (hs5_3 t).read_unread, (hs5_4 t).read_unread, (Memref.isWhole_whole cc5_scratch0).read_unread,
    View.ld_unit_zero (S := S5000x128) hz2, View.ld_unit_zero (S := S5000x64) hz2, View.ld_unit_zero (S := S128x64) hz2,
    View.ld_unit_zero (S := S64x64) hz2, View.ld_unit_zero (S := S1x64) hz2]

theorem sout5_C_1_eq : (outs5_C_at V c t h0 h1 xs0 xs1).2.2.2 = k5_pay1 xs1 (k5_pay8 (blk0 V c t) (blk1 V c t) (blk2 V c t) (blk3 V c t) (blk4 V c t)) := by
  unfold outs5_C_at; dsimp only
  rw [View.read_writes_eq_canon _ _ _ (scover5_C_1 V c t h0 h1 xs0 xs1)]
  unfold run5_C kernelRun5_C
  dsimp only
  sl_unfold_words
  rw [View.canon_unit_zero hz2]
  simp only [View.readAt_eq_ld, (hs5_0 t).read_unread, (hs5_1 t).read_unread, (hs5_2 t).read_unread, (hs5_3 t).read_unread, (hs5_4 t).read_unread, (Memref.isWhole_whole cc5_scratch1).read_unread,
    View.ld_unit_zero (S := S5000x128) hz2, View.ld_unit_zero (S := S5000x64) hz2, View.ld_unit_zero (S := S128x64) hz2,
    View.ld_unit_zero (S := S64x64) hz2, View.ld_unit_zero (S := S1x64) hz2]

theorem out5_C_6_row0 (q : Fin 64) : (outs5_C_at V c t h0 h1 xs0 xs1).2.1 (ix2 0 q) = k5_pay7 (blk0 V c t) (blk1 V c t) (blk2 V c t) (blk3 V c t) (blk4 V c t) xs0 (ix2 0 q) := by
  unfold outs5_C_at; dsimp only
  rw [View.read_writes_eq_canon _ _ _ (cover5_C_6 V c t h0 h1 xs0 xs1)]
  unfold run5_C kernelRun5_C
  dsimp only
  sl_unfold_words
  refine (rows2_row0 (F := F) _ _ _ _ q).trans ?_
  rw [pay2_eq, View.readCov_unit_zero (S := S1x64) _ hz2]
  simp only [View.readAt_eq_ld, (hs5_0 t).read_unread, (hs5_1 t).read_unread, (hs5_2 t).read_unread, (hs5_3 t).read_unread, (hs5_4 t).read_unread, (Memref.isWhole_whole cc5_scratch0).read_unread,
    View.ld_unit_zero (S := S5000x128) hz2, View.ld_unit_zero (S := S5000x64) hz2, View.ld_unit_zero (S := S128x64) hz2,
    View.ld_unit_zero (S := S64x64) hz2, View.ld_unit_zero (S := S1x64) hz2]

theorem out5_C_6_row1 (q : Fin 64) : (outs5_C_at V c t h0 h1 xs0 xs1).2.1 (ix2 1 q) = k5_pay1 xs1 (k5_pay8 (blk0 V c t) (blk1 V c t) (blk2 V c t) (blk3 V c t) (blk4 V c t)) (ix2 0 q) := by
  unfold outs5_C_at; dsimp only
  rw [View.read_writes_eq_canon _ _ _ (cover5_C_6 V c t h0 h1 xs0 xs1)]
  unfold run5_C kernelRun5_C
  dsimp only
  sl_unfold_words
  refine (rows2_row1 (F := F) _ _ _ _ q).trans ?_
  rw [pay3_eq, View.readCov_unit_zero (S := S1x64) _ hz2]
  simp only [View.readAt_eq_ld, (hs5_0 t).read_unread, (hs5_1 t).read_unread, (hs5_2 t).read_unread, (hs5_3 t).read_unread, (hs5_4 t).read_unread, (Memref.isWhole_whole cc5_scratch1).read_unread,
    View.ld_unit_zero (S := S5000x128) hz2, View.ld_unit_zero (S := S5000x64) hz2, View.ld_unit_zero (S := S128x64) hz2,
    View.ld_unit_zero (S := S64x64) hz2, View.ld_unit_zero (S := S1x64) hz2]

end

end

theorem hbuf_at (c : Dev nD) (t : Fin cfg5.N) :
    (outsAt5 V c t.val t.isLt).1 = k5_pay6 (blk0 V c t) (blk1 V c t) (blk2 V c t) (blk3 V c t) (blk4 V c t) := by
  have hN : t.val < 20 := lt_of_lt_of_eq t.isLt (show cfg5.N = 20 from N_5)
  by_cases h0 : t.val = 0
  · have h1 : ¬t.val = 19 := by omega
    rw [outsAt5_A V c t h0 h1]
    exact out5_A_5_eq V c t h0 h1
  · by_cases h1 : t.val = 19
    · rw [outsAt5_C V c t h0 h1]
      exact out5_C_5_eq V c t h0 h1 _ _
    · rw [outsAt5_B V c t h0 h1]
      exact out5_B_5_eq V c t h0 h1 _ _

theorem acc_first (c : Dev nD) (t : Fin cfg5.N) (h0 : t.val = 0) :
    (outsAt5 V c t.val t.isLt).2.2.1 = k5_pay7 (blk0 V c t) (blk1 V c t) (blk2 V c t) (blk3 V c t) (blk4 V c t) k5_pay4
    ∧ (outsAt5 V c t.val t.isLt).2.2.2 = k5_pay1 k5_pay5 (k5_pay8 (blk0 V c t) (blk1 V c t) (blk2 V c t) (blk3 V c t) (blk4 V c t)) := by
  have h1 : ¬t.val = 19 := by omega
  rw [outsAt5_A V c t h0 h1]
  exact ⟨sout5_A_0_eq V c t h0 h1, sout5_A_1_eq V c t h0 h1⟩

theorem acc_later (c : Dev nD) (t : Fin cfg5.N) (h0 : ¬t.val = 0) :
    (outsAt5 V c t.val t.isLt).2.2.1 = k5_pay7 (blk0 V c t) (blk1 V c t) (blk2 V c t) (blk3 V c t) (blk4 V c t) (outsAt5 V c (t.val - 1) (Nat.lt_of_le_of_lt (Nat.sub_le _ _) t.isLt)).2.2.1
    ∧ (outsAt5 V c t.val t.isLt).2.2.2 = k5_pay1 (outsAt5 V c (t.val - 1) (Nat.lt_of_le_of_lt (Nat.sub_le _ _) t.isLt)).2.2.2 (k5_pay8 (blk0 V c t) (blk1 V c t) (blk2 V c t) (blk3 V c t) (blk4 V c t)) := by
  by_cases h1 : t.val = 19
  · rw [outsAt5_C V c t h0 h1]
    exact ⟨sout5_C_0_eq V c t h0 h1 _ _, sout5_C_1_eq V c t h0 h1 _ _⟩
  · rw [outsAt5_B V c t h0 h1]
    exact ⟨sout5_B_0_eq V c t h0 h1 _ _, sout5_B_1_eq V c t h0 h1 _ _⟩

theorem stats_last (c : Dev nD) (t : Fin cfg5.N) (h0 : ¬t.val = 0) (h1 : t.val = 19) (q : Fin 64) :
    (outsAt5 V c t.val t.isLt).2.1 (ix2 0 q) = (outsAt5 V c t.val t.isLt).2.2.1 (ix2 0 q)
    ∧ (outsAt5 V c t.val t.isLt).2.1 (ix2 1 q) = (outsAt5 V c t.val t.isLt).2.2.2 (ix2 0 q) := by
  rw [outsAt5_C V c t h0 h1]
  exact ⟨(out5_C_6_row0 V c t h0 h1 _ _ q).trans (congrFun (sout5_C_0_eq V c t h0 h1 _ _) (ix2 0 q)).symm,
    (out5_C_6_row1 V c t h0 h1 _ _ q).trans (congrFun (sout5_C_1_eq V c t h0 h1 _ _) (ix2 0 q)).symm⟩

end Cert.KernelIdeal.Val.R5

end
-- ==== Proof.ValKI.Reg5.lean ====
import proofs.«402365_j6828998001463_1_alg».proof.Proof.FrameKI.Reg5
import proofs.«402365_j6828998001463_1_alg».proof.Proof.ValKI.Reg5Pay
import proofs.«402365_j6828998001463_1_alg».proof.Proof.ValKI.Reg5Pieces
import proofs.«402365_j6828998001463_1_alg».proof.Proof.Spec
import proofs.«402365_j6828998001463_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val.R5

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem idx5_0 : ∀ t : Fin cfg5.N, win5_0.index t (0 : Fin 2) = t.val ∧ win5_0.index t (1 : Fin 2) = 0 := by decide +kernel
theorem idx5_1 : ∀ t : Fin cfg5.N, win5_1.index t (0 : Fin 2) = t.val ∧ win5_1.index t (1 : Fin 2) = 0 := by decide +kernel
theorem idx5_2 : ∀ t : Fin cfg5.N, win5_2.index t (0 : Fin 2) = 0 ∧ win5_2.index t (1 : Fin 2) = 0 := by decide +kernel
theorem idx5_3 : ∀ t : Fin cfg5.N, win5_3.index t (0 : Fin 2) = 0 ∧ win5_3.index t (1 : Fin 2) = 0 := by decide +kernel
theorem idx5_4 : ∀ t : Fin cfg5.N, win5_4.index t (0 : Fin 2) = 0 ∧ win5_4.index t (1 : Fin 2) = 0 := by decide +kernel
theorem idx5_5 : ∀ t : Fin cfg5.N, win5_5.index t (0 : Fin 2) = t.val ∧ win5_5.index t (1 : Fin 2) = 0 := by decide +kernel
theorem idx5_6 : ∀ t : Fin cfg5.N, win5_6.index t (0 : Fin 2) = 0 ∧ win5_6.index t (1 : Fin 2) = 0 := by decide +kernel

theorem blk0_apply (c : Dev nD) (t : Fin cfg5.N) (r : Fin 5000) (k : Fin 128) (h : 5000 * t.val + r.val < 100000) :
    blk0 V c t (ix2 r k) = V c main_v6 (ix2 ⟨5000 * t.val + r.val, h⟩ k) := by
  unfold blk0 iblk5
  rw [View.read_apply]
  show V c main_v6 _ = V c main_v6 _
  congr 1
  funext a
  apply Fin.ext
  match a with
  | ⟨0, _⟩ => show win5_0.index t 0 * 5000 + 1 * r.val = 5000 * t.val + r.val; rw [(idx5_0 t).1]; omega
  | ⟨1, _⟩ => show win5_0.index t 1 * 128 + 1 * k.val = k.val; rw [(idx5_0 t).2]; omega

theorem blk1_apply (c : Dev nD) (t : Fin cfg5.N) (r : Fin 5000) (k : Fin 64) (h : 5000 * t.val + r.val < 100000) :
    blk1 V c t (ix2 r k) = V c main_v72 (ix2 ⟨5000 * t.val + r.val, h⟩ k) := by
  unfold blk1 iblk5
  rw [View.read_apply]
  show V c main_v72 _ = V c main_v72 _
  congr 1
  funext a
  apply Fin.ext
  match a with
  | ⟨0, _⟩ => show win5_1.index t 0 * 5000 + 1 * r.val = 5000 * t.val + r.val; rw [(idx5_1 t).1]; omega
  | ⟨1, _⟩ => show win5_1.index t 1 * 64 + 1 * k.val = k.val; rw [(idx5_1 t).2]; omega

theorem blk2_apply (c : Dev nD) (t : Fin cfg5.N) (k : Fin 128) (q : Fin 64) :
    blk2 V c t (ix2 k q) = V c main_v73 (ix2 k q) := by
  unfold blk2 iblk5
  rw [View.read_apply]
  show V c main_v73 _ = V c main_v73 _
  congr 1
  funext a
  apply Fin.ext
  match a with
  | ⟨0, _⟩ => show win5_2.index t 0 * 128 + 1 * k.val = k.val; rw [(idx5_2 t).1]; omega
  | ⟨1, _⟩ => show win5_2.index t 1 * 64 + 1 * q.val = q.val; rw [(idx5_2 t).2]; omega

theorem blk3_apply (c : Dev nD) (t : Fin cfg5.N) (k : Fin 64) (q : Fin 64) :
    blk3 V c t (ix2 k q) = V c main_v74 (ix2 k q) := by
  unfold blk3 iblk5
  rw [View.read_apply]
  show V c main_v74 _ = V c main_v74 _
  congr 1
  funext a
  apply Fin.ext
  match a with
  | ⟨0, _⟩ => show win5_3.index t 0 * 64 + 1 * k.val = k.val; rw [(idx5_3 t).1]; omega
  | ⟨1, _⟩ => show win5_3.index t 1 * 64 + 1 * q.val = q.val; rw [(idx5_3 t).2]; omega

theorem blk4_apply (c : Dev nD) (t : Fin cfg5.N) (q : Fin 64) :
    blk4 V c t (ix2 0 q) = V c main_v75 (ix2 0 q) := by
  unfold blk4 iblk5
  rw [View.read_apply]
  show V c main_v75 _ = V c main_v75 _
  congr 1
  funext a
  apply Fin.ext
  match a with
  | ⟨0, _⟩ => show win5_4.index t 0 * 1 + 1 * 0 = 0; rw [(idx5_4 t).1]
  | ⟨1, _⟩ => show win5_4.index t 1 * 64 + 1 * q.val = q.val; rw [(idx5_4 t).2]; omega

abbrev a6 (c : Dev nD) : S100000x128.Idx → EReal := V c main_v6
abbrev a72 (c : Dev nD) : S100000x64.Idx → EReal := V c main_v72
abbrev a73 (c : Dev nD) : S128x64.Idx → EReal := V c main_v73
abbrev a74 (c : Dev nD) : S64x64.Idx → EReal := V c main_v74
abbrev a75 (c : Dev nD) : S1x64.Idx → EReal := V c main_v75

abbrev H5 (c : Dev nD) : Cert.Spec.Mat 100000 64 :=
  Cert.Spec.finTwo (Cert.Spec.mat (V c main_v6)) (Cert.Spec.mat (V c main_v72)) (Cert.Spec.mat (V c main_v73))
    (Cert.Spec.mat (V c main_v74)) (fun k => V c main_v75 (ix2 0 k))

theorem hblk_apply (c : Dev nD) (t : Fin cfg5.N) (r : Fin 5000) (q : Fin 64) (h : 5000 * t.val + r.val < 100000) :
    k5_pay6 (F := Ideal) (blk0 V c t) (blk1 V c t) (blk2 V c t) (blk3 V c t) (blk4 V c t) (ix2 r q) = H5 V c ⟨5000 * t.val + r.val, h⟩ q := by
  refine (pay6_apply _ _ _ _ _ r q).trans ?_
  show _ = ((∑ k : Fin 128, a6 V c (ix2 ⟨5000 * t.val + r.val, h⟩ k) * a73 V c (ix2 k q))
    + (∑ k : Fin 64, a72 V c (ix2 ⟨5000 * t.val + r.val, h⟩ k) * a74 V c (ix2 k q))) + a75 V c (ix2 0 q)
  refine congrArg₂ (· + ·) (congrArg₂ (· + ·) (Finset.sum_congr rfl fun k _ => ?_) (Finset.sum_congr rfl fun k _ => ?_)) ?_
  · rw [blk0_apply V c t r k h, blk2_apply V c t k q]
  · rw [blk1_apply V c t r k h, blk3_apply V c t k q]
  · exact blk4_apply V c t q

def gS (c : Dev nD) (q : Fin 64) (i : ℕ) : EReal := if h : i < 100000 then H5 V c ⟨i, h⟩ q else 0
def gQ (c : Dev nD) (q : Fin 64) (i : ℕ) : EReal := if h : i < 100000 then H5 V c ⟨i, h⟩ q * H5 V c ⟨i, h⟩ q else 0

theorem blockSum (c : Dev nD) (t : Fin cfg5.N) (q : Fin 64) :
    ∑ r : Fin 5000, k5_pay6 (F := Ideal) (blk0 V c t) (blk1 V c t) (blk2 V c t) (blk3 V c t) (blk4 V c t) (ix2 r q)
      = ∑ r ∈ Finset.range 5000, gS V c q (5000 * t.val + r) := by
  have hN : t.val < 20 := lt_of_lt_of_eq t.isLt (show cfg5.N = 20 from N_5)
  rw [← Fin.sum_univ_eq_sum_range (fun r => gS V c q (5000 * t.val + r)) 5000]
  refine Finset.sum_congr rfl fun r _ => ?_
  have h : 5000 * t.val + r.val < 100000 := by have := r.isLt; omega
  rw [hblk_apply V c t r q h]
  unfold gS
  rw [dif_pos h]

theorem blockSumSq (c : Dev nD) (t : Fin cfg5.N) (q : Fin 64) :
    ∑ r : Fin 5000, k5_pay8 (F := Ideal) (blk0 V c t) (blk1 V c t) (blk2 V c t) (blk3 V c t) (blk4 V c t) (ix2 r q)
      = ∑ r ∈ Finset.range 5000, gQ V c q (5000 * t.val + r) := by
  have hN : t.val < 20 := lt_of_lt_of_eq t.isLt (show cfg5.N = 20 from N_5)
  rw [← Fin.sum_univ_eq_sum_range (fun r => gQ V c q (5000 * t.val + r)) 5000]
  refine Finset.sum_congr rfl fun r _ => ?_
  have h : 5000 * t.val + r.val < 100000 := by have := r.isLt; omega
  rw [pay8_apply, hblk_apply V c t r q h]
  unfold gQ
  rw [dif_pos h]

theorem acc_eq (c : Dev nD) : ∀ (n : ℕ) (hn : n < cfg5.N) (q : Fin 64),
    (outsAt5 V c n hn).2.2.1 (ix2 0 q) = ∑ i ∈ Finset.range (5000 * (n + 1)), gS V c q i
    ∧ (outsAt5 V c n hn).2.2.2 (ix2 0 q) = ∑ i ∈ Finset.range (5000 * (n + 1)), gQ V c q i
  | 0, hn, q => by
    obtain ⟨e0, e1⟩ := acc_first V c ⟨0, hn⟩ rfl
    constructor
    · refine (congrFun e0 (ix2 0 q)).trans ?_
      refine (pay7_apply _ _ _ _ _ _ q).trans ?_
      rw [pay4_apply, zero_add, blockSum V c ⟨0, hn⟩ q]
      refine Finset.sum_congr rfl fun r _ => congrArg _ ?_
      show 5000 * 0 + r = r
      omega
    · refine (congrFun e1 (ix2 0 q)).trans ?_
      refine (pay1_apply _ _ q).trans ?_
      rw [pay5_apply, zero_add, blockSumSq V c ⟨0, hn⟩ q]
      refine Finset.sum_congr rfl fun r _ => congrArg _ ?_
      show 5000 * 0 + r = r
      omega
  | n + 1, hn, q => by
    obtain ⟨ih0, ih1⟩ := acc_eq c n (Nat.lt_of_succ_lt hn) q
    obtain ⟨e0, e1⟩ := acc_later V c ⟨n + 1, hn⟩ (Nat.succ_ne_zero n)
    have hsplit : 5000 * (n + 1 + 1) = 5000 * (n + 1) + 5000 := by omega
    constructor
    · refine (congrFun e0 (ix2 0 q)).trans ?_
      refine (pay7_apply _ _ _ _ _ _ q).trans ?_
      rw [blockSum V c ⟨n + 1, hn⟩ q, hsplit, Finset.sum_range_add]
      exact congrArg (· + _) ih0
    · refine (congrFun e1 (ix2 0 q)).trans ?_
      refine (pay1_apply _ _ q).trans ?_
      rw [blockSumSq V c ⟨n + 1, hn⟩ q, hsplit, Finset.sum_range_add]
      exact congrArg (· + _) ih1

def G5 (c : Dev nD) : S100000x64.Idx → EReal := fun i => H5 V c (i 0) (i 1)

theorem flushed5_eq (c : Dev nD) (t : Fin cfg5.N) :
    (dat5 V c).flushed 5 t = ((cfg5.win 5).blk t).view.read (Elt Ideal) (G5 V c) := by
  show (cfg5.win 5).cut (grid5.coords t) ((dat5 V c).after 5 t) = _
  rw [after5_5, hbuf_at V c t]
  have hN : t.val < 20 := lt_of_lt_of_eq t.isLt (show cfg5.N = 20 from N_5)
  funext j
  obtain ⟨r, q, rfl⟩ : ∃ (r : Fin 5000) (q : Fin 64), j = ix2 r q := ⟨j 0, j 1, eq_ix2 j⟩
  have h : 5000 * t.val + r.val < 100000 := by have := r.isLt; omega
  refine (hblk_apply V c t r q h).trans ?_
  show H5 V c ⟨5000 * t.val + r.val, h⟩ q
    = H5 V c ((((cfg5.win 5).blk t).view.emb (ix2 r q)) 0) ((((cfg5.win 5).blk t).view.emb (ix2 r q)) 1)
  have e0 : (((cfg5.win 5).blk t).view.emb (ix2 r q)) 0 = ⟨5000 * t.val + r.val, h⟩ :=
    Fin.ext (by show win5_5.index t 0 * 5000 + 1 * r.val = 5000 * t.val + r.val; rw [(idx5_5 t).1]; omega)
  have e1 : (((cfg5.win 5).blk t).view.emb (ix2 r q)) 1 = q :=
    Fin.ext (by show win5_5.index t 1 * 64 + 1 * q.val = q.val; rw [(idx5_5 t).2]; omega)
  rw [e0, e1]
  rfl

theorem mem_blk5 (t : Fin cfg5.N) (i : S100000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v76_0).slice (win5_5.rect t)).set ↔ _
  rw [View.set_slice_whole, Rect.mem_set_unit]
  exact Iff.rfl

theorem cover5 (i : S100000x64.Idx) :
    ∃ t : Fin cfg5.N, (cfg5.win 5).flush t = true ∧ i ∈ ((cfg5.win 5).blk t).view.set := by
  have hi0 : (i 0).val < 100000 := (i 0).isLt
  have hi1 : (i 1).val < 64 := (i 1).isLt
  have hN : cfg5.N = 20 := N_5
  refine ⟨⟨(i 0).val / 5000, by rw [hN]; omega⟩, flush5_5 _, ?_⟩
  rw [mem_blk5]
  intro a
  match a with
  | ⟨0, _⟩ =>
    show win5_5.index ⟨(i 0).val / 5000, _⟩ 0 * 5000 ≤ (i 0).val ∧ (i 0).val < win5_5.index ⟨(i 0).val / 5000, _⟩ 0 * 5000 + 5000
    rw [(idx5_5 _).1]; dsimp only; omega
  | ⟨1, _⟩ =>
    show win5_5.index ⟨(i 0).val / 5000, _⟩ 1 * 64 ≤ (i 1).val ∧ (i 1).val < win5_5.index ⟨(i 0).val / 5000, _⟩ 1 * 64 + 64
    rw [(idx5_5 _).2]; omega

abbrev tLast : Fin cfg5.N := ⟨19, by decide⟩

def G6 (c : Dev nD) : S2x64.Idx → EReal := (outsAt5 V c tLast.val tLast.isLt).2.1

theorem whole6 (X : S2x64.Idx → EReal) :
    (cfg5.win 6).cut (grid5.coords tLast) X = ((cfg5.win 6).blk tLast).view.read (Elt Ideal) X := by
  funext j
  obtain ⟨r, q, rfl⟩ : ∃ (r : Fin 2) (q : Fin 64), j = ix2 r q := ⟨j 0, j 1, eq_ix2 j⟩
  rw [View.read_apply]
  show X (ix2 r q) = X (((cfg5.win 6).blk tLast).view.emb (ix2 r q))
  congr 1
  funext a
  apply Fin.ext
  match a with
  | ⟨0, _⟩ => show r.val = win5_6.index tLast 0 * 2 + 1 * r.val; rw [(idx5_6 tLast).1]; omega
  | ⟨1, _⟩ => show q.val = win5_6.index tLast 1 * 64 + 1 * q.val; rw [(idx5_6 tLast).2]; omega

theorem flushed6_eq (c : Dev nD) (t : Fin cfg5.N) (hf : (cfg5.win 6).flush t = true) :
    (dat5 V c).flushed 6 t = ((cfg5.win 6).blk t).view.read (Elt Ideal) (G6 V c) := by
  have hN : t.val < 20 := lt_of_lt_of_eq t.isLt (show cfg5.N = 20 from N_5)
  have h19 : t.val = 19 := by have := (flush5_6 t).mp hf; omega
  obtain rfl : t = tLast := Fin.ext h19
  show (cfg5.win 6).cut (grid5.coords tLast) ((dat5 V c).after 6 tLast) = _
  rw [after5_6]
  exact whole6 (G6 V c)

theorem mem_blk6 (t : Fin cfg5.N) (i : S2x64.Idx) :
    i ∈ ((cfg5.win 6).blk t).view.set ↔ ∀ a : Fin 2, win5_6.index t a * S2x64.size a ≤ (i a).val ∧ (i a).val < win5_6.index t a * S2x64.size a + S2x64.size a := by
  show i ∈ ((View.whole main_v76_1).slice (win5_6.rect t)).set ↔ _
  rw [View.set_slice_whole, Rect.mem_set_unit]
  exact Iff.rfl

theorem cover6 (i : S2x64.Idx) :
    ∃ t : Fin cfg5.N, (cfg5.win 6).flush t = true ∧ i ∈ ((cfg5.win 6).blk t).view.set := by
  have hi0 : (i 0).val < 2 := (i 0).isLt
  have hi1 : (i 1).val < 64 := (i 1).isLt
  refine ⟨tLast, (flush5_6 tLast).mpr rfl, ?_⟩
  rw [mem_blk6]
  intro a
  match a with
  | ⟨0, _⟩ =>
    show win5_6.index tLast 0 * 2 ≤ (i 0).val ∧ (i 0).val < win5_6.index tLast 0 * 2 + 2
    rw [(idx5_6 tLast).1]; omega
  | ⟨1, _⟩ =>
    show win5_6.index tLast 1 * 64 ≤ (i 1).val ∧ (i 1).val < win5_6.index tLast 1 * 64 + 64
    rw [(idx5_6 tLast).2]; omega

theorem final6 (c : Dev nD) : (dat5 V c).arrAt 6 cfg5.N = G6 V c :=
  (dat5 V c).arrAt_eq_of_cover 6 (G6 V c) (flushed6_eq V c) cover6

theorem sum_rows (f : Fin 100000 → EReal) :
    ∑ i ∈ Finset.range 100000, (if h : i < 100000 then f ⟨i, h⟩ else 0) = ∑ r : Fin 100000, f r :=
  (Finset.sum_fin_eq_sum_range f).symm

end Cert.KernelIdeal.Val.R5

namespace Cert.KernelIdeal.Val

open Cert.KernelIdeal Cert.KernelIdeal.Gen Cert.KernelIdeal.Hand R5
open Idealize.ShloMosaic Idealize.ShloMosaic.TcCoe Idealize.ShloMosaic.ValueIdx
open Idealize.SL.Sem

variable (V : (c : Dev nD) → (b : Ref sig .tc) → Buf (Elt Ideal) ((c : Thread nD τ).loc b))

theorem arr5_5 (c : Dev nD) (p : Fin 100000) (q : Fin 64) :
    (dat5 (F := Ideal) V c).arrAt 5 cfg5.N (ix2 p q)
      = (Cert.Spec.finTwo (Cert.Spec.mat (V c main_v6)) (Cert.Spec.mat (V c main_v72)) (Cert.Spec.mat (V c main_v73))
          (Cert.Spec.mat (V c main_v74)) (fun k => V c main_v75 (ix2 0 k))) p q := by
  rw [(dat5 V c).arrAt_eq_of_cover 5 (G5 V c) (fun t _ => flushed5_eq V c t) cover5]
  rfl

theorem arr5_6_0 (c : Dev nD) (q : Fin 64) :
    (dat5 (F := Ideal) V c).arrAt 6 cfg5.N (ix2 0 q)
      = Cert.Spec.colSum (Cert.Spec.finTwo (Cert.Spec.mat (V c main_v6)) (Cert.Spec.mat (V c main_v72)) (Cert.Spec.mat (V c main_v73))
          (Cert.Spec.mat (V c main_v74)) (fun k => V c main_v75 (ix2 0 k))) q := by
  rw [final6 V c]
  refine ((stats_last V c tLast (by decide) rfl q).1).trans ?_
  refine ((acc_eq V c tLast.val tLast.isLt q).1).trans ?_
  exact sum_rows (fun r => H5 V c r q)

theorem arr5_6_1 (c : Dev nD) (q : Fin 64) :
    (dat5 (F := Ideal) V c).arrAt 6 cfg5.N (ix2 1 q)
      = Cert.Spec.colSumSq (Cert.Spec.finTwo (Cert.Spec.mat (V c main_v6)) (Cert.Spec.mat (V c main_v72)) (Cert.Spec.mat (V c main_v73))
          (Cert.Spec.mat (V c main_v74)) (fun k => V c main_v75 (ix2 0 k))) q := by
  rw [final6 V c]
  refine ((stats_last V c tLast (by decide) rfl q).2).trans ?_
  refine ((acc_eq V c tLast.val tLast.isLt q).2).trans ?_
  exact sum_rows (fun r => H5 V c r q * H5 V c r q)

end Cert.KernelIdeal.Val

end
-- ==== Proof.ValKI.Reg6.lean ====
import proofs.«402365_j6828998001463_1_alg».proof.Proof.FrameKI.Reg6
import proofs.«402365_j6828998001463_1_alg».proof.Proof.Spec
import proofs.«402365_j6828998001463_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val.R6

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)
open scoped BigOperators

theorem dot6_eq : dot_S5000x64_S64x1_S5000x1_1_0_0_1_n_n = DotDims.plain 5000 64 1 := rfl

theorem bcast6_row (x : S1x64.Idx → EReal) (p : Fin 5000) (k : Fin 64) :
    broadcastTo S5000x64 x broadcasts_S1x64_S5000x64 (ix2 p k) = x (ix2 0 k) :=
  broadcastTo_apply x _ (ix2 p k) (ix2 0 k) (fun a => by match a with | ⟨0, _⟩ => rfl | ⟨1, _⟩ => rfl)

theorem bcast6_one (x : S1x1.Idx → EReal) (p : Fin 5000) :
    broadcastTo S5000x1 x broadcasts_S1x1_S5000x1 (ix2 p 0) = x (ix2 0 0) :=
  broadcastTo_apply x _ (ix2 p 0) (ix2 0 0) (fun a => by match a with | ⟨0, _⟩ => rfl | ⟨1, _⟩ => rfl)

theorem cast6_same {s : Shape} (x : s.Idx → EReal) (h : s.ShapeCasts s) (j : s.Idx) : shapeCast s x h j = x j :=
  shapeCast_apply x h j j rfl

theorem rsqrt_apply6 {s : Shape} (x : FVec Ideal s .f32) (i : s.Idx) : rsqrt x i = Ideal.rsqrt (x i) := rfl

theorem logistic_apply6 {s : Shape} (x : FVec Ideal s .f32) (i : s.Idx) : logistic x i = Ideal.logistic (x i) := rfl

theorem mm6_apply (lhs : FVec Ideal S5000x64 .bf16) (rhs : FVec Ideal S64x1 .bf16) (p : Fin 5000) :
    matmul dot_S5000x64_S64x1_S5000x1_1_0_0_1_n_n none lhs rhs (constant S5000x1 .f32 0x00000000#32) (ix2 p 0)
      = ∑ k : Fin 64, lhs (ix2 p k) * rhs (ix2 k 0) := by
  rw [dot6_eq]; exact RowDims.matmul_plain_zero_apply none lhs rhs p 0

set_option maxHeartbeats 400000 in
theorem pay6_apply (v0 v5 : Vec Ideal S1x64 .f32) (v7 : Vec Ideal S5000x64 .f32) (v9 v17 : Vec Ideal S1x64 .f32)
    (v27 : Vec Ideal S64x1 .f32) (v30 : Vec Ideal S1x1 .f32) (p : Fin 5000) :
    k6_pay1 v0 v5 v7 v9 v17 v27 v30 (ix2 p 0)
      = Ideal.logistic ((∑ k : Fin 64, Cert.Spec.lrelu (v5 (ix2 0 k) * (v7 (ix2 p k) - v9 (ix2 0 k)) * Ideal.rsqrt (v0 (ix2 0 k) + Cert.Spec.bnEps) + v17 (ix2 0 k)) * v27 (ix2 k 0)) + v30 (ix2 0 0)) := by
  unfold k6_pay1
  rw [logistic_apply6, addf_apply, bcast6_one, cast6_same, mm6_apply]
  refine congrArg Ideal.logistic (congrArg₂ (· + ·) (Finset.sum_congr rfl fun k _ => ?_) rfl)
  simp only [truncf_apply, select_apply, cmpf_apply, addf_apply, mulf_apply, subf_apply, bcast6_row, cast6_same,
    broadcast_apply, rsqrt_apply6]
  rfl

variable (V : (c : Dev nD) → (b : Ref sig .tc) → Buf (Elt Ideal) ((c : Thread nD τ).loc b)) (c : Dev nD)

theorem hz6 : (![0, 0] : Fin 2 → Nat) = fun _ => 0 := funext fun a => by fin_cases a <;> rfl

theorem idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

theorem idx6_onto : ∀ q0 : Fin 20, ∃ t : Fin cfg6.N, win6_7.index t = ![q0.val, 0] :=
  (by decide +kernel : ∀ q0 : Fin 20, ∃ t : Fin grid6.N, win6_7.index t = ![q0.val, 0])

theorem blk6_0 (t : Fin cfg6.N) (p : Fin 5000) (k : Fin 64) (r : Fin 100000) (hr : r.val = t.val * 5000 + p.val) :
    iblk6 V c 0 t (ix2 p k) = V c main_v76_0 (ix2 r k) := by
  unfold iblk6
  show V c main_v76_0 (((cfg6.win 0).blk t).view.emb (ix2 p k)) = V c main_v76_0 (ix2 r k)
  refine congrArg (V c main_v76_0) ?_
  obtain ⟨e0, e1, -⟩ := idx6 t
  funext a; apply Fin.ext
  match a with
  | ⟨0, _⟩ => show win6_0.index t (0 : Fin 2) * 5000 + 1 * p.val = r.val; omega
  | ⟨1, _⟩ => show win6_0.index t (1 : Fin 2) * 64 + 1 * k.val = k.val; omega

theorem blk6_1 (t : Fin cfg6.N) (k : Fin 64) : iblk6 V c 1 t (ix2 0 k) = V c main_v87 (ix2 0 k) := by
  obtain ⟨-, -, e0, e1, -⟩ := idx6 t
  exact congrArg (V c main_v87) (Shape.idx_ext₂ (win6_1.rect_emb_val_of_index_zero t 0 e0 _) (win6_1.rect_emb_val_of_index_zero t 1 e1 _))

theorem blk6_2 (t : Fin cfg6.N) (k : Fin 64) : iblk6 V c 2 t (ix2 0 k) = V c main_v88 (ix2 0 k) := by
  obtain ⟨-, -, -, -, e0, e1, -⟩ := idx6 t
  exact congrArg (V c main_v88) (Shape.idx_ext₂ (win6_2.rect_emb_val_of_index_zero t 0 e0 _) (win6_2.rect_emb_val_of_index_zero t 1 e1 _))

theorem blk6_3 (t : Fin cfg6.N) (k : Fin 64) : iblk6 V c 3 t (ix2 0 k) = V c main_v89 (ix2 0 k) := by
  obtain ⟨-, -, -, -, -, -, e0, e1, -⟩ := idx6 t
  exact congrArg (V c main_v89) (Shape.idx_ext₂ (win6_3.rect_emb_val_of_index_zero t 0 e0 _) (win6_3.rect_emb_val_of_index_zero t 1 e1 _))

theorem blk6_4 (t : Fin cfg6.N) (k : Fin 64) : iblk6 V c 4 t (ix2 0 k) = V c main_v90 (ix2 0 k) := by
  obtain ⟨-, -, -, -, -, -, -, -, e0, e1, -⟩ := idx6 t
  exact congrArg (V c main_v90) (Shape.idx_ext₂ (win6_4.rect_emb_val_of_index_zero t 0 e0 _) (win6_4.rect_emb_val_of_index_zero t 1 e1 _))

theorem blk6_5 (t : Fin cfg6.N) (k : Fin 64) : iblk6 V c 5 t (ix2 k 0) = V c main_arg24 (ix2 k 0) := by
  obtain ⟨-, -, -, -, -, -, -, -, -, -, e0, e1, -⟩ := idx6 t
  exact congrArg (V c main_arg24) (Shape.idx_ext₂ (win6_5.rect_emb_val_of_index_zero t 0 e0 _) (win6_5.rect_emb_val_of_index_zero t 1 e1 _))

theorem blk6_6 (t : Fin cfg6.N) : iblk6 V c 6 t (ix2 0 0) = V c main_v91 (ix2 0 0) := by
  obtain ⟨-, -, -, -, -, -, -, -, -, -, -, -, e0, e1, -⟩ := idx6 t
  exact congrArg (V c main_v91) (Shape.idx_ext₂ (win6_6.rect_emb_val_of_index_zero t 0 e0 _) (win6_6.rect_emb_val_of_index_zero t 1 e1 _))

def G6 : S100000x1.Idx → EReal := fun i =>
  Cert.Spec.outOf (Cert.Spec.bnAct (Cert.Spec.mat (V c main_v76_0)) (fun k => V c main_v87 (ix2 0 k)) (fun k => V c main_v88 (ix2 0 k))
    (fun k => V c main_v89 (ix2 0 k)) (fun k => V c main_v90 (ix2 0 k))) (Cert.Spec.mat (V c main_arg24)) (V c main_v91 (ix2 0 0)) (i 0)

theorem flushed6_7_eq (t : Fin cfg6.N) :
    (dat6 V c).flushed 7 t = ((cfg6.win 7).blk t).view.read (Elt Ideal) (G6 V c) := by
  show (cfg6.win 7).cut (grid6.coords t) ((dat6 V c).after 7 t) = _
  rw [after6_7]
  unfold out6_7
  rw [View.canon_unit_zero hz6]
  simp only [View.ld_unit_zero (S := S5000x64) hz6, View.ld_unit_zero (S := S1x64) hz6, View.ld_unit_zero (S := S64x1) hz6,
    View.ld_unit_zero (S := S1x1) hz6]
  funext j
  obtain ⟨p, rfl⟩ : ∃ p : Fin 5000, j = ix2 p 0 :=
    ⟨j 0, by funext a; match a with | ⟨0, _⟩ => rfl | ⟨1, _⟩ => exact Fin.ext (by have h : (j 1).val < 1 := (j 1).isLt; show (j 1).val = 0; omega)⟩
  show k6_pay1 (iblk6 V c 2 t) (iblk6 V c 3 t) (iblk6 V c 0 t) (iblk6 V c 1 t) (iblk6 V c 4 t) (iblk6 V c 5 t) (iblk6 V c 6 t) (ix2 p 0)
    = G6 V c (((cfg6.win 7).blk t).view.emb (ix2 p 0))
  rw [pay6_apply]
  obtain ⟨-, -, -, -, -, -, -, -, -, -, -, -, -, -, e0, e1⟩ := idx6 t
  have ht : t.val < 20 := by have h := t.isLt; have e : cfg6.N = 20 := N_6; omega
  have hr : ((((cfg6.win 7).blk t).view.emb (ix2 p 0)) 0).val = t.val * 5000 + p.val := by
    show win6_7.index t (0 : Fin 2) * 5000 + 1 * p.val = _; omega
  unfold G6 Cert.Spec.outOf Cert.Spec.bnAct Cert.Spec.mat
  simp only [blk6_1, blk6_2, blk6_3, blk6_4, blk6_5, blk6_6]
  refine congrArg Ideal.logistic (congrArg₂ (· + ·) (Finset.sum_congr rfl fun k _ => ?_) rfl)
  rw [blk6_0 V c t p k _ hr]

theorem mem_blk6_7 (t : Fin cfg6.N) (i : S100000x1.Idx) :
    i ∈ ((cfg6.win 7).blk t).view.set ↔ ∀ a : Fin 2, win6_7.index t a * S5000x1.size a ≤ (i a).val ∧ (i a).val < win6_7.index t a * S5000x1.size a + S5000x1.size a := by
  show i ∈ ((View.whole main_v92).slice (win6_7.rect t)).set ↔ _
  rw [View.set_slice_whole, Rect.mem_set_unit]
  exact Iff.rfl

theorem cover6_7 (i : S100000x1.Idx) : ∃ t : Fin cfg6.N, (cfg6.win 7).flush t = true ∧ i ∈ ((cfg6.win 7).blk t).view.set := by
  have hi0 : (i 0).val < 100000 := (i 0).isLt
  have hi1 : (i 1).val < 1 := (i 1).isLt
  obtain ⟨t, ht⟩ := idx6_onto ⟨(i 0).val / 5000, by omega⟩
  have q0 : win6_7.index t (0 : Fin 2) = (i 0).val / 5000 := congrFun ht 0
  have q1 : win6_7.index t (1 : Fin 2) = 0 := congrFun ht 1
  refine ⟨t, flush6_7 t, ?_⟩
  rw [mem_blk6_7]
  intro a
  match a with
  | ⟨0, _⟩ => show win6_7.index t (0 : Fin 2) * 5000 ≤ (i 0).val ∧ (i 0).val < win6_7.index t (0 : Fin 2) * 5000 + 5000; omega
  | ⟨1, _⟩ => show win6_7.index t (1 : Fin 2) * 1 ≤ (i 1).val ∧ (i 1).val < win6_7.index t (1 : Fin 2) * 1 + 1; omega

end Cert.KernelIdeal.Val.R6

namespace Cert.KernelIdeal.Val

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

theorem arr6_7 (p : Fin 100000) : (dat6 (F := Ideal) V c).arrAt 7 cfg6.N (ix2 p 0)
    = Cert.Spec.outOf (Cert.Spec.bnAct (Cert.Spec.mat (V c main_v76_0)) (fun k => V c main_v87 (ix2 0 k)) (fun k => V c main_v88 (ix2 0 k))
        (fun k => V c main_v89 (ix2 0 k)) (fun k => V c main_v90 (ix2 0 k))) (Cert.Spec.mat (V c main_arg24)) (V c main_v91 (ix2 0 0)) p :=
  congrFun ((dat6 V c).arrAt_eq_of_cover 7 (R6.G6 V c) (fun t _ => R6.flushed6_7_eq V c t) R6.cover6_7) (ix2 p 0)

end Cert.KernelIdeal.Val

end
-- ==== Proof.ValKI.Host.lean ====
import proofs.«402365_j6828998001463_1_alg».proof.Proof.Gen.KernelIdeal.Regions
import proofs.«402365_j6828998001463_1_alg».proof.Proof.Spec
import proofs.«402365_j6828998001463_1_alg».proof.Proof.LibRowDims
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost

set_option maxRecDepth 1332

noncomputable section

namespace Cert.KernelIdeal.Val

open Cert.KernelIdeal Cert.KernelIdeal.Gen Cert.Spec
open Idealize.ShloMosaic Idealize.ShloMosaic.TcCoe Idealize.ShloMosaic.ValueIdx
open Idealize.SL Idealize.SL.Sem

variable (m : (ℓ : Loc nD τ sig) → Buf (Elt Ideal) ℓ) (outs : Outs (F := Ideal))

section Casts
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

theorem shapeCast_1_scalar_apply (x : (⟨1, ![1]⟩ : Shape).Idx → α) (h : (⟨1, ![1]⟩ : Shape).ShapeCasts ⟨0, ![]⟩)
    (j : (⟨0, ![]⟩ : Shape).Idx) : shapeCast ⟨0, ![]⟩ x h j = x (ix1 (0 : Fin 1)) :=
  shapeCast_apply x h _ _ (by
    have h1 : ((⟨1, ![1]⟩ : Shape).rowMajor (ix1 (0 : Fin 1))).val < 1 := ((⟨1, ![1]⟩ : Shape).rowMajor _).isLt
    have h2 : ((⟨0, ![]⟩ : Shape).rowMajor j).val < 1 := ((⟨0, ![]⟩ : Shape).rowMajor j).isLt
    omega)

theorem bcast_col_apply {a : ℕ} (h : (⟨1, ![a]⟩ : Shape).BroadcastsInDim ⟨2, ![a, 1]⟩ ![0])
    (v : (⟨1, ![a]⟩ : Shape).Idx → α) (i : Fin a) (u : Fin 1) :
    broadcastInDim ⟨2, ![a, 1]⟩ ![0] h v (ix2 i u) = v (ix1 i) :=
  broadcastInDim_apply _ h v _ _ (fun ax => by
    match ax with
    | ⟨0, _⟩ =>
      show i.val = if a = 1 then 0 else i.val
      split
      · have := i.isLt; omega
      · rfl)

end Casts

theorem main_v4_read (c : Dev nD) (r : Fin 100000) (u : Fin 1) :
    V1 m c main_v4 (ix2 r u) = m ((c : Thread nD τ).loc main_arg0) (ix1 r) := by
  dsimp only [V1]; simp only [hostOps0]; after_results; exact shapeCast_a_a1_apply _ _ r u

theorem main_v5_read (c : Dev nD) (r : Fin 100000) (u : Fin 1) :
    V1 m c main_v5 (ix2 r u) = m ((c : Thread nD τ).loc main_arg1) (ix1 r) := by
  dsimp only [V1]; simp only [hostOps0]; after_results; exact shapeCast_a_a1_apply _ _ r u

theorem main_v1_read (c : Dev nD) (e : Fin 1600000) :
    V1 m c main_v1 (ix1 e)
      = m ((c : Thread nD τ).loc main_arg2) (ix2 (0 : Fin 2) e) := by
  dsimp only [V1]; simp only [hostOps0]; after_results
  exact (shapeCast_1a_a_apply _ _ e).trans (slice2_axis0_apply 0 _ _ (0 : Fin 1) e (0 : Fin 2) rfl)

theorem main_v3_read (c : Dev nD) (e : Fin 1600000) :
    V1 m c main_v3 (ix1 e)
      = m ((c : Thread nD τ).loc main_arg2) (ix2 (1 : Fin 2) e) := by
  dsimp only [V1]; simp only [hostOps0]; after_results
  exact (shapeCast_1a_a_apply _ _ e).trans (slice2_axis0_apply 1 _ _ (0 : Fin 1) e (1 : Fin 2) rfl)

variable (c : Dev nD) (u : Fin 1) (k : Fin 64)

def ginTerm {N C E : ℕ} (X : (⟨2, ![N, C]⟩ : Shape).Idx → EReal) (src dst : (⟨1, ![E]⟩ : Shape).Idx → BitVec 32)
    (eps : (⟨1, ![1]⟩ : Shape).Idx → EReal)
    (hbE : S_.BroadcastsInDim ⟨1, ![E]⟩ (![] : Fin 0 → Fin (⟨1, ![E]⟩ : Shape).rank))
    (hbE1 : (⟨1, ![E]⟩ : Shape).BroadcastsInDim ⟨2, ![E, 1]⟩ ![0])
    (wfg : GatherDims.WF ⟨2, ![N, C]⟩ ⟨2, ![E, 1]⟩ ⟨2, ![E, C]⟩ [1] [0] [] [0] [] 1 ![1, C])
    (hbNC : S_.BroadcastsInDim ⟨2, ![N, C]⟩ (![] : Fin 0 → Fin (⟨2, ![N, C]⟩ : Shape).rank))
    (wfs : ScatterDims.WF ⟨2, ![N, C]⟩ ⟨2, ![E, 1]⟩ ⟨2, ![E, C]⟩ [1] [0] [0] 1)
    (hc : (⟨1, ![1]⟩ : Shape).ShapeCasts S_) : (⟨2, ![N, C]⟩ : Shape).Idx → EReal :=
  addf (F := Ideal) (φ := .f32)
    (mulf (F := Ideal) (φ := .f32)
      (broadcastInDim ⟨2, ![N, C]⟩ ![] hbNC
        (addf (F := Ideal) (φ := .f32) (constant (F := Ideal) S_ .f32 0x3F800000#32) (shapeCast S_ eps hc)))
      X)
    (Host.scatterAdd (F := Ideal) (φ := .f32) (RowDims.rowScatter N C E wfs)
      (broadcastInDim ⟨2, ![N, C]⟩ ![] hbNC (constant (F := Ideal) S_ .f32 0x00000000#32))
      (broadcastInDim ⟨2, ![E, 1]⟩ ![0] hbE1 dst)
      (Host.gather (RowDims.rowGather N C E wfg) X
        (broadcastInDim ⟨2, ![E, 1]⟩ ![0] hbE1
          (select (cmpi .slt src (broadcastInDim ⟨1, ![E]⟩ ![] hbE (constantI S_ 32 0#32)))
            (addi src (broadcastInDim ⟨1, ![E]⟩ ![] hbE (constantI S_ 32 (BitVec.ofNat 32 N))))
            src))))

theorem ginTerm_apply {N C E : ℕ} (hN : 0 < N) (X : (⟨2, ![N, C]⟩ : Shape).Idx → EReal)
    (src dst : (⟨1, ![E]⟩ : Shape).Idx → BitVec 32) (eps : (⟨1, ![1]⟩ : Shape).Idx → EReal)
    (hbE hbE1 wfg hbNC wfs hc) (r : Fin N) (l : Fin C) :
    ginTerm X src dst eps hbE hbE1 wfg hbNC wfs hc (ix2 r l)
      = Spec.ginIn (eps (ix1 (0 : Fin 1))) (Spec.mat X)
          (Spec.agg hN (fun e => src (ix1 e)) (fun e => dst (ix1 e)) (Spec.mat X)) r l := by
  have hf : broadcastInDim ⟨2, ![N, C]⟩ ![] hbNC
      (addf (F := Ideal) (φ := .f32) (constant (F := Ideal) S_ .f32 0x3F800000#32) (shapeCast S_ eps hc)) (ix2 r l)
        = Spec.one + eps (ix1 (0 : Fin 1)) := by
    rw [broadcastInDim_scalar_apply]
    show Ideal.ofBits .f32 0x3F800000#32 + shapeCast S_ eps hc ix0 = _
    rw [shapeCast_1_scalar_apply]; rfl
  have hg : ∀ e : Fin E, Host.gather (RowDims.rowGather N C E wfg) X
        (broadcastInDim ⟨2, ![E, 1]⟩ ![0] hbE1
          (select (cmpi .slt src (broadcastInDim ⟨1, ![E]⟩ ![] hbE (constantI S_ 32 0#32)))
            (addi src (broadcastInDim ⟨1, ![E]⟩ ![] hbE (constantI S_ 32 (BitVec.ofNat 32 N))))
            src)) (ix2 e l)
        = X (ix2 (Spec.clampRow N hN (Spec.wrap N (src (ix1 e)))) l) := by
    intro e
    rw [RowDims.rowGather_apply hN, bcast_col_apply]
    rfl
  unfold ginTerm
  rw [addf_apply, mulf_apply, hf]
  show _ + Ideal.hostScatterAdd (RowDims.rowScatter N C E wfs) _ _ _ (ix2 r l) = _
  rw [RowDims.rowScatterAdd_apply, broadcastInDim_scalar_apply]
  unfold Spec.ginIn Spec.agg Spec.mat
  refine congrArg₂ (· + ·) rfl (congrArg₂ (· + ·) rfl (Finset.sum_congr rfl fun e _ => ?_))
  rw [bcast_col_apply, hg e]

theorem main_v21_read :
    Spec.mat (V3 m outs c main_v21)
      = Spec.ginIn (V2 m outs c main_arg6 (ix1 (0 : Fin 1))) (Spec.mat (V2 m outs c main_arg3))
          (Spec.agg (by decide) (fun e => V2 m outs c main_v1 (ix1 e))
            (fun e => V2 m outs c main_v3 (ix1 e)) (Spec.mat (V2 m outs c main_arg3))) := by
  funext r l
  show V3 m outs c main_v21 (ix2 r l) = _
  dsimp only [V3]; simp only [hostOps1]; after_results_simp; exact ginTerm_apply (by decide) _ _ _ _ _ _ _ _ _ _ r l

theorem main_v22_read (k : Fin 3) :
    V3 m outs c main_v22 (ix2 u k) = V2 m outs c main_arg8 (ix1 k) := by
  dsimp only [V3]; simp only [hostOps1]; after_results_simp; exact shapeCast_a_1a_apply _ _ u k

theorem main_v23_read :
    V3 m outs c main_v23 (ix2 u k) = V2 m outs c main_arg10 (ix1 k) := by
  dsimp only [V3]; simp only [hostOps1]; after_results_simp; exact shapeCast_a_1a_apply _ _ u k

theorem main_v54_read :
    Spec.mat (V7 m outs c main_v54)
      = Spec.ginIn (V6 m outs c main_arg13 (ix1 (0 : Fin 1))) (Spec.mat (V6 m outs c main_v39))
          (Spec.agg (by decide) (fun e => V6 m outs c main_v1 (ix1 e))
            (fun e => V6 m outs c main_v3 (ix1 e)) (Spec.mat (V6 m outs c main_v39))) := by
  funext r l
  show V7 m outs c main_v54 (ix2 r l) = _
  dsimp only [V7]; simp only [hostOps3]; after_results_simp; exact ginTerm_apply (by decide) _ _ _ _ _ _ _ _ _ _ r l

theorem main_v55_read :
    V7 m outs c main_v55 (ix2 u k) = V6 m outs c main_arg15 (ix1 k) := by
  dsimp only [V7]; simp only [hostOps3]; after_results_simp; exact shapeCast_a_1a_apply _ _ u k

theorem main_v56_read :
    V7 m outs c main_v56 (ix2 u k) = V6 m outs c main_arg17 (ix1 k) := by
  dsimp only [V7]; simp only [hostOps3]; after_results_simp; exact shapeCast_a_1a_apply _ _ u k

def meanTerm (x : S2x64.Idx → EReal) (hs : S2x64.Slices ![0, 0] S1x64) (h1 : S1x64.ShapeCasts S64)
    (hb : S_.BroadcastsInDim S64 (![] : Fin 0 → Fin S64.rank)) (h2 : S64.ShapeCasts S1x64) : S1x64.Idx → EReal :=
  shapeCast S1x64 (Host.divf (F := Ideal) (φ := .f32) (shapeCast S64 (extractStridedSlice S1x64 ![0, 0] x hs) h1)
    (broadcastInDim S64 ![] hb (constant (F := Ideal) S_ .f32 0x47C35000#32))) h2

def varTerm (x : S2x64.Idx → EReal) (hs0 : S2x64.Slices ![0, 0] S1x64) (hs1 : S2x64.Slices ![1, 0] S1x64) (h1 : S1x64.ShapeCasts S64)
    (hb : S_.BroadcastsInDim S64 (![] : Fin 0 → Fin S64.rank)) (h2 : S64.ShapeCasts S1x64) : S1x64.Idx → EReal :=
  shapeCast S1x64 (subf (F := Ideal) (φ := .f32)
    (Host.divf (F := Ideal) (φ := .f32) (shapeCast S64 (extractStridedSlice S1x64 ![1, 0] x hs1) h1)
      (broadcastInDim S64 ![] hb (constant (F := Ideal) S_ .f32 0x47C35000#32)))
    (mulf (F := Ideal) (φ := .f32)
      (Host.divf (F := Ideal) (φ := .f32) (shapeCast S64 (extractStridedSlice S1x64 ![0, 0] x hs0) h1)
        (broadcastInDim S64 ![] hb (constant (F := Ideal) S_ .f32 0x47C35000#32)))
      (Host.divf (F := Ideal) (φ := .f32) (shapeCast S64 (extractStridedSlice S1x64 ![0, 0] x hs0) h1)
        (broadcastInDim S64 ![] hb (constant (F := Ideal) S_ .f32 0x47C35000#32))))) h2

theorem rowOverCnt_apply (x : S2x64.Idx → EReal) (o : ℕ) (p : Fin 2) (hp : p.val = o) (hs : S2x64.Slices ![o, 0] S1x64)
    (h1 : S1x64.ShapeCasts S64) (hb : S_.BroadcastsInDim S64 (![] : Fin 0 → Fin S64.rank)) (k : Fin 64) :
    Host.divf (F := Ideal) (φ := .f32) (shapeCast S64 (extractStridedSlice S1x64 ![o, 0] x hs) h1)
      (broadcastInDim S64 ![] hb (constant (F := Ideal) S_ .f32 0x47C35000#32)) (ix1 k) = Ideal.div (x (ix2 p k)) Spec.cnt := by
  show Ideal.div (shapeCast S64 (extractStridedSlice S1x64 ![o, 0] x hs) h1 (ix1 k))
    (broadcastInDim S64 ![] hb (constant (F := Ideal) S_ .f32 0x47C35000#32) (ix1 k)) = _
  rw [shapeCast_1a_a_apply, slice2_axis0_apply o x hs (0 : Fin 1) k p (hp.trans (Nat.add_zero o).symm), broadcastInDim_scalar_apply]
  rfl

theorem meanTerm_apply (x : S2x64.Idx → EReal) (hs h1 hb h2) (u : Fin 1) (k : Fin 64) :
    meanTerm x hs h1 hb h2 (ix2 u k) = Spec.meanOf (fun k => x (ix2 (0 : Fin 2) k)) k := by
  unfold meanTerm
  rw [shapeCast_a_1a_apply]
  exact rowOverCnt_apply x 0 0 rfl hs h1 hb k

theorem varTerm_apply (x : S2x64.Idx → EReal) (hs0 hs1 h1 hb h2) (u : Fin 1) (k : Fin 64) :
    varTerm x hs0 hs1 h1 hb h2 (ix2 u k)
      = Spec.varOf (fun k => x (ix2 (0 : Fin 2) k)) (fun k => x (ix2 (1 : Fin 2) k)) k := by
  unfold varTerm
  rw [shapeCast_a_1a_apply]
  show Host.divf (F := Ideal) (φ := .f32) _ _ (ix1 k) - Host.divf (F := Ideal) (φ := .f32) _ _ (ix1 k) * Host.divf (F := Ideal) (φ := .f32) _ _ (ix1 k) = _
  rw [rowOverCnt_apply x 1 1 rfl hs1 h1 hb k, rowOverCnt_apply x 0 0 rfl hs0 h1 hb k]
  rfl

theorem main_v35_read :
    V5 m outs c main_v35 (ix2 u k)
      = Spec.meanOf (fun k => V4 m outs c main_v24_1 (ix2 (0 : Fin 2) k)) k := by
  dsimp only [V5]; simp only [hostOps2]; after_results; exact meanTerm_apply _ _ _ _ _ u k

theorem main_v36_read :
    V5 m outs c main_v36 (ix2 u k)
      = Spec.varOf (fun k => V4 m outs c main_v24_1 (ix2 (0 : Fin 2) k))
          (fun k => V4 m outs c main_v24_1 (ix2 (1 : Fin 2) k)) k := by
  dsimp only [V5]; simp only [hostOps2]; after_results; exact varTerm_apply _ _ _ _ _ _ u k

theorem main_v37_read :
    V5 m outs c main_v37 (ix2 u k) = V4 m outs c main_arg11 (ix1 k) := by
  dsimp only [V5]; simp only [hostOps2]; after_results; exact shapeCast_a_1a_apply _ _ u k

theorem main_v38_read :
    V5 m outs c main_v38 (ix2 u k) = V4 m outs c main_arg12 (ix1 k) := by
  dsimp only [V5]; simp only [hostOps2]; after_results; exact shapeCast_a_1a_apply _ _ u k

theorem main_v68_read :
    V9 m outs c main_v68 (ix2 u k)
      = Spec.meanOf (fun k => V8 m outs c main_v57_1 (ix2 (0 : Fin 2) k)) k := by
  dsimp only [V9]; simp only [hostOps4]; after_results; exact meanTerm_apply _ _ _ _ _ u k

theorem main_v69_read :
    V9 m outs c main_v69 (ix2 u k)
      = Spec.varOf (fun k => V8 m outs c main_v57_1 (ix2 (0 : Fin 2) k))
          (fun k => V8 m outs c main_v57_1 (ix2 (1 : Fin 2) k)) k := by
  dsimp only [V9]; simp only [hostOps4]; after_results; exact varTerm_apply _ _ _ _ _ _ u k

theorem main_v70_read :
    V9 m outs c main_v70 (ix2 u k) = V8 m outs c main_arg18 (ix1 k) := by
  dsimp only [V9]; simp only [hostOps4]; after_results; exact shapeCast_a_1a_apply _ _ u k

theorem main_v71_read :
    V9 m outs c main_v71 (ix2 u k) = V8 m outs c main_arg19 (ix1 k) := by
  dsimp only [V9]; simp only [hostOps4]; after_results; exact shapeCast_a_1a_apply _ _ u k

theorem main_v87_read :
    V13 m outs c main_v87 (ix2 u k)
      = Spec.meanOf (fun k => V12 m outs c main_v76_1 (ix2 (0 : Fin 2) k)) k := by
  dsimp only [V13]; simp only [hostOps6]; after_results; exact meanTerm_apply _ _ _ _ _ u k

theorem main_v88_read :
    V13 m outs c main_v88 (ix2 u k)
      = Spec.varOf (fun k => V12 m outs c main_v76_1 (ix2 (0 : Fin 2) k))
          (fun k => V12 m outs c main_v76_1 (ix2 (1 : Fin 2) k)) k := by
  dsimp only [V13]; simp only [hostOps6]; after_results; exact varTerm_apply _ _ _ _ _ _ u k

theorem main_v89_read :
    V13 m outs c main_v89 (ix2 u k) = V12 m outs c main_arg22 (ix1 k) := by
  dsimp only [V13]; simp only [hostOps6]; after_results; exact shapeCast_a_1a_apply _ _ u k

theorem main_v90_read :
    V13 m outs c main_v90 (ix2 u k) = V12 m outs c main_arg23 (ix1 k) := by
  dsimp only [V13]; simp only [hostOps6]; after_results; exact shapeCast_a_1a_apply _ _ u k

theorem main_v91_read (v : Fin 1) :
    V13 m outs c main_v91 (ix2 u v) = V12 m outs c main_arg25 (ix1 (0 : Fin 1)) := by
  have h : (V13 m outs c main_v91)
      = shapeCast S1x1 (V12 m outs c main_arg25) shapeCasts_S1_S1x1 := by
    dsimp only [V13]; simp only [hostOps6]; after_results; try rfl
  have hv : v = 0 := Subsingleton.elim _ _
  rw [h, hv]; exact shapeCast_a_1a_apply _ _ u (0 : Fin 1)

theorem main_v73_read :
    Spec.mat (V11 m outs c main_v73) = Spec.wTop (Spec.mat (V10 m outs c main_arg20)) := by
  funext k j
  show V11 m outs c main_v73 (ix2 k j) = _
  dsimp only [V11]; simp only [hostOps5]; after_results
  exact slice2_axis0_apply 0 _ _ k j _ (Nat.zero_add _).symm

theorem main_v74_read :
    Spec.mat (V11 m outs c main_v74) = Spec.wBot (Spec.mat (V10 m outs c main_arg20)) := by
  funext k j
  show V11 m outs c main_v74 (ix2 k j) = _
  dsimp only [V11]; simp only [hostOps5]; after_results
  exact slice2_axis0_apply 128 _ _ k j _ rfl

theorem main_v75_read :
    V11 m outs c main_v75 (ix2 u k) = V10 m outs c main_arg21 (ix1 k) := by
  dsimp only [V11]; simp only [hostOps5]; after_results; exact shapeCast_a_1a_apply _ _ u k

theorem main_v93_read (r : Fin 100000) :
    V15 m outs c main_v93 (ix1 r) = V14 m outs c main_v92 (ix2 r (0 : Fin 1)) := by
  dsimp only [V15]; simp only [hostOps7]; after_results; exact shapeCast_a1_a_apply _ _ r

end Cert.KernelIdeal.Val
end
-- ==== Proof.ValKI.Net.lean ====
import proofs.«402365_j6828998001463_1_alg».proof.Proof.Gen.KernelIdeal.Regions
import proofs.«402365_j6828998001463_1_alg».proof.Proof.Spec
import proofs.«402365_j6828998001463_1_alg».proof.Proof.ArgsOf
import Idealize.ShloMosaic.Lib.ValueIdx

set_option maxRecDepth 4096

noncomputable section

namespace Cert.KernelIdeal.Val

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (outs : Outs (F := Ideal)) (c : Dev nD)

abbrev Aof : Cert.Spec.Args :=
  Cert.Spec.argsOf (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))
    (m ((c : Thread nD τ).loc main_arg16))
    (m ((c : Thread nD τ).loc main_arg17))
    (m ((c : Thread nD τ).loc main_arg18))
    (m ((c : Thread nD τ).loc main_arg19))
    (m ((c : Thread nD τ).loc main_arg20))
    (m ((c : Thread nD τ).loc main_arg21))
    (m ((c : Thread nD τ).loc main_arg22))
    (m ((c : Thread nD τ).loc main_arg23))
    (m ((c : Thread nD τ).loc main_arg24))
    (m ((c : Thread nD τ).loc main_arg25))

-- The array is in no item's write set.
abbrev Kept (r : Ref sig .tc) : Prop :=
  r ∉ hostOps0_W ∧ r ∉ ([main_v6] : List (Ref sig .tc)) ∧ r ∉ hostOps1_W ∧ r ∉ ([main_v24_0, main_v24_1] : List (Ref sig .tc)) ∧ r ∉ hostOps2_W ∧ r ∉ ([main_v39] : List (Ref sig .tc)) ∧ r ∉ hostOps3_W ∧ r ∉ ([main_v57_0, main_v57_1] : List (Ref sig .tc)) ∧ r ∉ hostOps4_W ∧ r ∉ ([main_v72] : List (Ref sig .tc)) ∧ r ∉ hostOps5_W ∧ r ∉ ([main_v76_0, main_v76_1] : List (Ref sig .tc)) ∧ r ∉ hostOps6_W

section
variable (r : Ref sig .tc) (h : Kept r)
include h

theorem V1_m : V1 m c r = m ((c : Thread nD τ).loc r) := V1_of m c r h.1
theorem V2_m : V2 m outs c r = m ((c : Thread nD τ).loc r) := (V2_of m outs c r h.2.1).trans (V1_m m c r h)
theorem V3_m : V3 m outs c r = m ((c : Thread nD τ).loc r) := (V3_of m outs c r h.2.2.1).trans (V2_m m outs c r h)
theorem V4_m : V4 m outs c r = m ((c : Thread nD τ).loc r) := (V4_of m outs c r h.2.2.2.1).trans (V3_m m outs c r h)
theorem V5_m : V5 m outs c r = m ((c : Thread nD τ).loc r) := (V5_of m outs c r h.2.2.2.2.1).trans (V4_m m outs c r h)
theorem V6_m : V6 m outs c r = m ((c : Thread nD τ).loc r) := (V6_of m outs c r h.2.2.2.2.2.1).trans (V5_m m outs c r h)
theorem V7_m : V7 m outs c r = m ((c : Thread nD τ).loc r) := (V7_of m outs c r h.2.2.2.2.2.2.1).trans (V6_m m outs c r h)
theorem V8_m : V8 m outs c r = m ((c : Thread nD τ).loc r) := (V8_of m outs c r h.2.2.2.2.2.2.2.1).trans (V7_m m outs c r h)
theorem V9_m : V9 m outs c r = m ((c : Thread nD τ).loc r) := (V9_of m outs c r h.2.2.2.2.2.2.2.2.1).trans (V8_m m outs c r h)
theorem V10_m : V10 m outs c r = m ((c : Thread nD τ).loc r) := (V10_of m outs c r h.2.2.2.2.2.2.2.2.2.1).trans (V9_m m outs c r h)
theorem V11_m : V11 m outs c r = m ((c : Thread nD τ).loc r) := (V11_of m outs c r h.2.2.2.2.2.2.2.2.2.2.1).trans (V10_m m outs c r h)
theorem V12_m : V12 m outs c r = m ((c : Thread nD τ).loc r) := (V12_of m outs c r h.2.2.2.2.2.2.2.2.2.2.2.1).trans (V11_m m outs c r h)
theorem V13_m : V13 m outs c r = m ((c : Thread nD τ).loc r) := (V13_of m outs c r h.2.2.2.2.2.2.2.2.2.2.2.2).trans (V12_m m outs c r h)
end

theorem V2_v6 : V2 m outs c main_v6 = outs 2 main_v6 c := by
  dsimp only [V2]; exact Function.update_self _ _ _
theorem V4_v24_0 : V4 m outs c main_v24_0 = outs 4 main_v24_0 c := by
  dsimp only [V4]; rw [Function.update_of_ne (StableHlo.devRef_ne_of_ne (by decide) : (Proc.devRef .tc main_v24_0 : DevRef τ sig) ≠ Proc.devRef .tc main_v24_1)]; exact Function.update_self _ _ _
theorem V4_v24_1 : V4 m outs c main_v24_1 = outs 4 main_v24_1 c := by
  dsimp only [V4]; exact Function.update_self _ _ _
theorem V6_v39 : V6 m outs c main_v39 = outs 6 main_v39 c := by
  dsimp only [V6]; exact Function.update_self _ _ _
theorem V8_v57_0 : V8 m outs c main_v57_0 = outs 8 main_v57_0 c := by
  dsimp only [V8]; rw [Function.update_of_ne (StableHlo.devRef_ne_of_ne (by decide) : (Proc.devRef .tc main_v57_0 : DevRef τ sig) ≠ Proc.devRef .tc main_v57_1)]; exact Function.update_self _ _ _
theorem V8_v57_1 : V8 m outs c main_v57_1 = outs 8 main_v57_1 c := by
  dsimp only [V8]; exact Function.update_self _ _ _
theorem V10_v72 : V10 m outs c main_v72 = outs 10 main_v72 c := by
  dsimp only [V10]; exact Function.update_self _ _ _
theorem V12_v76_0 : V12 m outs c main_v76_0 = outs 12 main_v76_0 c := by
  dsimp only [V12]; rw [Function.update_of_ne (StableHlo.devRef_ne_of_ne (by decide) : (Proc.devRef .tc main_v76_0 : DevRef τ sig) ≠ Proc.devRef .tc main_v76_1)]; exact Function.update_self _ _ _
theorem V12_v76_1 : V12 m outs c main_v76_1 = outs 12 main_v76_1 c := by
  dsimp only [V12]; exact Function.update_self _ _ _
theorem V14_v92 : V14 m outs c main_v92 = outs 14 main_v92 c := by
  dsimp only [V14]; exact Function.update_self _ _ _

theorem V6_v1 : V6 m outs c main_v1 = V1 m c main_v1 := (V6_of m outs c main_v1 (by decide)).trans <| (V5_of m outs c main_v1 (by decide)).trans <| (V4_of m outs c main_v1 (by decide)).trans <| (V3_of m outs c main_v1 (by decide)).trans <| (V2_of m outs c main_v1 (by decide))
theorem V6_v3 : V6 m outs c main_v3 = V1 m c main_v3 := (V6_of m outs c main_v3 (by decide)).trans <| (V5_of m outs c main_v3 (by decide)).trans <| (V4_of m outs c main_v3 (by decide)).trans <| (V3_of m outs c main_v3 (by decide)).trans <| (V2_of m outs c main_v3 (by decide))
theorem V11_v6 : V11 m outs c main_v6 = V2 m outs c main_v6 := (V11_of m outs c main_v6 (by decide)).trans <| (V10_of m outs c main_v6 (by decide)).trans <| (V9_of m outs c main_v6 (by decide)).trans <| (V8_of m outs c main_v6 (by decide)).trans <| (V7_of m outs c main_v6 (by decide)).trans <| (V6_of m outs c main_v6 (by decide)).trans <| (V5_of m outs c main_v6 (by decide)).trans <| (V4_of m outs c main_v6 (by decide)).trans <| (V3_of m outs c main_v6 (by decide))

def Tmp : Cert.Spec.Mat 100000 128 := Spec.embHot (Aof m c).deg (Aof m c).lab (Aof m c).Ed (Aof m c).El
def Hh1 : Cert.Spec.Mat 100000 64 :=
  Spec.lin (Spec.ginIn (Aof m c).eps1 (Aof m c).pos (Spec.agg (by decide) (Aof m c).src (Aof m c).dst (Aof m c).pos)) (Aof m c).W1a (Aof m c).b1a (Aof m c).W1b (Aof m c).b1b
def Xx1 : Cert.Spec.Mat 100000 64 := Spec.convK (Aof m c) (Aof m c).pos (Aof m c).eps1 (Aof m c).W1a (Aof m c).b1a (Aof m c).W1b (Aof m c).b1b (Aof m c).g1 (Aof m c).be1
def Hh2 : Cert.Spec.Mat 100000 64 :=
  Spec.lin (Spec.ginIn (Aof m c).eps2 (Xx1 m c) (Spec.agg (by decide) (Aof m c).src (Aof m c).dst (Xx1 m c))) (Aof m c).W2a (Aof m c).b2a (Aof m c).W2b (Aof m c).b2b
def Xx2 : Cert.Spec.Mat 100000 64 := Spec.convK (Aof m c) (Xx1 m c) (Aof m c).eps2 (Aof m c).W2a (Aof m c).b2a (Aof m c).W2b (Aof m c).b2b (Aof m c).g2 (Aof m c).be2
def Hf : Cert.Spec.Mat 100000 64 := Spec.finSplit (Tmp m c) (Xx2 m c) (Aof m c).Wf1 (Aof m c).bf1

end Cert.KernelIdeal.Val

end
-- ==== Proof.ValKI.Result.lean ====
import proofs.«402365_j6828998001463_1_alg».proof.Proof.FrameKI.Run
import proofs.«402365_j6828998001463_1_alg».proof.Proof.ValKI.Reg0
import proofs.«402365_j6828998001463_1_alg».proof.Proof.ValKI.Reg1
import proofs.«402365_j6828998001463_1_alg».proof.Proof.ValKI.Reg2
import proofs.«402365_j6828998001463_1_alg».proof.Proof.ValKI.Reg3
import proofs.«402365_j6828998001463_1_alg».proof.Proof.ValKI.Reg4
import proofs.«402365_j6828998001463_1_alg».proof.Proof.ValKI.Reg5
import proofs.«402365_j6828998001463_1_alg».proof.Proof.ValKI.Reg6
import proofs.«402365_j6828998001463_1_alg».proof.Proof.ValKI.Host
import proofs.«402365_j6828998001463_1_alg».proof.Proof.ValKI.Net

set_option maxRecDepth 4096

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ) (c : Dev nD)

theorem rdW1 : rd (W1 m) = rd (V1 m) := by
  funext c b; show W1 m c b = V1 m c b; rw [V1_eq]
theorem rdW3 : rd (W3 m) = rd (V3 m (outsH m)) := by
  funext c b; show W3 m c b = V3 m (outsH m) c b; rw [V3_eq]
theorem rdW5 : rd (W5 m) = rd (V5 m (outsH m)) := by
  funext c b; show W5 m c b = V5 m (outsH m) c b; rw [V5_eq]
theorem rdW7 : rd (W7 m) = rd (V7 m (outsH m)) := by
  funext c b; show W7 m c b = V7 m (outsH m) c b; rw [V7_eq]
theorem rdW9 : rd (W9 m) = rd (V9 m (outsH m)) := by
  funext c b; show W9 m c b = V9 m (outsH m) c b; rw [V9_eq]
theorem rdW11 : rd (W11 m) = rd (V11 m (outsH m)) := by
  funext c b; show W11 m c b = V11 m (outsH m) c b; rw [V11_eq]
theorem rdW13 : rd (W13 m) = rd (V13 m (outsH m)) := by
  funext c b; show W13 m c b = V13 m (outsH m) c b; rw [V13_eq]

theorem row_arg {n : ℕ} {X : (⟨2, ![1, n]⟩ : Shape).Idx → EReal} {Y Z : (⟨1, ![n]⟩ : Shape).Idx → EReal}
    (h : ∀ k, X (ix2 0 k) = Y (ix1 k)) (hy : Y = Z) : (fun k => X (ix2 0 k)) = fun k => Z (ix1 k) :=
  hy ▸ funext h

theorem tmp_eq : Spec.mat (V2 m (outsH m) c main_v6) = Tmp m c := by
  funext p q
  show V2 m (outsH m) c main_v6 (ix2 p q) = _
  rw [V2_v6 m (outsH m) c, outsH_main_v6 m 2 c]; unfold o2_main_v6
  rw [rdW1 m]; refine (arr0_4 _ c p q).trans ?_
  rw [funext fun r => main_v4_read m c r 0, funext fun r => main_v5_read m c r 0, congrArg Spec.mat (V1_m m c main_arg4 (by decide)), congrArg Spec.mat (V1_m m c main_arg5 (by decide))] <;> rfl

theorem lin1_eq : Spec.lin (Spec.mat (V3 m (outsH m) c main_v21)) (Spec.mat (V3 m (outsH m) c main_arg7)) (fun k => V3 m (outsH m) c main_v22 (ix2 0 k)) (Spec.mat (V3 m (outsH m) c main_arg9)) (fun k => V3 m (outsH m) c main_v23 (ix2 0 k)) = Hh1 m c := by
  have e_eps : V2 m (outsH m) c main_arg6 (ix1 0) = (Aof m c).eps1 := by rw [V2_m m (outsH m) c main_arg6 (by decide)] <;> rfl
  rw [main_v21_read m (outsH m) c, funext fun e => (congrFun (V2_of m (outsH m) c main_v1 (by decide)) _).trans (main_v1_read m c e), funext fun e => (congrFun (V2_of m (outsH m) c main_v3 (by decide)) _).trans (main_v3_read m c e), e_eps, congrArg Spec.mat (V2_m m (outsH m) c main_arg3 (by decide)), congrArg Spec.mat (V3_m m (outsH m) c main_arg7 (by decide)), row_arg (main_v22_read m (outsH m) c 0) (V2_m m (outsH m) c main_arg8 (by decide)), congrArg Spec.mat (V3_m m (outsH m) c main_arg9 (by decide)), row_arg (main_v23_read m (outsH m) c 0) (V2_m m (outsH m) c main_arg10 (by decide))] <;> rfl

theorem h1_eq : Spec.mat (V4 m (outsH m) c main_v24_0) = Hh1 m c := by
  funext p q
  show V4 m (outsH m) c main_v24_0 (ix2 p q) = _
  rw [V4_v24_0 m (outsH m) c, outsH_main_v24_0 m 4 c]; unfold o4_main_v24_0
  rw [rdW3 m]; refine (arr1_5 _ c p q).trans ?_
  rw [lin1_eq m c]
theorem s1_eq : (fun k => V4 m (outsH m) c main_v24_1 (ix2 0 k)) = Spec.colSum (Hh1 m c) := by
  funext q
  show V4 m (outsH m) c main_v24_1 (ix2 0 q) = _
  rw [V4_v24_1 m (outsH m) c, outsH_main_v24_1 m 4 c]; unfold o4_main_v24_1
  rw [rdW3 m]; refine (arr1_6_0 _ c q).trans ?_
  rw [lin1_eq m c]
theorem ss1_eq : (fun k => V4 m (outsH m) c main_v24_1 (ix2 1 k)) = Spec.colSumSq (Hh1 m c) := by
  funext q
  show V4 m (outsH m) c main_v24_1 (ix2 1 q) = _
  rw [V4_v24_1 m (outsH m) c, outsH_main_v24_1 m 4 c]; unfold o4_main_v24_1
  rw [rdW3 m]; refine (arr1_6_1 _ c q).trans ?_
  rw [lin1_eq m c]

theorem x1_eq : Spec.mat (V6 m (outsH m) c main_v39) = Xx1 m c := by
  funext p q
  show V6 m (outsH m) c main_v39 (ix2 p q) = _
  rw [V6_v39 m (outsH m) c, outsH_main_v39 m 6 c]; unfold o6_main_v39
  rw [rdW5 m]; refine (arr2_5 _ c p q).trans ?_
  rw [(congrArg Spec.mat (V5_of m (outsH m) c main_v24_0 (by decide))).trans (h1_eq m c), (funext (main_v35_read m (outsH m) c 0)).trans (congrArg Spec.meanOf (s1_eq m c)), (funext (main_v36_read m (outsH m) c 0)).trans (congrArg₂ Spec.varOf (s1_eq m c) (ss1_eq m c)), row_arg (main_v37_read m (outsH m) c 0) (V4_m m (outsH m) c main_arg11 (by decide)), row_arg (main_v38_read m (outsH m) c 0) (V4_m m (outsH m) c main_arg12 (by decide))] <;> rfl

theorem lin2_eq : Spec.lin (Spec.mat (V7 m (outsH m) c main_v54)) (Spec.mat (V7 m (outsH m) c main_arg14)) (fun k => V7 m (outsH m) c main_v55 (ix2 0 k)) (Spec.mat (V7 m (outsH m) c main_arg16)) (fun k => V7 m (outsH m) c main_v56 (ix2 0 k)) = Hh2 m c := by
  have e_eps : V6 m (outsH m) c main_arg13 (ix1 0) = (Aof m c).eps2 := by rw [V6_m m (outsH m) c main_arg13 (by decide)] <;> rfl
  have e_in : Spec.mat (V6 m (outsH m) c main_v39) = Xx1 m c := x1_eq m c
  rw [main_v54_read m (outsH m) c, funext fun e => (congrFun (V6_v1 m (outsH m) c) _).trans (main_v1_read m c e), funext fun e => (congrFun (V6_v3 m (outsH m) c) _).trans (main_v3_read m c e), e_eps, e_in, congrArg Spec.mat (V7_m m (outsH m) c main_arg14 (by decide)), row_arg (main_v55_read m (outsH m) c 0) (V6_m m (outsH m) c main_arg15 (by decide)), congrArg Spec.mat (V7_m m (outsH m) c main_arg16 (by decide)), row_arg (main_v56_read m (outsH m) c 0) (V6_m m (outsH m) c main_arg17 (by decide))] <;> rfl

theorem h2_eq : Spec.mat (V8 m (outsH m) c main_v57_0) = Hh2 m c := by
  funext p q
  show V8 m (outsH m) c main_v57_0 (ix2 p q) = _
  rw [V8_v57_0 m (outsH m) c, outsH_main_v57_0 m 8 c]; unfold o8_main_v57_0
  rw [rdW7 m]; refine (arr3_5 _ c p q).trans ?_
  rw [lin2_eq m c]
theorem s2_eq : (fun k => V8 m (outsH m) c main_v57_1 (ix2 0 k)) = Spec.colSum (Hh2 m c) := by
  funext q
  show V8 m (outsH m) c main_v57_1 (ix2 0 q) = _
  rw [V8_v57_1 m (outsH m) c, outsH_main_v57_1 m 8 c]; unfold o8_main_v57_1
  rw [rdW7 m]; refine (arr3_6_0 _ c q).trans ?_
  rw [lin2_eq m c]
theorem ss2_eq : (fun k => V8 m (outsH m) c main_v57_1 (ix2 1 k)) = Spec.colSumSq (Hh2 m c) := by
  funext q
  show V8 m (outsH m) c main_v57_1 (ix2 1 q) = _
  rw [V8_v57_1 m (outsH m) c, outsH_main_v57_1 m 8 c]; unfold o8_main_v57_1
  rw [rdW7 m]; refine (arr3_6_1 _ c q).trans ?_
  rw [lin2_eq m c]

theorem x2_eq : Spec.mat (V10 m (outsH m) c main_v72) = Xx2 m c := by
  funext p q
  show V10 m (outsH m) c main_v72 (ix2 p q) = _
  rw [V10_v72 m (outsH m) c, outsH_main_v72 m 10 c]; unfold o10_main_v72
  rw [rdW9 m]; refine (arr4_5 _ c p q).trans ?_
  rw [(congrArg Spec.mat (V9_of m (outsH m) c main_v57_0 (by decide))).trans (h2_eq m c), (funext (main_v68_read m (outsH m) c 0)).trans (congrArg Spec.meanOf (s2_eq m c)), (funext (main_v69_read m (outsH m) c 0)).trans (congrArg₂ Spec.varOf (s2_eq m c) (ss2_eq m c)), row_arg (main_v70_read m (outsH m) c 0) (V8_m m (outsH m) c main_arg18 (by decide)), row_arg (main_v71_read m (outsH m) c 0) (V8_m m (outsH m) c main_arg19 (by decide))] <;> rfl

theorem lin3_eq : Spec.finTwo (Spec.mat (V11 m (outsH m) c main_v6)) (Spec.mat (V11 m (outsH m) c main_v72)) (Spec.mat (V11 m (outsH m) c main_v73)) (Spec.mat (V11 m (outsH m) c main_v74)) (fun k => V11 m (outsH m) c main_v75 (ix2 0 k)) = Hf m c := by
  have e_Wa : Spec.mat (V11 m (outsH m) c main_v73) = Spec.wTop (Aof m c).Wf1 := by rw [main_v73_read m (outsH m) c, V10_m m (outsH m) c main_arg20 (by decide)] <;> rfl
  have e_Wb : Spec.mat (V11 m (outsH m) c main_v74) = Spec.wBot (Aof m c).Wf1 := by rw [main_v74_read m (outsH m) c, V10_m m (outsH m) c main_arg20 (by decide)] <;> rfl
  rw [(congrArg Spec.mat (V11_v6 m (outsH m) c)).trans (tmp_eq m c), (congrArg Spec.mat (V11_of m (outsH m) c main_v72 (by decide))).trans (x2_eq m c), e_Wa, e_Wb, row_arg (main_v75_read m (outsH m) c 0) (V10_m m (outsH m) c main_arg21 (by decide))] <;> rfl

theorem h3_eq : Spec.mat (V12 m (outsH m) c main_v76_0) = Hf m c := by
  funext p q
  show V12 m (outsH m) c main_v76_0 (ix2 p q) = _
  rw [V12_v76_0 m (outsH m) c, outsH_main_v76_0 m 12 c]; unfold o12_main_v76_0
  rw [rdW11 m]; refine (arr5_5 _ c p q).trans ?_
  rw [lin3_eq m c]
theorem s3_eq : (fun k => V12 m (outsH m) c main_v76_1 (ix2 0 k)) = Spec.colSum (Hf m c) := by
  funext q
  show V12 m (outsH m) c main_v76_1 (ix2 0 q) = _
  rw [V12_v76_1 m (outsH m) c, outsH_main_v76_1 m 12 c]; unfold o12_main_v76_1
  rw [rdW11 m]; refine (arr5_6_0 _ c q).trans ?_
  rw [lin3_eq m c]
theorem ss3_eq : (fun k => V12 m (outsH m) c main_v76_1 (ix2 1 k)) = Spec.colSumSq (Hf m c) := by
  funext q
  show V12 m (outsH m) c main_v76_1 (ix2 1 q) = _
  rw [V12_v76_1 m (outsH m) c, outsH_main_v76_1 m 12 c]; unfold o12_main_v76_1
  rw [rdW11 m]; refine (arr5_6_1 _ c q).trans ?_
  rw [lin3_eq m c]

theorem out_eq (p : Fin 100000) : V14 m (outsH m) c main_v92 (ix2 p 0) = Spec.netK (Aof m c) p := by
  have e_b : V13 m (outsH m) c main_v91 (ix2 0 0) = (Aof m c).bf2 := by rw [main_v91_read m (outsH m) c 0 0, V12_m m (outsH m) c main_arg25 (by decide)] <;> rfl
  rw [V14_v92 m (outsH m) c, outsH_main_v92 m 14 c]; unfold o14_main_v92
  rw [rdW13 m]; refine (arr6_7 _ c p).trans ?_; unfold rd
  rw [(congrArg Spec.mat (V13_of m (outsH m) c main_v76_0 (by decide))).trans (h3_eq m c), (funext (main_v87_read m (outsH m) c 0)).trans (congrArg Spec.meanOf (s3_eq m c)), (funext (main_v88_read m (outsH m) c 0)).trans (congrArg₂ Spec.varOf (s3_eq m c) (ss3_eq m c)), row_arg (main_v89_read m (outsH m) c 0) (V12_m m (outsH m) c main_arg22 (by decide)), row_arg (main_v90_read m (outsH m) c 0) (V12_m m (outsH m) c main_arg23 (by decide)), congrArg Spec.mat (V13_m m (outsH m) c main_arg24 (by decide)), e_b] <;> rfl

theorem result_eq (c : Dev nD) (p : Fin 100000) :
    Cert.KernelIdeal.Gen.V15 m (Cert.KernelIdeal.Hand.outsH m) c main_v93 (ix1 p) = Cert.Spec.netK (Aof m c) p :=
  (main_v93_read m (outsH m) c p).trans (out_eq m c p)

end Cert.KernelIdeal.Val

end
-- ==== Proof.PreDecode.lean ====
import proofs.«402365_j6828998001463_1_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx
open Cert.Pre_finite_inputs hiding Facts

instance : Subsingleton S_.Idx := ⟨fun a b => funext fun d => d.elim0⟩

theorem inf_pattern : Ideal.ofBits .f32 0x7F800000#32 = (⊤ : EReal) := by
  simp [Ideal.ofBits, Ideal.ieee]

-- max x (−x) < ⊤ fails at ⊥ and at ⊤, so x is a real
theorem real_of_abs_lt (x : EReal)
    (h : Ideal.cmp .olt (max x (-x)) (Ideal.ofBits .f32 0x7F800000#32) = 1#1) : ∃ r : ℝ, x = (r : EReal) := by
  rw [inf_pattern] at h
  unfold Ideal.cmp at h
  rw [StableHlo.Predicate.ofBool_eq_one_iff] at h
  have h' : max x (-x) < ⊤ := of_decide_eq_true h
  induction x using EReal.rec with
  | bot => exact absurd h' (by simp)
  | top => exact absurd h' (by simp)
  | coe r => exact ⟨r, rfl⟩

section
variable {s : Shape} {axes : List (Fin s.rank)} {hb : S_.BroadcastsInDim s (![] : Fin 0 → Fin s.rank)}
  {hr : s.ReducesTo axes S_} {h0 : 0 < S_.numel} {init : IVec S_ 1} {j : S_.Idx}

-- a conjunction over all entries that is 1 had a 1 at every entry
theorem fin_of_all {x : FVec Ideal s .f32}
    (e : Host.reduce IntOp.andi (cmpf .olt (Host.absf x) (broadcastInDim s ![] hb (constant S_ .f32 0x7F800000#32)))
      init hr h0 j = 1#1) (i : s.Idx) : ∃ r : ℝ, x i = (r : EReal) :=
  real_of_abs_lt (x i) (Host.reduce_andi_all _ init hr h0 j e i)

theorem sge_of_all {x : IVec s 32} {c : BitVec 32}
    (e : Host.reduce IntOp.andi (cmpi .sge x (broadcastInDim s ![] hb (constantI S_ 32 c))) init hr h0 j = 1#1)
    (i : s.Idx) : c.toInt ≤ (x i).toInt :=
  IntOp.cmpi_sge.1 (Host.reduce_andi_all _ init hr h0 j e i)

theorem slt_of_all {x : IVec s 32} {c : BitVec 32}
    (e : Host.reduce IntOp.andi (cmpi .slt x (broadcastInDim s ![] hb (constantI S_ 32 c))) init hr h0 j = 1#1)
    (i : s.Idx) : (x i).toInt < c.toInt :=
  IntOp.cmpi_slt.1 (Host.reduce_andi_all _ init hr h0 j e i)

end

theorem andi_apply {s : Shape} {w : Nat} (x y : IVec s w) (i : s.Idx) : andi x y i = IntOp.andi (x i) (y i) := rfl

end Cert.PreDecode

end
-- ==== Proof.Ok.lean ====
import proofs.«402365_j6828998001463_1_alg».proof.Defs
import proofs.«402365_j6828998001463_1_alg».proof.Proof.PreDecode
import proofs.«402365_j6828998001463_1_alg».proof.Proof.ArgsOf

noncomputable section

namespace Cert.OkH

open Idealize.ShloMosaic Idealize.ShloMosaic.ValueIdx Idealize.SL.Sem Cert.KernelIdeal Cert.PreDecode
open Cert.Pre_finite_inputs hiding Facts

-- each field of the record is an argument array read at coordinates
theorem ok_of_fn [Cert.Pre_finite_inputs.Facts] {a0 a1 a2 a3 a4 a5 a6 a7 a8 a9 a10 a11 a12 a13 a14 a15 a16 a17 a18 a19 a20 a21 a22 a23 a24 a25}
    (h : fn (F := Ideal) a0 a1 a2 a3 a4 a5 a6 a7 a8 a9 a10 a11 a12 a13 a14 a15 a16 a17 a18 a19 a20 a21 a22 a23 a24 a25 = fun _ => 1#1) : (Cert.Spec.argsOf a0 a1 a2 a3 a4 a5 a6 a7 a8 a9 a10 a11 a12 a13 a14 a15 a16 a17 a18 a19 a20 a21 a22 a23 a24 a25).Ok := by
  have e := congrFun h ix0
  dsimp only [fn, fn_part1, fn_part2, fn_part3, fn_part4, fn_part5, fn_part6, fn_part7] at e
  simp only [andi_apply, IntOp.andi_eq_one] at e
  obtain ⟨⟨⟨⟨⟨⟨⟨⟨⟨⟨⟨⟨⟨⟨⟨⟨⟨⟨⟨⟨⟨⟨⟨⟨⟨⟨e3, e4⟩, e5⟩, e6⟩, e7⟩, e8⟩, e9⟩, e10⟩, e11⟩, e12⟩, e13⟩, e14⟩, e15⟩, e16⟩, e17⟩, e18⟩, e19⟩, e20⟩, e21⟩, e22⟩, e23⟩, e24⟩, e25⟩, d0⟩, d1⟩, l0⟩, l1⟩ := e
  exact {
    pos := fun r l => fin_of_all e3 (ix2 r l)
    Ed := fun r l => fin_of_all e4 (ix2 r l)
    El := fun r l => fin_of_all e5 (ix2 r l)
    eps1 := fin_of_all e6 (ix1 0)
    W1a := fun r l => fin_of_all e7 (ix2 r l)
    b1a := fun l => fin_of_all e8 (ix1 l)
    W1b := fun r l => fin_of_all e9 (ix2 r l)
    b1b := fun l => fin_of_all e10 (ix1 l)
    g1 := fun l => fin_of_all e11 (ix1 l)
    be1 := fun l => fin_of_all e12 (ix1 l)
    eps2 := fin_of_all e13 (ix1 0)
    W2a := fun r l => fin_of_all e14 (ix2 r l)
    b2a := fun l => fin_of_all e15 (ix1 l)
    W2b := fun r l => fin_of_all e16 (ix2 r l)
    b2b := fun l => fin_of_all e17 (ix1 l)
    g2 := fun l => fin_of_all e18 (ix1 l)
    be2 := fun l => fin_of_all e19 (ix1 l)
    Wf1 := fun r l => fin_of_all e20 (ix2 r l)
    bf1 := fun l => fin_of_all e21 (ix1 l)
    gf := fun l => fin_of_all e22 (ix1 l)
    bef := fun l => fin_of_all e23 (ix1 l)
    Wf2 := fun r l => fin_of_all e24 (ix2 r l)
    bf2 := fin_of_all e25 (ix1 0)
    deg := fun r => ⟨sge_of_all d0 (ix1 r), slt_of_all d1 (ix1 r)⟩
    lab := fun r => ⟨sge_of_all l0 (ix1 r), slt_of_all l1 (ix1 r)⟩ }

theorem ok_of_pre [Cert.Pre_finite_inputs.Facts] (m : (ℓ : Loc nD τ sig) → Buf (Elt Ideal) ℓ)
    (hpre : Cert.Pre_KernelIdeal m) (c : Dev nD) :
    (Cert.Spec.argsOf (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) (m (c.tc.loc main_arg21)) (m (c.tc.loc main_arg22)) (m (c.tc.loc main_arg23)) (m (c.tc.loc main_arg24)) (m (c.tc.loc main_arg25))).Ok :=
  ok_of_fn (hpre c)

end Cert.OkH

end
-- ==== Proof.Alg.Real.lean ====
import proofs.«402365_j6828998001463_1_alg».proof.Proof.Spec
import proofs.«402365_j6828998001463_1_alg».proof.Proof.Alg.Lit
import Idealize.ShloMosaic.PureOps.Ideal
import Mathlib.Data.EReal.Basic
import Mathlib.Data.EReal.Operations
import Mathlib.Algebra.BigOperators.Group.Finset.Basic

open scoped BigOperators

namespace Cert.Alg

open Idealize.ShloMosaic Cert.Spec

def IsReal (x : EReal) : Prop := ∃ v : ℝ, x = (v : EReal)

theorem IsReal.coe (v : ℝ) : IsReal (v : EReal) := ⟨v, rfl⟩
theorem IsReal.zero : IsReal 0 := ⟨0, EReal.coe_zero.symm⟩
theorem IsReal.one : IsReal 1 := ⟨1, EReal.coe_one.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.sum {ι : Type*} (s : Finset ι) (f : ι → EReal) (h : ∀ i ∈ s, IsReal (f i)) :
    IsReal (∑ i ∈ s, f i) :=
  Finset.sum_induction f IsReal (fun _ _ => IsReal.add) IsReal.zero h

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.lit_zero : IsReal Cert.Spec.zero := ⟨0, zero_eq⟩
theorem IsReal.lit_one : IsReal Cert.Spec.one := ⟨1, one_eq⟩
theorem IsReal.lit_slope : IsReal Cert.Spec.slope := slope_eq

theorem div_cnt (x : EReal) : Ideal.div x cnt = x * ((1 / 100000 : ℝ) : EReal) := by
  rw [cnt_eq]; exact Ideal.div_coe (by norm_num) x

theorem IsReal.div_cnt {x : EReal} (hx : IsReal x) : IsReal (Ideal.div x cnt) := by
  rw [Cert.Alg.div_cnt]; exact hx.mul (IsReal.coe _)

theorem IsReal.lrelu {x : EReal} (hx : IsReal x) : IsReal (lrelu x) := by
  unfold Cert.Spec.lrelu
  split
  · exact hx
  · exact IsReal.lit_slope.mul hx

theorem IsReal.rsqrt_pos {v : ℝ} (hv : 0 < v) : IsReal (Ideal.rsqrt (v : EReal)) := by
  rw [Ideal.rsqrt_coe, if_neg (not_lt.mpr hv.le), if_neg hv.ne']
  exact IsReal.coe _

end Cert.Alg
-- ==== Proof.Alg.Var.lean ====
import proofs.«402365_j6828998001463_1_alg».proof.Proof.Spec
import proofs.«402365_j6828998001463_1_alg».proof.Proof.Alg.Lit
import proofs.«402365_j6828998001463_1_alg».proof.Proof.Alg.Real
import Mathlib.Data.EReal.Basic
import Mathlib.Data.EReal.Operations
import Mathlib.Algebra.BigOperators.Group.Finset.Basic
import Mathlib.Algebra.Order.BigOperators.Ring.Finset
import Mathlib.Tactic.Ring
import Mathlib.Tactic.LinearCombination
import Mathlib.Tactic.NormNum

open scoped BigOperators

namespace Cert.Alg

open Idealize.ShloMosaic Cert.Spec

theorem var_real {n : ℕ} (f : Fin n → ℝ) (c : ℝ) (hc : (n : ℝ) * c = 1) :
    (∑ r, f r * f r) * c - ((∑ r, f r) * c) * ((∑ r, f r) * c)
      = (∑ r, (f r - (∑ r, f r) * c) * (f r - (∑ r, f r) * c)) * c := by
  have h : ∀ m : ℝ, ∑ r, (f r - m) * (f r - m) = (∑ r, f r * f r) - 2 * m * (∑ r, f r) + (n : ℝ) * (m * m) := by
    intro m
    have e : ∀ r, (f r - m) * (f r - m) = f r * f r - 2 * m * f r + m * m := fun r => by ring
    simp only [e]
    rw [Finset.sum_add_distrib, Finset.sum_sub_distrib, ← Finset.mul_sum, Finset.sum_const, Finset.card_univ,
      Fintype.card_fin, nsmul_eq_mul]
  rw [h]
  linear_combination (-((∑ r, f r) * c * ((∑ r, f r) * c))) * hc

theorem col_coe {n : ℕ} (x : Fin n → EReal) (hx : ∀ r, IsReal (x r)) : ∃ f : Fin n → ℝ, x = fun r => (f r : EReal) := by
  choose f hf using hx
  exact ⟨f, funext hf⟩

theorem var_col (x : Fin 100000 → EReal) (hx : ∀ r, IsReal (x r)) :
    Ideal.div (∑ r, x r * x r) cnt - Ideal.div (∑ r, x r) cnt * Ideal.div (∑ r, x r) cnt
      = Ideal.div (∑ r, (x r - Ideal.div (∑ r, x r) cnt) * (x r - Ideal.div (∑ r, x r) cnt)) cnt := by
  obtain ⟨f, rfl⟩ := col_coe x hx
  simp only [div_cnt]
  simp only [← EReal.coe_mul, ← coe_sum, ← EReal.coe_sub]
  rw [EReal.coe_eq_coe_iff]
  exact var_real f (1 / 100000) (by norm_num)

theorem varDev_col_nonneg (x : Fin 100000 → EReal) (hx : ∀ r, IsReal (x r)) :
    ∃ v : ℝ, 0 ≤ v ∧
      Ideal.div (∑ r, (x r - Ideal.div (∑ r, x r) cnt) * (x r - Ideal.div (∑ r, x r) cnt)) cnt = (v : EReal) := by
  obtain ⟨f, rfl⟩ := col_coe x hx
  simp only [div_cnt]
  simp only [← EReal.coe_mul, ← coe_sum, ← EReal.coe_sub]
  refine ⟨_, ?_, rfl⟩
  exact mul_nonneg (Finset.sum_nonneg fun r _ => mul_self_nonneg _) (by norm_num)

theorem varOf_eq_varDev {D : ℕ} (h : Mat 100000 D) (hh : ∀ r j, IsReal (h r j)) :
    varOf (colSum h) (colSumSq h) = varDev h := by
  funext j
  unfold varOf varDev meanOf colSum colSumSq
  exact var_col (fun r => h r j) (fun r => hh r j)

theorem varDev_nonneg {D : ℕ} (h : Mat 100000 D) (hh : ∀ r j, IsReal (h r j)) (j : Fin D) :
    ∃ v : ℝ, 0 ≤ v ∧ varDev h j = (v : EReal) := by
  unfold varDev meanOf colSum
  exact varDev_col_nonneg (fun r => h r j) (fun r => hh r j)

theorem meanOf_real {n D : ℕ} (h : Mat n D) (hh : ∀ r j, IsReal (h r j)) (j : Fin D) :
    IsReal (meanOf (colSum h) j) := by
  unfold meanOf colSum
  exact IsReal.div_cnt (IsReal.sum _ _ fun r _ => hh r j)

end Cert.Alg
-- ==== Proof.Alg.Emb.lean ====
import proofs.«402365_j6828998001463_1_alg».proof.Proof.Spec
import Mathlib.Data.EReal.Basic
import Mathlib.Algebra.BigOperators.Group.Finset.Basic

open scoped BigOperators

namespace Cert.Alg

open Idealize.ShloMosaic Cert.Spec

theorem toInt_eq_toNat {v : BitVec 32} (h0 : 0 ≤ v.toInt) : v.toInt = (v.toNat : Int) := by
  have hlt := v.isLt
  rw [BitVec.toInt_eq_toNat_cond] at h0 ⊢
  split at h0 <;> rename_i h
  · rw [if_pos h]
  · exfalso; omega

theorem wrap_of_nonneg (n : ℕ) {v : BitVec 32} (h0 : 0 ≤ v.toInt) : wrap n v = v := by
  unfold wrap
  rw [if_neg]
  have : v.slt 0#32 = false := by
    rw [BitVec.slt]; simp only [BitVec.toInt_zero, decide_eq_false_iff_not, not_lt]; exact h0
  simp [IntOp.cmpi, this]

theorem clampRow_val (n : ℕ) (hn : 0 < n) {v : BitVec 32} (h0 : 0 ≤ v.toInt) (h1 : v.toInt < (n : Int)) :
    (clampRow n hn v).val = v.toNat := by
  unfold clampRow
  have e := toInt_eq_toNat h0
  show min v.toInt.toNat (n - 1) = v.toNat
  rw [e] at h1 ⊢
  rw [Int.toNat_natCast]
  omega

theorem hot_sum (n : ℕ) (hn : 0 < n) (hn32 : n ≤ 2 ^ 32) (v : BitVec 32) (h0 : 0 ≤ v.toInt) (h1 : v.toInt < (n : Int))
    (T : Fin n → EReal) : ∑ k : Fin n, hot k.val v * T k = T (clampRow n hn (wrap n v)) := by
  have e := toInt_eq_toNat h0
  have hv : v.toNat < n := by rw [e] at h1; exact_mod_cast h1
  have hk0 : clampRow n hn (wrap n v) = ⟨v.toNat, hv⟩ := by
    rw [wrap_of_nonneg n h0]; exact Fin.ext (clampRow_val n hn h0 h1)
  rw [hk0, Finset.sum_eq_single (⟨v.toNat, hv⟩ : Fin n)]
  · have : hot v.toNat v = 1 := by
      unfold hot; rw [if_pos]; rw [BitVec.ofNat_toNat, BitVec.setWidth_eq]
    rw [this, one_mul]
  · intro k _ hk
    have : hot k.val v = 0 := by
      unfold hot; rw [if_neg]
      intro hkv
      apply hk
      apply Fin.ext
      have := congrArg BitVec.toNat hkv
      rw [BitVec.toNat_ofNat, Nat.mod_eq_of_lt (by have := k.isLt; omega)] at this
      exact this
    rw [this, zero_mul]
  · intro h; exact absurd (Finset.mem_univ _) h

theorem embHot_eq_embTake {n : ℕ} (deg lab : Fin n → BitVec 32) (Ed : Mat 64 64) (El : Mat 16 64)
    (hdeg : ∀ r, 0 ≤ (deg r).toInt ∧ (deg r).toInt < 64) (hlab : ∀ r, 0 ≤ (lab r).toInt ∧ (lab r).toInt < 16) :
    embHot deg lab Ed El = embTake deg lab Ed El := by
  funext r j
  unfold embHot embTake
  split
  · rename_i h
    exact hot_sum 64 (by decide) (by norm_num) (deg r) (hdeg r).1 (hdeg r).2 (fun k => Ed k ⟨j.val, h⟩)
  · exact hot_sum 16 (by decide) (by norm_num) (lab r) (hlab r).1 (hlab r).2 (fun k => El k ⟨j.val - 64, _⟩)

end Cert.Alg
-- ==== Proof.Alg.Fin.lean ====
import proofs.«402365_j6828998001463_1_alg».proof.Proof.Spec
import Mathlib.Data.EReal.Basic
import Mathlib.Algebra.BigOperators.Fin

open scoped BigOperators

namespace Cert.Alg

open Idealize.ShloMosaic Cert.Spec

theorem sum_split (g : Fin 192 → EReal) :
    ∑ k : Fin 192, g k
      = (∑ k : Fin 128, g ⟨k.val, by have := k.isLt; omega⟩)
        + ∑ k : Fin 64, g ⟨128 + k.val, by have := k.isLt; omega⟩ :=
  Fin.sum_univ_add (M := EReal) (a := 128) (b := 64) g

theorem finSplit_eq_finWhole {n : ℕ} (tmp : Mat n 128) (x2 : Mat n 64) (Wf1 : Mat 192 64) (bf1 : Row 64) :
    finSplit tmp x2 Wf1 bf1 = finWhole tmp x2 Wf1 bf1 := by
  funext r j
  unfold finSplit finTwo finWhole wTop wBot
  rw [sum_split]
  congr 2

end Cert.Alg
-- ==== Proof.Alg.Net.lean ====
import proofs.«402365_j6828998001463_1_alg».proof.Proof.Spec
import proofs.«402365_j6828998001463_1_alg».proof.Proof.Alg.Lit
import proofs.«402365_j6828998001463_1_alg».proof.Proof.Alg.Real
import proofs.«402365_j6828998001463_1_alg».proof.Proof.Alg.Var
import proofs.«402365_j6828998001463_1_alg».proof.Proof.Alg.Emb
import proofs.«402365_j6828998001463_1_alg».proof.Proof.Alg.Fin
import Mathlib.Data.EReal.Basic
import Mathlib.Tactic.Linarith

open scoped BigOperators

namespace Cert.Alg

open Idealize.ShloMosaic Cert.Spec

def MatReal {a b : ℕ} (m : Mat a b) : Prop := ∀ r l, IsReal (m r l)
def RowReal {b : ℕ} (v : Row b) : Prop := ∀ l, IsReal (v l)

theorem agg_real {n d E : ℕ} (hn : 0 < n) (src dst : Fin E → BitVec 32) (x : Mat n d) (hx : MatReal x) :
    MatReal (agg hn src dst x) := by
  intro a b
  unfold agg
  refine IsReal.lit_zero.add (IsReal.sum _ _ fun e _ => ?_)
  split
  · exact hx _ _
  · exact IsReal.zero

theorem ginIn_real {n d : ℕ} (eps : EReal) (he : IsReal eps) (x ag : Mat n d) (hx : MatReal x) (ha : MatReal ag) :
    MatReal (ginIn eps x ag) :=
  fun r l => ((IsReal.lit_one.add he).mul (hx r l)).add (ha r l)

theorem lin_real {n K D : ℕ} (x : Mat n K) (Wa : Mat K K) (ba : Row K) (Wb : Mat K D) (bb : Row D)
    (hx : MatReal x) (hWa : MatReal Wa) (hba : RowReal ba) (hWb : MatReal Wb) (hbb : RowReal bb) :
    MatReal (lin x Wa ba Wb bb) :=
  fun r j =>
    (IsReal.sum _ _ fun k _ =>
      (IsReal.lrelu ((IsReal.sum _ _ fun l _ => (hx r l).mul (hWa l k)).add (hba k))).mul (hWb k j)).add (hbb j)

theorem bnAct_real {n D : ℕ} (h : Mat n D) (mean var g be : Row D) (hh : MatReal h) (hmean : RowReal mean)
    (hvar : ∀ j, ∃ v : ℝ, 0 ≤ v ∧ var j = (v : EReal)) (hg : RowReal g) (hbe : RowReal be) :
    MatReal (bnAct h mean var g be) := by
  intro r j
  unfold bnAct
  obtain ⟨v, hv0, hv⟩ := hvar j
  obtain ⟨e, he0, he⟩ := bnEps_eq
  have hr : IsReal (Ideal.rsqrt (var j + bnEps)) := by
    rw [hv, he, ← EReal.coe_add]; exact IsReal.rsqrt_pos (by linarith)
  exact IsReal.lrelu ((((hg j).mul ((hh r j).sub (hmean j))).mul hr).add (hbe j))

section
variable {d : ℕ} (A : Args) (x : Mat 100000 d) (eps : EReal) (Wa : Mat d d) (ba : Row d) (Wb : Mat d 64)
  (bb g be : Row 64) (hx : MatReal x) (he : IsReal eps) (hWa : MatReal Wa) (hba : RowReal ba) (hWb : MatReal Wb)
  (hbb : RowReal bb)
include hx he hWa hba hWb hbb

theorem conv_lin_real : MatReal (lin (ginIn eps x (agg (by decide) A.src A.dst x)) Wa ba Wb bb) :=
  lin_real _ _ _ _ _ (ginIn_real _ he _ _ hx (agg_real _ _ _ _ hx)) hWa hba hWb hbb

-- on real entries the two variance formulas agree
theorem convK_eq_convR : convK A x eps Wa ba Wb bb g be = convR A x eps Wa ba Wb bb g be := by
  unfold convK convR
  dsimp only
  rw [varOf_eq_varDev _ (conv_lin_real A x eps Wa ba Wb bb hx he hWa hba hWb hbb)]

theorem convR_real (hg : RowReal g) (hbe : RowReal be) : MatReal (convR A x eps Wa ba Wb bb g be) := by
  unfold convR
  dsimp only
  have hl := conv_lin_real A x eps Wa ba Wb bb hx he hWa hba hWb hbb
  exact bnAct_real _ _ _ _ _ hl (meanOf_real _ hl) (varDev_nonneg _ hl) hg hbe

end

theorem embTake_real {n : ℕ} (deg lab : Fin n → BitVec 32) (Ed : Mat 64 64) (El : Mat 16 64) (hEd : MatReal Ed)
    (hEl : MatReal El) : MatReal (embTake deg lab Ed El) := by
  intro r j
  unfold embTake
  split
  · exact hEd _ _
  · exact hEl _ _

theorem finWhole_real {n : ℕ} (tmp : Mat n 128) (x2 : Mat n 64) (Wf1 : Mat 192 64) (bf1 : Row 64) (ht : MatReal tmp)
    (hx : MatReal x2) (hW : MatReal Wf1) (hb : RowReal bf1) : MatReal (finWhole tmp x2 Wf1 bf1) := by
  intro r j
  unfold finWhole
  refine (IsReal.sum _ _ fun k _ => IsReal.mul ?_ (hW k j)).add (hb j)
  split
  · exact ht _ _
  · exact hx _ _

theorem netK_eq_netR (A : Cert.Spec.Args) (hA : A.Ok) : Cert.Spec.netK A = Cert.Spec.netR A := by
  have h1 := convK_eq_convR A A.pos A.eps1 A.W1a A.b1a A.W1b A.b1b A.g1 A.be1 hA.pos hA.eps1 hA.W1a hA.b1a hA.W1b hA.b1b
  have r1 := convR_real A A.pos A.eps1 A.W1a A.b1a A.W1b A.b1b A.g1 A.be1 hA.pos hA.eps1 hA.W1a hA.b1a hA.W1b hA.b1b hA.g1 hA.be1
  have h2 := convK_eq_convR A _ A.eps2 A.W2a A.b2a A.W2b A.b2b A.g2 A.be2 r1 hA.eps2 hA.W2a hA.b2a hA.W2b hA.b2b
  have r2 := convR_real A _ A.eps2 A.W2a A.b2a A.W2b A.b2b A.g2 A.be2 r1 hA.eps2 hA.W2a hA.b2a hA.W2b hA.b2b hA.g2 hA.be2
  have rf := finWhole_real (embTake A.deg A.lab A.Ed A.El) _ A.Wf1 A.bf1 (embTake_real _ _ _ _ hA.Ed hA.El) r2 hA.Wf1 hA.bf1
  unfold netK netR
  dsimp only
  rw [embHot_eq_embTake _ _ _ _ hA.deg hA.lab, h1, h2, finSplit_eq_finWhole, varOf_eq_varDev _ rf]

end Cert.Alg
-- ==== Proof.Asm.Algebraic.lean ====
import proofs.«402365_j6828998001463_1_alg».proof.Defs
import proofs.«402365_j6828998001463_1_alg».proof.Proof.Gen.Kernel
import proofs.«402365_j6828998001463_1_alg».proof.Proof.Gen.KernelIdeal
import proofs.«402365_j6828998001463_1_alg».proof.Proof.Gen.ReferenceIdeal
import proofs.«402365_j6828998001463_1_alg».proof.Proof.Gen.Pre_finite_inputs
import proofs.«402365_j6828998001463_1_alg».proof.Proof.Spec
import proofs.«402365_j6828998001463_1_alg».proof.Proof.ArgsOf
import proofs.«402365_j6828998001463_1_alg».proof.Proof.Alg.Net
import Idealize.ShloMosaic.Lib.ValueIdx

noncomputable section

namespace Cert.Proof.Asm

open Idealize.ShloMosaic Idealize.SL.Sem Idealize.ShloMosaic.ValueIdx

section Reference
open Cert.ReferenceIdeal

abbrev MemR : Type := (ℓ : Loc nD τ sig) → Buf (Elt Ideal) ℓ
abbrev locR (c : Dev nD) (a : Ref sig .tc) : Loc nD τ sig := (c.tc : Thread nD τ).loc a
abbrev sameR (m m' : MemR) (c : Dev nD) (a : Ref sig .tc) : Prop := m' (locR c a) = m (locR c a)

abbrev Cts (s : Shape) (e : EltTy) : Type := (⟨s, e⟩ : BufTy).Contents (Elt Ideal)

abbrev ResFn : Type :=
  Cts S100000 .i32 → Cts S100000 .i32 →
  Cts S2x1600000 .i32 → Cts S100000x3 .f32 →
  Cts S64x64 .f32 → Cts S16x64 .f32 →
  Cts S1 .f32 → Cts S3x3 .f32 →
  Cts S3 .f32 → Cts S3x64 .f32 →
  Cts S64 .f32 → Cts S64 .f32 →
  Cts S64 .f32 → Cts S1 .f32 →
  Cts S64x64 .f32 → Cts S64 .f32 →
  Cts S64x64 .f32 → Cts S64 .f32 →
  Cts S64 .f32 → Cts S64 .f32 →
  Cts S192x64 .f32 → Cts S64 .f32 →
  Cts S64 .f32 → Cts S64 .f32 →
  Cts S64x1 .f32 → Cts S1 .f32 →
  Cts S100000 .f32

abbrev RunR (resR : ResFn) : Prop :=
  ∀ (m : MemR) (g : Dev nD → PrngReg),
    θ_run (Cert.ReferenceIdeal.defs (F := Ideal)) (onTc (τ := τ) (Cert.ReferenceIdeal.main (F := Ideal))) ⟨m, fun _ => 0, g⟩ (fun r => ∀ c : Dev nD,
      r.2.mem (locR c main_v144) = resR (m (locR c main_arg0)) (m (locR c main_arg1)) (m (locR c main_arg2)) (m (locR c main_arg3)) (m (locR c main_arg4)) (m (locR c main_arg5)) (m (locR c main_arg6)) (m (locR c main_arg7)) (m (locR c main_arg8)) (m (locR c main_arg9)) (m (locR c main_arg10)) (m (locR c main_arg11)) (m (locR c main_arg12)) (m (locR c main_arg13)) (m (locR c main_arg14)) (m (locR c main_arg15)) (m (locR c main_arg16)) (m (locR c main_arg17)) (m (locR c main_arg18)) (m (locR c main_arg19)) (m (locR c main_arg20)) (m (locR c main_arg21)) (m (locR c main_arg22)) (m (locR c main_arg23)) (m (locR c main_arg24)) (m (locR c main_arg25))
      ∧ sameR m r.2.mem c main_arg0 ∧ sameR m r.2.mem c main_arg1 ∧ sameR m r.2.mem c main_arg2 ∧ sameR m r.2.mem c main_arg3 ∧ sameR m r.2.mem c main_arg4 ∧ sameR m r.2.mem c main_arg5 ∧ sameR m r.2.mem c main_arg6 ∧ sameR m r.2.mem c main_arg7 ∧ sameR m r.2.mem c main_arg8 ∧ sameR m r.2.mem c main_arg9 ∧ sameR m r.2.mem c main_arg10 ∧ sameR m r.2.mem c main_arg11 ∧ sameR m r.2.mem c main_arg12 ∧ sameR m r.2.mem c main_arg13 ∧ sameR m r.2.mem c main_arg14 ∧ sameR m r.2.mem c main_arg15 ∧ sameR m r.2.mem c main_arg16 ∧ sameR m r.2.mem c main_arg17 ∧ sameR m r.2.mem c main_arg18 ∧ sameR m r.2.mem c main_arg19 ∧ sameR m r.2.mem c main_arg20 ∧ sameR m r.2.mem c main_arg21 ∧ sameR m r.2.mem c main_arg22 ∧ sameR m r.2.mem c main_arg23 ∧ sameR m r.2.mem c main_arg24 ∧ sameR m r.2.mem c main_arg25)

end Reference

section Kernel
open Cert.KernelIdeal

abbrev MemK : Type := (ℓ : Loc nD τ sig) → Buf (Elt Ideal) ℓ
abbrev locK (c : Dev nD) (a : Ref sig .tc) : Loc nD τ sig := (c.tc : Thread nD τ).loc a
abbrev sameK (m m' : MemK) (c : Dev nD) (a : Ref sig .tc) : Prop := m' (locK c a) = m (locK c a)
abbrev OutK : Type := (m : MemK) → (c : Dev nD) → Buf (Elt Ideal) (locK c main_v93)
abbrev argsK (m : MemK) (c : Dev nD) : Cert.Spec.Args :=
  Cert.Spec.argsOf (m (locK c main_arg0)) (m (locK c main_arg1)) (m (locK c main_arg2)) (m (locK c main_arg3)) (m (locK c main_arg4)) (m (locK c main_arg5)) (m (locK c main_arg6)) (m (locK c main_arg7)) (m (locK c main_arg8)) (m (locK c main_arg9)) (m (locK c main_arg10)) (m (locK c main_arg11)) (m (locK c main_arg12)) (m (locK c main_arg13)) (m (locK c main_arg14)) (m (locK c main_arg15)) (m (locK c main_arg16)) (m (locK c main_arg17)) (m (locK c main_arg18)) (m (locK c main_arg19)) (m (locK c main_arg20)) (m (locK c main_arg21)) (m (locK c main_arg22)) (m (locK c main_arg23)) (m (locK c main_arg24)) (m (locK c main_arg25))

abbrev RunK (outK : OutK) : Prop :=
  ∀ (m : MemK) (g : Dev nD → PrngReg),
    θ_run (Cert.KernelIdeal.defs (F := Ideal)) (onTc (τ := τ) (Cert.KernelIdeal.main (F := Ideal))) ⟨m, fun _ => 0, g⟩ (fun r => ∀ c : Dev nD,
      r.2.mem (locK c main_v93) = outK m c
      ∧ sameK m r.2.mem c main_arg0 ∧ sameK m r.2.mem c main_arg1 ∧ sameK m r.2.mem c main_arg2 ∧ sameK m r.2.mem c main_arg3 ∧ sameK m r.2.mem c main_arg4 ∧ sameK m r.2.mem c main_arg5 ∧ sameK m r.2.mem c main_arg6 ∧ sameK m r.2.mem c main_arg7 ∧ sameK m r.2.mem c main_arg8 ∧ sameK m r.2.mem c main_arg9 ∧ sameK m r.2.mem c main_arg10 ∧ sameK m r.2.mem c main_arg11 ∧ sameK m r.2.mem c main_arg12 ∧ sameK m r.2.mem c main_arg13 ∧ sameK m r.2.mem c main_arg14 ∧ sameK m r.2.mem c main_arg15 ∧ sameK m r.2.mem c main_arg16 ∧ sameK m r.2.mem c main_arg17 ∧ sameK m r.2.mem c main_arg18 ∧ sameK m r.2.mem c main_arg19 ∧ sameK m r.2.mem c main_arg20 ∧ sameK m r.2.mem c main_arg21 ∧ sameK m r.2.mem c main_arg22 ∧ sameK m r.2.mem c main_arg23 ∧ sameK m r.2.mem c main_arg24 ∧ sameK m r.2.mem c main_arg25)

end Kernel

theorem frameRef_of (resR : ResFn) (hrunR : RunR resR) : Cert.frame_ReferenceIdeal := fun m g _ =>
  (θ_run Cert.ReferenceIdeal.defs _ _).mono (fun _ h c => (h c).2) (hrunR m g)

-- The reference's result is its network of the arguments, the arguments agree, and on real arguments with indices in range the two networks are one function.
theorem algebraic_of (outK : OutK) (hrunK : RunK outK) (resR : ResFn) (hrunR : RunR resR)
    (hresR : ∀ a0 a1 a2 a3 a4 a5 a6 a7 a8 a9 a10 a11 a12 a13 a14 a15 a16 a17 a18 a19 a20 a21 a22 a23 a24 a25 (p : Fin 100000),
      resR a0 a1 a2 a3 a4 a5 a6 a7 a8 a9 a10 a11 a12 a13 a14 a15 a16 a17 a18 a19 a20 a21 a22 a23 a24 a25 (ix1 p) = Cert.Spec.netR (Cert.Spec.argsOf a0 a1 a2 a3 a4 a5 a6 a7 a8 a9 a10 a11 a12 a13 a14 a15 a16 a17 a18 a19 a20 a21 a22 a23 a24 a25) p)
    (hok : ∀ m : MemK, Cert.Pre_KernelIdeal m → ∀ c : Dev Cert.KernelIdeal.nD, (argsK m c).Ok)
    (hresK : ∀ (m : MemK) (c : Dev Cert.KernelIdeal.nD) (p : Fin 100000), outK m c (ix1 p) = Cert.Spec.netK (argsK m c) p) :
    Cert.algebraic_KernelIdeal_ReferenceIdeal := by
  intro m g m' g' hpre hagree
  refine ⟨fun c => outK m c, hrunK m g, ?_⟩
  refine (θ_run Cert.ReferenceIdeal.defs _ _).mono (fun r h c => ⟨(h c).1.trans ?_, (h c).2⟩) (hrunR m' g')
  obtain ⟨e0, e1, e2, e3, e4, e5, e6, e7, e8, e9, e10, e11, e12, e13, e14, e15, e16, e17, e18, e19, e20, e21, e22, e23, e24, e25⟩ := hagree c
  rw [e0, e1, e2, e3, e4, e5, e6, e7, e8, e9, e10, e11, e12, e13, e14, e15, e16, e17, e18, e19, e20, e21, e22, e23, e24, e25]
  funext i
  obtain ⟨p, rfl⟩ : ∃ p : Fin 100000, i = ix1 p := ⟨i 0, eq_ix1 i⟩
  exact (hresR _ _ _ _ _ _ _ _ _ _ _ _ _ _ _ _ _ _ _ _ _ _ _ _ _ _ p).trans
    ((congrFun (Cert.Alg.netK_eq_netR _ (hok m hpre c)) p).symm.trans (hresK m c p).symm)

end Cert.Proof.Asm

end
-- ==== Proof.lean ====
/- The kernel is a seven-stage graph network and the reference is the same network; at the ideal values both
   compute one function of the twenty-six argument arrays once every float argument is a real number and the
   integer arguments index their tables, which is what the precondition says. -/
import proofs.«402365_j6828998001463_1_alg».proof.Defs
import proofs.«402365_j6828998001463_1_alg».proof.Proof.Gen.Kernel
import proofs.«402365_j6828998001463_1_alg».proof.Proof.Gen.KernelIdeal
import proofs.«402365_j6828998001463_1_alg».proof.Proof.Gen.ReferenceIdeal
import proofs.«402365_j6828998001463_1_alg».proof.Proof.Gen.Pre_finite_inputs
import proofs.«402365_j6828998001463_1_alg».proof.Proof.FrameK.Run
import proofs.«402365_j6828998001463_1_alg».proof.Proof.FrameKI.Run
import proofs.«402365_j6828998001463_1_alg».proof.Proof.Ref.Run
import proofs.«402365_j6828998001463_1_alg».proof.Proof.Ref.Value
import proofs.«402365_j6828998001463_1_alg».proof.Proof.ValKI.Result
import proofs.«402365_j6828998001463_1_alg».proof.Proof.Ok
import proofs.«402365_j6828998001463_1_alg».proof.Proof.Asm.Algebraic
import Idealize.ShloMosaic.Adequacy
import Idealize.ShloMosaic.Init

noncomputable section

namespace Cert.Proof

open Idealize.ShloMosaic Idealize.ShloMosaic.TcCoe Idealize.SL.Sem

set_option maxHeartbeats 1000000 in
theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Asm.frameRef_of Cert.ReferenceIdeal.RunH.res (fun m ρ => Cert.ReferenceIdeal.RunH.run (F := Ideal) m ρ),
    trivial,
    Asm.algebraic_of
      (fun m c => Cert.KernelIdeal.Gen.V15 m (Cert.KernelIdeal.Hand.outsH m) c Cert.KernelIdeal.main_v93)
      (fun m ρ => Cert.KernelIdeal.Hand.run_all m ρ)
      Cert.ReferenceIdeal.RunH.res (fun m ρ => Cert.ReferenceIdeal.RunH.run (F := Ideal) m ρ)
      Cert.ReferenceIdeal.ValH.res_eq
      (fun m hpre c => Cert.OkH.ok_of_pre m hpre c)
      (fun m c p => Cert.KernelIdeal.Val.result_eq m c p)⟩

end Cert.Proof

end
